-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v155)) (v1 : (c : Dev Cert.KernelIdeal.nD) → Buf (Elt Ideal) ((c.tc : Thread Cert.KernelIdeal.nD Cert.KernelIdeal.τ).loc Cert.KernelIdeal.main_v156)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_v156) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v306) = v0 c
          ∧ r.2.mem ((c.tc : Thread Cert.ReferenceIdeal.nD Cert.ReferenceIdeal.τ).loc Cert.ReferenceIdeal.main_v310) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x125000 : Shape := ⟨2, ![2, 125000]⟩
abbrev S125000x3 : Shape := ⟨2, ![125000, 3]⟩
abbrev S87x300 : Shape := ⟨2, ![87, 300]⟩
abbrev S2x300 : Shape := ⟨2, ![2, 300]⟩
abbrev S300 : Shape := ⟨1, ![300]⟩
abbrev S300x300 : Shape := ⟨2, ![300, 300]⟩
abbrev S3x300 : Shape := ⟨2, ![3, 300]⟩
abbrev S5x300x300 : Shape := ⟨3, ![5, 300, 300]⟩
abbrev S5x300 : Shape := ⟨2, ![5, 300]⟩
abbrev S300x87 : Shape := ⟨2, ![300, 87]⟩
abbrev S87 : Shape := ⟨1, ![87]⟩
abbrev S300x6 : Shape := ⟨2, ![300, 6]⟩
abbrev S6 : Shape := ⟨1, ![6]⟩
abbrev S_ : Shape := ⟨0, ![]⟩
abbrev S1x125000 : Shape := ⟨2, ![1, 125000]⟩
abbrev S125000 : Shape := ⟨1, ![125000]⟩

class Facts : Prop where
  bcast_S_S50000 : S_.BroadcastsInDim S50000 (![] : Fin 0 → Fin S50000.rank)
  reducesTo_S50000_S_d0 : S50000.ReducesTo [0] S_
  h_S_ : 0 < S_.numel
  bcast_S_S125000x3 : S_.BroadcastsInDim S125000x3 (![] : Fin 0 → Fin S125000x3.rank)
  reducesTo_S125000x3_S_d0_1 : S125000x3.ReducesTo [0, 1] S_
  bcast_S_S87x300 : S_.BroadcastsInDim S87x300 (![] : Fin 0 → Fin S87x300.rank)
  reducesTo_S87x300_S_d0_1 : S87x300.ReducesTo [0, 1] S_
  bcast_S_S2x300 : S_.BroadcastsInDim S2x300 (![] : Fin 0 → Fin S2x300.rank)
  reducesTo_S2x300_S_d0_1 : S2x300.ReducesTo [0, 1] S_
  bcast_S_S300 : S_.BroadcastsInDim S300 (![] : Fin 0 → Fin S300.rank)
  reducesTo_S300_S_d0 : S300.ReducesTo [0] S_
  bcast_S_S300x300 : S_.BroadcastsInDim S300x300 (![] : Fin 0 → Fin S300x300.rank)
  reducesTo_S300x300_S_d0_1 : S300x300.ReducesTo [0, 1] S_
  bcast_S_S3x300 : S_.BroadcastsInDim S3x300 (![] : Fin 0 → Fin S3x300.rank)
  reducesTo_S3x300_S_d0_1 : S3x300.ReducesTo [0, 1] S_
  bcast_S_S5x300x300 : S_.BroadcastsInDim S5x300x300 (![] : Fin 0 → Fin S5x300x300.rank)
  reducesTo_S5x300x300_S_d0_1_2 : S5x300x300.ReducesTo [0, 1, 2] S_
  bcast_S_S5x300 : S_.BroadcastsInDim S5x300 (![] : Fin 0 → Fin S5x300.rank)
  reducesTo_S5x300_S_d0_1 : S5x300.ReducesTo [0, 1] S_
  bcast_S_S300x87 : S_.BroadcastsInDim S300x87 (![] : Fin 0 → Fin S300x87.rank)
  reducesTo_S300x87_S_d0_1 : S300x87.ReducesTo [0, 1] S_
  bcast_S_S87 : S_.BroadcastsInDim S87 (![] : Fin 0 → Fin S87.rank)
  reducesTo_S87_S_d0 : S87.ReducesTo [0] S_
  bcast_S_S300x6 : S_.BroadcastsInDim S300x6 (![] : Fin 0 → Fin S300x6.rank)
  reducesTo_S300x6_S_d0_1 : S300x6.ReducesTo [0, 1] S_
  bcast_S_S6 : S_.BroadcastsInDim S6 (![] : Fin 0 → Fin S6.rank)
  reducesTo_S6_S_d0 : S6.ReducesTo [0] S_
  slices_S2x125000_S1x125000_0_0 : S2x125000.Slices ![0, 0] S1x125000
  shapeCasts_S1x125000_S125000 : S1x125000.ShapeCasts S125000
  bcast_S_S125000 : S_.BroadcastsInDim S125000 (![] : Fin 0 → Fin S125000.rank)
  reducesTo_S125000_S_d0 : S125000.ReducesTo [0] S_

variable [Facts]

def fn_part7 {F : FTy → Type} [FloatOps F] (main_arg0 : IVec S50000 32) (main_arg3 : IVec S2x125000 32) (main_v118 : IVec S_ 1) (main_c_46 : IVec S_ 32) : IVec S_ 1 :=
  let main_v119 : IVec S50000 32 := broadcastInDim S50000 ![] bcast_S_S50000 main_c_46
  let main_v120 : IVec S50000 1 := cmpi .sge main_arg0 main_v119
  let main_c_47 : IVec S_ 32 := constantI S_ 32 87#32
  let main_v121 : IVec S50000 32 := broadcastInDim S50000 ![] bcast_S_S50000 main_c_47
  let main_v122 : IVec S50000 1 := cmpi .slt main_arg0 main_v121
  let main_v123 : IVec S50000 1 := andi main_v120 main_v122
  let main_c_48 : IVec S_ 1 := constantI S_ 1 1#1
  let main_v124 : IVec S_ 1 := (fun x v => Host.reduce IntOp.andi x v reducesTo_S50000_S_d0 h_S_) main_v123 main_c_48
  let main_v125 : IVec S_ 1 := andi main_v118 main_v124
  let main_v126 : IVec S1x125000 32 := (extractStridedSlice S1x125000 ![0, 0] · slices_S2x125000_S1x125000_0_0) main_arg3
  let main_v127 : IVec S125000 32 := shapeCast S125000 main_v126 shapeCasts_S1x125000_S125000
  let main_c_49 : IVec S_ 32 := constantI S_ 32 0#32
  let main_v128 : IVec S125000 32 := broadcastInDim S125000 ![] bcast_S_S125000 main_c_49
  let main_v129 : IVec S125000 1 := cmpi .sge main_v127 main_v128
  let main_v130 : IVec S1x125000 32 := (extractStridedSlice S1x125000 ![0, 0] · slices_S2x125000_S1x125000_0_0) main_arg3
  let main_v131 : IVec S125000 32 := shapeCast S125000 main_v130 shapeCasts_S1x125000_S125000
  let main_c_50 : IVec S_ 32 := constantI S_ 32 50000#32
  let main_v132 : IVec S125000 32 := broadcastInDim S125000 ![] bcast_S_S125000 main_c_50
  let main_v133 : IVec S125000 1 := cmpi .slt main_v131 main_v132
  let main_v134 : IVec S125000 1 := andi main_v129 main_v133
  let main_c_51 : IVec S_ 1 := constantI S_ 1 1#1
  let main_v135 : IVec S_ 1 := (fun x v => Host.reduce IntOp.andi x v reducesTo_S125000_S_d0 h_S_) main_v134 main_c_51
  let main_v136 : IVec S_ 1 := andi main_v125 main_v135
  main_v136

def fn_part6 {F : FTy → Type} [FloatOps F] (main_arg0 : IVec S50000 32) (main_arg3 : IVec S2x125000 32) (main_arg23 : FVec F S87 .f32) (main_arg24 : FVec F S300x6 .f32) (main_arg25 : FVec F S6 .f32) (main_v98 : IVec S_ 1) (main_v101 : IVec S300x87 1) (main_c_39 : IVec S_ 1) : IVec S_ 1 :=
  let main_v102 : IVec S_ 1 := (fun x v => Host.reduce IntOp.andi x v reducesTo_S300x87_S_d0_1 h_S_) main_v101 main_c_39
  let main_v103 : IVec S_ 1 := andi main_v98 main_v102
  let main_v104 : FVec F S87 .f32 := Host.absf main_arg23
  let main_cst_40 : FVec F S_ .f32 := constant S_ .f32 0x7F800000#32
  let main_v105 : FVec F S87 .f32 := broadcastInDim S87 ![] bcast_S_S87 main_cst_40
  let main_v106 : IVec S87 1 := cmpf .olt main_v104 main_v105
  let main_c_41 : IVec S_ 1 := constantI S_ 1 1#1
  let main_v107 : IVec S_ 1 := (fun x v => Host.reduce IntOp.andi x v reducesTo_S87_S_d0 h_S_) main_v106 main_c_41
  let main_v108 : IVec S_ 1 := andi main_v103 main_v107
  let main_v109 : FVec F S300x6 .f32 := Host.absf main_arg24
  let main_cst_42 : FVec F S_ .f32 := constant S_ .f32 0x7F800000#32
  let main_v110 : FVec F S300x6 .f32 := broadcastInDim S300x6 ![] bcast_S_S300x6 main_cst_42
  let main_v111 : IVec S300x6 1 := cmpf .olt main_v109 main_v110
  let main_c_43 : IVec S_ 1 := constantI S_ 1 1#1
  let main_v112 : IVec S_ 1 := (fun x v => Host.reduce IntOp.andi x v reducesTo_S300x6_S_d0_1 h_S_) main_v111 main_c_43
  let main_v113 : IVec S_ 1 := andi main_v108 main_v112
  let main_v114 : FVec F S6 .f32 := Host.absf main_arg25
  let main_cst_44 : FVec F S_ .f32 := constant S_ .f32 0x7F800000#32
  let main_v115 : FVec F S6 .f32 := broadcastInDim S6 ![] bcast_S_S6 main_cst_44
  let main_v116 : IVec S6 1 := cmpf .olt main_v114 main_v115
  let main_c_45 : IVec S_ 1 := constantI S_ 1 1#1
  let main_v117 : IVec S_ 1 := (fun x v => Host.reduce IntOp.andi x v reducesTo_S6_S_d0 h_S_) main_v116 main_c_45
  let main_v118 : IVec S_ 1 := andi main_v113 main_v117
  let main_c_46 : IVec S_ 32 := constantI S_ 32 0#32
  fn_part7 (F := F) main_arg0 main_arg3 main_v118 main_c_46

def fn_part5 {F : FTy → Type} [FloatOps F] (main_arg0 : IVec S50000 32) (main_arg3 : IVec S2x125000 32) (main_arg20 : FVec F S5x300 .f32) (main_arg21 : FVec F S5x300 .f32) (main_arg22 : FVec F S300x87 .f32) (main_arg23 : FVec F S87 .f32) (main_arg24 : FVec F S300x6 .f32) (main_arg25 : FVec F S6 .f32) (main_v83 : IVec S_ 1) (main_v84 : FVec F S5x300 .f32) (main_cst_32 : FVec F S_ .f32) : IVec S_ 1 :=
  let main_v85 : FVec F S5x300 .f32 := broadcastInDim S5x300 ![] bcast_S_S5x300 main_cst_32
  let main_v86 : IVec S5x300 1 := cmpf .olt main_v84 main_v85
  let main_c_33 : IVec S_ 1 := constantI S_ 1 1#1
  let main_v87 : IVec S_ 1 := (fun x v => Host.reduce IntOp.andi x v reducesTo_S5x300_S_d0_1 h_S_) main_v86 main_c_33
  let main_v88 : IVec S_ 1 := andi main_v83 main_v87
  let main_v89 : FVec F S5x300 .f32 := Host.absf main_arg20
  let main_cst_34 : FVec F S_ .f32 := constant S_ .f32 0x7F800000#32
  let main_v90 : FVec F S5x300 .f32 := broadcastInDim S5x300 ![] bcast_S_S5x300 main_cst_34
  let main_v91 : IVec S5x300 1 := cmpf .olt main_v89 main_v90
  let main_c_35 : IVec S_ 1 := constantI S_ 1 1#1
  let main_v92 : IVec S_ 1 := (fun x v => Host.reduce IntOp.andi x v reducesTo_S5x300_S_d0_1 h_S_) main_v91 main_c_35
  let main_v93 : IVec S_ 1 := andi main_v88 main_v92
  let main_v94 : FVec F S5x300 .f32 := Host.absf main_arg21
  let main_cst_36 : FVec F S_ .f32 := constant S_ .f32 0x7F800000#32
  let main_v95 : FVec F S5x300 .f32 := broadcastInDim S5x300 ![] bcast_S_S5x300 main_cst_36
  let main_v96 : IVec S5x300 1 := cmpf .olt main_v94 main_v95
  let main_c_37 : IVec S_ 1 := constantI S_ 1 1#1
  let main_v97 : IVec S_ 1 := (fun x v => Host.reduce IntOp.andi x v reducesTo_S5x300_S_d0_1 h_S_) main_v96 main_c_37
  let main_v98 : IVec S_ 1 := andi main_v93 main_v97
  let main_v99 : FVec F S300x87 .f32 := Host.absf main_arg22
  let main_cst_38 : FVec F S_ .f32 := constant S_ .f32 0x7F800000#32
  let main_v100 : FVec F S300x87 .f32 := broadcastInDim S300x87 ![] bcast_S_S300x87 main_cst_38
  let main_v101 : IVec S300x87 1 := cmpf .olt main_v99 main_v100
  let main_c_39 : IVec S_ 1 := constantI S_ 1 1#1
  fn_part6 (F := F) main_arg0 main_arg3 main_arg23 main_arg24 main_arg25 main_v98 main_v101 main_c_39

def fn_part4 {F : FTy → Type} [FloatOps F] (main_arg0 : IVec S50000 32) (main_arg3 : IVec S2x125000 32) (main_arg16 : FVec F S5x300x300 .f32) (main_arg17 : FVec F S5x300 .f32) (main_arg18 : FVec F S5x300 .f32) (main_arg19 : FVec F S5x300 .f32) (main_arg20 : FVec F S5x300 .f32) (main_arg21 : FVec F S5x300 .f32) (main_arg22 : FVec F S300x87 .f32) (main_arg23 : FVec F S87 .f32) (main_arg24 : FVec F S300x6 .f32) (main_arg25 : FVec F S6 .f32) (main_v63 : IVec S_ 1) (main_v67 : IVec S_ 1) : IVec S_ 1 :=
  let main_v68 : IVec S_ 1 := andi main_v63 main_v67
  let main_v69 : FVec F S5x300x300 .f32 := Host.absf main_arg16
  let main_cst_26 : FVec F S_ .f32 := constant S_ .f32 0x7F800000#32
  let main_v70 : FVec F S5x300x300 .f32 := broadcastInDim S5x300x300 ![] bcast_S_S5x300x300 main_cst_26
  let main_v71 : IVec S5x300x300 1 := cmpf .olt main_v69 main_v70
  let main_c_27 : IVec S_ 1 := constantI S_ 1 1#1
  let main_v72 : IVec S_ 1 := (fun x v => Host.reduce IntOp.andi x v reducesTo_S5x300x300_S_d0_1_2 h_S_) main_v71 main_c_27
  let main_v73 : IVec S_ 1 := andi main_v68 main_v72
  let main_v74 : FVec F S5x300 .f32 := Host.absf main_arg17
  let main_cst_28 : FVec F S_ .f32 := constant S_ .f32 0x7F800000#32
  let main_v75 : FVec F S5x300 .f32 := broadcastInDim S5x300 ![] bcast_S_S5x300 main_cst_28
  let main_v76 : IVec S5x300 1 := cmpf .olt main_v74 main_v75
  let main_c_29 : IVec S_ 1 := constantI S_ 1 1#1
  let main_v77 : IVec S_ 1 := (fun x v => Host.reduce IntOp.andi x v reducesTo_S5x300_S_d0_1 h_S_) main_v76 main_c_29
  let main_v78 : IVec S_ 1 := andi main_v73 main_v77
  let main_v79 : FVec F S5x300 .f32 := Host.absf main_arg18
  let main_cst_30 : FVec F S_ .f32 := constant S_ .f32 0x7F800000#32
  let main_v80 : FVec F S5x300 .f32 := broadcastInDim S5x300 ![] bcast_S_S5x300 main_cst_30
  let main_v81 : IVec S5x300 1 := cmpf .olt main_v79 main_v80
  let main_c_31 : IVec S_ 1 := constantI S_ 1 1#1
  let main_v82 : IVec S_ 1 := (fun x v => Host.reduce IntOp.andi x v reducesTo_S5x300_S_d0_1 h_S_) main_v81 main_c_31
  let main_v83 : IVec S_ 1 := andi main_v78 main_v82
  let main_v84 : FVec F S5x300 .f32 := Host.absf main_arg19
  let main_cst_32 : FVec F S_ .f32 := constant S_ .f32 0x7F800000#32
  fn_part5 (F := F) main_arg0 main_arg3 main_arg20 main_arg21 main_arg22 main_arg23 main_arg24 main_arg25 main_v83 main_v84 main_cst_32

def fn_part3 {F : FTy → Type} [FloatOps F] (main_arg0 : IVec S50000 32) (main_arg3 : IVec S2x125000 32) (main_arg13 : FVec F S300 .f32) (main_arg14 : FVec F S5x300x300 .f32) (main_arg15 : FVec F S5x300 .f32) (main_arg16 : FVec F S5x300x300 .f32) (main_arg17 : FVec F S5x300 .f32) (main_arg18 : FVec F S5x300 .f32) (main_arg19 : FVec F S5x300 .f32) (main_arg20 : FVec F S5x300 .f32) (main_arg21 : FVec F S5x300 .f32) (main_arg22 : FVec F S300x87 .f32) (main_arg23 : FVec F S87 .f32) (main_arg24 : FVec F S300x6 .f32) (main_arg25 : FVec F S6 .f32) (main_v48 : IVec S_ 1) (main_v49 : FVec F S300x300 .f32) (main_v50 : FVec F S300x300 .f32) : IVec S_ 1 :=
  let main_v51 : IVec S300x300 1 := cmpf .olt main_v49 main_v50
  let main_c_19 : IVec S_ 1 := constantI S_ 1 1#1
  let main_v52 : IVec S_ 1 := (fun x v => Host.reduce IntOp.andi x v reducesTo_S300x300_S_d0_1 h_S_) main_v51 main_c_19
  let main_v53 : IVec S_ 1 := andi main_v48 main_v52
  let main_v54 : FVec F S300 .f32 := Host.absf main_arg13
  let main_cst_20 : FVec F S_ .f32 := constant S_ .f32 0x7F800000#32
  let main_v55 : FVec F S300 .f32 := broadcastInDim S300 ![] bcast_S_S300 main_cst_20
  let main_v56 : IVec S300 1 := cmpf .olt main_v54 main_v55
  let main_c_21 : IVec S_ 1 := constantI S_ 1 1#1
  let main_v57 : IVec S_ 1 := (fun x v => Host.reduce IntOp.andi x v reducesTo_S300_S_d0 h_S_) main_v56 main_c_21
  let main_v58 : IVec S_ 1 := andi main_v53 main_v57
  let main_v59 : FVec F S5x300x300 .f32 := Host.absf main_arg14
  let main_cst_22 : FVec F S_ .f32 := constant S_ .f32 0x7F800000#32
  let main_v60 : FVec F S5x300x300 .f32 := broadcastInDim S5x300x300 ![] bcast_S_S5x300x300 main_cst_22
  let main_v61 : IVec S5x300x300 1 := cmpf .olt main_v59 main_v60
  let main_c_23 : IVec S_ 1 := constantI S_ 1 1#1
  let main_v62 : IVec S_ 1 := (fun x v => Host.reduce IntOp.andi x v reducesTo_S5x300x300_S_d0_1_2 h_S_) main_v61 main_c_23
  let main_v63 : IVec S_ 1 := andi main_v58 main_v62
  let main_v64 : FVec F S5x300 .f32 := Host.absf main_arg15
  let main_cst_24 : FVec F S_ .f32 := constant S_ .f32 0x7F800000#32
  let main_v65 : FVec F S5x300 .f32 := broadcastInDim S5x300 ![] bcast_S_S5x300 main_cst_24
  let main_v66 : IVec S5x300 1 := cmpf .olt main_v64 main_v65
  let main_c_25 : IVec S_ 1 := constantI S_ 1 1#1
  let main_v67 : IVec S_ 1 := (fun x v => Host.reduce IntOp.andi x v reducesTo_S5x300_S_d0_1 h_S_) main_v66 main_c_25
  fn_part4 (F := F) main_arg0 main_arg3 main_arg16 main_arg17 main_arg18 main_arg19 main_arg20 main_arg21 main_arg22 main_arg23 main_arg24 main_arg25 main_v63 main_v67

def fn_part2 {F : FTy → Type} [FloatOps F] (main_arg0 : IVec S50000 32) (main_arg3 : IVec S2x125000 32) (main_arg9 : FVec F S300 .f32) (main_arg10 : FVec F S3x300 .f32) (main_arg11 : FVec F S300 .f32) (main_arg12 : FVec F S300x300 .f32) (main_arg13 : FVec F S300 .f32) (main_arg14 : FVec F S5x300x300 .f32) (main_arg15 : FVec F S5x300 .f32) (main_arg16 : FVec F S5x300x300 .f32) (main_arg17 : FVec F S5x300 .f32) (main_arg18 : FVec F S5x300 .f32) (main_arg19 : FVec F S5x300 .f32) (main_arg20 : FVec F S5x300 .f32) (main_arg21 : FVec F S5x300 .f32) (main_arg22 : FVec F S300x87 .f32) (main_arg23 : FVec F S87 .f32) (main_arg24 : FVec F S300x6 .f32) (main_arg25 : FVec F S6 .f32) (main_v33 : IVec S_ 1) : IVec S_ 1 :=
  let main_v34 : FVec F S300 .f32 := Host.absf main_arg9
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  let main_v39 : FVec F S3x300 .f32 := Host.absf main_arg10
  let main_cst_14 : FVec F S_ .f32 := constant S_ .f32 0x7F800000#32
  let main_v40 : FVec F S3x300 .f32 := broadcastInDim S3x300 ![] bcast_S_S3x300 main_cst_14
  let main_v41 : IVec S3x300 1 := cmpf .olt main_v39 main_v40
  let main_c_15 : IVec S_ 1 := constantI S_ 1 1#1
  let main_v42 : IVec S_ 1 := (fun x v => Host.reduce IntOp.andi x v reducesTo_S3x300_S_d0_1 h_S_) main_v41 main_c_15
  let main_v43 : IVec S_ 1 := andi main_v38 main_v42
  let main_v44 : FVec F S300 .f32 := Host.absf main_arg11
  let main_cst_16 : FVec F S_ .f32 := constant S_ .f32 0x7F800000#32
  let main_v45 : FVec F S300 .f32 := broadcastInDim S300 ![] bcast_S_S300 main_cst_16
  let main_v46 : IVec S300 1 := cmpf .olt main_v44 main_v45
  let main_c_17 : IVec S_ 1 := constantI S_ 1 1#1
  let main_v47 : IVec S_ 1 := (fun x v => Host.reduce IntOp.andi x v reducesTo_S300_S_d0 h_S_) main_v46 main_c_17
  let main_v48 : IVec S_ 1 := andi main_v43 main_v47
  let main_v49 : FVec F S300x300 .f32 := Host.absf main_arg12
  let main_cst_18 : FVec F S_ .f32 := constant S_ .f32 0x7F800000#32
  let main_v50 : FVec F S300x300 .f32 := broadcastInDim S300x300 ![] bcast_S_S300x300 main_cst_18
  fn_part3 (F := F) main_arg0 main_arg3 main_arg13 main_arg14 main_arg15 main_arg16 main_arg17 main_arg18 main_arg19 main_arg20 main_arg21 main_arg22 main_arg23 main_arg24 main_arg25 main_v48 main_v49 main_v50

def fn_part1 {F : FTy → Type} [FloatOps F] (main_arg0 : IVec S50000 32) (main_arg3 : IVec S2x125000 32) (main_arg6 : FVec F S2x300 .f32) (main_arg7 : FVec F S300 .f32) (main_arg8 : FVec F S300x300 .f32) (main_arg9 : FVec F S300 .f32) (main_arg10 : FVec F S3x300 .f32) (main_arg11 : FVec F S300 .f32) (main_arg12 : FVec F S300x300 .f32) (main_arg13 : FVec F S300 .f32) (main_arg14 : FVec F S5x300x300 .f32) (main_arg15 : FVec F S5x300 .f32) (main_arg16 : FVec F S5x300x300 .f32) (main_arg17 : FVec F S5x300 .f32) (main_arg18 : FVec F S5x300 .f32) (main_arg19 : FVec F S5x300 .f32) (main_arg20 : FVec F S5x300 .f32) (main_arg21 : FVec F S5x300 .f32) (main_arg22 : FVec F S300x87 .f32) (main_arg23 : FVec F S87 .f32) (main_arg24 : FVec F S300x6 .f32) (main_arg25 : FVec F S6 .f32) (main_v13 : IVec S_ 1) (main_v16 : IVec S87x300 1) : IVec S_ 1 :=
  let main_c_5 : IVec S_ 1 := constantI S_ 1 1#1
  let main_v17 : IVec S_ 1 := (fun x v => Host.reduce IntOp.andi x v reducesTo_S87x300_S_d0_1 h_S_) main_v16 main_c_5
  let main_v18 : IVec S_ 1 := andi main_v13 main_v17
  let main_v19 : FVec F S2x300 .f32 := Host.absf main_arg6
  let main_cst_6 : FVec F S_ .f32 := constant S_ .f32 0x7F800000#32
  let main_v20 : FVec F S2x300 .f32 := broadcastInDim S2x300 ![] bcast_S_S2x300 main_cst_6
  let main_v21 : IVec S2x300 1 := cmpf .olt main_v19 main_v20
  let main_c_7 : IVec S_ 1 := constantI S_ 1 1#1
  let main_v22 : IVec S_ 1 := (fun x v => Host.reduce IntOp.andi x v reducesTo_S2x300_S_d0_1 h_S_) main_v21 main_c_7
  let main_v23 : IVec S_ 1 := andi main_v18 main_v22
  let main_v24 : FVec F S300 .f32 := Host.absf main_arg7
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S300x300 .f32 := Host.absf main_arg8
  let main_cst_10 : FVec F S_ .f32 := constant S_ .f32 0x7F800000#32
  let main_v30 : FVec F S300x300 .f32 := broadcastInDim S300x300 ![] bcast_S_S300x300 main_cst_10
  let main_v31 : IVec S300x300 1 := cmpf .olt main_v29 main_v30
  let main_c_11 : IVec S_ 1 := constantI S_ 1 1#1
  let main_v32 : IVec S_ 1 := (fun x v => Host.reduce IntOp.andi x v reducesTo_S300x300_S_d0_1 h_S_) main_v31 main_c_11
  let main_v33 : IVec S_ 1 := andi main_v28 main_v32
  fn_part2 (F := F) main_arg0 main_arg3 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : IVec S50000 32) (main_arg1 : FVec F S50000 .f32) (main_arg2 : FVec F S50000 .f32) (main_arg3 : IVec S2x125000 32) (main_arg4 : FVec F S125000x3 .f32) (main_arg5 : FVec F S87x300 .f32) (main_arg6 : FVec F S2x300 .f32) (main_arg7 : FVec F S300 .f32) (main_arg8 : FVec F S300x300 .f32) (main_arg9 : FVec F S300 .f32) (main_arg10 : FVec F S3x300 .f32) (main_arg11 : FVec F S300 .f32) (main_arg12 : FVec F S300x300 .f32) (main_arg13 : FVec F S300 .f32) (main_arg14 : FVec F S5x300x300 .f32) (main_arg15 : FVec F S5x300 .f32) (main_arg16 : FVec F S5x300x300 .f32) (main_arg17 : FVec F S5x300 .f32) (main_arg18 : FVec F S5x300 .f32) (main_arg19 : FVec F S5x300 .f32) (main_arg20 : FVec F S5x300 .f32) (main_arg21 : FVec F S5x300 .f32) (main_arg22 : FVec F S300x87 .f32) (main_arg23 : FVec F S87 .f32) (main_arg24 : FVec F S300x6 .f32) (main_arg25 : FVec F S6 .f32) : IVec S_ 1 :=
  let main_v0 : FVec F S50000 .f32 := Host.absf main_arg1
  let main_cst : FVec F S_ .f32 := constant S_ .f32 0x7F800000#32
  let main_v1 : FVec F S50000 .f32 := broadcastInDim S50000 ![] bcast_S_S50000 main_cst
  let main_v2 : IVec S50000 1 := cmpf .olt main_v0 main_v1
  let main_c : IVec S_ 1 := constantI S_ 1 1#1
  let main_v3 : IVec S_ 1 := (fun x v => Host.reduce IntOp.andi x v reducesTo_S50000_S_d0 h_S_) main_v2 main_c
  let main_v4 : FVec F S50000 .f32 := Host.absf main_arg2
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S125000x3 .f32 := Host.absf main_arg4
  let main_cst_2 : FVec F S_ .f32 := constant S_ .f32 0x7F800000#32
  let main_v10 : FVec F S125000x3 .f32 := broadcastInDim S125000x3 ![] bcast_S_S125000x3 main_cst_2
  let main_v11 : IVec S125000x3 1 := cmpf .olt main_v9 main_v10
  let main_c_3 : IVec S_ 1 := constantI S_ 1 1#1
  let main_v12 : IVec S_ 1 := (fun x v => Host.reduce IntOp.andi x v reducesTo_S125000x3_S_d0_1 h_S_) main_v11 main_c_3
  let main_v13 : IVec S_ 1 := andi main_v8 main_v12
  let main_v14 : FVec F S87x300 .f32 := Host.absf main_arg5
  let main_cst_4 : FVec F S_ .f32 := constant S_ .f32 0x7F800000#32
  let main_v15 : FVec F S87x300 .f32 := broadcastInDim S87x300 ![] bcast_S_S87x300 main_cst_4
  let main_v16 : IVec S87x300 1 := cmpf .olt main_v14 main_v15
  fn_part1 (F := F) main_arg0 main_arg3 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000 : Shape := ⟨1, ![50000]⟩
abbrev S2x125000 : Shape := ⟨2, ![2, 125000]⟩
abbrev S125000x3 : Shape := ⟨2, ![125000, 3]⟩
abbrev S87x300 : Shape := ⟨2, ![87, 300]⟩
abbrev S2x300 : Shape := ⟨2, ![2, 300]⟩
abbrev S300 : Shape := ⟨1, ![300]⟩
abbrev S300x300 : Shape := ⟨2, ![300, 300]⟩
abbrev S3x300 : Shape := ⟨2, ![3, 300]⟩
abbrev S5x300x300 : Shape := ⟨3, ![5, 300, 300]⟩
abbrev S5x300 : Shape := ⟨2, ![5, 300]⟩
abbrev S300x87 : Shape := ⟨2, ![300, 87]⟩
abbrev S87 : Shape := ⟨1, ![87]⟩
abbrev S300x6 : Shape := ⟨2, ![300, 6]⟩
abbrev S6 : Shape := ⟨1, ![6]⟩
abbrev S_ : Shape := ⟨0, ![]⟩
abbrev S2x384 : Shape := ⟨2, ![2, 384]⟩
abbrev S384 : Shape := ⟨1, ![384]⟩
abbrev S384x384 : Shape := ⟨2, ![384, 384]⟩
abbrev S3x384 : Shape := ⟨2, ![3, 384]⟩
abbrev S87x384 : Shape := ⟨2, ![87, 384]⟩
abbrev S5x384x384 : Shape := ⟨3, ![5, 384, 384]⟩
abbrev S5x384 : Shape := ⟨2, ![5, 384]⟩
abbrev S300x93 : Shape := ⟨2, ![300, 93]⟩
abbrev S93 : Shape := ⟨1, ![93]⟩
abbrev S384x128 : Shape := ⟨2, ![384, 128]⟩
abbrev S128 : Shape := ⟨1, ![128]⟩
abbrev S50000x1 : Shape := ⟨2, ![50000, 1]⟩
abbrev S50000x2 : Shape := ⟨2, ![50000, 2]⟩
abbrev S50000x384 : Shape := ⟨2, ![50000, 384]⟩
abbrev S2000x2 : Shape := ⟨2, ![2000, 2]⟩
abbrev S2000x384 : Shape := ⟨2, ![2000, 384]⟩
abbrev S1x384 : Shape := ⟨2, ![1, 384]⟩
abbrev S1 : Shape := ⟨1, ![1]⟩
abbrev S1x1 : Shape := ⟨2, ![1, 1]⟩
abbrev S125000x384 : Shape := ⟨2, ![125000, 384]⟩
abbrev S5000x3 : Shape := ⟨2, ![5000, 3]⟩
abbrev S5000x384 : Shape := ⟨2, ![5000, 384]⟩
abbrev S1x125000 : Shape := ⟨2, ![1, 125000]⟩
abbrev S125000 : Shape := ⟨1, ![125000]⟩
abbrev S125000x1 : Shape := ⟨2, ![125000, 1]⟩
abbrev S1x384x384 : Shape := ⟨3, ![1, 384, 384]⟩
abbrev S50000x128 : Shape := ⟨2, ![50000, 128]⟩
abbrev S2000x128 : Shape := ⟨2, ![2000, 128]⟩
abbrev S1x128 : Shape := ⟨2, ![1, 128]⟩
abbrev S50000x87 : Shape := ⟨2, ![50000, 87]⟩
abbrev S50000x6 : Shape := ⟨2, ![50000, 6]⟩

abbrev nBuf : Space → Nat
  | .hbm => 368
  | .vmem => 92
  | .smem => 0
  | _ => 0

abbrev hbmTy0_0 (i : Nat) : BufTy := match i % 128 with
  | 0 => ⟨S50000, .i32⟩
  | 1 => ⟨S50000, .f32⟩
  | 2 => ⟨S50000, .f32⟩
  | 3 => ⟨S2x125000, .i32⟩
  | 4 => ⟨S125000x3, .f32⟩
  | 5 => ⟨S87x300, .f32⟩
  | 6 => ⟨S2x300, .f32⟩
  | 7 => ⟨S300, .f32⟩
  | 8 => ⟨S300x300, .f32⟩
  | 9 => ⟨S300, .f32⟩
  | 10 => ⟨S3x300, .f32⟩
  | 11 => ⟨S300, .f32⟩
  | 12 => ⟨S300x300, .f32⟩
  | 13 => ⟨S300, .f32⟩
  | 14 => ⟨S5x300x300, .f32⟩
  | 15 => ⟨S5x300, .f32⟩
  | 16 => ⟨S5x300x300, .f32⟩
  | 17 => ⟨S5x300, .f32⟩
  | 18 => ⟨S5x300, .f32⟩
  | 19 => ⟨S5x300, .f32⟩
  | 20 => ⟨S5x300, .f32⟩
  | 21 => ⟨S5x300, .f32⟩
  | 22 => ⟨S300x87, .f32⟩
  | 23 => ⟨S87, .f32⟩
  | 24 => ⟨S300x6, .f32⟩
  | 25 => ⟨S6, .f32⟩
  | 26 => ⟨S_, .i32⟩
  | 27 => ⟨S_, .f32⟩
  | 28 => ⟨S2x384, .f32⟩
  | 29 => ⟨S2x384, .bf16⟩
  | 30 => ⟨S_, .i32⟩
  | 31 => ⟨S_, .f32⟩
  | 32 => ⟨S384, .f32⟩
  | 33 => ⟨S_, .i32⟩
  | 34 => ⟨S_, .f32⟩
  | 35 => ⟨S384x384, .f32⟩
  | 36 => ⟨S384x384, .bf16⟩
  | 37 => ⟨S_, .i32⟩
  | 38 => ⟨S_, .f32⟩
  | 39 => ⟨S384, .f32⟩
  | 40 => ⟨S_, .i32⟩
  | 41 => ⟨S_, .f32⟩
  | 42 => ⟨S3x384, .f32⟩
  | 43 => ⟨S3x384, .bf16⟩
  | 44 => ⟨S_, .i32⟩
  | 45 => ⟨S_, .f32⟩
  | 46 => ⟨S384, .f32⟩
  | 47 => ⟨S_, .i32⟩
  | 48 => ⟨S_, .f32⟩
  | 49 => ⟨S384x384, .f32⟩
  | 50 => ⟨S384x384, .bf16⟩
  | 51 => ⟨S_, .i32⟩
  | 52 => ⟨S_, .f32⟩
  | 53 => ⟨S384, .f32⟩
  | 54 => ⟨S_, .i32⟩
  | 55 => ⟨S_, .f32⟩
  | 56 => ⟨S87x384, .f32⟩
  | 57 => ⟨S_, .i32⟩
  | 58 => ⟨S_, .f32⟩
  | 59 => ⟨S5x384x384, .f32⟩
  | 60 => ⟨S5x384x384, .bf16⟩
  | 61 => ⟨S_, .i32⟩
  | 62 => ⟨S_, .f32⟩
  | 63 => ⟨S5x384, .f32⟩
  | 64 => ⟨S_, .i32⟩
  | 65 => ⟨S_, .f32⟩
  | 66 => ⟨S5x384x384, .f32⟩
  | 67 => ⟨S5x384x384, .bf16⟩
  | 68 => ⟨S_, .i32⟩
  | 69 => ⟨S_, .f32⟩
  | 70 => ⟨S5x384, .f32⟩
  | 71 => ⟨S_, .f32⟩
  | 72 => ⟨S_, .f32⟩
  | 73 => ⟨S5x384, .f32⟩
  | 74 => ⟨S_, .f32⟩
  | 75 => ⟨S_, .f32⟩
  | 76 => ⟨S5x384, .f32⟩
  | 77 => ⟨S_, .f32⟩
  | 78 => ⟨S_, .f32⟩
  | 79 => ⟨S5x384, .f32⟩
  | 80 => ⟨S_, .f32⟩
  | 81 => ⟨S_, .f32⟩
  | 82 => ⟨S5x384, .f32⟩
  | 83 => ⟨S300x93, .f32⟩
  | 84 => ⟨S93, .f32⟩
  | 85 => ⟨S_, .i32⟩
  | 86 => ⟨S_, .f32⟩
  | 87 => ⟨S384x128, .f32⟩
  | 88 => ⟨S384x128, .bf16⟩
  | 89 => ⟨S_, .i32⟩
  | 90 => ⟨S_, .f32⟩
  | 91 => ⟨S128, .f32⟩
  | 92 => ⟨S50000x1, .f32⟩
  | 93 => ⟨S50000x1, .f32⟩
  | 94 => ⟨S50000x2, .f32⟩
  | 95 => ⟨S50000x384, .f32⟩
  | 96 => ⟨S_, .i32⟩
  | 97 => ⟨S50000, .i32⟩
  | 98 => ⟨S50000, .i1⟩
  | 99 => ⟨S_, .i32⟩
  | 100 => ⟨S50000, .i32⟩
  | 101 => ⟨S50000, .i32⟩
  | 102 => ⟨S50000, .i32⟩
  | 103 => ⟨S50000x1, .i32⟩
  | 104 => ⟨S1, .i32⟩
  | 105 => ⟨S_, .i32⟩
  | 106 => ⟨S50000x1, .i32⟩
  | 107 => ⟨S50000x1, .i1⟩
  | 108 => ⟨S1x1, .i32⟩
  | 109 => ⟨S50000x1, .i32⟩
  | 110 => ⟨S50000x1, .i1⟩
  | 111 => ⟨S50000x1, .i1⟩
  | 112 => ⟨S_, .i1⟩
  | 113 => ⟨S50000, .i1⟩
  | 114 => ⟨S50000x384, .f32⟩
  | 115 => ⟨S50000x384, .i1⟩
  | 116 => ⟨S_, .f32⟩
  | 117 => ⟨S50000x384, .f32⟩
  | 118 => ⟨S50000x384, .f32⟩
  | 119 => ⟨S50000x384, .f32⟩
  | 120 => ⟨S125000x384, .f32⟩
  | 121 => ⟨S1x125000, .i32⟩
  | 122 => ⟨S125000, .i32⟩
  | 123 => ⟨S1x125000, .i32⟩
  | 124 => ⟨S125000, .i32⟩
  | 125 => ⟨S_, .i32⟩
  | 126 => ⟨S125000, .i32⟩
  | 127 => ⟨S125000, .i1⟩
  | _ => ⟨S50000, .i32⟩

abbrev hbmTy0_1 (i : Nat) : BufTy := match i % 128 with
  | 0 => ⟨S_, .i32⟩
  | 1 => ⟨S125000, .i32⟩
  | 2 => ⟨S125000, .i32⟩
  | 3 => ⟨S125000, .i32⟩
  | 4 => ⟨S125000x1, .i32⟩
  | 5 => ⟨S1, .i32⟩
  | 6 => ⟨S_, .i32⟩
  | 7 => ⟨S125000x1, .i32⟩
  | 8 => ⟨S125000x1, .i1⟩
  | 9 => ⟨S1x1, .i32⟩
  | 10 => ⟨S125000x1, .i32⟩
  | 11 => ⟨S125000x1, .i1⟩
  | 12 => ⟨S125000x1, .i1⟩
  | 13 => ⟨S_, .i1⟩
  | 14 => ⟨S125000, .i1⟩
  | 15 => ⟨S125000x384, .f32⟩
  | 16 => ⟨S125000x384, .i1⟩
  | 17 => ⟨S_, .f32⟩
  | 18 => ⟨S125000x384, .f32⟩
  | 19 => ⟨S125000x384, .f32⟩
  | 20 => ⟨S125000x384, .f32⟩
  | 21 => ⟨S_, .f32⟩
  | 22 => ⟨S125000x384, .f32⟩
  | 23 => ⟨S125000x384, .f32⟩
  | 24 => ⟨S_, .f32⟩
  | 25 => ⟨S50000x384, .f32⟩
  | 26 => ⟨S125000x1, .i32⟩
  | 27 => ⟨S50000x384, .f32⟩
  | 28 => ⟨S1x384x384, .bf16⟩
  | 29 => ⟨S384x384, .bf16⟩
  | 30 => ⟨S1x384, .f32⟩
  | 31 => ⟨S384, .f32⟩
  | 32 => ⟨S1x384x384, .bf16⟩
  | 33 => ⟨S384x384, .bf16⟩
  | 34 => ⟨S1x384, .f32⟩
  | 35 => ⟨S384, .f32⟩
  | 36 => ⟨S1x384, .f32⟩
  | 37 => ⟨S384, .f32⟩
  | 38 => ⟨S1x384, .f32⟩
  | 39 => ⟨S384, .f32⟩
  | 40 => ⟨S1x384, .f32⟩
  | 41 => ⟨S384, .f32⟩
  | 42 => ⟨S1x384, .f32⟩
  | 43 => ⟨S384, .f32⟩
  | 44 => ⟨S50000x384, .f32⟩
  | 45 => ⟨S_, .i32⟩
  | 46 => ⟨S125000, .i32⟩
  | 47 => ⟨S125000, .i1⟩
  | 48 => ⟨S_, .i32⟩
  | 49 => ⟨S125000, .i32⟩
  | 50 => ⟨S125000, .i32⟩
  | 51 => ⟨S125000, .i32⟩
  | 52 => ⟨S125000x1, .i32⟩
  | 53 => ⟨S1, .i32⟩
  | 54 => ⟨S_, .i32⟩
  | 55 => ⟨S125000x1, .i32⟩
  | 56 => ⟨S125000x1, .i1⟩
  | 57 => ⟨S1x1, .i32⟩
  | 58 => ⟨S125000x1, .i32⟩
  | 59 => ⟨S125000x1, .i1⟩
  | 60 => ⟨S125000x1, .i1⟩
  | 61 => ⟨S_, .i1⟩
  | 62 => ⟨S125000, .i1⟩
  | 63 => ⟨S125000x384, .f32⟩
  | 64 => ⟨S125000x384, .i1⟩
  | 65 => ⟨S_, .f32⟩
  | 66 => ⟨S125000x384, .f32⟩
  | 67 => ⟨S125000x384, .f32⟩
  | 68 => ⟨S125000x384, .f32⟩
  | 69 => ⟨S_, .f32⟩
  | 70 => ⟨S125000x384, .f32⟩
  | 71 => ⟨S125000x384, .f32⟩
  | 72 => ⟨S_, .f32⟩
  | 73 => ⟨S50000x384, .f32⟩
  | 74 => ⟨S125000x1, .i32⟩
  | 75 => ⟨S50000x384, .f32⟩
  | 76 => ⟨S1x384x384, .bf16⟩
  | 77 => ⟨S384x384, .bf16⟩
  | 78 => ⟨S1x384, .f32⟩
  | 79 => ⟨S384, .f32⟩
  | 80 => ⟨S1x384x384, .bf16⟩
  | 81 => ⟨S384x384, .bf16⟩
  | 82 => ⟨S1x384, .f32⟩
  | 83 => ⟨S384, .f32⟩
  | 84 => ⟨S1x384, .f32⟩
  | 85 => ⟨S384, .f32⟩
  | 86 => ⟨S1x384, .f32⟩
  | 87 => ⟨S384, .f32⟩
  | 88 => ⟨S1x384, .f32⟩
  | 89 => ⟨S384, .f32⟩
  | 90 => ⟨S1x384, .f32⟩
  | 91 => ⟨S384, .f32⟩
  | 92 => ⟨S50000x384, .f32⟩
  | 93 => ⟨S_, .i32⟩
  | 94 => ⟨S125000, .i32⟩
  | 95 => ⟨S125000, .i1⟩
  | 96 => ⟨S_, .i32⟩
  | 97 => ⟨S125000, .i32⟩
  | 98 => ⟨S125000, .i32⟩
  | 99 => ⟨S125000, .i32⟩
  | 100 => ⟨S125000x1, .i32⟩
  | 101 => ⟨S1, .i32⟩
  | 102 => ⟨S_, .i32⟩
  | 103 => ⟨S125000x1, .i32⟩
  | 104 => ⟨S125000x1, .i1⟩
  | 105 => ⟨S1x1, .i32⟩
  | 106 => ⟨S125000x1, .i32⟩
  | 107 => ⟨S125000x1, .i1⟩
  | 108 => ⟨S125000x1, .i1⟩
  | 109 => ⟨S_, .i1⟩
  | 110 => ⟨S125000, .i1⟩
  | 111 => ⟨S125000x384, .f32⟩
  | 112 => ⟨S125000x384, .i1⟩
  | 113 => ⟨S_, .f32⟩
  | 114 => ⟨S125000x384, .f32⟩
  | 115 => ⟨S125000x384, .f32⟩
  | 116 => ⟨S125000x384, .f32⟩
  | 117 => ⟨S_, .f32⟩
  | 118 => ⟨S125000x384, .f32⟩
  | 119 => ⟨S125000x384, .f32⟩
  | 120 => ⟨S_, .f32⟩
  | 121 => ⟨S50000x384, .f32⟩
  | 122 => ⟨S125000x1, .i32⟩
  | 123 => ⟨S50000x384, .f32⟩
  | 124 => ⟨S1x384x384, .bf16⟩
  | 125 => ⟨S384x384, .bf16⟩
  | 126 => ⟨S1x384, .f32⟩
  | 127 => ⟨S384, .f32⟩
  | _ => ⟨S50000, .i32⟩

abbrev hbmTy0_2 (i : Nat) : BufTy := match i % 128 with
  | 0 => ⟨S1x384x384, .bf16⟩
  | 1 => ⟨S384x384, .bf16⟩
  | 2 => ⟨S1x384, .f32⟩
  | 3 => ⟨S384, .f32⟩
  | 4 => ⟨S1x384, .f32⟩
  | 5 => ⟨S384, .f32⟩
  | 6 => ⟨S1x384, .f32⟩
  | 7 => ⟨S384, .f32⟩
  | 8 => ⟨S1x384, .f32⟩
  | 9 => ⟨S384, .f32⟩
  | 10 => ⟨S1x384, .f32⟩
  | 11 => ⟨S384, .f32⟩
  | 12 => ⟨S50000x384, .f32⟩
  | 13 => ⟨S_, .i32⟩
  | 14 => ⟨S125000, .i32⟩
  | 15 => ⟨S125000, .i1⟩
  | 16 => ⟨S_, .i32⟩
  | 17 => ⟨S125000, .i32⟩
  | 18 => ⟨S125000, .i32⟩
  | 19 => ⟨S125000, .i32⟩
  | 20 => ⟨S125000x1, .i32⟩
  | 21 => ⟨S1, .i32⟩
  | 22 => ⟨S_, .i32⟩
  | 23 => ⟨S125000x1, .i32⟩
  | 24 => ⟨S125000x1, .i1⟩
  | 25 => ⟨S1x1, .i32⟩
  | 26 => ⟨S125000x1, .i32⟩
  | 27 => ⟨S125000x1, .i1⟩
  | 28 => ⟨S125000x1, .i1⟩
  | 29 => ⟨S_, .i1⟩
  | 30 => ⟨S125000, .i1⟩
  | 31 => ⟨S125000x384, .f32⟩
  | 32 => ⟨S125000x384, .i1⟩
  | 33 => ⟨S_, .f32⟩
  | 34 => ⟨S125000x384, .f32⟩
  | 35 => ⟨S125000x384, .f32⟩
  | 36 => ⟨S125000x384, .f32⟩
  | 37 => ⟨S_, .f32⟩
  | 38 => ⟨S125000x384, .f32⟩
  | 39 => ⟨S125000x384, .f32⟩
  | 40 => ⟨S_, .f32⟩
  | 41 => ⟨S50000x384, .f32⟩
  | 42 => ⟨S125000x1, .i32⟩
  | 43 => ⟨S50000x384, .f32⟩
  | 44 => ⟨S1x384x384, .bf16⟩
  | 45 => ⟨S384x384, .bf16⟩
  | 46 => ⟨S1x384, .f32⟩
  | 47 => ⟨S384, .f32⟩
  | 48 => ⟨S1x384x384, .bf16⟩
  | 49 => ⟨S384x384, .bf16⟩
  | 50 => ⟨S1x384, .f32⟩
  | 51 => ⟨S384, .f32⟩
  | 52 => ⟨S1x384, .f32⟩
  | 53 => ⟨S384, .f32⟩
  | 54 => ⟨S1x384, .f32⟩
  | 55 => ⟨S384, .f32⟩
  | 56 => ⟨S1x384, .f32⟩
  | 57 => ⟨S384, .f32⟩
  | 58 => ⟨S1x384, .f32⟩
  | 59 => ⟨S384, .f32⟩
  | 60 => ⟨S50000x384, .f32⟩
  | 61 => ⟨S_, .i32⟩
  | 62 => ⟨S125000, .i32⟩
  | 63 => ⟨S125000, .i1⟩
  | 64 => ⟨S_, .i32⟩
  | 65 => ⟨S125000, .i32⟩
  | 66 => ⟨S125000, .i32⟩
  | 67 => ⟨S125000, .i32⟩
  | 68 => ⟨S125000x1, .i32⟩
  | 69 => ⟨S1, .i32⟩
  | 70 => ⟨S_, .i32⟩
  | 71 => ⟨S125000x1, .i32⟩
  | 72 => ⟨S125000x1, .i1⟩
  | 73 => ⟨S1x1, .i32⟩
  | 74 => ⟨S125000x1, .i32⟩
  | 75 => ⟨S125000x1, .i1⟩
  | 76 => ⟨S125000x1, .i1⟩
  | 77 => ⟨S_, .i1⟩
  | 78 => ⟨S125000, .i1⟩
  | 79 => ⟨S125000x384, .f32⟩
  | 80 => ⟨S125000x384, .i1⟩
  | 81 => ⟨S_, .f32⟩
  | 82 => ⟨S125000x384, .f32⟩
  | 83 => ⟨S125000x384, .f32⟩
  | 84 => ⟨S125000x384, .f32⟩
  | 85 => ⟨S_, .f32⟩
  | 86 => ⟨S125000x384, .f32⟩
  | 87 => ⟨S125000x384, .f32⟩
  | 88 => ⟨S_, .f32⟩
  | 89 => ⟨S50000x384, .f32⟩
  | 90 => ⟨S125000x1, .i32⟩
  | 91 => ⟨S50000x384, .f32⟩
  | 92 => ⟨S1x384x384, .bf16⟩
  | 93 => ⟨S384x384, .bf16⟩
  | 94 => ⟨S1x384, .f32⟩
  | 95 => ⟨S384, .f32⟩
  | 96 => ⟨S1x384x384, .bf16⟩
  | 97 => ⟨S384x384, .bf16⟩
  | 98 => ⟨S1x384, .f32⟩
  | 99 => ⟨S384, .f32⟩
  | 100 => ⟨S1x384, .f32⟩
  | 101 => ⟨S384, .f32⟩
  | 102 => ⟨S1x384, .f32⟩
  | 103 => ⟨S384, .f32⟩
  | 104 => ⟨S1x384, .f32⟩
  | 105 => ⟨S384, .f32⟩
  | 106 => ⟨S1x384, .f32⟩
  | 107 => ⟨S384, .f32⟩
  | 108 => ⟨S50000x384, .f32⟩
  | 109 => ⟨S50000x128, .f32⟩
  | 110 => ⟨S50000x87, .f32⟩
  | 111 => ⟨S50000x6, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | .local _ .vmem, ⟨0, _⟩ => ⟨S2000x2, .f32⟩
  | .local _ .vmem, ⟨1, _⟩ => ⟨S2000x2, .f32⟩
  | .local _ .vmem, ⟨2, _⟩ => ⟨S2x384, .bf16⟩
  | .local _ .vmem, ⟨3, _⟩ => ⟨S384, .f32⟩
  | .local _ .vmem, ⟨4, _⟩ => ⟨S384x384, .bf16⟩
  | .local _ .vmem, ⟨5, _⟩ => ⟨S384, .f32⟩
  | .local _ .vmem, ⟨6, _⟩ => ⟨S2000x384, .f32⟩
  | .local _ .vmem, ⟨7, _⟩ => ⟨S2000x384, .f32⟩
  | .local _ .vmem, ⟨8, _⟩ => ⟨S5000x3, .f32⟩
  | .local _ .vmem, ⟨9, _⟩ => ⟨S5000x3, .f32⟩
  | .local _ .vmem, ⟨10, _⟩ => ⟨S3x384, .bf16⟩
  | .local _ .vmem, ⟨11, _⟩ => ⟨S384, .f32⟩
  | .local _ .vmem, ⟨12, _⟩ => ⟨S384x384, .bf16⟩
  | .local _ .vmem, ⟨13, _⟩ => ⟨S384, .f32⟩
  | .local _ .vmem, ⟨14, _⟩ => ⟨S5000x384, .f32⟩
  | .local _ .vmem, ⟨15, _⟩ => ⟨S5000x384, .f32⟩
  | .local _ .vmem, ⟨16, _⟩ => ⟨S2000x384, .f32⟩
  | .local _ .vmem, ⟨17, _⟩ => ⟨S2000x384, .f32⟩
  | .local _ .vmem, ⟨18, _⟩ => ⟨S2000x384, .f32⟩
  | .local _ .vmem, ⟨19, _⟩ => ⟨S2000x384, .f32⟩
  | .local _ .vmem, ⟨20, _⟩ => ⟨S384x384, .bf16⟩
  | .local _ .vmem, ⟨21, _⟩ => ⟨S384, .f32⟩
  | .local _ .vmem, ⟨22, _⟩ => ⟨S384x384, .bf16⟩
  | .local _ .vmem, ⟨23, _⟩ => ⟨S384, .f32⟩
  | .local _ .vmem, ⟨24, _⟩ => ⟨S384, .f32⟩
  | .local _ .vmem, ⟨25, _⟩ => ⟨S384, .f32⟩
  | .local _ .vmem, ⟨26, _⟩ => ⟨S384, .f32⟩
  | .local _ .vmem, ⟨27, _⟩ => ⟨S384, .f32⟩
  | .local _ .vmem, ⟨28, _⟩ => ⟨S2000x384, .f32⟩
  | .local _ .vmem, ⟨29, _⟩ => ⟨S2000x384, .f32⟩
  | .local _ .vmem, ⟨30, _⟩ => ⟨S2000x384, .f32⟩
  | .local _ .vmem, ⟨31, _⟩ => ⟨S2000x384, .f32⟩
  | .local _ .vmem, ⟨32, _⟩ => ⟨S2000x384, .f32⟩
  | .local _ .vmem, ⟨33, _⟩ => ⟨S2000x384, .f32⟩
  | .local _ .vmem, ⟨34, _⟩ => ⟨S384x384, .bf16⟩
  | .local _ .vmem, ⟨35, _⟩ => ⟨S384, .f32⟩
  | .local _ .vmem, ⟨36, _⟩ => ⟨S384x384, .bf16⟩
  | .local _ .vmem, ⟨37, _⟩ => ⟨S384, .f32⟩
  | .local _ .vmem, ⟨38, _⟩ => ⟨S384, .f32⟩
  | .local _ .vmem, ⟨39, _⟩ => ⟨S384, .f32⟩
  | .local _ .vmem, ⟨40, _⟩ => ⟨S384, .f32⟩
  | .local _ .vmem, ⟨41, _⟩ => ⟨S384, .f32⟩
  | .local _ .vmem, ⟨42, _⟩ => ⟨S2000x384, .f32⟩
  | .local _ .vmem, ⟨43, _⟩ => ⟨S2000x384, .f32⟩
  | .local _ .vmem, ⟨44, _⟩ => ⟨S2000x384, .f32⟩
  | .local _ .vmem, ⟨45, _⟩ => ⟨S2000x384, .f32⟩
  | .local _ .vmem, ⟨46, _⟩ => ⟨S2000x384, .f32⟩
  | .local _ .vmem, ⟨47, _⟩ => ⟨S2000x384, .f32⟩
  | .local _ .vmem, ⟨48, _⟩ => ⟨S384x384, .bf16⟩
  | .local _ .vmem, ⟨49, _⟩ => ⟨S384, .f32⟩
  | .local _ .vmem, ⟨50, _⟩ => ⟨S384x384, .bf16⟩
  | .local _ .vmem, ⟨51, _⟩ => ⟨S384, .f32⟩
  | .local _ .vmem, ⟨52, _⟩ => ⟨S384, .f32⟩
  | .local _ .vmem, ⟨53, _⟩ => ⟨S384, .f32⟩
  | .local _ .vmem, ⟨54, _⟩ => ⟨S384, .f32⟩
  | .local _ .vmem, ⟨55, _⟩ => ⟨S384, .f32⟩
  | .local _ .vmem, ⟨56, _⟩ => ⟨S2000x384, .f32⟩
  | .local _ .vmem, ⟨57, _⟩ => ⟨S2000x384, .f32⟩
  | .local _ .vmem, ⟨58, _⟩ => ⟨S2000x384, .f32⟩
  | .local _ .vmem, ⟨59, _⟩ => ⟨S2000x384, .f32⟩
  | .local _ .vmem, ⟨60, _⟩ => ⟨S2000x384, .f32⟩
  | .local _ .vmem, ⟨61, _⟩ => ⟨S2000x384, .f32⟩
  | .local _ .vmem, ⟨62, _⟩ => ⟨S384x384, .bf16⟩
  | .local _ .vmem, ⟨63, _⟩ => ⟨S384, .f32⟩
  | .local _ .vmem, ⟨64, _⟩ => ⟨S384x384, .bf16⟩
  | .local _ .vmem, ⟨65, _⟩ => ⟨S384, .f32⟩
  | .local _ .vmem, ⟨66, _⟩ => ⟨S384, .f32⟩
  | .local _ .vmem, ⟨67, _⟩ => ⟨S384, .f32⟩
  | .local _ .vmem, ⟨68, _⟩ => ⟨S384, .f32⟩
  | .local _ .vmem, ⟨69, _⟩ => ⟨S384, .f32⟩
  | .local _ .vmem, ⟨70, _⟩ => ⟨S2000x384, .f32⟩
  | .local _ .vmem, ⟨71, _⟩ => ⟨S2000x384, .f32⟩
  | .local _ .vmem, ⟨72, _⟩ => ⟨S2000x384, .f32⟩
  | .local _ .vmem, ⟨73, _⟩ => ⟨S2000x384, .f32⟩
  | .local _ .vmem, ⟨74, _⟩ => ⟨S2000x384, .f32⟩
  | .local _ .vmem, ⟨75, _⟩ => ⟨S2000x384, .f32⟩
  | .local _ .vmem, ⟨76, _⟩ => ⟨S384x384, .bf16⟩
  | .local _ .vmem, ⟨77, _⟩ => ⟨S384, .f32⟩
  | .local _ .vmem, ⟨78, _⟩ => ⟨S384x384, .bf16⟩
  | .local _ .vmem, ⟨79, _⟩ => ⟨S384, .f32⟩
  | .local _ .vmem, ⟨80, _⟩ => ⟨S384, .f32⟩
  | .local _ .vmem, ⟨81, _⟩ => ⟨S384, .f32⟩
  | .local _ .vmem, ⟨82, _⟩ => ⟨S384, .f32⟩
  | .local _ .vmem, ⟨83, _⟩ => ⟨S384, .f32⟩
  | .local _ .vmem, ⟨84, _⟩ => ⟨S2000x384, .f32⟩
  | .local _ .vmem, ⟨85, _⟩ => ⟨S2000x384, .f32⟩
  | .local _ .vmem, ⟨86, _⟩ => ⟨S2000x384, .f32⟩
  | .local _ .vmem, ⟨87, _⟩ => ⟨S2000x384, .f32⟩
  | .local _ .vmem, ⟨88, _⟩ => ⟨S384x128, .bf16⟩
  | .local _ .vmem, ⟨89, _⟩ => ⟨S128, .f32⟩
  | .local _ .vmem, ⟨90, _⟩ => ⟨S2000x128, .f32⟩
  | .local _ .vmem, ⟨91, _⟩ => ⟨S2000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_call0_v0 : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_call1_v0 : Ref sig .tc := ⟨.hbm, 31, rfl⟩
abbrev main_v2 : Ref sig .tc := ⟨.hbm, 32, rfl⟩
abbrev main_c_1 : Ref sig .tc := ⟨.hbm, 33, rfl⟩
abbrev main_call2_v0 : Ref sig .tc := ⟨.hbm, 34, rfl⟩
abbrev main_v3 : Ref sig .tc := ⟨.hbm, 35, rfl⟩
abbrev main_v4 : Ref sig .tc := ⟨.hbm, 36, rfl⟩
abbrev main_c_2 : Ref sig .tc := ⟨.hbm, 37, rfl⟩
abbrev main_call3_v0 : Ref sig .tc := ⟨.hbm, 38, rfl⟩
abbrev main_v5 : Ref sig .tc := ⟨.hbm, 39, rfl⟩
abbrev main_c_3 : Ref sig .tc := ⟨.hbm, 40, rfl⟩
abbrev main_call4_v0 : Ref sig .tc := ⟨.hbm, 41, rfl⟩
abbrev main_v6 : Ref sig .tc := ⟨.hbm, 42, rfl⟩
abbrev main_v7 : Ref sig .tc := ⟨.hbm, 43, rfl⟩
abbrev main_c_4 : Ref sig .tc := ⟨.hbm, 44, rfl⟩
abbrev main_call5_v0 : Ref sig .tc := ⟨.hbm, 45, rfl⟩
abbrev main_v8 : Ref sig .tc := ⟨.hbm, 46, rfl⟩
abbrev main_c_5 : Ref sig .tc := ⟨.hbm, 47, rfl⟩
abbrev main_call6_v0 : Ref sig .tc := ⟨.hbm, 48, rfl⟩
abbrev main_v9 : Ref sig .tc := ⟨.hbm, 49, rfl⟩
abbrev main_v10 : Ref sig .tc := ⟨.hbm, 50, rfl⟩
abbrev main_c_6 : Ref sig .tc := ⟨.hbm, 51, rfl⟩
abbrev main_call7_v0 : Ref sig .tc := ⟨.hbm, 52, rfl⟩
abbrev main_v11 : Ref sig .tc := ⟨.hbm, 53, rfl⟩
abbrev main_c_7 : Ref sig .tc := ⟨.hbm, 54, rfl⟩
abbrev main_call8_v0 : Ref sig .tc := ⟨.hbm, 55, rfl⟩
abbrev main_v12 : Ref sig .tc := ⟨.hbm, 56, rfl⟩
abbrev main_c_8 : Ref sig .tc := ⟨.hbm, 57, rfl⟩
abbrev main_call9_v0 : Ref sig .tc := ⟨.hbm, 58, rfl⟩
abbrev main_v13 : Ref sig .tc := ⟨.hbm, 59, rfl⟩
abbrev main_v14 : Ref sig .tc := ⟨.hbm, 60, rfl⟩
abbrev main_c_9 : Ref sig .tc := ⟨.hbm, 61, rfl⟩
abbrev main_call10_v0 : Ref sig .tc := ⟨.hbm, 62, rfl⟩
abbrev main_v15 : Ref sig .tc := ⟨.hbm, 63, rfl⟩
abbrev main_c_10 : Ref sig .tc := ⟨.hbm, 64, rfl⟩
abbrev main_call11_v0 : Ref sig .tc := ⟨.hbm, 65, rfl⟩
abbrev main_v16 : Ref sig .tc := ⟨.hbm, 66, rfl⟩
abbrev main_v17 : Ref sig .tc := ⟨.hbm, 67, rfl⟩
abbrev main_c_11 : Ref sig .tc := ⟨.hbm, 68, rfl⟩
abbrev main_call12_v0 : Ref sig .tc := ⟨.hbm, 69, rfl⟩
abbrev main_v18 : Ref sig .tc := ⟨.hbm, 70, rfl⟩
abbrev main_cst : Ref sig .tc := ⟨.hbm, 71, rfl⟩
abbrev main_call13_v0 : Ref sig .tc := ⟨.hbm, 72, rfl⟩
abbrev main_v19 : Ref sig .tc := ⟨.hbm, 73, rfl⟩
abbrev main_cst_12 : Ref sig .tc := ⟨.hbm, 74, rfl⟩
abbrev main_call14_v0 : Ref sig .tc := ⟨.hbm, 75, rfl⟩
abbrev main_v20 : Ref sig .tc := ⟨.hbm, 76, rfl⟩
abbrev main_cst_13 : Ref sig .tc := ⟨.hbm, 77, rfl⟩
abbrev main_call15_v0 : Ref sig .tc := ⟨.hbm, 78, rfl⟩
abbrev main_v21 : Ref sig .tc := ⟨.hbm, 79, rfl⟩
abbrev main_cst_14 : Ref sig .tc := ⟨.hbm, 80, rfl⟩
abbrev main_call16_v0 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_c_15 : Ref sig .tc := ⟨.hbm, 85, rfl⟩
abbrev main_call17_v0 : Ref sig .tc := ⟨.hbm, 86, rfl⟩
abbrev main_v25 : Ref sig .tc := ⟨.hbm, 87, rfl⟩
abbrev main_v26 : Ref sig .tc := ⟨.hbm, 88, rfl⟩
abbrev main_c_16 : Ref sig .tc := ⟨.hbm, 89, rfl⟩
abbrev main_call18_v0 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_call19_c : Ref sig .tc := ⟨.hbm, 96, rfl⟩
abbrev main_call19_v0 : Ref sig .tc := ⟨.hbm, 97, rfl⟩
abbrev main_call19_v1 : Ref sig .tc := ⟨.hbm, 98, rfl⟩
abbrev main_call19_c_0 : Ref sig .tc := ⟨.hbm, 99, rfl⟩
abbrev main_call19_v2 : Ref sig .tc := ⟨.hbm, 100, rfl⟩
abbrev main_call19_v3 : Ref sig .tc := ⟨.hbm, 101, rfl⟩
abbrev main_call19_v4 : Ref sig .tc := ⟨.hbm, 102, rfl⟩
abbrev main_call19_v5 : Ref sig .tc := ⟨.hbm, 103, rfl⟩
abbrev main_call19_c_1 : Ref sig .tc := ⟨.hbm, 104, rfl⟩
abbrev main_call19_c_2 : Ref sig .tc := ⟨.hbm, 105, rfl⟩
abbrev main_call19_v6 : Ref sig .tc := ⟨.hbm, 106, rfl⟩
abbrev main_call19_v7 : Ref sig .tc := ⟨.hbm, 107, rfl⟩
abbrev main_call19_v8 : Ref sig .tc := ⟨.hbm, 108, rfl⟩
abbrev main_call19_v9 : Ref sig .tc := ⟨.hbm, 109, rfl⟩
abbrev main_call19_v10 : Ref sig .tc := ⟨.hbm, 110, rfl⟩
abbrev main_call19_v11 : Ref sig .tc := ⟨.hbm, 111, rfl⟩
abbrev main_call19_c_3 : Ref sig .tc := ⟨.hbm, 112, rfl⟩
abbrev main_call19_v12 : Ref sig .tc := ⟨.hbm, 113, rfl⟩
abbrev main_call19_v13 : Ref sig .tc := ⟨.hbm, 114, rfl⟩
abbrev main_call19_v14 : Ref sig .tc := ⟨.hbm, 115, rfl⟩
abbrev main_call19_cst : Ref sig .tc := ⟨.hbm, 116, rfl⟩
abbrev main_call19_v15 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_call20_c : Ref sig .tc := ⟨.hbm, 125, rfl⟩
abbrev main_call20_v0 : Ref sig .tc := ⟨.hbm, 126, rfl⟩
abbrev main_call20_v1 : Ref sig .tc := ⟨.hbm, 127, rfl⟩
abbrev main_call20_c_0 : Ref sig .tc := ⟨.hbm, 128, rfl⟩
abbrev main_call20_v2 : Ref sig .tc := ⟨.hbm, 129, rfl⟩
abbrev main_call20_v3 : Ref sig .tc := ⟨.hbm, 130, rfl⟩
abbrev main_call20_v4 : Ref sig .tc := ⟨.hbm, 131, rfl⟩
abbrev main_call20_v5 : Ref sig .tc := ⟨.hbm, 132, rfl⟩
abbrev main_call20_c_1 : Ref sig .tc := ⟨.hbm, 133, rfl⟩
abbrev main_call20_c_2 : Ref sig .tc := ⟨.hbm, 134, rfl⟩
abbrev main_call20_v6 : Ref sig .tc := ⟨.hbm, 135, rfl⟩
abbrev main_call20_v7 : Ref sig .tc := ⟨.hbm, 136, rfl⟩
abbrev main_call20_v8 : Ref sig .tc := ⟨.hbm, 137, rfl⟩
abbrev main_call20_v9 : Ref sig .tc := ⟨.hbm, 138, rfl⟩
abbrev main_call20_v10 : Ref sig .tc := ⟨.hbm, 139, rfl⟩
abbrev main_call20_v11 : Ref sig .tc := ⟨.hbm, 140, rfl⟩
abbrev main_call20_c_3 : Ref sig .tc := ⟨.hbm, 141, rfl⟩
abbrev main_call20_v12 : Ref sig .tc := ⟨.hbm, 142, rfl⟩
abbrev main_call20_v13 : Ref sig .tc := ⟨.hbm, 143, rfl⟩
abbrev main_call20_v14 : Ref sig .tc := ⟨.hbm, 144, rfl⟩
abbrev main_call20_cst : Ref sig .tc := ⟨.hbm, 145, rfl⟩
abbrev main_call20_v15 : Ref sig .tc := ⟨.hbm, 146, rfl⟩
abbrev main_v39 : Ref sig .tc := ⟨.hbm, 147, rfl⟩
abbrev main_v40 : Ref sig .tc := ⟨.hbm, 148, rfl⟩
abbrev main_call21_cst : Ref sig .tc := ⟨.hbm, 149, rfl⟩
abbrev main_call21_v0 : Ref sig .tc := ⟨.hbm, 150, rfl⟩
abbrev main_v41 : Ref sig .tc := ⟨.hbm, 151, rfl⟩
abbrev main_cst_17 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_v46 : Ref sig .tc := ⟨.hbm, 157, rfl⟩
abbrev main_v47 : Ref sig .tc := ⟨.hbm, 158, rfl⟩
abbrev main_v48 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev main_v52 : Ref sig .tc := ⟨.hbm, 163, rfl⟩
abbrev main_v53 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩
abbrev main_call22_c : Ref sig .tc := ⟨.hbm, 173, rfl⟩
abbrev main_call22_v0 : Ref sig .tc := ⟨.hbm, 174, rfl⟩
abbrev main_call22_v1 : Ref sig .tc := ⟨.hbm, 175, rfl⟩
abbrev main_call22_c_0 : Ref sig .tc := ⟨.hbm, 176, rfl⟩
abbrev main_call22_v2 : Ref sig .tc := ⟨.hbm, 177, rfl⟩
abbrev main_call22_v3 : Ref sig .tc := ⟨.hbm, 178, rfl⟩
abbrev main_call22_v4 : Ref sig .tc := ⟨.hbm, 179, rfl⟩
abbrev main_call22_v5 : Ref sig .tc := ⟨.hbm, 180, rfl⟩
abbrev main_call22_c_1 : Ref sig .tc := ⟨.hbm, 181, rfl⟩
abbrev main_call22_c_2 : Ref sig .tc := ⟨.hbm, 182, rfl⟩
abbrev main_call22_v6 : Ref sig .tc := ⟨.hbm, 183, rfl⟩
abbrev main_call22_v7 : Ref sig .tc := ⟨.hbm, 184, rfl⟩
abbrev main_call22_v8 : Ref sig .tc := ⟨.hbm, 185, rfl⟩
abbrev main_call22_v9 : Ref sig .tc := ⟨.hbm, 186, rfl⟩
abbrev main_call22_v10 : Ref sig .tc := ⟨.hbm, 187, rfl⟩
abbrev main_call22_v11 : Ref sig .tc := ⟨.hbm, 188, rfl⟩
abbrev main_call22_c_3 : Ref sig .tc := ⟨.hbm, 189, rfl⟩
abbrev main_call22_v12 : Ref sig .tc := ⟨.hbm, 190, rfl⟩
abbrev main_call22_v13 : Ref sig .tc := ⟨.hbm, 191, rfl⟩
abbrev main_call22_v14 : Ref sig .tc := ⟨.hbm, 192, rfl⟩
abbrev main_call22_cst : Ref sig .tc := ⟨.hbm, 193, rfl⟩
abbrev main_call22_v15 : Ref sig .tc := ⟨.hbm, 194, rfl⟩
abbrev main_v62 : Ref sig .tc := ⟨.hbm, 195, rfl⟩
abbrev main_v63 : Ref sig .tc := ⟨.hbm, 196, rfl⟩
abbrev main_call23_cst : Ref sig .tc := ⟨.hbm, 197, rfl⟩
abbrev main_call23_v0 : Ref sig .tc := ⟨.hbm, 198, rfl⟩
abbrev main_v64 : Ref sig .tc := ⟨.hbm, 199, rfl⟩
abbrev main_cst_18 : Ref sig .tc := ⟨.hbm, 200, rfl⟩
abbrev main_v65 : Ref sig .tc := ⟨.hbm, 201, rfl⟩
abbrev main_v66 : Ref sig .tc := ⟨.hbm, 202, rfl⟩
abbrev main_v67 : Ref sig .tc := ⟨.hbm, 203, rfl⟩
abbrev main_v68 : Ref sig .tc := ⟨.hbm, 204, rfl⟩
abbrev main_v69 : Ref sig .tc := ⟨.hbm, 205, rfl⟩
abbrev main_v70 : Ref sig .tc := ⟨.hbm, 206, rfl⟩
abbrev main_v71 : Ref sig .tc := ⟨.hbm, 207, rfl⟩
abbrev main_v72 : Ref sig .tc := ⟨.hbm, 208, rfl⟩
abbrev main_v73 : Ref sig .tc := ⟨.hbm, 209, rfl⟩
abbrev main_v74 : Ref sig .tc := ⟨.hbm, 210, rfl⟩
abbrev main_v75 : Ref sig .tc := ⟨.hbm, 211, rfl⟩
abbrev main_v76 : Ref sig .tc := ⟨.hbm, 212, rfl⟩
abbrev main_v77 : Ref sig .tc := ⟨.hbm, 213, rfl⟩
abbrev main_v78 : Ref sig .tc := ⟨.hbm, 214, rfl⟩
abbrev main_v79 : Ref sig .tc := ⟨.hbm, 215, rfl⟩
abbrev main_v80 : Ref sig .tc := ⟨.hbm, 216, rfl⟩
abbrev main_v81 : Ref sig .tc := ⟨.hbm, 217, rfl⟩
abbrev main_v82 : Ref sig .tc := ⟨.hbm, 218, rfl⟩
abbrev main_v83 : Ref sig .tc := ⟨.hbm, 219, rfl⟩
abbrev main_v84 : Ref sig .tc := ⟨.hbm, 220, rfl⟩
abbrev main_call24_c : Ref sig .tc := ⟨.hbm, 221, rfl⟩
abbrev main_call24_v0 : Ref sig .tc := ⟨.hbm, 222, rfl⟩
abbrev main_call24_v1 : Ref sig .tc := ⟨.hbm, 223, rfl⟩
abbrev main_call24_c_0 : Ref sig .tc := ⟨.hbm, 224, rfl⟩
abbrev main_call24_v2 : Ref sig .tc := ⟨.hbm, 225, rfl⟩
abbrev main_call24_v3 : Ref sig .tc := ⟨.hbm, 226, rfl⟩
abbrev main_call24_v4 : Ref sig .tc := ⟨.hbm, 227, rfl⟩
abbrev main_call24_v5 : Ref sig .tc := ⟨.hbm, 228, rfl⟩
abbrev main_call24_c_1 : Ref sig .tc := ⟨.hbm, 229, rfl⟩
abbrev main_call24_c_2 : Ref sig .tc := ⟨.hbm, 230, rfl⟩
abbrev main_call24_v6 : Ref sig .tc := ⟨.hbm, 231, rfl⟩
abbrev main_call24_v7 : Ref sig .tc := ⟨.hbm, 232, rfl⟩
abbrev main_call24_v8 : Ref sig .tc := ⟨.hbm, 233, rfl⟩
abbrev main_call24_v9 : Ref sig .tc := ⟨.hbm, 234, rfl⟩
abbrev main_call24_v10 : Ref sig .tc := ⟨.hbm, 235, rfl⟩
abbrev main_call24_v11 : Ref sig .tc := ⟨.hbm, 236, rfl⟩
abbrev main_call24_c_3 : Ref sig .tc := ⟨.hbm, 237, rfl⟩
abbrev main_call24_v12 : Ref sig .tc := ⟨.hbm, 238, rfl⟩
abbrev main_call24_v13 : Ref sig .tc := ⟨.hbm, 239, rfl⟩
abbrev main_call24_v14 : Ref sig .tc := ⟨.hbm, 240, rfl⟩
abbrev main_call24_cst : Ref sig .tc := ⟨.hbm, 241, rfl⟩
abbrev main_call24_v15 : Ref sig .tc := ⟨.hbm, 242, rfl⟩
abbrev main_v85 : Ref sig .tc := ⟨.hbm, 243, rfl⟩
abbrev main_v86 : Ref sig .tc := ⟨.hbm, 244, rfl⟩
abbrev main_call25_cst : Ref sig .tc := ⟨.hbm, 245, rfl⟩
abbrev main_call25_v0 : Ref sig .tc := ⟨.hbm, 246, rfl⟩
abbrev main_v87 : Ref sig .tc := ⟨.hbm, 247, rfl⟩
abbrev main_cst_19 : Ref sig .tc := ⟨.hbm, 248, rfl⟩
abbrev main_v88 : Ref sig .tc := ⟨.hbm, 249, rfl⟩
abbrev main_v89 : Ref sig .tc := ⟨.hbm, 250, rfl⟩
abbrev main_v90 : Ref sig .tc := ⟨.hbm, 251, rfl⟩
abbrev main_v91 : Ref sig .tc := ⟨.hbm, 252, rfl⟩
abbrev main_v92 : Ref sig .tc := ⟨.hbm, 253, rfl⟩
abbrev main_v93 : Ref sig .tc := ⟨.hbm, 254, rfl⟩
abbrev main_v94 : Ref sig .tc := ⟨.hbm, 255, rfl⟩
abbrev main_v95 : Ref sig .tc := ⟨.hbm, 256, rfl⟩
abbrev main_v96 : Ref sig .tc := ⟨.hbm, 257, rfl⟩
abbrev main_v97 : Ref sig .tc := ⟨.hbm, 258, rfl⟩
abbrev main_v98 : Ref sig .tc := ⟨.hbm, 259, rfl⟩
abbrev main_v99 : Ref sig .tc := ⟨.hbm, 260, rfl⟩
abbrev main_v100 : Ref sig .tc := ⟨.hbm, 261, rfl⟩
abbrev main_v101 : Ref sig .tc := ⟨.hbm, 262, rfl⟩
abbrev main_v102 : Ref sig .tc := ⟨.hbm, 263, rfl⟩
abbrev main_v103 : Ref sig .tc := ⟨.hbm, 264, rfl⟩
abbrev main_v104 : Ref sig .tc := ⟨.hbm, 265, rfl⟩
abbrev main_v105 : Ref sig .tc := ⟨.hbm, 266, rfl⟩
abbrev main_v106 : Ref sig .tc := ⟨.hbm, 267, rfl⟩
abbrev main_v107 : Ref sig .tc := ⟨.hbm, 268, rfl⟩
abbrev main_call26_c : Ref sig .tc := ⟨.hbm, 269, rfl⟩
abbrev main_call26_v0 : Ref sig .tc := ⟨.hbm, 270, rfl⟩
abbrev main_call26_v1 : Ref sig .tc := ⟨.hbm, 271, rfl⟩
abbrev main_call26_c_0 : Ref sig .tc := ⟨.hbm, 272, rfl⟩
abbrev main_call26_v2 : Ref sig .tc := ⟨.hbm, 273, rfl⟩
abbrev main_call26_v3 : Ref sig .tc := ⟨.hbm, 274, rfl⟩
abbrev main_call26_v4 : Ref sig .tc := ⟨.hbm, 275, rfl⟩
abbrev main_call26_v5 : Ref sig .tc := ⟨.hbm, 276, rfl⟩
abbrev main_call26_c_1 : Ref sig .tc := ⟨.hbm, 277, rfl⟩
abbrev main_call26_c_2 : Ref sig .tc := ⟨.hbm, 278, rfl⟩
abbrev main_call26_v6 : Ref sig .tc := ⟨.hbm, 279, rfl⟩
abbrev main_call26_v7 : Ref sig .tc := ⟨.hbm, 280, rfl⟩
abbrev main_call26_v8 : Ref sig .tc := ⟨.hbm, 281, rfl⟩
abbrev main_call26_v9 : Ref sig .tc := ⟨.hbm, 282, rfl⟩
abbrev main_call26_v10 : Ref sig .tc := ⟨.hbm, 283, rfl⟩
abbrev main_call26_v11 : Ref sig .tc := ⟨.hbm, 284, rfl⟩
abbrev main_call26_c_3 : Ref sig .tc := ⟨.hbm, 285, rfl⟩
abbrev main_call26_v12 : Ref sig .tc := ⟨.hbm, 286, rfl⟩
abbrev main_call26_v13 : Ref sig .tc := ⟨.hbm, 287, rfl⟩
abbrev main_call26_v14 : Ref sig .tc := ⟨.hbm, 288, rfl⟩
abbrev main_call26_cst : Ref sig .tc := ⟨.hbm, 289, rfl⟩
abbrev main_call26_v15 : Ref sig .tc := ⟨.hbm, 290, rfl⟩
abbrev main_v108 : Ref sig .tc := ⟨.hbm, 291, rfl⟩
abbrev main_v109 : Ref sig .tc := ⟨.hbm, 292, rfl⟩
abbrev main_call27_cst : Ref sig .tc := ⟨.hbm, 293, rfl⟩
abbrev main_call27_v0 : Ref sig .tc := ⟨.hbm, 294, rfl⟩
abbrev main_v110 : Ref sig .tc := ⟨.hbm, 295, rfl⟩
abbrev main_cst_20 : Ref sig .tc := ⟨.hbm, 296, rfl⟩
abbrev main_v111 : Ref sig .tc := ⟨.hbm, 297, rfl⟩
abbrev main_v112 : Ref sig .tc := ⟨.hbm, 298, rfl⟩
abbrev main_v113 : Ref sig .tc := ⟨.hbm, 299, rfl⟩
abbrev main_v114 : Ref sig .tc := ⟨.hbm, 300, rfl⟩
abbrev main_v115 : Ref sig .tc := ⟨.hbm, 301, rfl⟩
abbrev main_v116 : Ref sig .tc := ⟨.hbm, 302, rfl⟩
abbrev main_v117 : Ref sig .tc := ⟨.hbm, 303, rfl⟩
abbrev main_v118 : Ref sig .tc := ⟨.hbm, 304, rfl⟩
abbrev main_v119 : Ref sig .tc := ⟨.hbm, 305, rfl⟩
abbrev main_v120 : Ref sig .tc := ⟨.hbm, 306, rfl⟩
abbrev main_v121 : Ref sig .tc := ⟨.hbm, 307, rfl⟩
abbrev main_v122 : Ref sig .tc := ⟨.hbm, 308, rfl⟩
abbrev main_v123 : Ref sig .tc := ⟨.hbm, 309, rfl⟩
abbrev main_v124 : Ref sig .tc := ⟨.hbm, 310, rfl⟩
abbrev main_v125 : Ref sig .tc := ⟨.hbm, 311, rfl⟩
abbrev main_v126 : Ref sig .tc := ⟨.hbm, 312, rfl⟩
abbrev main_v127 : Ref sig .tc := ⟨.hbm, 313, rfl⟩
abbrev main_v128 : Ref sig .tc := ⟨.hbm, 314, rfl⟩
abbrev main_v129 : Ref sig .tc := ⟨.hbm, 315, rfl⟩
abbrev main_v130 : Ref sig .tc := ⟨.hbm, 316, rfl⟩
abbrev main_call28_c : Ref sig .tc := ⟨.hbm, 317, rfl⟩
abbrev main_call28_v0 : Ref sig .tc := ⟨.hbm, 318, rfl⟩
abbrev main_call28_v1 : Ref sig .tc := ⟨.hbm, 319, rfl⟩
abbrev main_call28_c_0 : Ref sig .tc := ⟨.hbm, 320, rfl⟩
abbrev main_call28_v2 : Ref sig .tc := ⟨.hbm, 321, rfl⟩
abbrev main_call28_v3 : Ref sig .tc := ⟨.hbm, 322, rfl⟩
abbrev main_call28_v4 : Ref sig .tc := ⟨.hbm, 323, rfl⟩
abbrev main_call28_v5 : Ref sig .tc := ⟨.hbm, 324, rfl⟩
abbrev main_call28_c_1 : Ref sig .tc := ⟨.hbm, 325, rfl⟩
abbrev main_call28_c_2 : Ref sig .tc := ⟨.hbm, 326, rfl⟩
abbrev main_call28_v6 : Ref sig .tc := ⟨.hbm, 327, rfl⟩
abbrev main_call28_v7 : Ref sig .tc := ⟨.hbm, 328, rfl⟩
abbrev main_call28_v8 : Ref sig .tc := ⟨.hbm, 329, rfl⟩
abbrev main_call28_v9 : Ref sig .tc := ⟨.hbm, 330, rfl⟩
abbrev main_call28_v10 : Ref sig .tc := ⟨.hbm, 331, rfl⟩
abbrev main_call28_v11 : Ref sig .tc := ⟨.hbm, 332, rfl⟩
abbrev main_call28_c_3 : Ref sig .tc := ⟨.hbm, 333, rfl⟩
abbrev main_call28_v12 : Ref sig .tc := ⟨.hbm, 334, rfl⟩
abbrev main_call28_v13 : Ref sig .tc := ⟨.hbm, 335, rfl⟩
abbrev main_call28_v14 : Ref sig .tc := ⟨.hbm, 336, rfl⟩
abbrev main_call28_cst : Ref sig .tc := ⟨.hbm, 337, rfl⟩
abbrev main_call28_v15 : Ref sig .tc := ⟨.hbm, 338, rfl⟩
abbrev main_v131 : Ref sig .tc := ⟨.hbm, 339, rfl⟩
abbrev main_v132 : Ref sig .tc := ⟨.hbm, 340, rfl⟩
abbrev main_call29_cst : Ref sig .tc := ⟨.hbm, 341, rfl⟩
abbrev main_call29_v0 : Ref sig .tc := ⟨.hbm, 342, rfl⟩
abbrev main_v133 : Ref sig .tc := ⟨.hbm, 343, rfl⟩
abbrev main_cst_21 : Ref sig .tc := ⟨.hbm, 344, rfl⟩
abbrev main_v134 : Ref sig .tc := ⟨.hbm, 345, rfl⟩
abbrev main_v135 : Ref sig .tc := ⟨.hbm, 346, rfl⟩
abbrev main_v136 : Ref sig .tc := ⟨.hbm, 347, rfl⟩
abbrev main_v137 : Ref sig .tc := ⟨.hbm, 348, rfl⟩
abbrev main_v138 : Ref sig .tc := ⟨.hbm, 349, rfl⟩
abbrev main_v139 : Ref sig .tc := ⟨.hbm, 350, rfl⟩
abbrev main_v140 : Ref sig .tc := ⟨.hbm, 351, rfl⟩
abbrev main_v141 : Ref sig .tc := ⟨.hbm, 352, rfl⟩
abbrev main_v142 : Ref sig .tc := ⟨.hbm, 353, rfl⟩
abbrev main_v143 : Ref sig .tc := ⟨.hbm, 354, rfl⟩
abbrev main_v144 : Ref sig .tc := ⟨.hbm, 355, rfl⟩
abbrev main_v145 : Ref sig .tc := ⟨.hbm, 356, rfl⟩
abbrev main_v146 : Ref sig .tc := ⟨.hbm, 357, rfl⟩
abbrev main_v147 : Ref sig .tc := ⟨.hbm, 358, rfl⟩
abbrev main_v148 : Ref sig .tc := ⟨.hbm, 359, rfl⟩
abbrev main_v149 : Ref sig .tc := ⟨.hbm, 360, rfl⟩
abbrev main_v150 : Ref sig .tc := ⟨.hbm, 361, rfl⟩
abbrev main_v151 : Ref sig .tc := ⟨.hbm, 362, rfl⟩
abbrev main_v152 : Ref sig .tc := ⟨.hbm, 363, rfl⟩
abbrev main_v153 : Ref sig .tc := ⟨.hbm, 364, rfl⟩
abbrev main_v154 : Ref sig .tc := ⟨.hbm, 365, rfl⟩
abbrev main_v155 : Ref sig .tc := ⟨.hbm, 366, rfl⟩
abbrev main_v156 : Ref sig .tc := ⟨.hbm, 367, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_stg10_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg9_0 : Ref sig .tc := ⟨.vmem, 41, rfl⟩
abbrev cc3_stg10_0 : Ref sig .tc := ⟨.vmem, 42, rfl⟩
abbrev cc3_stg10_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg8_0 : Ref sig .tc := ⟨.vmem, 54, rfl⟩
abbrev cc4_stg9_0 : Ref sig .tc := ⟨.vmem, 55, rfl⟩
abbrev cc4_stg10_0 : Ref sig .tc := ⟨.vmem, 56, rfl⟩
abbrev cc4_stg10_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg1_1 : Ref sig .tc := ⟨.vmem, 61, rfl⟩
abbrev cc5_stg2_0 : Ref sig .tc := ⟨.vmem, 62, rfl⟩
abbrev cc5_stg3_0 : Ref sig .tc := ⟨.vmem, 63, rfl⟩
abbrev cc5_stg4_0 : Ref sig .tc := ⟨.vmem, 64, rfl⟩
abbrev cc5_stg5_0 : Ref sig .tc := ⟨.vmem, 65, rfl⟩
abbrev cc5_stg6_0 : Ref sig .tc := ⟨.vmem, 66, rfl⟩
abbrev cc5_stg7_0 : Ref sig .tc := ⟨.vmem, 67, rfl⟩
abbrev cc5_stg8_0 : Ref sig .tc := ⟨.vmem, 68, rfl⟩
abbrev cc5_stg9_0 : Ref sig .tc := ⟨.vmem, 69, rfl⟩
abbrev cc5_stg10_0 : Ref sig .tc := ⟨.vmem, 70, rfl⟩
abbrev cc5_stg10_1 : Ref sig .tc := ⟨.vmem, 71, rfl⟩
abbrev cc6_stg0_0 : Ref sig .tc := ⟨.vmem, 72, rfl⟩
abbrev cc6_stg0_1 : Ref sig .tc := ⟨.vmem, 73, rfl⟩
abbrev cc6_stg1_0 : Ref sig .tc := ⟨.vmem, 74, rfl⟩
abbrev cc6_stg1_1 : Ref sig .tc := ⟨.vmem, 75, rfl⟩
abbrev cc6_stg2_0 : Ref sig .tc := ⟨.vmem, 76, rfl⟩
abbrev cc6_stg3_0 : Ref sig .tc := ⟨.vmem, 77, rfl⟩
abbrev cc6_stg4_0 : Ref sig .tc := ⟨.vmem, 78, rfl⟩
abbrev cc6_stg5_0 : Ref sig .tc := ⟨.vmem, 79, rfl⟩
abbrev cc6_stg6_0 : Ref sig .tc := ⟨.vmem, 80, rfl⟩
abbrev cc6_stg7_0 : Ref sig .tc := ⟨.vmem, 81, rfl⟩
abbrev cc6_stg8_0 : Ref sig .tc := ⟨.vmem, 82, rfl⟩
abbrev cc6_stg9_0 : Ref sig .tc := ⟨.vmem, 83, rfl⟩
abbrev cc6_stg10_0 : Ref sig .tc := ⟨.vmem, 84, rfl⟩
abbrev cc6_stg10_1 : Ref sig .tc := ⟨.vmem, 85, rfl⟩
abbrev cc7_stg0_0 : Ref sig .tc := ⟨.vmem, 86, rfl⟩
abbrev cc7_stg0_1 : Ref sig .tc := ⟨.vmem, 87, rfl⟩
abbrev cc7_stg1_0 : Ref sig .tc := ⟨.vmem, 88, rfl⟩
abbrev cc7_stg2_0 : Ref sig .tc := ⟨.vmem, 89, rfl⟩
abbrev cc7_stg3_0 : Ref sig .tc := ⟨.vmem, 90, rfl⟩
abbrev cc7_stg3_1 : Ref sig .tc := ⟨.vmem, 91, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem10_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem10_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem8_0 : DmaSem sig := 54
abbrev cc4_sem9_0 : DmaSem sig := 55
abbrev cc4_sem10_0 : DmaSem sig := 56
abbrev cc4_sem10_1 : DmaSem sig := 57
abbrev cc5_sem0_0 : DmaSem sig := 58
abbrev cc5_sem0_1 : DmaSem sig := 59
abbrev cc5_sem1_0 : DmaSem sig := 60
abbrev cc5_sem1_1 : DmaSem sig := 61
abbrev cc5_sem2_0 : DmaSem sig := 62
abbrev cc5_sem3_0 : DmaSem sig := 63
abbrev cc5_sem4_0 : DmaSem sig := 64
abbrev cc5_sem5_0 : DmaSem sig := 65
abbrev cc5_sem6_0 : DmaSem sig := 66
abbrev cc5_sem7_0 : DmaSem sig := 67
abbrev cc5_sem8_0 : DmaSem sig := 68
abbrev cc5_sem9_0 : DmaSem sig := 69
abbrev cc5_sem10_0 : DmaSem sig := 70
abbrev cc5_sem10_1 : DmaSem sig := 71
abbrev cc6_sem0_0 : DmaSem sig := 72
abbrev cc6_sem0_1 : DmaSem sig := 73
abbrev cc6_sem1_0 : DmaSem sig := 74
abbrev cc6_sem1_1 : DmaSem sig := 75
abbrev cc6_sem2_0 : DmaSem sig := 76
abbrev cc6_sem3_0 : DmaSem sig := 77
abbrev cc6_sem4_0 : DmaSem sig := 78
abbrev cc6_sem5_0 : DmaSem sig := 79
abbrev cc6_sem6_0 : DmaSem sig := 80
abbrev cc6_sem7_0 : DmaSem sig := 81
abbrev cc6_sem8_0 : DmaSem sig := 82
abbrev cc6_sem9_0 : DmaSem sig := 83
abbrev cc6_sem10_0 : DmaSem sig := 84
abbrev cc6_sem10_1 : DmaSem sig := 85
abbrev cc7_sem0_0 : DmaSem sig := 86
abbrev cc7_sem0_1 : DmaSem sig := 87
abbrev cc7_sem1_0 : DmaSem sig := 88
abbrev cc7_sem2_0 : DmaSem sig := 89
abbrev cc7_sem3_0 : DmaSem sig := 90
abbrev cc7_sem3_1 : DmaSem sig := 91

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384x384 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S384x384 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S384x384 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S384 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S384 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S384 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x384 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x384 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S384x384 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S384x384 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S384 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S384 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S384 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S384 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S2000x384 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x384 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x384 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S384x384 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S384 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S384x384 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S384 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S384 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S384 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S384 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S384 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S2000x384 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_9 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x384 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x384 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S384x384 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S384 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S384x384 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S384 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S384 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S384 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S384 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S384 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S2000x384 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_8 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_9 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x384 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x384 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S384x384 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S384 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S384x384 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S384 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S384 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S384 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S384 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S384 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 2 → Memref sig .tc .vmem S2000x384 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x384 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S384x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  pads_S2x300_S2x384_000_0840 : S2x300.Pads (![0, 0] : Fin 2 → Nat) ![0, 84] ![0, 0] S2x384
  h_S_ : 0 < S_.numel
  bitsLt_bf16_f32 : FTy.bits .bf16 < FTy.bits .f32
  pads_S300_S384_0840 : S300.Pads (![0] : Fin 1 → Nat) ![84] ![0] S384
  pads_S300x300_S384x384_0840_0840 : S300x300.Pads (![0, 0] : Fin 2 → Nat) ![84, 84] ![0, 0] S384x384
  pads_S3x300_S3x384_000_0840 : S3x300.Pads (![0, 0] : Fin 2 → Nat) ![0, 84] ![0, 0] S3x384
  pads_S87x300_S87x384_000_0840 : S87x300.Pads (![0, 0] : Fin 2 → Nat) ![0, 84] ![0, 0] S87x384
  pads_S5x300x300_S5x384x384_000_0840_0840 : S5x300x300.Pads (![0, 0, 0] : Fin 3 → Nat) ![0, 84, 84] ![0, 0, 0] S5x384x384
  pads_S5x300_S5x384_000_0840 : S5x300.Pads (![0, 0] : Fin 2 → Nat) ![0, 84] ![0, 0] S5x384
  concatenates_S300x87_S300x6_S300x93_d1 : Shape.Concatenates [S300x87, S300x6] S300x93 1
  concatenates_S87_S6_S93_d0 : Shape.Concatenates [S87, S6] S93 0
  pads_S300x93_S384x128_0840_0350 : S300x93.Pads (![0, 0] : Fin 2 → Nat) ![84, 35] ![0, 0] S384x128
  pads_S93_S128_0350 : S93.Pads (![0] : Fin 1 → Nat) ![35] ![0] S128
  bcast_S50000_S50000x1_0 : S50000.BroadcastsInDim S50000x1 (![0] : Fin 1 → Fin S50000x1.rank)
  concatenates_S50000x1_S50000x1_S50000x2_d1 : Shape.Concatenates [S50000x1, S50000x1] S50000x2 1
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  inb_S2x384_S2x384_0_0 : ∀ a, (![0, 0] : Fin 2 → Nat) a + S2x384.size a ≤ S2x384.size a
  h_S2x384 : 0 < S2x384.numel
  shapeCasts_S2x384_S2x384 : S2x384.ShapeCasts S2x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S2000x384 : S1x384.Broadcasts S2000x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S2000x384_S2000x384_0_0 : ∀ a, (![0, 0] : Fin 2 → Nat) a + S2000x384.size a ≤ S2000x384.size a
  h_S2000x384 : 0 < S2000x384.numel
  bcast_S_S50000 : S_.BroadcastsInDim S50000 (![] : Fin 0 → Fin S50000.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  bcast_S50000_S50000x384_0 : S50000.BroadcastsInDim S50000x384 (![0] : Fin 1 → Fin S50000x384.rank)
  bcast_S_S50000x384 : S_.BroadcastsInDim S50000x384 (![] : Fin 0 → Fin S50000x384.rank)
  inb_S5000x3_S5000x3_0_0 : ∀ a, (![0, 0] : Fin 2 → Nat) a + S5000x3.size a ≤ S5000x3.size a
  h_S5000x3 : 0 < S5000x3.numel
  inb_S3x384_S3x384_0_0 : ∀ a, (![0, 0] : Fin 2 → Nat) a + S3x384.size a ≤ S3x384.size a
  h_S3x384 : 0 < S3x384.numel
  shapeCasts_S3x384_S3x384 : S3x384.ShapeCasts S3x384
  broadcasts_S1x384_S5000x384 : S1x384.Broadcasts S5000x384
  inb_S5000x384_S5000x384_0_0 : ∀ a, (![0, 0] : Fin 2 → Nat) a + S5000x384.size a ≤ S5000x384.size a
  h_S5000x384 : 0 < S5000x384.numel
  slices_S2x125000_S1x125000_0_0 : S2x125000.Slices ![0, 0] S1x125000
  shapeCasts_S1x125000_S125000 : S1x125000.ShapeCasts S125000
  slices_S2x125000_S1x125000_1_0 : S2x125000.Slices ![1, 0] S1x125000
  bcast_S_S125000 : S_.BroadcastsInDim S125000 (![] : Fin 0 → Fin S125000.rank)
  bcast_S125000_S125000x1_0 : S125000.BroadcastsInDim S125000x1 (![0] : Fin 1 → Fin S125000x1.rank)
  bcast_S_S125000x1 : S_.BroadcastsInDim S125000x1 (![] : Fin 0 → Fin S125000x1.rank)
  bcast_S1x1_S125000x1_0_1 : S1x1.BroadcastsInDim S125000x1 (![0, 1] : Fin 2 → Fin S125000x1.rank)
  reducesTo_S125000x1_S125000_d1 : S125000x1.ReducesTo [1] S125000
  bcast_S125000_S125000x384_0 : S125000.BroadcastsInDim S125000x384 (![0] : Fin 1 → Fin S125000x384.rank)
  bcast_S_S125000x384 : S_.BroadcastsInDim S125000x384 (![] : Fin 0 → Fin S125000x384.rank)
  slices_S5x384x384_S1x384x384_0_0_0 : S5x384x384.Slices ![0, 0, 0] S1x384x384
  shapeCasts_S1x384x384_S384x384 : S1x384x384.ShapeCasts S384x384
  slices_S5x384_S1x384_0_0 : S5x384.Slices ![0, 0] S1x384
  shapeCasts_S1x384_S384 : S1x384.ShapeCasts S384
  shapeCasts_S2000x384_S2000x384 : S2000x384.ShapeCasts S2000x384
  slices_S5x384x384_S1x384x384_1_0_0 : S5x384x384.Slices ![1, 0, 0] S1x384x384
  slices_S5x384_S1x384_1_0 : S5x384.Slices ![1, 0] S1x384
  slices_S5x384x384_S1x384x384_2_0_0 : S5x384x384.Slices ![2, 0, 0] S1x384x384
  slices_S5x384_S1x384_2_0 : S5x384.Slices ![2, 0] S1x384
  slices_S5x384x384_S1x384x384_3_0_0 : S5x384x384.Slices ![3, 0, 0] S1x384x384
  slices_S5x384_S1x384_3_0 : S5x384.Slices ![3, 0] S1x384
  slices_S5x384x384_S1x384x384_4_0_0 : S5x384x384.Slices ![4, 0, 0] S1x384x384
  slices_S5x384_S1x384_4_0 : S5x384.Slices ![4, 0] S1x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S50000x128_S50000x87_0_0 : S50000x128.Slices ![0, 0] S50000x87
  slices_S50000x128_S50000x6_0_87 : S50000x128.Slices ![0, 87] S50000x6
  dot_S2000x2_S2x384_S2000x384_1_0_0_1_n_n_wf : DotDims.WF S2000x2 S2x384 S2000x384 [1] [0] [0] [1] [] []
  dot_S2000x384_S384x384_S2000x384_1_0_0_1_n_n_wf : DotDims.WF S2000x384 S384x384 S2000x384 [1] [0] [0] [1] [] []
  gather_S87x384_S50000x1_S50000x384_1_0_n_n_0_1_1384_wf : GatherDims.WF S87x384 S50000x1 S50000x384 [1] [0] [] [0] [] 1 ![1, 384]
  dot_S5000x3_S3x384_S5000x384_1_0_0_1_n_n_wf : DotDims.WF S5000x3 S3x384 S5000x384 [1] [0] [0] [1] [] []
  dot_S5000x384_S384x384_S5000x384_1_0_0_1_n_n_wf : DotDims.WF S5000x384 S384x384 S5000x384 [1] [0] [0] [1] [] []
  gather_S50000x384_S125000x1_S125000x384_1_0_n_n_0_1_1384_wf : GatherDims.WF S50000x384 S125000x1 S125000x384 [1] [0] [] [0] [] 1 ![1, 384]
  scatter_S50000x384_S125000x1_S125000x384_1_0_0_1_wf : ScatterDims.WF S50000x384 S125000x1 S125000x384 [1] [0] [0] 1
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S50000x2.size a
  hwx0_0 : ∀ i : grid0.Coords, EltTy.bits .f32 = 32 ∨ (Rect.block (s := S50000x2) S2000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x384.size a ≤ S2x384.size a
  hwx0_1 : ∀ i : grid0.Coords, EltTy.bits .bf16 = 32 ∨ (Rect.block (s := S2x384) S2x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384.size a ≤ S384.size a
  hwx0_2 : ∀ i : grid0.Coords, EltTy.bits .f32 = 32 ∨ (Rect.block (s := S384) S384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .bf16 = 32 ∨ (Rect.block (s := S384x384) S384x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x384.size a ≤ S50000x384.size a
  hwx0_5 : ∀ i : grid0.Coords, EltTy.bits .f32 = 32 ∨ (Rect.block (s := S50000x384) S2000x384.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x3.size a ≤ S125000x3.size a
  hwx1_0 : ∀ i : grid1.Coords, EltTy.bits .f32 = 32 ∨ (Rect.block (s := S125000x3) S5000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x384.size a ≤ S3x384.size a
  hwx1_1 : ∀ i : grid1.Coords, EltTy.bits .bf16 = 32 ∨ (Rect.block (s := S3x384) S3x384.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384.size a ≤ S384.size a
  hwx1_2 : ∀ i : grid1.Coords, EltTy.bits .f32 = 32 ∨ (Rect.block (s := S384) S384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x384.size a ≤ S384x384.size a
  hwx1_3 : ∀ i : grid1.Coords, EltTy.bits .bf16 = 32 ∨ (Rect.block (s := S384x384) S384x384.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384.size a ≤ S384.size a
  hwx1_4 : ∀ i : grid1.Coords, EltTy.bits .f32 = 32 ∨ (Rect.block (s := S384) S384.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x384.size a ≤ S125000x384.size a
  hwx1_5 : ∀ i : grid1.Coords, EltTy.bits .f32 = 32 ∨ (Rect.block (s := S125000x384) S5000x384.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x384.size a ≤ S50000x384.size a
  hwx2_0 : ∀ i : grid2.Coords, EltTy.bits .f32 = 32 ∨ (Rect.block (s := S50000x384) S2000x384.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x384.size a ≤ S50000x384.size a
  hwx2_1 : ∀ i : grid2.Coords, EltTy.bits .f32 = 32 ∨ (Rect.block (s := S50000x384) S2000x384.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S384x384.size a ≤ S384x384.size a
  hwx2_2 : ∀ i : grid2.Coords, EltTy.bits .bf16 = 32 ∨ (Rect.block (s := S384x384) S384x384.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384.size a ≤ S384.size a
  hwx2_3 : ∀ i : grid2.Coords, EltTy.bits .f32 = 32 ∨ (Rect.block (s := S384) S384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S384x384.size a ≤ S384x384.size a
  hwx2_4 : ∀ i : grid2.Coords, EltTy.bits .bf16 = 32 ∨ (Rect.block (s := S384x384) S384x384.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S384.size a ≤ S384.size a
  hwx2_5 : ∀ i : grid2.Coords, EltTy.bits .f32 = 32 ∨ (Rect.block (s := S384) S384.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S384.size a ≤ S384.size a
  hwx2_6 : ∀ i : grid2.Coords, EltTy.bits .f32 = 32 ∨ (Rect.block (s := S384) S384.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S384.size a ≤ S384.size a
  hwx2_7 : ∀ i : grid2.Coords, EltTy.bits .f32 = 32 ∨ (Rect.block (s := S384) S384.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S384.size a ≤ S384.size a
  hwx2_8 : ∀ i : grid2.Coords, EltTy.bits .f32 = 32 ∨ (Rect.block (s := S384) S384.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S384.size a ≤ S384.size a
  hwx2_9 : ∀ i : grid2.Coords, EltTy.bits .f32 = 32 ∨ (Rect.block (s := S384) S384.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x384.size a ≤ S50000x384.size a
  hwx2_10 : ∀ i : grid2.Coords, EltTy.bits .f32 = 32 ∨ (Rect.block (s := S50000x384) S2000x384.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x384.size a ≤ S50000x384.size a
  hwx3_0 : ∀ i : grid3.Coords, EltTy.bits .f32 = 32 ∨ (Rect.block (s := S50000x384) S2000x384.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x384.size a ≤ S50000x384.size a
  hwx3_1 : ∀ i : grid3.Coords, EltTy.bits .f32 = 32 ∨ (Rect.block (s := S50000x384) S2000x384.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S384x384.size a ≤ S384x384.size a
  hwx3_2 : ∀ i : grid3.Coords, EltTy.bits .bf16 = 32 ∨ (Rect.block (s := S384x384) S384x384.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S384.size a ≤ S384.size a
  hwx3_3 : ∀ i : grid3.Coords, EltTy.bits .f32 = 32 ∨ (Rect.block (s := S384) S384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S384x384.size a ≤ S384x384.size a
  hwx3_4 : ∀ i : grid3.Coords, EltTy.bits .bf16 = 32 ∨ (Rect.block (s := S384x384) S384x384.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S384.size a ≤ S384.size a
  hwx3_5 : ∀ i : grid3.Coords, EltTy.bits .f32 = 32 ∨ (Rect.block (s := S384) S384.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S384.size a ≤ S384.size a
  hwx3_6 : ∀ i : grid3.Coords, EltTy.bits .f32 = 32 ∨ (Rect.block (s := S384) S384.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S384.size a ≤ S384.size a
  hwx3_7 : ∀ i : grid3.Coords, EltTy.bits .f32 = 32 ∨ (Rect.block (s := S384) S384.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S384.size a ≤ S384.size a
  hwx3_8 : ∀ i : grid3.Coords, EltTy.bits .f32 = 32 ∨ (Rect.block (s := S384) S384.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S384.size a ≤ S384.size a
  hwx3_9 : ∀ i : grid3.Coords, EltTy.bits .f32 = 32 ∨ (Rect.block (s := S384) S384.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x384.size a ≤ S50000x384.size a
  hwx3_10 : ∀ i : grid3.Coords, EltTy.bits .f32 = 32 ∨ (Rect.block (s := S50000x384) S2000x384.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x384.size a ≤ S50000x384.size a
  hwx4_0 : ∀ i : grid4.Coords, EltTy.bits .f32 = 32 ∨ (Rect.block (s := S50000x384) S2000x384.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x384.size a ≤ S50000x384.size a
  hwx4_1 : ∀ i : grid4.Coords, EltTy.bits .f32 = 32 ∨ (Rect.block (s := S50000x384) S2000x384.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S384x384.size a ≤ S384x384.size a
  hwx4_2 : ∀ i : grid4.Coords, EltTy.bits .bf16 = 32 ∨ (Rect.block (s := S384x384) S384x384.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S384.size a ≤ S384.size a
  hwx4_3 : ∀ i : grid4.Coords, EltTy.bits .f32 = 32 ∨ (Rect.block (s := S384) S384.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S384x384.size a ≤ S384x384.size a
  hwx4_4 : ∀ i : grid4.Coords, EltTy.bits .bf16 = 32 ∨ (Rect.block (s := S384x384) S384x384.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S384.size a ≤ S384.size a
  hwx4_5 : ∀ i : grid4.Coords, EltTy.bits .f32 = 32 ∨ (Rect.block (s := S384) S384.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S384.size a ≤ S384.size a
  hwx4_6 : ∀ i : grid4.Coords, EltTy.bits .f32 = 32 ∨ (Rect.block (s := S384) S384.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S384.size a ≤ S384.size a
  hwx4_7 : ∀ i : grid4.Coords, EltTy.bits .f32 = 32 ∨ (Rect.block (s := S384) S384.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S384.size a ≤ S384.size a
  hwx4_8 : ∀ i : grid4.Coords, EltTy.bits .f32 = 32 ∨ (Rect.block (s := S384) S384.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S384.size a ≤ S384.size a
  hwx4_9 : ∀ i : grid4.Coords, EltTy.bits .f32 = 32 ∨ (Rect.block (s := S384) S384.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S2000x384.size a ≤ S50000x384.size a
  hwx4_10 : ∀ i : grid4.Coords, EltTy.bits .f32 = 32 ∨ (Rect.block (s := S50000x384) S2000x384.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x384.size a ≤ S50000x384.size a
  hwx5_0 : ∀ i : grid5.Coords, EltTy.bits .f32 = 32 ∨ (Rect.block (s := S50000x384) S2000x384.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x384.size a ≤ S50000x384.size a
  hwx5_1 : ∀ i : grid5.Coords, EltTy.bits .f32 = 32 ∨ (Rect.block (s := S50000x384) S2000x384.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S384x384.size a ≤ S384x384.size a
  hwx5_2 : ∀ i : grid5.Coords, EltTy.bits .bf16 = 32 ∨ (Rect.block (s := S384x384) S384x384.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S384.size a ≤ S384.size a
  hwx5_3 : ∀ i : grid5.Coords, EltTy.bits .f32 = 32 ∨ (Rect.block (s := S384) S384.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S384x384.size a ≤ S384x384.size a
  hwx5_4 : ∀ i : grid5.Coords, EltTy.bits .bf16 = 32 ∨ (Rect.block (s := S384x384) S384x384.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S384.size a ≤ S384.size a
  hwx5_5 : ∀ i : grid5.Coords, EltTy.bits .f32 = 32 ∨ (Rect.block (s := S384) S384.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S384.size a ≤ S384.size a
  hwx5_6 : ∀ i : grid5.Coords, EltTy.bits .f32 = 32 ∨ (Rect.block (s := S384) S384.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S384.size a ≤ S384.size a
  hwx5_7 : ∀ i : grid5.Coords, EltTy.bits .f32 = 32 ∨ (Rect.block (s := S384) S384.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S384.size a ≤ S384.size a
  hwx5_8 : ∀ i : grid5.Coords, EltTy.bits .f32 = 32 ∨ (Rect.block (s := S384) S384.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S384.size a ≤ S384.size a
  hwx5_9 : ∀ i : grid5.Coords, EltTy.bits .f32 = 32 ∨ (Rect.block (s := S384) S384.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S2000x384.size a ≤ S50000x384.size a
  hwx5_10 : ∀ i : grid5.Coords, EltTy.bits .f32 = 32 ∨ (Rect.block (s := S50000x384) S2000x384.size (cc5_transform_10 i) (hinb5_10 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x384.size a ≤ S50000x384.size a
  hwx6_0 : ∀ i : grid6.Coords, EltTy.bits .f32 = 32 ∨ (Rect.block (s := S50000x384) S2000x384.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x384.size a ≤ S50000x384.size a
  hwx6_1 : ∀ i : grid6.Coords, EltTy.bits .f32 = 32 ∨ (Rect.block (s := S50000x384) S2000x384.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S384x384.size a ≤ S384x384.size a
  hwx6_2 : ∀ i : grid6.Coords, EltTy.bits .bf16 = 32 ∨ (Rect.block (s := S384x384) S384x384.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S384.size a ≤ S384.size a
  hwx6_3 : ∀ i : grid6.Coords, EltTy.bits .f32 = 32 ∨ (Rect.block (s := S384) S384.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S384x384.size a ≤ S384x384.size a
  hwx6_4 : ∀ i : grid6.Coords, EltTy.bits .bf16 = 32 ∨ (Rect.block (s := S384x384) S384x384.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S384.size a ≤ S384.size a
  hwx6_5 : ∀ i : grid6.Coords, EltTy.bits .f32 = 32 ∨ (Rect.block (s := S384) S384.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S384.size a ≤ S384.size a
  hwx6_6 : ∀ i : grid6.Coords, EltTy.bits .f32 = 32 ∨ (Rect.block (s := S384) S384.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S384.size a ≤ S384.size a
  hwx6_7 : ∀ i : grid6.Coords, EltTy.bits .f32 = 32 ∨ (Rect.block (s := S384) S384.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S384.size a ≤ S384.size a
  hwx6_8 : ∀ i : grid6.Coords, EltTy.bits .f32 = 32 ∨ (Rect.block (s := S384) S384.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S384.size a ≤ S384.size a
  hwx6_9 : ∀ i : grid6.Coords, EltTy.bits .f32 = 32 ∨ (Rect.block (s := S384) S384.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S2000x384.size a ≤ S50000x384.size a
  hwx6_10 : ∀ i : grid6.Coords, EltTy.bits .f32 = 32 ∨ (Rect.block (s := S50000x384) S2000x384.size (cc6_transform_10 i) (hinb6_10 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x384.size a ≤ S50000x384.size a
  hwx7_0 : ∀ i : grid7.Coords, EltTy.bits .f32 = 32 ∨ (Rect.block (s := S50000x384) S2000x384.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S384x128.size a ≤ S384x128.size a
  hwx7_1 : ∀ i : grid7.Coords, EltTy.bits .bf16 = 32 ∨ (Rect.block (s := S384x128) S384x128.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)

variable [Facts₀]

def dot_S2000x2_S2x384_S2000x384_1_0_0_1_n_n : DotDims S2000x2 S2x384 S2000x384 where
  lhsContracting := [1]
  rhsContracting := [0]
  lhsNonContracting := [0]
  rhsNonContracting := [1]
  lhsBatch := []
  rhsBatch := []
  wf := dot_S2000x2_S2x384_S2000x384_1_0_0_1_n_n_wf
def dot_S2000x384_S384x384_S2000x384_1_0_0_1_n_n : DotDims S2000x384 S384x384 S2000x384 where
  lhsContracting := [1]
  rhsContracting := [0]
  lhsNonContracting := [0]
  rhsNonContracting := [1]
  lhsBatch := []
  rhsBatch := []
  wf := dot_S2000x384_S384x384_S2000x384_1_0_0_1_n_n_wf
def gather_S87x384_S50000x1_S50000x384_1_0_n_n_0_1_1384 : GatherDims S87x384 S50000x1 S50000x384 where
  offsetDims := [1]
  collapsedSliceDims := [0]
  operandBatchingDims := []
  startIndicesBatchingDims := []
  startIndexMap := [0]
  indexVectorDim := 1
  sliceSizes := ![1, 384]
  wf := gather_S87x384_S50000x1_S50000x384_1_0_n_n_0_1_1384_wf
def dot_S5000x3_S3x384_S5000x384_1_0_0_1_n_n : DotDims S5000x3 S3x384 S5000x384 where
  lhsContracting := [1]
  rhsContracting := [0]
  lhsNonContracting := [0]
  rhsNonContracting := [1]
  lhsBatch := []
  rhsBatch := []
  wf := dot_S5000x3_S3x384_S5000x384_1_0_0_1_n_n_wf
def dot_S5000x384_S384x384_S5000x384_1_0_0_1_n_n : DotDims S5000x384 S384x384 S5000x384 where
  lhsContracting := [1]
  rhsContracting := [0]
  lhsNonContracting := [0]
  rhsNonContracting := [1]
  lhsBatch := []
  rhsBatch := []
  wf := dot_S5000x384_S384x384_S5000x384_1_0_0_1_n_n_wf
def gather_S50000x384_S125000x1_S125000x384_1_0_n_n_0_1_1384 : GatherDims S50000x384 S125000x1 S125000x384 where
  offsetDims := [1]
  collapsedSliceDims := [0]
  operandBatchingDims := []
  startIndicesBatchingDims := []
  startIndexMap := [0]
  indexVectorDim := 1
  sliceSizes := ![1, 384]
  wf := gather_S50000x384_S125000x1_S125000x384_1_0_n_n_0_1_1384_wf
def scatter_S50000x384_S125000x1_S125000x384_1_0_0_1 : ScatterDims S50000x384 S125000x1 S125000x384 where
  updateWindowDims := [1]
  insertedWindowDims := [0]
  scatterDimsToOperandDims := [0]
  indexVectorDim := 1
  wf := scatter_S50000x384_S125000x1_S125000x384_1_0_0_1_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_v30) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S2000x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg4) S5000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S3x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S384x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x384.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S2000x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S2000x384.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S384x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S384x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S384.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v56) S384.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v58) S384.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v60) S384.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v61) S2000x384.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v61) S2000x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S2000x384.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S384x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S384x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v77) S384.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v79) S384.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v81) S384.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v83) S384.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v84) S2000x384.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v84) S2000x384.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S2000x384.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v92) S384x384.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S384.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v96) S384x384.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v98) S384.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v100) S384.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v102) S384.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v104) S384.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v106) S384.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v107) S2000x384.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v107) S2000x384.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v113) S2000x384.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v115) S384x384.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v117) S384.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v119) S384x384.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v121) S384.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v123) S384.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v125) S384.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v127) S384.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v129) S384.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v130) S2000x384.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v130) S2000x384.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v136) S2000x384.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v138) S384x384.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v140) S384.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v142) S384x384.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v144) S384.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v146) S384.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v148) S384.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v150) S384.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v152) S384.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v153) S2000x384.size cc6_transform_10 reads6_10 true false 2 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

abbrev win7_0 : Pipeline.Window sig grid7 :=
  Pipeline.Window.ofSpec (Memref.whole main_v153) S2000x384.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v26) S384x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v27) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v154) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000 : Shape := ⟨1, ![50000]⟩
abbrev S2x125000 : Shape := ⟨2, ![2, 125000]⟩
abbrev S125000x3 : Shape := ⟨2, ![125000, 3]⟩
abbrev S87x300 : Shape := ⟨2, ![87, 300]⟩
abbrev S2x300 : Shape := ⟨2, ![2, 300]⟩
abbrev S300 : Shape := ⟨1, ![300]⟩
abbrev S300x300 : Shape := ⟨2, ![300, 300]⟩
abbrev S3x300 : Shape := ⟨2, ![3, 300]⟩
abbrev S5x300x300 : Shape := ⟨3, ![5, 300, 300]⟩
abbrev S5x300 : Shape := ⟨2, ![5, 300]⟩
abbrev S300x87 : Shape := ⟨2, ![300, 87]⟩
abbrev S87 : Shape := ⟨1, ![87]⟩
abbrev S300x6 : Shape := ⟨2, ![300, 6]⟩
abbrev S6 : Shape := ⟨1, ![6]⟩
abbrev S50000x1 : Shape := ⟨2, ![50000, 1]⟩
abbrev S50000x2 : Shape := ⟨2, ![50000, 2]⟩
abbrev S_ : Shape := ⟨0, ![]⟩
abbrev S50000x300 : Shape := ⟨2, ![50000, 300]⟩
abbrev S1x300 : Shape := ⟨2, ![1, 300]⟩
abbrev S125000x300 : Shape := ⟨2, ![125000, 300]⟩
abbrev S1x125000 : Shape := ⟨2, ![1, 125000]⟩
abbrev S125000 : Shape := ⟨1, ![125000]⟩
abbrev S125000x1 : Shape := ⟨2, ![125000, 1]⟩
abbrev S1x300x300 : Shape := ⟨3, ![1, 300, 300]⟩
abbrev S50000x87 : Shape := ⟨2, ![50000, 87]⟩
abbrev S1x87 : Shape := ⟨2, ![1, 87]⟩
abbrev S50000x6 : Shape := ⟨2, ![50000, 6]⟩
abbrev S1x6 : Shape := ⟨2, ![1, 6]⟩

abbrev nBuf : Space → Nat
  | .hbm => 393
  | .vmem => 0
  | .smem => 0
  | _ => 0

abbrev hbmTy0_0 (i : Nat) : BufTy := match i % 128 with
  | 0 => ⟨S50000, .i32⟩
  | 1 => ⟨S50000, .f32⟩
  | 2 => ⟨S50000, .f32⟩
  | 3 => ⟨S2x125000, .i32⟩
  | 4 => ⟨S125000x3, .f32⟩
  | 5 => ⟨S87x300, .f32⟩
  | 6 => ⟨S2x300, .f32⟩
  | 7 => ⟨S300, .f32⟩
  | 8 => ⟨S300x300, .f32⟩
  | 9 => ⟨S300, .f32⟩
  | 10 => ⟨S3x300, .f32⟩
  | 11 => ⟨S300, .f32⟩
  | 12 => ⟨S300x300, .f32⟩
  | 13 => ⟨S300, .f32⟩
  | 14 => ⟨S5x300x300, .f32⟩
  | 15 => ⟨S5x300, .f32⟩
  | 16 => ⟨S5x300x300, .f32⟩
  | 17 => ⟨S5x300, .f32⟩
  | 18 => ⟨S5x300, .f32⟩
  | 19 => ⟨S5x300, .f32⟩
  | 20 => ⟨S5x300, .f32⟩
  | 21 => ⟨S5x300, .f32⟩
  | 22 => ⟨S300x87, .f32⟩
  | 23 => ⟨S87, .f32⟩
  | 24 => ⟨S300x6, .f32⟩
  | 25 => ⟨S6, .f32⟩
  | 26 => ⟨S50000x1, .f32⟩
  | 27 => ⟨S50000x1, .f32⟩
  | 28 => ⟨S50000x2, .f32⟩
  | 29 => ⟨S_, .i32⟩
  | 30 => ⟨S50000, .i32⟩
  | 31 => ⟨S50000, .i1⟩
  | 32 => ⟨S_, .i32⟩
  | 33 => ⟨S50000, .i32⟩
  | 34 => ⟨S50000, .i32⟩
  | 35 => ⟨S50000, .i32⟩
  | 36 => ⟨S50000x1, .i32⟩
  | 37 => ⟨S50000x300, .f32⟩
  | 38 => ⟨S50000x300, .f32⟩
  | 39 => ⟨S1x300, .f32⟩
  | 40 => ⟨S50000x300, .f32⟩
  | 41 => ⟨S50000x300, .f32⟩
  | 42 => ⟨S_, .f32⟩
  | 43 => ⟨S50000x300, .f32⟩
  | 44 => ⟨S50000x300, .f32⟩
  | 45 => ⟨S50000x300, .f32⟩
  | 46 => ⟨S1x300, .f32⟩
  | 47 => ⟨S50000x300, .f32⟩
  | 48 => ⟨S50000x300, .f32⟩
  | 49 => ⟨S50000x300, .f32⟩
  | 50 => ⟨S125000x300, .f32⟩
  | 51 => ⟨S1x300, .f32⟩
  | 52 => ⟨S125000x300, .f32⟩
  | 53 => ⟨S125000x300, .f32⟩
  | 54 => ⟨S_, .f32⟩
  | 55 => ⟨S125000x300, .f32⟩
  | 56 => ⟨S125000x300, .f32⟩
  | 57 => ⟨S125000x300, .f32⟩
  | 58 => ⟨S1x300, .f32⟩
  | 59 => ⟨S125000x300, .f32⟩
  | 60 => ⟨S125000x300, .f32⟩
  | 61 => ⟨S1x125000, .i32⟩
  | 62 => ⟨S125000, .i32⟩
  | 63 => ⟨S1x125000, .i32⟩
  | 64 => ⟨S125000, .i32⟩
  | 65 => ⟨S_, .i32⟩
  | 66 => ⟨S125000, .i32⟩
  | 67 => ⟨S125000, .i1⟩
  | 68 => ⟨S_, .i32⟩
  | 69 => ⟨S125000, .i32⟩
  | 70 => ⟨S125000, .i32⟩
  | 71 => ⟨S125000, .i32⟩
  | 72 => ⟨S125000x1, .i32⟩
  | 73 => ⟨S125000x300, .f32⟩
  | 74 => ⟨S125000x300, .f32⟩
  | 75 => ⟨S_, .f32⟩
  | 76 => ⟨S125000x300, .f32⟩
  | 77 => ⟨S125000x300, .f32⟩
  | 78 => ⟨S_, .f32⟩
  | 79 => ⟨S50000x300, .f32⟩
  | 80 => ⟨S125000x1, .i32⟩
  | 81 => ⟨S50000x300, .f32⟩
  | 82 => ⟨S50000x300, .f32⟩
  | 83 => ⟨S1x300x300, .f32⟩
  | 84 => ⟨S300x300, .f32⟩
  | 85 => ⟨S1x300, .f32⟩
  | 86 => ⟨S300, .f32⟩
  | 87 => ⟨S1x300x300, .f32⟩
  | 88 => ⟨S300x300, .f32⟩
  | 89 => ⟨S1x300, .f32⟩
  | 90 => ⟨S300, .f32⟩
  | 91 => ⟨S50000x300, .f32⟩
  | 92 => ⟨S1x300, .f32⟩
  | 93 => ⟨S50000x300, .f32⟩
  | 94 => ⟨S50000x300, .f32⟩
  | 95 => ⟨S_, .f32⟩
  | 96 => ⟨S50000x300, .f32⟩
  | 97 => ⟨S50000x300, .f32⟩
  | 98 => ⟨S50000x300, .f32⟩
  | 99 => ⟨S1x300, .f32⟩
  | 100 => ⟨S50000x300, .f32⟩
  | 101 => ⟨S50000x300, .f32⟩
  | 102 => ⟨S1x300, .f32⟩
  | 103 => ⟨S300, .f32⟩
  | 104 => ⟨S1x300, .f32⟩
  | 105 => ⟨S300, .f32⟩
  | 106 => ⟨S1x300, .f32⟩
  | 107 => ⟨S50000x300, .f32⟩
  | 108 => ⟨S50000x300, .f32⟩
  | 109 => ⟨S1x300, .f32⟩
  | 110 => ⟨S50000x300, .f32⟩
  | 111 => ⟨S50000x300, .f32⟩
  | 112 => ⟨S1x300, .f32⟩
  | 113 => ⟨S300, .f32⟩
  | 114 => ⟨S_, .f32⟩
  | 115 => ⟨S300, .f32⟩
  | 116 => ⟨S300, .f32⟩
  | 117 => ⟨S300, .f32⟩
  | 118 => ⟨S1x300, .f32⟩
  | 119 => ⟨S50000x300, .f32⟩
  | 120 => ⟨S50000x300, .f32⟩
  | 121 => ⟨S1x300, .f32⟩
  | 122 => ⟨S300, .f32⟩
  | 123 => ⟨S1x300, .f32⟩
  | 124 => ⟨S50000x300, .f32⟩
  | 125 => ⟨S50000x300, .f32⟩
  | 126 => ⟨S_, .f32⟩
  | 127 => ⟨S50000x300, .f32⟩
  | _ => ⟨S50000, .i32⟩

abbrev hbmTy0_1 (i : Nat) : BufTy := match i % 128 with
  | 0 => ⟨S50000x300, .f32⟩
  | 1 => ⟨S_, .i32⟩
  | 2 => ⟨S125000, .i32⟩
  | 3 => ⟨S125000, .i1⟩
  | 4 => ⟨S_, .i32⟩
  | 5 => ⟨S125000, .i32⟩
  | 6 => ⟨S125000, .i32⟩
  | 7 => ⟨S125000, .i32⟩
  | 8 => ⟨S125000x1, .i32⟩
  | 9 => ⟨S125000x300, .f32⟩
  | 10 => ⟨S125000x300, .f32⟩
  | 11 => ⟨S_, .f32⟩
  | 12 => ⟨S125000x300, .f32⟩
  | 13 => ⟨S125000x300, .f32⟩
  | 14 => ⟨S_, .f32⟩
  | 15 => ⟨S50000x300, .f32⟩
  | 16 => ⟨S125000x1, .i32⟩
  | 17 => ⟨S50000x300, .f32⟩
  | 18 => ⟨S50000x300, .f32⟩
  | 19 => ⟨S1x300x300, .f32⟩
  | 20 => ⟨S300x300, .f32⟩
  | 21 => ⟨S1x300, .f32⟩
  | 22 => ⟨S300, .f32⟩
  | 23 => ⟨S1x300x300, .f32⟩
  | 24 => ⟨S300x300, .f32⟩
  | 25 => ⟨S1x300, .f32⟩
  | 26 => ⟨S300, .f32⟩
  | 27 => ⟨S50000x300, .f32⟩
  | 28 => ⟨S1x300, .f32⟩
  | 29 => ⟨S50000x300, .f32⟩
  | 30 => ⟨S50000x300, .f32⟩
  | 31 => ⟨S_, .f32⟩
  | 32 => ⟨S50000x300, .f32⟩
  | 33 => ⟨S50000x300, .f32⟩
  | 34 => ⟨S50000x300, .f32⟩
  | 35 => ⟨S1x300, .f32⟩
  | 36 => ⟨S50000x300, .f32⟩
  | 37 => ⟨S50000x300, .f32⟩
  | 38 => ⟨S1x300, .f32⟩
  | 39 => ⟨S300, .f32⟩
  | 40 => ⟨S1x300, .f32⟩
  | 41 => ⟨S300, .f32⟩
  | 42 => ⟨S1x300, .f32⟩
  | 43 => ⟨S50000x300, .f32⟩
  | 44 => ⟨S50000x300, .f32⟩
  | 45 => ⟨S1x300, .f32⟩
  | 46 => ⟨S50000x300, .f32⟩
  | 47 => ⟨S50000x300, .f32⟩
  | 48 => ⟨S1x300, .f32⟩
  | 49 => ⟨S300, .f32⟩
  | 50 => ⟨S_, .f32⟩
  | 51 => ⟨S300, .f32⟩
  | 52 => ⟨S300, .f32⟩
  | 53 => ⟨S300, .f32⟩
  | 54 => ⟨S1x300, .f32⟩
  | 55 => ⟨S50000x300, .f32⟩
  | 56 => ⟨S50000x300, .f32⟩
  | 57 => ⟨S1x300, .f32⟩
  | 58 => ⟨S300, .f32⟩
  | 59 => ⟨S1x300, .f32⟩
  | 60 => ⟨S50000x300, .f32⟩
  | 61 => ⟨S50000x300, .f32⟩
  | 62 => ⟨S_, .f32⟩
  | 63 => ⟨S50000x300, .f32⟩
  | 64 => ⟨S50000x300, .f32⟩
  | 65 => ⟨S_, .i32⟩
  | 66 => ⟨S125000, .i32⟩
  | 67 => ⟨S125000, .i1⟩
  | 68 => ⟨S_, .i32⟩
  | 69 => ⟨S125000, .i32⟩
  | 70 => ⟨S125000, .i32⟩
  | 71 => ⟨S125000, .i32⟩
  | 72 => ⟨S125000x1, .i32⟩
  | 73 => ⟨S125000x300, .f32⟩
  | 74 => ⟨S125000x300, .f32⟩
  | 75 => ⟨S_, .f32⟩
  | 76 => ⟨S125000x300, .f32⟩
  | 77 => ⟨S125000x300, .f32⟩
  | 78 => ⟨S_, .f32⟩
  | 79 => ⟨S50000x300, .f32⟩
  | 80 => ⟨S125000x1, .i32⟩
  | 81 => ⟨S50000x300, .f32⟩
  | 82 => ⟨S50000x300, .f32⟩
  | 83 => ⟨S1x300x300, .f32⟩
  | 84 => ⟨S300x300, .f32⟩
  | 85 => ⟨S1x300, .f32⟩
  | 86 => ⟨S300, .f32⟩
  | 87 => ⟨S1x300x300, .f32⟩
  | 88 => ⟨S300x300, .f32⟩
  | 89 => ⟨S1x300, .f32⟩
  | 90 => ⟨S300, .f32⟩
  | 91 => ⟨S50000x300, .f32⟩
  | 92 => ⟨S1x300, .f32⟩
  | 93 => ⟨S50000x300, .f32⟩
  | 94 => ⟨S50000x300, .f32⟩
  | 95 => ⟨S_, .f32⟩
  | 96 => ⟨S50000x300, .f32⟩
  | 97 => ⟨S50000x300, .f32⟩
  | 98 => ⟨S50000x300, .f32⟩
  | 99 => ⟨S1x300, .f32⟩
  | 100 => ⟨S50000x300, .f32⟩
  | 101 => ⟨S50000x300, .f32⟩
  | 102 => ⟨S1x300, .f32⟩
  | 103 => ⟨S300, .f32⟩
  | 104 => ⟨S1x300, .f32⟩
  | 105 => ⟨S300, .f32⟩
  | 106 => ⟨S1x300, .f32⟩
  | 107 => ⟨S50000x300, .f32⟩
  | 108 => ⟨S50000x300, .f32⟩
  | 109 => ⟨S1x300, .f32⟩
  | 110 => ⟨S50000x300, .f32⟩
  | 111 => ⟨S50000x300, .f32⟩
  | 112 => ⟨S1x300, .f32⟩
  | 113 => ⟨S300, .f32⟩
  | 114 => ⟨S_, .f32⟩
  | 115 => ⟨S300, .f32⟩
  | 116 => ⟨S300, .f32⟩
  | 117 => ⟨S300, .f32⟩
  | 118 => ⟨S1x300, .f32⟩
  | 119 => ⟨S50000x300, .f32⟩
  | 120 => ⟨S50000x300, .f32⟩
  | 121 => ⟨S1x300, .f32⟩
  | 122 => ⟨S300, .f32⟩
  | 123 => ⟨S1x300, .f32⟩
  | 124 => ⟨S50000x300, .f32⟩
  | 125 => ⟨S50000x300, .f32⟩
  | 126 => ⟨S_, .f32⟩
  | 127 => ⟨S50000x300, .f32⟩
  | _ => ⟨S50000, .i32⟩

abbrev hbmTy0_2 (i : Nat) : BufTy := match i % 128 with
  | 0 => ⟨S50000x300, .f32⟩
  | 1 => ⟨S_, .i32⟩
  | 2 => ⟨S125000, .i32⟩
  | 3 => ⟨S125000, .i1⟩
  | 4 => ⟨S_, .i32⟩
  | 5 => ⟨S125000, .i32⟩
  | 6 => ⟨S125000, .i32⟩
  | 7 => ⟨S125000, .i32⟩
  | 8 => ⟨S125000x1, .i32⟩
  | 9 => ⟨S125000x300, .f32⟩
  | 10 => ⟨S125000x300, .f32⟩
  | 11 => ⟨S_, .f32⟩
  | 12 => ⟨S125000x300, .f32⟩
  | 13 => ⟨S125000x300, .f32⟩
  | 14 => ⟨S_, .f32⟩
  | 15 => ⟨S50000x300, .f32⟩
  | 16 => ⟨S125000x1, .i32⟩
  | 17 => ⟨S50000x300, .f32⟩
  | 18 => ⟨S50000x300, .f32⟩
  | 19 => ⟨S1x300x300, .f32⟩
  | 20 => ⟨S300x300, .f32⟩
  | 21 => ⟨S1x300, .f32⟩
  | 22 => ⟨S300, .f32⟩
  | 23 => ⟨S1x300x300, .f32⟩
  | 24 => ⟨S300x300, .f32⟩
  | 25 => ⟨S1x300, .f32⟩
  | 26 => ⟨S300, .f32⟩
  | 27 => ⟨S50000x300, .f32⟩
  | 28 => ⟨S1x300, .f32⟩
  | 29 => ⟨S50000x300, .f32⟩
  | 30 => ⟨S50000x300, .f32⟩
  | 31 => ⟨S_, .f32⟩
  | 32 => ⟨S50000x300, .f32⟩
  | 33 => ⟨S50000x300, .f32⟩
  | 34 => ⟨S50000x300, .f32⟩
  | 35 => ⟨S1x300, .f32⟩
  | 36 => ⟨S50000x300, .f32⟩
  | 37 => ⟨S50000x300, .f32⟩
  | 38 => ⟨S1x300, .f32⟩
  | 39 => ⟨S300, .f32⟩
  | 40 => ⟨S1x300, .f32⟩
  | 41 => ⟨S300, .f32⟩
  | 42 => ⟨S1x300, .f32⟩
  | 43 => ⟨S50000x300, .f32⟩
  | 44 => ⟨S50000x300, .f32⟩
  | 45 => ⟨S1x300, .f32⟩
  | 46 => ⟨S50000x300, .f32⟩
  | 47 => ⟨S50000x300, .f32⟩
  | 48 => ⟨S1x300, .f32⟩
  | 49 => ⟨S300, .f32⟩
  | 50 => ⟨S_, .f32⟩
  | 51 => ⟨S300, .f32⟩
  | 52 => ⟨S300, .f32⟩
  | 53 => ⟨S300, .f32⟩
  | 54 => ⟨S1x300, .f32⟩
  | 55 => ⟨S50000x300, .f32⟩
  | 56 => ⟨S50000x300, .f32⟩
  | 57 => ⟨S1x300, .f32⟩
  | 58 => ⟨S300, .f32⟩
  | 59 => ⟨S1x300, .f32⟩
  | 60 => ⟨S50000x300, .f32⟩
  | 61 => ⟨S50000x300, .f32⟩
  | 62 => ⟨S_, .f32⟩
  | 63 => ⟨S50000x300, .f32⟩
  | 64 => ⟨S50000x300, .f32⟩
  | 65 => ⟨S_, .i32⟩
  | 66 => ⟨S125000, .i32⟩
  | 67 => ⟨S125000, .i1⟩
  | 68 => ⟨S_, .i32⟩
  | 69 => ⟨S125000, .i32⟩
  | 70 => ⟨S125000, .i32⟩
  | 71 => ⟨S125000, .i32⟩
  | 72 => ⟨S125000x1, .i32⟩
  | 73 => ⟨S125000x300, .f32⟩
  | 74 => ⟨S125000x300, .f32⟩
  | 75 => ⟨S_, .f32⟩
  | 76 => ⟨S125000x300, .f32⟩
  | 77 => ⟨S125000x300, .f32⟩
  | 78 => ⟨S_, .f32⟩
  | 79 => ⟨S50000x300, .f32⟩
  | 80 => ⟨S125000x1, .i32⟩
  | 81 => ⟨S50000x300, .f32⟩
  | 82 => ⟨S50000x300, .f32⟩
  | 83 => ⟨S1x300x300, .f32⟩
  | 84 => ⟨S300x300, .f32⟩
  | 85 => ⟨S1x300, .f32⟩
  | 86 => ⟨S300, .f32⟩
  | 87 => ⟨S1x300x300, .f32⟩
  | 88 => ⟨S300x300, .f32⟩
  | 89 => ⟨S1x300, .f32⟩
  | 90 => ⟨S300, .f32⟩
  | 91 => ⟨S50000x300, .f32⟩
  | 92 => ⟨S1x300, .f32⟩
  | 93 => ⟨S50000x300, .f32⟩
  | 94 => ⟨S50000x300, .f32⟩
  | 95 => ⟨S_, .f32⟩
  | 96 => ⟨S50000x300, .f32⟩
  | 97 => ⟨S50000x300, .f32⟩
  | 98 => ⟨S50000x300, .f32⟩
  | 99 => ⟨S1x300, .f32⟩
  | 100 => ⟨S50000x300, .f32⟩
  | 101 => ⟨S50000x300, .f32⟩
  | 102 => ⟨S1x300, .f32⟩
  | 103 => ⟨S300, .f32⟩
  | 104 => ⟨S1x300, .f32⟩
  | 105 => ⟨S300, .f32⟩
  | 106 => ⟨S1x300, .f32⟩
  | 107 => ⟨S50000x300, .f32⟩
  | 108 => ⟨S50000x300, .f32⟩
  | 109 => ⟨S1x300, .f32⟩
  | 110 => ⟨S50000x300, .f32⟩
  | 111 => ⟨S50000x300, .f32⟩
  | 112 => ⟨S1x300, .f32⟩
  | 113 => ⟨S300, .f32⟩
  | 114 => ⟨S_, .f32⟩
  | 115 => ⟨S300, .f32⟩
  | 116 => ⟨S300, .f32⟩
  | 117 => ⟨S300, .f32⟩
  | 118 => ⟨S1x300, .f32⟩
  | 119 => ⟨S50000x300, .f32⟩
  | 120 => ⟨S50000x300, .f32⟩
  | 121 => ⟨S1x300, .f32⟩
  | 122 => ⟨S300, .f32⟩
  | 123 => ⟨S1x300, .f32⟩
  | 124 => ⟨S50000x300, .f32⟩
  | 125 => ⟨S50000x300, .f32⟩
  | 126 => ⟨S_, .f32⟩
  | 127 => ⟨S50000x300, .f32⟩
  | _ => ⟨S50000, .i32⟩

abbrev hbmTy0_3 (i : Nat) : BufTy := match i % 128 with
  | 0 => ⟨S50000x300, .f32⟩
  | 1 => ⟨S50000x87, .f32⟩
  | 2 => ⟨S1x87, .f32⟩
  | 3 => ⟨S50000x87, .f32⟩
  | 4 => ⟨S50000x87, .f32⟩
  | 5 => ⟨S50000x6, .f32⟩
  | 6 => ⟨S1x6, .f32⟩
  | 7 => ⟨S50000x6, .f32⟩
  | 8 => ⟨S50000x6, .f32⟩
  | _ => ⟨S50000, .i32⟩

abbrev hbmTy (i : Nat) : BufTy := match i / 128 with
  | 0 => hbmTy0_0 i
  | 1 => hbmTy0_1 i
  | 2 => hbmTy0_2 i
  | 3 => hbmTy0_3 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_c : Ref sig .tc := ⟨.hbm, 29, rfl⟩
abbrev main_v3 : Ref sig .tc := ⟨.hbm, 30, rfl⟩
abbrev main_v4 : Ref sig .tc := ⟨.hbm, 31, rfl⟩
abbrev main_c_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_call0_cst : Ref sig .tc := ⟨.hbm, 42, rfl⟩
abbrev main_call0_v0 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_call1_cst : Ref sig .tc := ⟨.hbm, 54, rfl⟩
abbrev main_call1_v0 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_1 : Ref sig .tc := ⟨.hbm, 65, rfl⟩
abbrev main_v33 : Ref sig .tc := ⟨.hbm, 66, rfl⟩
abbrev main_v34 : Ref sig .tc := ⟨.hbm, 67, rfl⟩
abbrev main_c_2 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call2_cst : Ref sig .tc := ⟨.hbm, 75, rfl⟩
abbrev main_call2_v0 : Ref sig .tc := ⟨.hbm, 76, rfl⟩
abbrev main_v41 : Ref sig .tc := ⟨.hbm, 77, rfl⟩
abbrev main_cst : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_call3_cst : Ref sig .tc := ⟨.hbm, 95, rfl⟩
abbrev main_call3_v0 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_3 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_call4_cst : Ref sig .tc := ⟨.hbm, 126, rfl⟩
abbrev main_call4_v0 : Ref sig .tc := ⟨.hbm, 127, rfl⟩
abbrev main_v86 : Ref sig .tc := ⟨.hbm, 128, rfl⟩
abbrev main_c_4 : Ref sig .tc := ⟨.hbm, 129, rfl⟩
abbrev main_v87 : Ref sig .tc := ⟨.hbm, 130, rfl⟩
abbrev main_v88 : Ref sig .tc := ⟨.hbm, 131, rfl⟩
abbrev main_c_5 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_call5_cst : Ref sig .tc := ⟨.hbm, 139, rfl⟩
abbrev main_call5_v0 : Ref sig .tc := ⟨.hbm, 140, rfl⟩
abbrev main_v95 : Ref sig .tc := ⟨.hbm, 141, rfl⟩
abbrev main_cst_6 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_call6_cst : Ref sig .tc := ⟨.hbm, 159, rfl⟩
abbrev main_call6_v0 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_7 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_call7_cst : Ref sig .tc := ⟨.hbm, 190, rfl⟩
abbrev main_call7_v0 : Ref sig .tc := ⟨.hbm, 191, rfl⟩
abbrev main_v140 : Ref sig .tc := ⟨.hbm, 192, rfl⟩
abbrev main_c_8 : Ref sig .tc := ⟨.hbm, 193, rfl⟩
abbrev main_v141 : Ref sig .tc := ⟨.hbm, 194, rfl⟩
abbrev main_v142 : Ref sig .tc := ⟨.hbm, 195, rfl⟩
abbrev main_c_9 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_call8_cst : Ref sig .tc := ⟨.hbm, 203, rfl⟩
abbrev main_call8_v0 : Ref sig .tc := ⟨.hbm, 204, rfl⟩
abbrev main_v149 : Ref sig .tc := ⟨.hbm, 205, rfl⟩
abbrev main_cst_10 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_call9_cst : Ref sig .tc := ⟨.hbm, 223, rfl⟩
abbrev main_call9_v0 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_cst_11 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_call10_cst : Ref sig .tc := ⟨.hbm, 254, rfl⟩
abbrev main_call10_v0 : Ref sig .tc := ⟨.hbm, 255, rfl⟩
abbrev main_v194 : Ref sig .tc := ⟨.hbm, 256, rfl⟩
abbrev main_c_12 : Ref sig .tc := ⟨.hbm, 257, rfl⟩
abbrev main_v195 : Ref sig .tc := ⟨.hbm, 258, rfl⟩
abbrev main_v196 : Ref sig .tc := ⟨.hbm, 259, rfl⟩
abbrev main_c_13 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_call11_cst : Ref sig .tc := ⟨.hbm, 267, rfl⟩
abbrev main_call11_v0 : Ref sig .tc := ⟨.hbm, 268, rfl⟩
abbrev main_v203 : Ref sig .tc := ⟨.hbm, 269, rfl⟩
abbrev main_cst_14 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_call12_cst : Ref sig .tc := ⟨.hbm, 287, rfl⟩
abbrev main_call12_v0 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_cst_15 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_call13_cst : Ref sig .tc := ⟨.hbm, 318, rfl⟩
abbrev main_call13_v0 : Ref sig .tc := ⟨.hbm, 319, rfl⟩
abbrev main_v248 : Ref sig .tc := ⟨.hbm, 320, rfl⟩
abbrev main_c_16 : Ref sig .tc := ⟨.hbm, 321, rfl⟩
abbrev main_v249 : Ref sig .tc := ⟨.hbm, 322, rfl⟩
abbrev main_v250 : Ref sig .tc := ⟨.hbm, 323, rfl⟩
abbrev main_c_17 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_call14_cst : Ref sig .tc := ⟨.hbm, 331, rfl⟩
abbrev main_call14_v0 : Ref sig .tc := ⟨.hbm, 332, rfl⟩
abbrev main_v257 : Ref sig .tc := ⟨.hbm, 333, rfl⟩
abbrev main_cst_18 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩
abbrev main_v264 : Ref sig .tc := ⟨.hbm, 341, rfl⟩
abbrev main_v265 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_call15_cst : Ref sig .tc := ⟨.hbm, 351, rfl⟩
abbrev main_call15_v0 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_v277 : Ref sig .tc := ⟨.hbm, 356, rfl⟩
abbrev main_v278 : Ref sig .tc := ⟨.hbm, 357, rfl⟩
abbrev main_v279 : Ref sig .tc := ⟨.hbm, 358, rfl⟩
abbrev main_v280 : Ref sig .tc := ⟨.hbm, 359, rfl⟩
abbrev main_v281 : Ref sig .tc := ⟨.hbm, 360, rfl⟩
abbrev main_v282 : Ref sig .tc := ⟨.hbm, 361, rfl⟩
abbrev main_v283 : Ref sig .tc := ⟨.hbm, 362, rfl⟩
abbrev main_v284 : Ref sig .tc := ⟨.hbm, 363, rfl⟩
abbrev main_v285 : Ref sig .tc := ⟨.hbm, 364, rfl⟩
abbrev main_v286 : Ref sig .tc := ⟨.hbm, 365, rfl⟩
abbrev main_v287 : Ref sig .tc := ⟨.hbm, 366, rfl⟩
abbrev main_v288 : Ref sig .tc := ⟨.hbm, 367, rfl⟩
abbrev main_v289 : Ref sig .tc := ⟨.hbm, 368, rfl⟩
abbrev main_v290 : Ref sig .tc := ⟨.hbm, 369, rfl⟩
abbrev main_cst_19 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_v294 : Ref sig .tc := ⟨.hbm, 374, rfl⟩
abbrev main_v295 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩
abbrev main_v300 : Ref sig .tc := ⟨.hbm, 380, rfl⟩
abbrev main_v301 : Ref sig .tc := ⟨.hbm, 381, rfl⟩
abbrev main_call16_cst : Ref sig .tc := ⟨.hbm, 382, rfl⟩
abbrev main_call16_v0 : Ref sig .tc := ⟨.hbm, 383, rfl⟩
abbrev main_v302 : Ref sig .tc := ⟨.hbm, 384, rfl⟩
abbrev main_v303 : Ref sig .tc := ⟨.hbm, 385, rfl⟩
abbrev main_v304 : Ref sig .tc := ⟨.hbm, 386, rfl⟩
abbrev main_v305 : Ref sig .tc := ⟨.hbm, 387, rfl⟩
abbrev main_v306 : Ref sig .tc := ⟨.hbm, 388, rfl⟩
abbrev main_v307 : Ref sig .tc := ⟨.hbm, 389, rfl⟩
abbrev main_v308 : Ref sig .tc := ⟨.hbm, 390, rfl⟩
abbrev main_v309 : Ref sig .tc := ⟨.hbm, 391, rfl⟩
abbrev main_v310 : Ref sig .tc := ⟨.hbm, 392, rfl⟩

abbrev nD : Nat := 1
abbrev τ : Topo := Topo.v7x

variable {F : FTy → Type} [FloatOps F]

class Facts₀ : Prop where
  bcast_S50000_S50000x1_0 : S50000.BroadcastsInDim S50000x1 (![0] : Fin 1 → Fin S50000x1.rank)
  concatenates_S50000x1_S50000x1_S50000x2_d1 : Shape.Concatenates [S50000x1, S50000x1] S50000x2 1
  bcast_S_S50000 : S_.BroadcastsInDim S50000 (![] : Fin 0 → Fin S50000.rank)
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  bcast_S_S50000x300 : S_.BroadcastsInDim S50000x300 (![] : Fin 0 → Fin S50000x300.rank)
  bcast_S1x300_S125000x300_0_1 : S1x300.BroadcastsInDim S125000x300 (![0, 1] : Fin 2 → Fin S125000x300.rank)
  bcast_S_S125000x300 : S_.BroadcastsInDim S125000x300 (![] : Fin 0 → Fin S125000x300.rank)
  slices_S2x125000_S1x125000_0_0 : S2x125000.Slices ![0, 0] S1x125000
  shapeCasts_S1x125000_S125000 : S1x125000.ShapeCasts S125000
  slices_S2x125000_S1x125000_1_0 : S2x125000.Slices ![1, 0] S1x125000
  bcast_S_S125000 : S_.BroadcastsInDim S125000 (![] : Fin 0 → Fin S125000.rank)
  bcast_S125000_S125000x1_0 : S125000.BroadcastsInDim S125000x1 (![0] : Fin 1 → Fin S125000x1.rank)
  slices_S5x300x300_S1x300x300_0_0_0 : S5x300x300.Slices ![0, 0, 0] S1x300x300
  shapeCasts_S1x300x300_S300x300 : S1x300x300.ShapeCasts S300x300
  slices_S5x300_S1x300_0_0 : S5x300.Slices ![0, 0] S1x300
  shapeCasts_S1x300_S300 : S1x300.ShapeCasts S300
  bcast_S_S300 : S_.BroadcastsInDim S300 (![] : Fin 0 → Fin S300.rank)
  slices_S5x300x300_S1x300x300_1_0_0 : S5x300x300.Slices ![1, 0, 0] S1x300x300
  slices_S5x300_S1x300_1_0 : S5x300.Slices ![1, 0] S1x300
  slices_S5x300x300_S1x300x300_2_0_0 : S5x300x300.Slices ![2, 0, 0] S1x300x300
  slices_S5x300_S1x300_2_0 : S5x300.Slices ![2, 0] S1x300
  slices_S5x300x300_S1x300x300_3_0_0 : S5x300x300.Slices ![3, 0, 0] S1x300x300
  slices_S5x300_S1x300_3_0 : S5x300.Slices ![3, 0] S1x300
  slices_S5x300x300_S1x300x300_4_0_0 : S5x300x300.Slices ![4, 0, 0] S1x300x300
  slices_S5x300_S1x300_4_0 : S5x300.Slices ![4, 0] S1x300
  bcast_S87_S1x87_1 : S87.BroadcastsInDim S1x87 (![1] : Fin 1 → Fin S1x87.rank)
  bcast_S1x87_S50000x87_0_1 : S1x87.BroadcastsInDim S50000x87 (![0, 1] : Fin 2 → Fin S50000x87.rank)
  bcast_S6_S1x6_1 : S6.BroadcastsInDim S1x6 (![1] : Fin 1 → Fin S1x6.rank)
  bcast_S1x6_S50000x6_0_1 : S1x6.BroadcastsInDim S50000x6 (![0, 1] : Fin 2 → Fin S50000x6.rank)
  gather_S87x300_S50000x1_S50000x300_1_0_n_n_0_1_1300_wf : GatherDims.WF S87x300 S50000x1 S50000x300 [1] [0] [] [0] [] 1 ![1, 300]
  dot_S50000x2_S2x300_S50000x300_1_0_0_1_n_n_wf : DotDims.WF S50000x2 S2x300 S50000x300 [1] [0] [0] [1] [] []
  dot_S50000x300_S300x300_S50000x300_1_0_0_1_n_n_wf : DotDims.WF S50000x300 S300x300 S50000x300 [1] [0] [0] [1] [] []
  dot_S125000x3_S3x300_S125000x300_1_0_0_1_n_n_wf : DotDims.WF S125000x3 S3x300 S125000x300 [1] [0] [0] [1] [] []
  dot_S125000x300_S300x300_S125000x300_1_0_0_1_n_n_wf : DotDims.WF S125000x300 S300x300 S125000x300 [1] [0] [0] [1] [] []
  gather_S50000x300_S125000x1_S125000x300_1_0_n_n_0_1_1300_wf : GatherDims.WF S50000x300 S125000x1 S125000x300 [1] [0] [] [0] [] 1 ![1, 300]
  scatter_S50000x300_S125000x1_S125000x300_1_0_0_1_wf : ScatterDims.WF S50000x300 S125000x1 S125000x300 [1] [0] [0] 1
  dot_S50000x300_S300x87_S50000x87_1_0_0_1_n_n_wf : DotDims.WF S50000x300 S300x87 S50000x87 [1] [0] [0] [1] [] []
  dot_S50000x300_S300x6_S50000x6_1_0_0_1_n_n_wf : DotDims.WF S50000x300 S300x6 S50000x6 [1] [0] [0] [1] [] []

variable [Facts₀]

def gather_S87x300_S50000x1_S50000x300_1_0_n_n_0_1_1300 : GatherDims S87x300 S50000x1 S50000x300 where
  offsetDims := [1]
  collapsedSliceDims := [0]
  operandBatchingDims := []
  startIndicesBatchingDims := []
  startIndexMap := [0]
  indexVectorDim := 1
  sliceSizes := ![1, 300]
  wf := gather_S87x300_S50000x1_S50000x300_1_0_n_n_0_1_1300_wf
def dot_S50000x2_S2x300_S50000x300_1_0_0_1_n_n : DotDims S50000x2 S2x300 S50000x300 where
  lhsContracting := [1]
  rhsContracting := [0]
  lhsNonContracting := [0]
  rhsNonContracting := [1]
  lhsBatch := []
  rhsBatch := []
  wf := dot_S50000x2_S2x300_S50000x300_1_0_0_1_n_n_wf
def dot_S50000x300_S300x300_S50000x300_1_0_0_1_n_n : DotDims S50000x300 S300x300 S50000x300 where
  lhsContracting := [1]
  rhsContracting := [0]
  lhsNonContracting := [0]
  rhsNonContracting := [1]
  lhsBatch := []
  rhsBatch := []
  wf := dot_S50000x300_S300x300_S50000x300_1_0_0_1_n_n_wf
def dot_S125000x3_S3x300_S125000x300_1_0_0_1_n_n : DotDims S125000x3 S3x300 S125000x300 where
  lhsContracting := [1]
  rhsContracting := [0]
  lhsNonContracting := [0]
  rhsNonContracting := [1]
  lhsBatch := []
  rhsBatch := []
  wf := dot_S125000x3_S3x300_S125000x300_1_0_0_1_n_n_wf
def dot_S125000x300_S300x300_S125000x300_1_0_0_1_n_n : DotDims S125000x300 S300x300 S125000x300 where
  lhsContracting := [1]
  rhsContracting := [0]
  lhsNonContracting := [0]
  rhsNonContracting := [1]
  lhsBatch := []
  rhsBatch := []
  wf := dot_S125000x300_S300x300_S125000x300_1_0_0_1_n_n_wf
def gather_S50000x300_S125000x1_S125000x300_1_0_n_n_0_1_1300 : GatherDims S50000x300 S125000x1 S125000x300 where
  offsetDims := [1]
  collapsedSliceDims := [0]
  operandBatchingDims := []
  startIndicesBatchingDims := []
  startIndexMap := [0]
  indexVectorDim := 1
  sliceSizes := ![1, 300]
  wf := gather_S50000x300_S125000x1_S125000x300_1_0_n_n_0_1_1300_wf
def scatter_S50000x300_S125000x1_S125000x300_1_0_0_1 : ScatterDims S50000x300 S125000x1 S125000x300 where
  updateWindowDims := [1]
  insertedWindowDims := [0]
  scatterDimsToOperandDims := [0]
  indexVectorDim := 1
  wf := scatter_S50000x300_S125000x1_S125000x300_1_0_0_1_wf
def dot_S50000x300_S300x87_S50000x87_1_0_0_1_n_n : DotDims S50000x300 S300x87 S50000x87 where
  lhsContracting := [1]
  rhsContracting := [0]
  lhsNonContracting := [0]
  rhsNonContracting := [1]
  lhsBatch := []
  rhsBatch := []
  wf := dot_S50000x300_S300x87_S50000x87_1_0_0_1_n_n_wf
def dot_S50000x300_S300x6_S50000x6_1_0_0_1_n_n : DotDims S50000x300 S300x6 S50000x6 where
  lhsContracting := [1]
  rhsContracting := [0]
  lhsNonContracting := [0]
  rhsNonContracting := [1]
  lhsBatch := []
  rhsBatch := []
  wf := dot_S50000x300_S300x6_S50000x6_1_0_0_1_n_n_wf

class Facts : Prop extends Facts₀ where

variable [Facts]
-- ==== Proof.Spec.lean ====
import Idealize.ShloMosaic.PureOps.Ideal
import Mathlib.Algebra.BigOperators.Fin

noncomputable section

open scoped BigOperators

namespace Cert.Spec

open Idealize.ShloMosaic

variable {A K H J N E : Type}

def dense [Fintype K] (x : A → K → EReal) (W : K → J → EReal) (b : J → EReal) : A → J → EReal :=
  fun i j => (∑ k, x i k * W k j) + b j

def relu (x : A → J → EReal) : A → J → EReal := fun i j => max (x i j) 0

def mlp2 [Fintype K] [Fintype H] (x : A → K → EReal) (W1 : K → H → EReal) (b1 : H → EReal)
    (W2 : H → J → EReal) (b2 : J → EReal) : A → J → EReal :=
  dense (relu (dense x W1 b1)) W2 b2

def bnorm (x : A → J → EReal) (γ β μ v : J → EReal) (ε : EReal) : A → J → EReal :=
  fun i j => γ j * (x i j - μ j) * Ideal.rsqrt (v j + ε) + β j

def gin [Fintype J] [Fintype H] (h agg : A → J → EReal) (W1 : J → H → EReal) (b1 : H → EReal)
    (W2 : H → J → EReal) (b2 : J → EReal) (γ β μ v : J → EReal) (ε : EReal) : A → J → EReal :=
  relu (bnorm (mlp2 (fun i k => h i k + agg i k) W1 b1 W2 b2) γ β μ v ε)

def msgs (h : N → J → EReal) (src : E → N) (ee : E → J → EReal) : E → J → EReal :=
  fun e j => max (h (src e) j + ee e j) 0

def segsum [Fintype E] {n : Nat} (dst : E → BitVec 32) (u : E → J → EReal) : Fin n → J → EReal :=
  fun r j => ∑ e, if (dst e).toInt = (r.val : Int) then u e j else 0

def layer [Fintype J] [Fintype H] [Fintype E] {n : Nat} (src : E → Fin n) (dst : E → BitVec 32) (ee : E → J → EReal)
    (h : Fin n → J → EReal) (W1 : J → H → EReal) (b1 : H → EReal) (W2 : H → J → EReal) (b2 : J → EReal)
    (γ β μ v : J → EReal) (ε : EReal) : Fin n → J → EReal :=
  gin h (segsum dst (msgs h src ee)) W1 b1 W2 b2 γ β μ v ε

def embed (atom : K → J → EReal) (zrow : N → K) (nodeMlp : N → J → EReal) : N → J → EReal :=
  fun i j => atom (zrow i) j + nodeMlp i j

def rowOf (n : Nat) (hn : 0 < n) (w : BitVec 32) : Fin n := ⟨min w.toInt.toNat (n - 1), by omega⟩

def stack2 (u v : A → EReal) : A → Fin 2 → EReal := fun i a => if a.val = 0 then u i else v i

def padVec (b : Fin 300 → EReal) (fill : EReal) : Fin 384 → EReal :=
  fun j => if h : j.val < 300 then b ⟨j.val, h⟩ else fill

def padCols (W : K → Fin 300 → EReal) (fill : EReal) : K → Fin 384 → EReal :=
  fun k j => if h : j.val < 300 then W k ⟨j.val, h⟩ else fill

def padBoth (W : Fin 300 → Fin 300 → EReal) : Fin 384 → Fin 384 → EReal :=
  fun k j => if h : k.val < 300 ∧ j.val < 300 then W ⟨k.val, h.1⟩ ⟨j.val, h.2⟩ else 0

def headW (Wz : Fin 300 → Fin 87 → EReal) (Wd : Fin 300 → Fin 6 → EReal) : Fin 384 → Fin 128 → EReal :=
  fun k j => if hk : k.val < 300 then
      (if hj : j.val < 87 then Wz ⟨k.val, hk⟩ ⟨j.val, hj⟩
       else if hj2 : j.val < 93 then Wd ⟨k.val, hk⟩ ⟨j.val - 87, by omega⟩ else 0)
    else 0

def headB (bz : Fin 87 → EReal) (bd : Fin 6 → EReal) : Fin 128 → EReal :=
  fun j => if hj : j.val < 87 then bz ⟨j.val, hj⟩
    else if hj2 : j.val < 93 then bd ⟨j.val - 87, by omega⟩ else 0

def lane (j : Fin 300) : Fin 384 := ⟨j.val, by omega⟩

end Cert.Spec

end
-- ==== Proof.Arr.lean ====
import Idealize.ShloMosaic.Lib.ValueIdx

namespace Cert.Arr

open Idealize.ShloMosaic Idealize.ShloMosaic.ValueIdx

variable {α : Type}

def a1 {n : Nat} (x : (⟨1, ![n]⟩ : Shape).Idx → α) : Fin n → α := fun i => x (ix1 i)

def a2 {n c : Nat} (x : (⟨2, ![n, c]⟩ : Shape).Idx → α) : Fin n → Fin c → α := fun i j => x (ix2 i j)

def a3 {l n c : Nat} (x : (⟨3, ![l, n, c]⟩ : Shape).Idx → α) : Fin l → Fin n → Fin c → α := fun a i j => x (ix3 a i j)

end Cert.Arr
-- ==== Proof.Net.lean ====
import proofs.«422490_j54958401520128_2_alg».proof.Proof.Spec
import proofs.«422490_j54958401520128_2_alg».proof.Proof.Arr

noncomputable section

namespace Cert.Net

open Idealize.ShloMosaic Cert.Spec

def wrapw (n w : BitVec 32) : BitVec 32 := if w.slt 0#32 then w + n else w

def eps : EReal := Ideal.ofBits .f32 0x3727C5AC#32

structure Args where
  z : Fin 50000 → BitVec 32
  chir : Fin 50000 → EReal
  fc : Fin 50000 → EReal
  ei : Fin 2 → Fin 125000 → BitVec 32
  ea : Fin 125000 → Fin 3 → EReal
  atom : Fin 87 → Fin 300 → EReal
  napW1 : Fin 2 → Fin 300 → EReal
  napb1 : Fin 300 → EReal
  napW2 : Fin 300 → Fin 300 → EReal
  napb2 : Fin 300 → EReal
  eeW1 : Fin 3 → Fin 300 → EReal
  eeb1 : Fin 300 → EReal
  eeW2 : Fin 300 → Fin 300 → EReal
  eeb2 : Fin 300 → EReal
  gW1 : Fin 5 → Fin 300 → Fin 300 → EReal
  gb1 : Fin 5 → Fin 300 → EReal
  gW2 : Fin 5 → Fin 300 → Fin 300 → EReal
  gb2 : Fin 5 → Fin 300 → EReal
  gγ : Fin 5 → Fin 300 → EReal
  gβ : Fin 5 → Fin 300 → EReal
  gμ : Fin 5 → Fin 300 → EReal
  gv : Fin 5 → Fin 300 → EReal
  Wz : Fin 300 → Fin 87 → EReal
  bz : Fin 87 → EReal
  Wd : Fin 300 → Fin 6 → EReal
  bd : Fin 6 → EReal

def ofArrays
    (x0 : (⟨1, ![50000]⟩ : Shape).Idx → BitVec 32) (x1 x2 : (⟨1, ![50000]⟩ : Shape).Idx → EReal)
    (x3 : (⟨2, ![2, 125000]⟩ : Shape).Idx → BitVec 32) (x4 : (⟨2, ![125000, 3]⟩ : Shape).Idx → EReal)
    (x5 : (⟨2, ![87, 300]⟩ : Shape).Idx → EReal) (x6 : (⟨2, ![2, 300]⟩ : Shape).Idx → EReal)
    (x7 : (⟨1, ![300]⟩ : Shape).Idx → EReal) (x8 : (⟨2, ![300, 300]⟩ : Shape).Idx → EReal)
    (x9 : (⟨1, ![300]⟩ : Shape).Idx → EReal) (x10 : (⟨2, ![3, 300]⟩ : Shape).Idx → EReal)
    (x11 : (⟨1, ![300]⟩ : Shape).Idx → EReal) (x12 : (⟨2, ![300, 300]⟩ : Shape).Idx → EReal)
    (x13 : (⟨1, ![300]⟩ : Shape).Idx → EReal) (x14 : (⟨3, ![5, 300, 300]⟩ : Shape).Idx → EReal)
    (x15 : (⟨2, ![5, 300]⟩ : Shape).Idx → EReal) (x16 : (⟨3, ![5, 300, 300]⟩ : Shape).Idx → EReal)
    (x17 x18 x19 x20 x21 : (⟨2, ![5, 300]⟩ : Shape).Idx → EReal)
    (x22 : (⟨2, ![300, 87]⟩ : Shape).Idx → EReal) (x23 : (⟨1, ![87]⟩ : Shape).Idx → EReal)
    (x24 : (⟨2, ![300, 6]⟩ : Shape).Idx → EReal) (x25 : (⟨1, ![6]⟩ : Shape).Idx → EReal) : Args where
  z := Arr.a1 x0
  chir := Arr.a1 x1
  fc := Arr.a1 x2
  ei := Arr.a2 x3
  ea := Arr.a2 x4
  atom := Arr.a2 x5
  napW1 := Arr.a2 x6
  napb1 := Arr.a1 x7
  napW2 := Arr.a2 x8
  napb2 := Arr.a1 x9
  eeW1 := Arr.a2 x10
  eeb1 := Arr.a1 x11
  eeW2 := Arr.a2 x12
  eeb2 := Arr.a1 x13
  gW1 := Arr.a3 x14
  gb1 := Arr.a2 x15
  gW2 := Arr.a3 x16
  gb2 := Arr.a2 x17
  gγ := Arr.a2 x18
  gβ := Arr.a2 x19
  gμ := Arr.a2 x20
  gv := Arr.a2 x21
  Wz := Arr.a2 x22
  bz := Arr.a1 x23
  Wd := Arr.a2 x24
  bd := Arr.a1 x25

variable (a : Args)

def zrow (i : Fin 50000) : Fin 87 := rowOf 87 (by norm_num) (wrapw 87#32 (a.z i))

def srcRow (e : Fin 125000) : Fin 50000 := rowOf 50000 (by norm_num) (wrapw 50000#32 (a.ei 0 e))

def dstW (e : Fin 125000) : BitVec 32 := a.ei 1 e

def h0 : Fin 50000 → Fin 300 → EReal :=
  embed a.atom (zrow a) (mlp2 (stack2 a.chir a.fc) a.napW1 a.napb1 a.napW2 a.napb2)

def ee : Fin 125000 → Fin 300 → EReal := mlp2 a.ea a.eeW1 a.eeb1 a.eeW2 a.eeb2

def step (l : Fin 5) (h : Fin 50000 → Fin 300 → EReal) : Fin 50000 → Fin 300 → EReal :=
  layer (srcRow a) (dstW a) (ee a) h (a.gW1 l) (a.gb1 l) (a.gW2 l) (a.gb2 l) (a.gγ l) (a.gβ l) (a.gμ l) (a.gv l) eps

def h5 : Fin 50000 → Fin 300 → EReal := step a 4 (step a 3 (step a 2 (step a 1 (step a 0 (h0 a)))))

def logits : Fin 50000 → Fin 87 → EReal := dense (h5 a) a.Wz a.bz

def dists : Fin 50000 → Fin 6 → EReal := dense (h5 a) a.Wd a.bd

end Cert.Net

end
-- ==== Proof.LibRows.lean ====
import Idealize.ShloMosaic.PureOps.Ideal
import Idealize.ShloMosaic.Lib.ValueIdx

noncomputable section

open scoped BigOperators

namespace Cert.LibRows

open Idealize.ShloMosaic Idealize.ShloMosaic.ValueIdx

section RowGather
variable {α : Type}

abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>

    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>

    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

section RowScatter

abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

end Cert.LibRows

end
-- ==== Proof.Dense.lean ====
import proofs.«422490_j54958401520128_2_alg».proof.Proof.Spec
import proofs.«422490_j54958401520128_2_alg».proof.Proof.Arr
import Idealize.ShloMosaic.Lib.StackMember
import Idealize.ShloMosaic.Lib.Pipeline.Value
import Idealize.ShloMosaic.PureOps.Ideal.Laws

noncomputable section

open scoped BigOperators

namespace Cert.Dense

open Idealize.ShloMosaic Idealize.ShloMosaic.ValueIdx Idealize.ShloMosaic.StackMember Cert.Arr Cert.Spec

variable {m k h n : Nat}

-- A lane vector set as one row and copied down the rows reads, at (p, q), its lane q.
theorem rows_apply {α : Type} (w1 : (⟨1, ![n]⟩ : Shape).BroadcastsInDim ⟨2, ![1, n]⟩ ![1])
    (w2 : (⟨2, ![1, n]⟩ : Shape).BroadcastsInDim ⟨2, ![m, n]⟩ ![0, 1]) (b : (⟨1, ![n]⟩ : Shape).Idx → α) (p : Fin m) (q : Fin n) :
    broadcastInDim ⟨2, ![m, n]⟩ ![0, 1] w2 (broadcastInDim ⟨2, ![1, n]⟩ ![1] w1 b) (ix2 p q) = b (ix1 q) := by
  have hq : q.val = if n = 1 then 0 else q.val := by have := q.isLt; split <;> omega
  refine (broadcastInDim_apply _ w2 _ (ix2 p q) (ix2 (0 : Fin 1) q) fun a => ?_).trans
    (broadcastInDim_apply _ w1 b _ (ix1 q) fun a => ?_)
  · match a with
    | ⟨0, _⟩ => exact (if_pos rfl).symm
    | ⟨1, _⟩ => exact hq
  · match a with
    | ⟨0, _⟩ => exact hq

-- A matrix product plus a bias row is the dense layer of the operands read by coordinates.
theorem dense_value (D : DotDims ⟨2, ![m, k]⟩ ⟨2, ![k, n]⟩ ⟨2, ![m, n]⟩) (hD : D = DotDims.plain m k n) w1 w2
    (X : FVec Ideal ⟨2, ![m, k]⟩ .f32) (W : FVec Ideal ⟨2, ![k, n]⟩ .f32) (b : FVec Ideal ⟨1, ![n]⟩ .f32) :
    a2 (addf (F := Ideal) (φ := .f32) (Host.dotGeneral (F := Ideal) (φ₁ := .f32) (φ₂ := .f32) D none X W)
        (broadcastInDim ⟨2, ![m, n]⟩ ![0, 1] w2 (broadcastInDim ⟨2, ![1, n]⟩ ![1] w1 b)))
      = dense (a2 X) (a2 W) (a1 b) := by
  subst hD
  funext p q
  exact congrArg₂ (· + ·) (dotGeneral_plain_apply none X W p q) (rows_apply w1 w2 b p q)

-- The maximum with a zero splat is max (·, 0).
theorem relu_value (X Z : FVec Ideal ⟨2, ![m, n]⟩ .f32) (hZ : ∀ i, Z i = 0) :
    a2 (maximumf (F := Ideal) (φ := .f32) X Z) = relu (a2 X) := by
  funext p q
  exact congrArg (max (X (ix2 p q))) (hZ _)

-- dense, max (·, 0), dense.
theorem mlp2_value (D1 : DotDims ⟨2, ![m, k]⟩ ⟨2, ![k, h]⟩ ⟨2, ![m, h]⟩) (hD1 : D1 = DotDims.plain m k h)
    (D2 : DotDims ⟨2, ![m, h]⟩ ⟨2, ![h, n]⟩ ⟨2, ![m, n]⟩) (hD2 : D2 = DotDims.plain m h n) u1 u2 w1 w2
    (X : FVec Ideal ⟨2, ![m, k]⟩ .f32) (W1 : FVec Ideal ⟨2, ![k, h]⟩ .f32) (b1 : FVec Ideal ⟨1, ![h]⟩ .f32)
    (W2 : FVec Ideal ⟨2, ![h, n]⟩ .f32) (b2 : FVec Ideal ⟨1, ![n]⟩ .f32) (Z : FVec Ideal ⟨2, ![m, h]⟩ .f32) (hZ : ∀ i, Z i = 0) :
    a2 (addf (F := Ideal) (φ := .f32) (Host.dotGeneral (F := Ideal) (φ₁ := .f32) (φ₂ := .f32) D2 none
          (maximumf (F := Ideal) (φ := .f32) (addf (F := Ideal) (φ := .f32) (Host.dotGeneral (F := Ideal) (φ₁ := .f32) (φ₂ := .f32) D1 none X W1)
            (broadcastInDim ⟨2, ![m, h]⟩ ![0, 1] u2 (broadcastInDim ⟨2, ![1, h]⟩ ![1] u1 b1))) Z) W2)
        (broadcastInDim ⟨2, ![m, n]⟩ ![0, 1] w2 (broadcastInDim ⟨2, ![1, n]⟩ ![1] w1 b2)))
      = mlp2 (a2 X) (a2 W1) (a1 b1) (a2 W2) (a1 b2) := by
  rw [dense_value D2 hD2, relu_value _ _ hZ, dense_value D1 hD1]
  rfl

end Cert.Dense

end
-- ==== Proof.RefLayerFn.lean ====
import proofs.«422490_j54958401520128_2_alg».proof.Proof.Gen.ReferenceIdeal
import proofs.«422490_j54958401520128_2_alg».proof.Proof.Net
import proofs.«422490_j54958401520128_2_alg».proof.Proof.LibRows
import proofs.«422490_j54958401520128_2_alg».proof.Proof.Dense

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Arr Cert.Spec

abbrev NodeF : Type := (⟨S50000x300, .f32⟩ : BufTy).Contents (Elt Ideal)
abbrev EdgeF : Type := (⟨S125000x300, .f32⟩ : BufTy).Contents (Elt Ideal)
abbrev Col : Type := (⟨S125000x1, .i32⟩ : BufTy).Contents (Elt Ideal)
abbrev Words : Type := (⟨S125000, .i32⟩ : BufTy).Contents (Elt Ideal)
abbrev EdgeList : Type := (⟨S2x125000, .i32⟩ : BufTy).Contents (Elt Ideal)
abbrev Mat : Type := (⟨S300x300, .f32⟩ : BufTy).Contents (Elt Ideal)
abbrev Lanes : Type := (⟨S300, .f32⟩ : BufTy).Contents (Elt Ideal)
abbrev MatStack : Type := (⟨S5x300x300, .f32⟩ : BufTy).Contents (Elt Ideal)
abbrev LaneStack : Type := (⟨S5x300, .f32⟩ : BufTy).Contents (Elt Ideal)
def zeroN : NodeF := broadcastInDim S50000x300 ![] bcast_S_S50000x300 (constant (F := Ideal) S_ .f32 0x00000000#32)
def zeroE : EdgeF := broadcastInDim S125000x300 ![] bcast_S_S125000x300 (constant (F := Ideal) S_ .f32 0x00000000#32)
def epsL : Lanes := broadcastInDim S300 ![] bcast_S_S300 (constant (F := Ideal) S_ .f32 0x3727C5AC#32)

def overNodes (b : Lanes) : NodeF :=
  broadcastInDim S50000x300 ![0, 1] bcast_S1x300_S50000x300_0_1 (broadcastInDim S1x300 ![1] bcast_S300_S1x300_1 b)

theorem zeroN_apply (i : S50000x300.Idx) : zeroN i = 0 := Ideal.ofBits_zero_f32

theorem zeroE_apply (i : S125000x300.Idx) : zeroE i = 0 := Ideal.ofBits_zero_f32

theorem overNodes_apply (b : Lanes) (p : Fin 50000) (q : Fin 300) : overNodes b (ix2 p q) = b (ix1 q) :=
  Dense.rows_apply bcast_S300_S1x300_1 bcast_S1x300_S50000x300_0_1 b p q

-- Member g of a stack, cut out as the slice [g : g + 1] of the leading axis with that unit axis dropped, reads the stack at (g, j).
theorem sliceMember_apply {α : Type} {r G : Nat} {d : Fin r → Nat} (off : Fin (r + 1) → Nat)
    (x : (⟨r + 1, Matrix.vecCons G d⟩ : Shape).Idx → α)
    (hs : (⟨r + 1, Matrix.vecCons G d⟩ : Shape).Slices off ⟨r + 1, Matrix.vecCons 1 d⟩)
    (hc : (⟨r + 1, Matrix.vecCons 1 d⟩ : Shape).ShapeCasts ⟨r, d⟩) (g : Fin G) (h0 : off 0 = g.val)
    (ht : ∀ a : Fin r, off a.succ = 0) (j : (⟨r, d⟩ : Shape).Idx) :
    shapeCast ⟨r, d⟩ (extractStridedSlice ⟨r + 1, Matrix.vecCons 1 d⟩ off x hs) hc j = x (Fin.cons g j) := by
  rw [shapeCast_dropUnit_apply]
  refine extractStridedSlice_apply off x hs _ _ fun a => ?_
  refine Fin.cases ?_ (fun b => ?_) a
  · show (g : Nat) = off 0 + 0
    omega
  · show (j b).val = off b.succ + (j b).val
    rw [ht]; omega

def rowWords (r : Nat) (x3 : EdgeList) (hs : S2x125000.Slices ![r, 0] S1x125000) : Words :=
  shapeCast _ (extractStridedSlice S1x125000 ![r, 0] x3 hs) shapeCasts_S1x125000_S125000

def wrapWords (s : Words) : Words :=
  select (cmpi .slt s (broadcastInDim S125000 ![] bcast_S_S125000 (constantI S_ 32 0#32)))
    (addi s (broadcastInDim S125000 ![] bcast_S_S125000 (constantI S_ 32 50000#32))) s
def asCol (s : Words) : Col := broadcastInDim S125000x1 ![0] bcast_S125000_S125000x1_0 s

theorem rowWords_apply (r : Nat) (hr : r < 2) (x3 : EdgeList) (hs : S2x125000.Slices ![r, 0] S1x125000) (e : Fin 125000) :
    rowWords r x3 hs (ix1 e) = x3 (ix2 (⟨r, hr⟩ : Fin 2) e) :=
  (sliceMember_apply ![r, 0] x3 hs shapeCasts_S1x125000_S125000 ⟨r, hr⟩ rfl (fun a => by fin_cases a <;> rfl) (ix1 e)).trans
    (congrArg x3 (StackMember.cons_ix1 _ e))

-- The select on "w < 0, signed" between w + n and w is the wrap of a negative index into an axis of extent n.
theorem wrap_word (n w : BitVec 32) :
    Scalar.select (IntOp.cmpi .slt w 0#32) (IntOp.addi w n) w = Net.wrapw n w := by
  unfold Net.wrapw Scalar.select IntOp.cmpi IntOp.addi
  cases h : w.slt 0#32 <;> simp

theorem wrapWords_apply (s : Words) (i : S125000.Idx) : wrapWords s i = Net.wrapw 50000#32 (s i) :=
  wrap_word 50000#32 (s i)

theorem asCol_apply (s : Words) (e : Fin 125000) : asCol s (ix2 e (0 : Fin 1)) = s (ix1 e) := by
  unfold asCol
  refine broadcastInDim_apply _ bcast_S125000_S125000x1_0 s (ix2 e (0 : Fin 1)) (ix1 e) (fun a => ?_)
  match a with
  | ⟨0, _⟩ => show e.val = if (125000 : Nat) = 1 then 0 else e.val; rw [if_neg (by decide)]

def srcCol (x3 : EdgeList) : Col := asCol (wrapWords (rowWords 0 x3 slices_S2x125000_S1x125000_0_0))
def dstCol (x3 : EdgeList) : Col := asCol (rowWords 1 x3 slices_S2x125000_S1x125000_1_0)

theorem srcCol_apply (x3 : EdgeList) (e : Fin 125000) :
    srcCol x3 (ix2 e (0 : Fin 1)) = Net.wrapw 50000#32 (x3 (ix2 (0 : Fin 2) e)) := by
  unfold srcCol
  rw [asCol_apply, wrapWords_apply, rowWords_apply 0 (by decide)]
  rfl

theorem dstCol_apply (x3 : EdgeList) (e : Fin 125000) : dstCol x3 (ix2 e (0 : Fin 1)) = x3 (ix2 (1 : Fin 2) e) := by
  unfold dstCol
  rw [asCol_apply, rowWords_apply 1 (by decide)]
  rfl

def matSlice (l : Nat) (x : MatStack) (hs : S5x300x300.Slices ![l, 0, 0] S1x300x300) : Mat :=
  shapeCast _ (extractStridedSlice S1x300x300 ![l, 0, 0] x hs) shapeCasts_S1x300x300_S300x300

def laneSlice (l : Nat) (x : LaneStack) (hs : S5x300.Slices ![l, 0] S1x300) : Lanes :=
  shapeCast _ (extractStridedSlice S1x300 ![l, 0] x hs) shapeCasts_S1x300_S300

theorem matSlice_value (l : Nat) (hl : l < 5) (x : MatStack) (hs : S5x300x300.Slices ![l, 0, 0] S1x300x300) :
    a2 (matSlice l x hs) = a3 x ⟨l, hl⟩ := by
  funext k j
  exact (sliceMember_apply ![l, 0, 0] x hs shapeCasts_S1x300x300_S300x300 ⟨l, hl⟩ rfl (fun a => by fin_cases a <;> rfl) (ix2 k j)).trans
    (congrArg x (StackMember.cons_ix2 _ k j))

theorem laneSlice_value (l : Nat) (hl : l < 5) (x : LaneStack) (hs : S5x300.Slices ![l, 0] S1x300) :
    a1 (laneSlice l x hs) = a2 x ⟨l, hl⟩ := by
  funext j
  exact (sliceMember_apply ![l, 0] x hs shapeCasts_S1x300_S300 ⟨l, hl⟩ rfl (fun a => by fin_cases a <;> rfl) (ix1 j)).trans
    (congrArg x (StackMember.cons_ix1 _ j))

section Layer
variable (h : NodeF) (ee : EdgeF) (si di : Col) (W1 W2 : Mat) (b1 b2 γ β μ v : Lanes)

def msgF : EdgeF := maximumf (F := Ideal) (φ := .f32) (addf (F := Ideal) (φ := .f32) (Host.gather gather_S50000x300_S125000x1_S125000x300_1_0_n_n_0_1_1300 h si) ee) zeroE

def aggF : NodeF := Host.scatterAdd (F := Ideal) (φ := .f32) scatter_S50000x300_S125000x1_S125000x300_1_0_0_1 zeroN di (msgF h ee si)

def hidF : NodeF :=
  maximumf (F := Ideal) (φ := .f32) (addf (F := Ideal) (φ := .f32) (Host.dotGeneral (F := Ideal) (φ₁ := .f32) (φ₂ := .f32) dot_S50000x300_S300x300_S50000x300_1_0_0_1_n_n none (addf (F := Ideal) (φ := .f32) h (aggF h ee si di)) W1) (overNodes b1)) zeroN

def outF : NodeF :=
  addf (F := Ideal) (φ := .f32) (Host.dotGeneral (F := Ideal) (φ₁ := .f32) (φ₂ := .f32) dot_S50000x300_S300x300_S50000x300_1_0_0_1_n_n none (hidF h ee si di W1 b1) W2) (overNodes b2)

def bnF : NodeF :=
  addf (F := Ideal) (φ := .f32) (mulf (F := Ideal) (φ := .f32) (mulf (F := Ideal) (φ := .f32) (overNodes γ) (subf (F := Ideal) (φ := .f32) (outF h ee si di W1 W2 b1 b2) (overNodes μ)))
      (overNodes (Host.rsqrt (F := Ideal) (φ := .f32) (addf (F := Ideal) (φ := .f32) v epsL))))
    (overNodes β)

def layerFn : NodeF := maximumf (F := Ideal) (φ := .f32) (bnF h ee si di W1 W2 b1 b2 γ β μ v) zeroN

theorem gather_apply (p : Fin 125000) (q : Fin 300) :
    Host.gather gather_S50000x300_S125000x1_S125000x300_1_0_n_n_0_1_1300 h si (ix2 p q) = h (ix2 (rowOf 50000 (by norm_num) (si (ix2 p (0 : Fin 1)))) q) :=
  LibRows.rowGather_apply (n := 50000) (e := 125000) (c := 300) (by norm_num) gather_S50000x300_S125000x1_S125000x300_1_0_n_n_0_1_1300_wf h si p q

theorem msgF_value :
    a2 (msgF h ee si) = msgs (a2 h) (fun e => rowOf 50000 (by norm_num) (si (ix2 e (0 : Fin 1)))) (a2 ee) := by
  funext p q
  show msgF h ee si (ix2 p q) = _
  unfold msgF
  rw [maximumf_apply, addf_apply, gather_apply, zeroE_apply]
  rfl

theorem aggF_value : a2 (aggF h ee si di) = segsum (fun e => di (ix2 e (0 : Fin 1))) (a2 (msgF h ee si)) := by
  funext r q
  show aggF h ee si di (ix2 r q) = _
  unfold aggF
  refine (LibRows.rowScatterAdd_apply (n := 50000) (e := 125000) (c := 300) scatter_S50000x300_S125000x1_S125000x300_1_0_0_1_wf zeroN di (msgF h ee si) r q).trans ?_
  rw [zeroN_apply, zero_add]
  rfl

theorem outF_value :
    a2 (outF h ee si di W1 W2 b1 b2) = mlp2 (fun i k => a2 h i k + a2 (aggF h ee si di) i k) (a2 W1) (a1 b1) (a2 W2) (a1 b2) :=
  Dense.mlp2_value (m := 50000) (k := 300) (h := 300) (n := 300) _ rfl _ rfl _ _ _ _ (addf (F := Ideal) (φ := .f32) h (aggF h ee si di)) W1 b1 W2 b2 _ zeroN_apply

theorem bnF_value :
    a2 (bnF h ee si di W1 W2 b1 b2 γ β μ v) = bnorm (a2 (outF h ee si di W1 W2 b1 b2)) (a1 γ) (a1 β) (a1 μ) (a1 v) Net.eps := by
  funext p q
  show bnF h ee si di W1 W2 b1 b2 γ β μ v (ix2 p q) = _
  unfold bnF
  rw [addf_apply, mulf_apply, mulf_apply, subf_apply, overNodes_apply, overNodes_apply, overNodes_apply, overNodes_apply]
  rfl

-- One graph layer's operations are the specification's layer, at the source rows the words of si name and the destination words of di.
theorem layerFn_value :
    a2 (layerFn h ee si di W1 W2 b1 b2 γ β μ v)
      = Spec.layer (fun e : Fin 125000 => rowOf 50000 (by norm_num) (si (ix2 e (0 : Fin 1))))
          (fun e : Fin 125000 => di (ix2 e (0 : Fin 1))) (a2 ee) (a2 h)
          (a2 W1) (a1 b1) (a2 W2) (a1 b2) (a1 γ) (a1 β) (a1 μ) (a1 v) Net.eps := by
  unfold layerFn
  rw [Dense.relu_value _ _ zeroN_apply, bnF_value, outF_value, aggF_value, msgF_value]
  rfl

end Layer

-- Over the edge list and slice l of the eight parameter stacks the layer is the network's step l.
theorem layerFn_step {x0 x1 x2 x3 x4 x5 x6 x7 x8 x9 x10 x11 x12 x13 x14 x15 x16 x17 x18 x19 x20 x21 x22 x23 x24 x25} {ee : EdgeF}
    (Hee : a2 ee = Net.ee (Net.ofArrays x0 x1 x2 x3 x4 x5 x6 x7 x8 x9 x10 x11 x12 x13 x14 x15 x16 x17 x18 x19 x20 x21 x22 x23 x24 x25))
    (l : Nat) (hl : l < 5) (h : NodeF) {hs14 hs16 hs15 hs17 hs18 hs19 hs20 hs21} :
    a2 (layerFn h ee (srcCol x3) (dstCol x3) (matSlice l x14 hs14) (matSlice l x16 hs16)
        (laneSlice l x15 hs15) (laneSlice l x17 hs17) (laneSlice l x18 hs18) (laneSlice l x19 hs19)
        (laneSlice l x20 hs20) (laneSlice l x21 hs21))
      = Net.step (Net.ofArrays x0 x1 x2 x3 x4 x5 x6 x7 x8 x9 x10 x11 x12 x13 x14 x15 x16 x17 x18 x19 x20 x21 x22 x23 x24 x25) ⟨l, hl⟩ (a2 h) := by
  rw [layerFn_value, Hee]
  simp only [matSlice_value l hl, laneSlice_value l hl, srcCol_apply, dstCol_apply]
  rfl

end Cert.ReferenceIdeal.RefValue

end
-- ==== Proof.LibTypedRef.lean ====
import Idealize.ShloMosaic.Lib.StableHlo

namespace Idealize.ShloMosaic.StableHlo.TRef

variable {sig : RefSig} {Val : EltTy → Type} {T : BufTy}

theorem ofBuf_toBuf (x : TRef sig T) (v : T.Contents Val) : x.ofBuf (x.toBuf v) = v := by
  obtain ⟨r, h, _, _⟩ := x
  subst h
  rfl

end Idealize.ShloMosaic.StableHlo.TRef
-- ==== Proof.Line.lean ====
import proofs.«422490_j54958401520128_2_alg».proof.Proof.RefOps
import proofs.«422490_j54958401520128_2_alg».proof.Proof.RefLayerFn
import proofs.«422490_j54958401520128_2_alg».proof.Proof.LibTypedRef
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo
open Cert.ReferenceIdeal.RefValue Cert.ReferenceIdeal.RefOps

variable {Val : EltTy → Type} {F : FTy → Type} [FloatOps F]

/-- The operation touches named buffers only, determines its result, and writes one buffer, of index at least lo. -/
def Fits (lo : Nat) (op : HloOp τ sig Val) : Prop :=
  op.bufs ⊆ tcRefs τ sig ∧ op.fresh = ∅ ∧ ∃ y : Ref sig .tc, lo ≤ y.idx.val ∧ op.writes = {Proc.devRef .tc y}

theorem Fits.mono {lo lo' : Nat} (h : lo' ≤ lo) (op : HloOp τ sig Val) (hf : Fits lo op) : Fits lo' op := by
  obtain ⟨hs, hf, y, hy, e⟩ := hf
  exact ⟨hs, hf, y, h.trans hy, e⟩

/-- Buffers are numbered in the order they are written: a line that starts at index lo keeps every buffer below lo. -/
theorem kept {lo : Nat} {ops : List (HloOp τ sig Val)} (hw : ops.Forall (Fits lo)) (V : Valuation τ sig Val)
    {r : Ref sig .tc} (hr : r.idx.val < lo) : after ops V r = V r :=
  after_of_forall_not_mem ops V fun op hop hb => by
    obtain ⟨_, _, y, hy, e⟩ := List.forall_iff_forall_mem.mp hw op hop
    rw [e, Finset.mem_singleton] at hb
    obtain rfl := Proc.devRef_injective _ hb
    omega

/-- The seven pieces of the program, each with the index of the first buffer it writes. -/
theorem fits : (opsPre (F := F)).Forall (Fits 26) ∧ (opsL0 (F := F)).Forall (Fits 61) ∧ (opsL1 (F := F)).Forall (Fits 129)
    ∧ (opsL2 (F := F)).Forall (Fits 193) ∧ (opsL3 (F := F)).Forall (Fits 257) ∧ (opsL4 (F := F)).Forall (Fits 321)
    ∧ (opsPost (F := F)).Forall (Fits 385) := by
  repeat' apply And.intro
  all_goals first
    | exact ⟨_, by decide, rfl⟩
    | exact rfl
    | simp only [nullary_bufs_sub, unary_bufs_sub, binary_bufs_sub, ternary_bufs_sub, reshape_bufs_sub]

theorem fitsAll : (opsAll (F := F)).Forall (Fits 26) := by
  simp only [opsAll, List.forall_append]
  exact ⟨fits.1, fits.2.1.imp (Fits.mono (by decide)), fits.2.2.1.imp (Fits.mono (by decide)),
    fits.2.2.2.1.imp (Fits.mono (by decide)), fits.2.2.2.2.1.imp (Fits.mono (by decide)),
    fits.2.2.2.2.2.1.imp (Fits.mono (by decide)), fits.2.2.2.2.2.2.imp (Fits.mono (by decide))⟩

/-- One graph layer over the contents V: the edge features and slice l of the eight parameter stacks are read from V. -/
def layerAt (l : Nat) (hm : S5x300x300.Slices ![l, 0, 0] S1x300x300) (hl : S5x300.Slices ![l, 0] S1x300)
    (V : Valuation τ sig (Elt Ideal)) (h : NodeF) (si di : Col) : NodeF :=
  layerFn h (V main_v28) si di (matSlice l (V main_arg14) hm) (matSlice l (V main_arg16) hm)
    (laneSlice l (V main_arg15) hl) (laneSlice l (V main_arg17) hl) (laneSlice l (V main_arg18) hl)
    (laneSlice l (V main_arg19) hl) (laneSlice l (V main_arg20) hl) (laneSlice l (V main_arg21) hl)

end Cert.ReferenceIdeal.Line

end
-- ==== Proof.RefLaunch.lean ====
import proofs.«422490_j54958401520128_2_alg».proof.Proof.Line

noncomputable section

namespace Cert.ReferenceIdeal.RefLaunch

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.Line

variable {F : FTy → Type} [FloatOps F]

theorem take_drop_append {α : Type} (n : Nat) (l r : List α) : l.take n ++ (l.drop n ++ r) = l ++ r := by
  rw [← List.append_assoc, List.take_append_drop]

/-- The program's six parts, as consecutive runs of the operation list. -/
def win0 : List (HloOp τ sig (Elt F)) := opsPre ++ opsL0.take 31
def win1 : List (HloOp τ sig (Elt F)) := opsL0.drop 31 ++ opsL1.take 29
def win2 : List (HloOp τ sig (Elt F)) := opsL1.drop 29 ++ opsL2.take 33
def win3 : List (HloOp τ sig (Elt F)) := opsL2.drop 33 ++ opsL3.take 35
def win4 : List (HloOp τ sig (Elt F)) := opsL3.drop 35 ++ opsL4.take 37
def win5 : List (HloOp τ sig (Elt F)) := opsL4.drop 37 ++ opsPost

set_option maxRecDepth 8192 in
set_option maxHeartbeats 4000000 in
theorem part0_eq (c : Dev nD) : main_part0 (F := F) c = seq win0 := rfl
set_option maxRecDepth 8192 in
set_option maxHeartbeats 4000000 in
theorem part1_eq (c : Dev nD) : main_part1 (F := F) c = seq win1 := rfl
set_option maxRecDepth 8192 in
set_option maxHeartbeats 4000000 in
theorem part2_eq (c : Dev nD) : main_part2 (F := F) c = seq win2 := rfl
set_option maxRecDepth 8192 in
set_option maxHeartbeats 4000000 in
theorem part3_eq (c : Dev nD) : main_part3 (F := F) c = seq win3 := rfl
set_option maxRecDepth 8192 in
set_option maxHeartbeats 4000000 in
theorem part4_eq (c : Dev nD) : main_part4 (F := F) c = seq win4 := rfl
set_option maxRecDepth 8192 in
set_option maxHeartbeats 4000000 in
theorem part5_eq (c : Dev nD) : main_part5 (F := F) c = seq win5 := rfl

/-- The program is the sequence of the whole operation list: the windows joined are the pieces joined. -/
theorem main_eq (c : Dev nD) : main (F := F) c = seq opsAll := by
  have e : (opsAll : List (HloOp τ sig (Elt F))) = win0 ++ (win1 ++ (win2 ++ (win3 ++ (win4 ++ win5)))) := by
    unfold opsAll win0 win1 win2 win3 win4 win5
    simp only [List.append_assoc, take_drop_append]
  rw [e, seq_append, seq_append, seq_append, seq_append, seq_append,
    ← part0_eq c, ← part1_eq c, ← part2_eq c, ← part3_eq c, ← part4_eq c, ← part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution terminates, each buffer at the fold of the operations over its launch contents. -/
theorem launch (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (opsAll (F := F)) (launchContents m d) (Proc.devRef .tc b) :=
  run_seq scopedRefs_eq scopedSems_eq defs main (fun _ => opsAll) main_eq (fun _ => fitsAll.imp fun _ h => h.1) m ρ
    (fun _ => List.forall_iff_forall_mem.mp (fitsAll.imp fun _ h => h.2.1))

end Cert.ReferenceIdeal.RefLaunch

end
-- ==== Proof.RefRead.lean ====
import proofs.«422490_j54958401520128_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S50000, .f32⟩ : BufTy).Contents (Elt F)) : (⟨S50000x1, .f32⟩ : BufTy).Contents (Elt F) :=
  broadcastInDim S50000x1 ![0] bcast_S50000_S50000x1_0 (x1)
abbrev idx_main_v0 (i : S50000x1.Idx) : S50000.Idx := fun a => match a with
  | ⟨0, _⟩ => ⟨(i 0).val, (i 0).isLt⟩
theorem val_main_v0_apply (x1 : (⟨S50000, .f32⟩ : BufTy).Contents (Elt F)) (i : S50000x1.Idx) :
    val_main_v0 (F := F) x1 i = x1 (idx_main_v0 i) := by
  unfold val_main_v0
  exact broadcastInDim_apply _ bcast_S50000_S50000x1_0 x1 i (idx_main_v0 i) (fun a => match a with
    | ⟨0, _⟩ => by show (i 0).val = if (50000 : Nat) = 1 then 0 else (i 0).val; rw [if_neg (by decide)])

def val_main_v1 (x2 : (⟨S50000, .f32⟩ : BufTy).Contents (Elt F)) : (⟨S50000x1, .f32⟩ : BufTy).Contents (Elt F) :=
  broadcastInDim S50000x1 ![0] bcast_S50000_S50000x1_0 (x2)
abbrev idx_main_v1 (i : S50000x1.Idx) : S50000.Idx := fun a => match a with
  | ⟨0, _⟩ => ⟨(i 0).val, (i 0).isLt⟩
theorem val_main_v1_apply (x2 : (⟨S50000, .f32⟩ : BufTy).Contents (Elt F)) (i : S50000x1.Idx) :
    val_main_v1 (F := F) x2 i = x2 (idx_main_v1 i) := by
  unfold val_main_v1
  exact broadcastInDim_apply _ bcast_S50000_S50000x1_0 x2 i (idx_main_v1 i) (fun a => match a with
    | ⟨0, _⟩ => by show (i 0).val = if (50000 : Nat) = 1 then 0 else (i 0).val; rw [if_neg (by decide)])

def val_main_v2 (x1 x2 : (⟨S50000, .f32⟩ : BufTy).Contents (Elt F)) : (⟨S50000x2, .f32⟩ : BufTy).Contents (Elt F) :=
  concatenate S50000x2 1 [⟨S50000x1, (val_main_v0 (F := F) x1)⟩, ⟨S50000x1, (val_main_v1 (F := F) x2)⟩] concatenates_S50000x1_S50000x1_S50000x2_d1

def val_main_c : (⟨S_, .i32⟩ : BufTy).Contents (Elt F) :=
  constantI S_ 32 0#32

def val_main_v3 : (⟨S50000, .i32⟩ : BufTy).Contents (Elt F) :=
  broadcastInDim S50000 ![] bcast_S_S50000 (val_main_c (F := F))

def val_main_v4 (x0 : (⟨S50000, .i32⟩ : BufTy).Contents (Elt F)) : (⟨S50000, .i1⟩ : BufTy).Contents (Elt F) :=
  cmpi .slt (x0) (val_main_v3 (F := F))

def val_main_c_0 : (⟨S_, .i32⟩ : BufTy).Contents (Elt F) :=
  constantI S_ 32 87#32

def val_main_v5 : (⟨S50000, .i32⟩ : BufTy).Contents (Elt F) :=
  broadcastInDim S50000 ![] bcast_S_S50000 (val_main_c_0 (F := F))

def val_main_v6 (x0 : (⟨S50000, .i32⟩ : BufTy).Contents (Elt F)) : (⟨S50000, .i32⟩ : BufTy).Contents (Elt F) :=
  addi (x0) (val_main_v5 (F := F))

def val_main_v7 (x0 : (⟨S50000, .i32⟩ : BufTy).Contents (Elt F)) : (⟨S50000, .i32⟩ : BufTy).Contents (Elt F) :=
  select (val_main_v4 (F := F) x0) (val_main_v6 (F := F) x0) (x0)

def val_main_v8 (x0 : (⟨S50000, .i32⟩ : BufTy).Contents (Elt F)) : (⟨S50000x1, .i32⟩ : BufTy).Contents (Elt F) :=
  broadcastInDim S50000x1 ![0] bcast_S50000_S50000x1_0 (val_main_v7 (F := F) x0)
abbrev idx_main_v8 (i : S50000x1.Idx) : S50000.Idx := fun a => match a with
  | ⟨0, _⟩ => ⟨(i 0).val, (i 0).isLt⟩
theorem val_main_v8_apply (x0 : (⟨S50000, .i32⟩ : BufTy).Contents (Elt F)) (i : S50000x1.Idx) :
    val_main_v8 (F := F) x0 i = val_main_v7 (F := F) x0 (idx_main_v8 i) := by
  unfold val_main_v8
  generalize val_main_v7 (F := F) x0 = y
  exact broadcastInDim_apply _ bcast_S50000_S50000x1_0 y i (idx_main_v8 i) (fun a => match a with
    | ⟨0, _⟩ => by show (i 0).val = if (50000 : Nat) = 1 then 0 else (i 0).val; rw [if_neg (by decide)])

def val_main_v9 (x0 : (⟨S50000, .i32⟩ : BufTy).Contents (Elt F)) (x5 : (⟨S87x300, .f32⟩ : BufTy).Contents (Elt F)) : (⟨S50000x300, .f32⟩ : BufTy).Contents (Elt F) :=
  Host.gather gather_S87x300_S50000x1_S50000x300_1_0_n_n_0_1_1300 (x5) (val_main_v8 (F := F) x0)

def val_main_v10 (x1 x2 : (⟨S50000, .f32⟩ : BufTy).Contents (Elt F)) (x6 : (⟨S2x300, .f32⟩ : BufTy).Contents (Elt F)) : (⟨S50000x300, .f32⟩ : BufTy).Contents (Elt F) :=
  Host.dotGeneral dot_S50000x2_S2x300_S50000x300_1_0_0_1_n_n none (val_main_v2 (F := F) x1 x2) (x6)

def val_main_v11 (x7 : (⟨S300, .f32⟩ : BufTy).Contents (Elt F)) : (⟨S1x300, .f32⟩ : BufTy).Contents (Elt F) :=
  broadcastInDim S1x300 ![1] bcast_S300_S1x300_1 (x7)

def val_main_v12 (x7 : (⟨S300, .f32⟩ : BufTy).Contents (Elt F)) : (⟨S50000x300, .f32⟩ : BufTy).Contents (Elt F) :=
  broadcastInDim S50000x300 ![0, 1] bcast_S1x300_S50000x300_0_1 (val_main_v11 (F := F) x7)

def val_main_v13 (x1 x2 : (⟨S50000, .f32⟩ : BufTy).Contents (Elt F)) (x6 : (⟨S2x300, .f32⟩ : BufTy).Contents (Elt F)) (x7 : (⟨S300, .f32⟩ : BufTy).Contents (Elt F)) : (⟨S50000x300, .f32⟩ : BufTy).Contents (Elt F) :=
  addf (val_main_v10 (F := F) x1 x2 x6) (val_main_v12 (F := F) x7)

def val_main_call0_cst : (⟨S_, .f32⟩ : BufTy).Contents (Elt F) :=
  constant S_ .f32 0x00000000#32

def val_main_call0_v0 : (⟨S50000x300, .f32⟩ : BufTy).Contents (Elt F) :=
  broadcastInDim S50000x300 ![] bcast_S_S50000x300 (val_main_call0_cst (F := F))

def val_main_v14 (x1 x2 : (⟨S50000, .f32⟩ : BufTy).Contents (Elt F)) (x6 : (⟨S2x300, .f32⟩ : BufTy).Contents (Elt F)) (x7 : (⟨S300, .f32⟩ : BufTy).Contents (Elt F)) : (⟨S50000x300, .f32⟩ : BufTy).Contents (Elt F) :=
  maximumf (val_main_v13 (F := F) x1 x2 x6 x7) (val_main_call0_v0 (F := F))

def val_main_v15 (x1 x2 : (⟨S50000, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) : (⟨S50000x300, .f32⟩ : BufTy).Contents (Elt F) :=
  Host.dotGeneral dot_S50000x300_S300x300_S50000x300_1_0_0_1_n_n none (val_main_v14 (F := F) x1 x2 x6 x7) (x8)

def val_main_v16 (x9 : (⟨S300, .f32⟩ : BufTy).Contents (Elt F)) : (⟨S1x300, .f32⟩ : BufTy).Contents (Elt F) :=
  broadcastInDim S1x300 ![1] bcast_S300_S1x300_1 (x9)

def val_main_v17 (x9 : (⟨S300, .f32⟩ : BufTy).Contents (Elt F)) : (⟨S50000x300, .f32⟩ : BufTy).Contents (Elt F) :=
  broadcastInDim S50000x300 ![0, 1] bcast_S1x300_S50000x300_0_1 (val_main_v16 (F := F) x9)

def val_main_v18 (x1 x2 : (⟨S50000, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) : (⟨S50000x300, .f32⟩ : BufTy).Contents (Elt F) :=
  addf (val_main_v15 (F := F) x1 x2 x6 x7 x8) (val_main_v17 (F := F) x9)

def val_main_v19 (x0 : (⟨S50000, .i32⟩ : BufTy).Contents (Elt F)) (x1 x2 : (⟨S50000, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) : (⟨S50000x300, .f32⟩ : BufTy).Contents (Elt F) :=
  addf (val_main_v9 (F := F) x0 x5) (val_main_v18 (F := F) x1 x2 x6 x7 x8 x9)
theorem val_main_v19_apply (x0 : (⟨S50000, .i32⟩ : BufTy).Contents (Elt F)) (x1 x2 : (⟨S50000, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (i : S50000x300.Idx) :
    val_main_v19 (F := F) x0 x1 x2 x5 x6 x7 x8 x9 i = FloatOps.addf (val_main_v9 (F := F) x0 x5 i) (val_main_v18 (F := F) x1 x2 x6 x7 x8 x9 i) := rfl

def val_main_v20 (x4 : (⟨S125000x3, .f32⟩ : BufTy).Contents (Elt F)) (x10 : (⟨S3x300, .f32⟩ : BufTy).Contents (Elt F)) : (⟨S125000x300, .f32⟩ : BufTy).Contents (Elt F) :=
  Host.dotGeneral dot_S125000x3_S3x300_S125000x300_1_0_0_1_n_n none (x4) (x10)

def val_main_v21 (x11 : (⟨S300, .f32⟩ : BufTy).Contents (Elt F)) : (⟨S1x300, .f32⟩ : BufTy).Contents (Elt F) :=
  broadcastInDim S1x300 ![1] bcast_S300_S1x300_1 (x11)

def val_main_v22 (x11 : (⟨S300, .f32⟩ : BufTy).Contents (Elt F)) : (⟨S125000x300, .f32⟩ : BufTy).Contents (Elt F) :=
  broadcastInDim S125000x300 ![0, 1] bcast_S1x300_S125000x300_0_1 (val_main_v21 (F := F) x11)

def val_main_v23 (x4 : (⟨S125000x3, .f32⟩ : BufTy).Contents (Elt F)) (x10 : (⟨S3x300, .f32⟩ : BufTy).Contents (Elt F)) (x11 : (⟨S300, .f32⟩ : BufTy).Contents (Elt F)) : (⟨S125000x300, .f32⟩ : BufTy).Contents (Elt F) :=
  addf (val_main_v20 (F := F) x4 x10) (val_main_v22 (F := F) x11)

def val_main_call1_cst : (⟨S_, .f32⟩ : BufTy).Contents (Elt F) :=
  constant S_ .f32 0x00000000#32

def val_main_call1_v0 : (⟨S125000x300, .f32⟩ : BufTy).Contents (Elt F) :=
  broadcastInDim S125000x300 ![] bcast_S_S125000x300 (val_main_call1_cst (F := F))

def val_main_v24 (x4 : (⟨S125000x3, .f32⟩ : BufTy).Contents (Elt F)) (x10 : (⟨S3x300, .f32⟩ : BufTy).Contents (Elt F)) (x11 : (⟨S300, .f32⟩ : BufTy).Contents (Elt F)) : (⟨S125000x300, .f32⟩ : BufTy).Contents (Elt F) :=
  maximumf (val_main_v23 (F := F) x4 x10 x11) (val_main_call1_v0 (F := F))

def val_main_v25 (x4 : (⟨S125000x3, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) : (⟨S125000x300, .f32⟩ : BufTy).Contents (Elt F) :=
  Host.dotGeneral dot_S125000x300_S300x300_S125000x300_1_0_0_1_n_n none (val_main_v24 (F := F) x4 x10 x11) (x12)

def val_main_v26 (x13 : (⟨S300, .f32⟩ : BufTy).Contents (Elt F)) : (⟨S1x300, .f32⟩ : BufTy).Contents (Elt F) :=
  broadcastInDim S1x300 ![1] bcast_S300_S1x300_1 (x13)

def val_main_v27 (x13 : (⟨S300, .f32⟩ : BufTy).Contents (Elt F)) : (⟨S125000x300, .f32⟩ : BufTy).Contents (Elt F) :=
  broadcastInDim S125000x300 ![0, 1] bcast_S1x300_S125000x300_0_1 (val_main_v26 (F := F) x13)

def val_main_v28 (x4 : (⟨S125000x3, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) : (⟨S125000x300, .f32⟩ : BufTy).Contents (Elt F) :=
  addf (val_main_v25 (F := F) x4 x10 x11 x12) (val_main_v27 (F := F) x13)

def val_main_v29 (x3 : (⟨S2x125000, .i32⟩ : BufTy).Contents (Elt F)) : (⟨S1x125000, .i32⟩ : BufTy).Contents (Elt F) :=
  extractStridedSlice S1x125000 ![0, 0] (x3) slices_S2x125000_S1x125000_0_0

def val_main_v30 (x3 : (⟨S2x125000, .i32⟩ : BufTy).Contents (Elt F)) : (⟨S125000, .i32⟩ : BufTy).Contents (Elt F) :=
  shapeCast _ (val_main_v29 (F := F) x3) shapeCasts_S1x125000_S125000

def val_main_v31 (x3 : (⟨S2x125000, .i32⟩ : BufTy).Contents (Elt F)) : (⟨S1x125000, .i32⟩ : BufTy).Contents (Elt F) :=
  extractStridedSlice S1x125000 ![1, 0] (x3) slices_S2x125000_S1x125000_1_0

def val_main_v32 (x3 : (⟨S2x125000, .i32⟩ : BufTy).Contents (Elt F)) : (⟨S125000, .i32⟩ : BufTy).Contents (Elt F) :=
  shapeCast _ (val_main_v31 (F := F) x3) shapeCasts_S1x125000_S125000

def val_main_c_1 : (⟨S_, .i32⟩ : BufTy).Contents (Elt F) :=
  constantI S_ 32 0#32

def val_main_v33 : (⟨S125000, .i32⟩ : BufTy).Contents (Elt F) :=
  broadcastInDim S125000 ![] bcast_S_S125000 (val_main_c_1 (F := F))

def val_main_v34 (x3 : (⟨S2x125000, .i32⟩ : BufTy).Contents (Elt F)) : (⟨S125000, .i1⟩ : BufTy).Contents (Elt F) :=
  cmpi .slt (val_main_v30 (F := F) x3) (val_main_v33 (F := F))

def val_main_c_2 : (⟨S_, .i32⟩ : BufTy).Contents (Elt F) :=
  constantI S_ 32 50000#32

def val_main_v35 : (⟨S125000, .i32⟩ : BufTy).Contents (Elt F) :=
  broadcastInDim S125000 ![] bcast_S_S125000 (val_main_c_2 (F := F))

def val_main_v36 (x3 : (⟨S2x125000, .i32⟩ : BufTy).Contents (Elt F)) : (⟨S125000, .i32⟩ : BufTy).Contents (Elt F) :=
  addi (val_main_v30 (F := F) x3) (val_main_v35 (F := F))

def val_main_v37 (x3 : (⟨S2x125000, .i32⟩ : BufTy).Contents (Elt F)) : (⟨S125000, .i32⟩ : BufTy).Contents (Elt F) :=
  select (val_main_v34 (F := F) x3) (val_main_v36 (F := F) x3) (val_main_v30 (F := F) x3)

def val_main_v38 (x3 : (⟨S2x125000, .i32⟩ : BufTy).Contents (Elt F)) : (⟨S125000x1, .i32⟩ : BufTy).Contents (Elt F) :=
  broadcastInDim S125000x1 ![0] bcast_S125000_S125000x1_0 (val_main_v37 (F := F) x3)

def val_main_v39 (x0 : (⟨S50000, .i32⟩ : BufTy).Contents (Elt F)) (x1 x2 : (⟨S50000, .f32⟩ : BufTy).Contents (Elt F)) (x3 : (⟨S2x125000, .i32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) : (⟨S125000x300, .f32⟩ : BufTy).Contents (Elt F) :=
  Host.gather gather_S50000x300_S125000x1_S125000x300_1_0_n_n_0_1_1300 (val_main_v19 (F := F) x0 x1 x2 x5 x6 x7 x8 x9) (val_main_v38 (F := F) x3)

def val_main_v40 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) : (⟨S125000x300, .f32⟩ : BufTy).Contents (Elt F) :=
  addf (val_main_v39 (F := F) x0 x1 x2 x3 x5 x6 x7 x8 x9) (val_main_v28 (F := F) x4 x10 x11 x12 x13)

def val_main_call2_cst : (⟨S_, .f32⟩ : BufTy).Contents (Elt F) :=
  constant S_ .f32 0x00000000#32

def val_main_call2_v0 : (⟨S125000x300, .f32⟩ : BufTy).Contents (Elt F) :=
  broadcastInDim S125000x300 ![] bcast_S_S125000x300 (val_main_call2_cst (F := F))

def val_main_v41 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) : (⟨S125000x300, .f32⟩ : BufTy).Contents (Elt F) :=
  maximumf (val_main_v40 (F := F) x0 x1 x2 x3 x4 x5 x6 x7 x8 x9 x10 x11 x12 x13) (val_main_call2_v0 (F := F))

def val_main_cst : (⟨S_, .f32⟩ : BufTy).Contents (Elt F) :=
  constant S_ .f32 0x00000000#32

def val_main_v42 : (⟨S50000x300, .f32⟩ : BufTy).Contents (Elt F) :=
  broadcastInDim S50000x300 ![] bcast_S_S50000x300 (val_main_cst (F := F))

def val_main_v43 (x3 : (⟨S2x125000, .i32⟩ : BufTy).Contents (Elt F)) : (⟨S125000x1, .i32⟩ : BufTy).Contents (Elt F) :=
  broadcastInDim S125000x1 ![0] bcast_S125000_S125000x1_0 (val_main_v32 (F := F) x3)

def val_main_v44 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) : (⟨S50000x300, .f32⟩ : BufTy).Contents (Elt F) :=
  Host.scatterAdd scatter_S50000x300_S125000x1_S125000x300_1_0_0_1 (val_main_v42 (F := F)) (val_main_v43 (F := F) x3) (val_main_v41 (F := F) x0 x1 x2 x3 x4 x5 x6 x7 x8 x9 x10 x11 x12 x13)

def val_main_v45 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) : (⟨S50000x300, .f32⟩ : BufTy).Contents (Elt F) :=
  addf (val_main_v19 (F := F) x0 x1 x2 x5 x6 x7 x8 x9) (val_main_v44 (F := F) x0 x1 x2 x3 x4 x5 x6 x7 x8 x9 x10 x11 x12 x13)

def val_main_v46 (x14 : (⟨S5x300x300, .f32⟩ : BufTy).Contents (Elt F)) : (⟨S1x300x300, .f32⟩ : BufTy).Contents (Elt F) :=
  extractStridedSlice S1x300x300 ![0, 0, 0] (x14) slices_S5x300x300_S1x300x300_0_0_0

def val_main_v47 (x14 : (⟨S5x300x300, .f32⟩ : BufTy).Contents (Elt F)) : (⟨S300x300, .f32⟩ : BufTy).Contents (Elt F) :=
  shapeCast _ (val_main_v46 (F := F) x14) shapeCasts_S1x300x300_S300x300

def val_main_v48 (x15 : (⟨S5x300, .f32⟩ : BufTy).Contents (Elt F)) : (⟨S1x300, .f32⟩ : BufTy).Contents (Elt F) :=
  extractStridedSlice S1x300 ![0, 0] (x15) slices_S5x300_S1x300_0_0

def val_main_v49 (x15 : (⟨S5x300, .f32⟩ : BufTy).Contents (Elt F)) : (⟨S300, .f32⟩ : BufTy).Contents (Elt F) :=
  shapeCast _ (val_main_v48 (F := F) x15) shapeCasts_S1x300_S300

def val_main_v50 (x16 : (⟨S5x300x300, .f32⟩ : BufTy).Contents (Elt F)) : (⟨S1x300x300, .f32⟩ : BufTy).Contents (Elt F) :=
  extractStridedSlice S1x300x300 ![0, 0, 0] (x16) slices_S5x300x300_S1x300x300_0_0_0

def val_main_v51 (x16 : (⟨S5x300x300, .f32⟩ : BufTy).Contents (Elt F)) : (⟨S300x300, .f32⟩ : BufTy).Contents (Elt F) :=
  shapeCast _ (val_main_v50 (F := F) x16) shapeCasts_S1x300x300_S300x300

def val_main_v52 (x17 : (⟨S5x300, .f32⟩ : BufTy).Contents (Elt F)) : (⟨S1x300, .f32⟩ : BufTy).Contents (Elt F) :=
  extractStridedSlice S1x300 ![0, 0] (x17) slices_S5x300_S1x300_0_0

def val_main_v53 (x17 : (⟨S5x300, .f32⟩ : BufTy).Contents (Elt F)) : (⟨S300, .f32⟩ : BufTy).Contents (Elt F) :=
  shapeCast _ (val_main_v52 (F := F) x17) shapeCasts_S1x300_S300

def val_main_v54 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) : (⟨S50000x300, .f32⟩ : BufTy).Contents (Elt F) :=
  Host.dotGeneral dot_S50000x300_S300x300_S50000x300_1_0_0_1_n_n none (val_main_v45 (F := F) x0 x1 x2 x3 x4 x5 x6 x7 x8 x9 x10 x11 x12 x13) (val_main_v47 (F := F) x14)

def val_main_v55 (x15 : (⟨S5x300, .f32⟩ : BufTy).Contents (Elt F)) : (⟨S1x300, .f32⟩ : BufTy).Contents (Elt F) :=
  broadcastInDim S1x300 ![1] bcast_S300_S1x300_1 (val_main_v49 (F := F) x15)

def val_main_v56 (x15 : (⟨S5x300, .f32⟩ : BufTy).Contents (Elt F)) : (⟨S50000x300, .f32⟩ : BufTy).Contents (Elt F) :=
  broadcastInDim S50000x300 ![0, 1] bcast_S1x300_S50000x300_0_1 (val_main_v55 (F := F) x15)

def val_main_v57 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) : (⟨S50000x300, .f32⟩ : BufTy).Contents (Elt F) :=
  addf (val_main_v54 (F := F) x0 x1 x2 x3 x4 x5 x6 x7 x8 x9 x10 x11 x12 x13 x14) (val_main_v56 (F := F) x15)

def val_main_call3_cst : (⟨S_, .f32⟩ : BufTy).Contents (Elt F) :=
  constant S_ .f32 0x00000000#32

def val_main_call3_v0 : (⟨S50000x300, .f32⟩ : BufTy).Contents (Elt F) :=
  broadcastInDim S50000x300 ![] bcast_S_S50000x300 (val_main_call3_cst (F := F))

def val_main_v58 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) : (⟨S50000x300, .f32⟩ : BufTy).Contents (Elt F) :=
  maximumf (val_main_v57 (F := F) x0 x1 x2 x3 x4 x5 x6 x7 x8 x9 x10 x11 x12 x13 x14 x15) (val_main_call3_v0 (F := F))

def val_main_v59 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) : (⟨S50000x300, .f32⟩ : BufTy).Contents (Elt F) :=
  Host.dotGeneral dot_S50000x300_S300x300_S50000x300_1_0_0_1_n_n none (val_main_v58 (F := F) x0 x1 x2 x3 x4 x5 x6 x7 x8 x9 x10 x11 x12 x13 x14 x15) (val_main_v51 (F := F) x16)

def val_main_v60 (x17 : (⟨S5x300, .f32⟩ : BufTy).Contents (Elt F)) : (⟨S1x300, .f32⟩ : BufTy).Contents (Elt F) :=
  broadcastInDim S1x300 ![1] bcast_S300_S1x300_1 (val_main_v53 (F := F) x17)

def val_main_v61 (x17 : (⟨S5x300, .f32⟩ : BufTy).Contents (Elt F)) : (⟨S50000x300, .f32⟩ : BufTy).Contents (Elt F) :=
  broadcastInDim S50000x300 ![0, 1] bcast_S1x300_S50000x300_0_1 (val_main_v60 (F := F) x17)

def val_main_v62 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 : (⟨S5x300, .f32⟩ : BufTy).Contents (Elt F)) : (⟨S50000x300, .f32⟩ : BufTy).Contents (Elt F) :=
  addf (val_main_v59 (F := F) x0 x1 x2 x3 x4 x5 x6 x7 x8 x9 x10 x11 x12 x13 x14 x15 x16) (val_main_v61 (F := F) x17)

def val_main_v63 (x18 : (⟨S5x300, .f32⟩ : BufTy).Contents (Elt F)) : (⟨S1x300, .f32⟩ : BufTy).Contents (Elt F) :=
  extractStridedSlice S1x300 ![0, 0] (x18) slices_S5x300_S1x300_0_0

def val_main_v64 (x18 : (⟨S5x300, .f32⟩ : BufTy).Contents (Elt F)) : (⟨S300, .f32⟩ : BufTy).Contents (Elt F) :=
  shapeCast _ (val_main_v63 (F := F) x18) shapeCasts_S1x300_S300

def val_main_v65 (x20 : (⟨S5x300, .f32⟩ : BufTy).Contents (Elt F)) : (⟨S1x300, .f32⟩ : BufTy).Contents (Elt F) :=
  extractStridedSlice S1x300 ![0, 0] (x20) slices_S5x300_S1x300_0_0

def val_main_v66 (x20 : (⟨S5x300, .f32⟩ : BufTy).Contents (Elt F)) : (⟨S300, .f32⟩ : BufTy).Contents (Elt F) :=
  shapeCast _ (val_main_v65 (F := F) x20) shapeCasts_S1x300_S300

def val_main_v67 (x20 : (⟨S5x300, .f32⟩ : BufTy).Contents (Elt F)) : (⟨S1x300, .f32⟩ : BufTy).Contents (Elt F) :=
  broadcastInDim S1x300 ![1] bcast_S300_S1x300_1 (val_main_v66 (F := F) x20)

def val_main_v68 (x20 : (⟨S5x300, .f32⟩ : BufTy).Contents (Elt F)) : (⟨S50000x300, .f32⟩ : BufTy).Contents (Elt F) :=
  broadcastInDim S50000x300 ![0, 1] bcast_S1x300_S50000x300_0_1 (val_main_v67 (F := F) x20)

def val_main_v69 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x20 : (⟨S5x300, .f32⟩ : BufTy).Contents (Elt F)) : (⟨S50000x300, .f32⟩ : BufTy).Contents (Elt F) :=
  subf (val_main_v62 (F := F) x0 x1 x2 x3 x4 x5 x6 x7 x8 x9 x10 x11 x12 x13 x14 x15 x16 x17) (val_main_v68 (F := F) x20)

def val_main_v70 (x18 : (⟨S5x300, .f32⟩ : BufTy).Contents (Elt F)) : (⟨S1x300, .f32⟩ : BufTy).Contents (Elt F) :=
  broadcastInDim S1x300 ![1] bcast_S300_S1x300_1 (val_main_v64 (F := F) x18)

def val_main_v71 (x18 : (⟨S5x300, .f32⟩ : BufTy).Contents (Elt F)) : (⟨S50000x300, .f32⟩ : BufTy).Contents (Elt F) :=
  broadcastInDim S50000x300 ![0, 1] bcast_S1x300_S50000x300_0_1 (val_main_v70 (F := F) x18)

def val_main_v72 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x20 : (⟨S5x300, .f32⟩ : BufTy).Contents (Elt F)) : (⟨S50000x300, .f32⟩ : BufTy).Contents (Elt F) :=
  mulf (val_main_v71 (F := F) x18) (val_main_v69 (F := F) x0 x1 x2 x3 x4 x5 x6 x7 x8 x9 x10 x11 x12 x13 x14 x15 x16 x17 x20)

def val_main_v73 (x21 : (⟨S5x300, .f32⟩ : BufTy).Contents (Elt F)) : (⟨S1x300, .f32⟩ : BufTy).Contents (Elt F) :=
  extractStridedSlice S1x300 ![0, 0] (x21) slices_S5x300_S1x300_0_0

def val_main_v74 (x21 : (⟨S5x300, .f32⟩ : BufTy).Contents (Elt F)) : (⟨S300, .f32⟩ : BufTy).Contents (Elt F) :=
  shapeCast _ (val_main_v73 (F := F) x21) shapeCasts_S1x300_S300

def val_main_cst_3 : (⟨S_, .f32⟩ : BufTy).Contents (Elt F) :=
  constant S_ .f32 0x3727C5AC#32

def val_main_v75 : (⟨S300, .f32⟩ : BufTy).Contents (Elt F) :=
  broadcastInDim S300 ![] bcast_S_S300 (val_main_cst_3 (F := F))

def val_main_v76 (x21 : (⟨S5x300, .f32⟩ : BufTy).Contents (Elt F)) : (⟨S300, .f32⟩ : BufTy).Contents (Elt F) :=
  addf (val_main_v74 (F := F) x21) (val_main_v75 (F := F))

def val_main_v77 (x21 : (⟨S5x300, .f32⟩ : BufTy).Contents (Elt F)) : (⟨S300, .f32⟩ : BufTy).Contents (Elt F) :=
  Host.rsqrt (val_main_v76 (F := F) x21)

def val_main_v78 (x21 : (⟨S5x300, .f32⟩ : BufTy).Contents (Elt F)) : (⟨S1x300, .f32⟩ : BufTy).Contents (Elt F) :=
  broadcastInDim S1x300 ![1] bcast_S300_S1x300_1 (val_main_v77 (F := F) x21)

def val_main_v79 (x21 : (⟨S5x300, .f32⟩ : BufTy).Contents (Elt F)) : (⟨S50000x300, .f32⟩ : BufTy).Contents (Elt F) :=
  broadcastInDim S50000x300 ![0, 1] bcast_S1x300_S50000x300_0_1 (val_main_v78 (F := F) x21)

def val_main_v80 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x20 x21 : (⟨S5x300, .f32⟩ : BufTy).Contents (Elt F)) : (⟨S50000x300, .f32⟩ : BufTy).Contents (Elt F) :=
  mulf (val_main_v72 (F := F) x0 x1 x2 x3 x4 x5 x6 x7 x8 x9 x10 x11 x12 x13 x14 x15 x16 x17 x18 x20) (val_main_v79 (F := F) x21)

def val_main_v81 (x19 : (⟨S5x300, .f32⟩ : BufTy).Contents (Elt F)) : (⟨S1x300, .f32⟩ : BufTy).Contents (Elt F) :=
  extractStridedSlice S1x300 ![0, 0] (x19) slices_S5x300_S1x300_0_0

def val_main_v82 (x19 : (⟨S5x300, .f32⟩ : BufTy).Contents (Elt F)) : (⟨S300, .f32⟩ : BufTy).Contents (Elt F) :=
  shapeCast _ (val_main_v81 (F := F) x19) shapeCasts_S1x300_S300

def val_main_v83 (x19 : (⟨S5x300, .f32⟩ : BufTy).Contents (Elt F)) : (⟨S1x300, .f32⟩ : BufTy).Contents (Elt F) :=
  broadcastInDim S1x300 ![1] bcast_S300_S1x300_1 (val_main_v82 (F := F) x19)

def val_main_v84 (x19 : (⟨S5x300, .f32⟩ : BufTy).Contents (Elt F)) : (⟨S50000x300, .f32⟩ : BufTy).Contents (Elt F) :=
  broadcastInDim S50000x300 ![0, 1] bcast_S1x300_S50000x300_0_1 (val_main_v83 (F := F) x19)

def val_main_v85 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v80 (F := F) x0 x1 x2 x3 x4 x5 x6 x7 x8 x9 x10 x11 x12 x13 x14 x15 x16 x17 x18 x20 x21) (val_main_v84 (F := F) x19)

def val_main_call4_cst : (⟨S_, .f32⟩ : BufTy).Contents (Elt F) :=
  constant S_ .f32 0x00000000#32

def val_main_call4_v0 : (⟨S50000x300, .f32⟩ : BufTy).Contents (Elt F) :=
  broadcastInDim S50000x300 ![] bcast_S_S50000x300 (val_main_call4_cst (F := F))

def val_main_v86 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  maximumf (val_main_v85 (F := F) x0 x1 x2 x3 x4 x5 x6 x7 x8 x9 x10 x11 x12 x13 x14 x15 x16 x17 x18 x19 x20 x21) (val_main_call4_v0 (F := F))

def val_main_c_4 : (⟨S_, .i32⟩ : BufTy).Contents (Elt F) :=
  constantI S_ 32 0#32

def val_main_v87 : (⟨S125000, .i32⟩ : BufTy).Contents (Elt F) :=
  broadcastInDim S125000 ![] bcast_S_S125000 (val_main_c_4 (F := F))

def val_main_v88 (x3 : (⟨S2x125000, .i32⟩ : BufTy).Contents (Elt F)) : (⟨S125000, .i1⟩ : BufTy).Contents (Elt F) :=
  cmpi .slt (val_main_v30 (F := F) x3) (val_main_v87 (F := F))

def val_main_c_5 : (⟨S_, .i32⟩ : BufTy).Contents (Elt F) :=
  constantI S_ 32 50000#32

def val_main_v89 : (⟨S125000, .i32⟩ : BufTy).Contents (Elt F) :=
  broadcastInDim S125000 ![] bcast_S_S125000 (val_main_c_5 (F := F))

def val_main_v90 (x3 : (⟨S2x125000, .i32⟩ : BufTy).Contents (Elt F)) : (⟨S125000, .i32⟩ : BufTy).Contents (Elt F) :=
  addi (val_main_v30 (F := F) x3) (val_main_v89 (F := F))

def val_main_v91 (x3 : (⟨S2x125000, .i32⟩ : BufTy).Contents (Elt F)) : (⟨S125000, .i32⟩ : BufTy).Contents (Elt F) :=
  select (val_main_v88 (F := F) x3) (val_main_v90 (F := F) x3) (val_main_v30 (F := F) x3)

def val_main_v92 (x3 : (⟨S2x125000, .i32⟩ : BufTy).Contents (Elt F)) : (⟨S125000x1, .i32⟩ : BufTy).Contents (Elt F) :=
  broadcastInDim S125000x1 ![0] bcast_S125000_S125000x1_0 (val_main_v91 (F := F) x3)

def val_main_v93 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S125000x300, .f32⟩ : BufTy).Contents (Elt F) :=
  Host.gather gather_S50000x300_S125000x1_S125000x300_1_0_n_n_0_1_1300 (val_main_v86 (F := F) x0 x1 x2 x3 x4 x5 x6 x7 x8 x9 x10 x11 x12 x13 x14 x15 x16 x17 x18 x19 x20 x21) (val_main_v92 (F := F) x3)

def val_main_v94 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S125000x300, .f32⟩ : BufTy).Contents (Elt F) :=
  addf (val_main_v93 (F := F) x0 x1 x2 x3 x4 x5 x6 x7 x8 x9 x10 x11 x12 x13 x14 x15 x16 x17 x18 x19 x20 x21) (val_main_v28 (F := F) x4 x10 x11 x12 x13)

def val_main_call5_cst : (⟨S_, .f32⟩ : BufTy).Contents (Elt F) :=
  constant S_ .f32 0x00000000#32

def val_main_call5_v0 : (⟨S125000x300, .f32⟩ : BufTy).Contents (Elt F) :=
  broadcastInDim S125000x300 ![] bcast_S_S125000x300 (val_main_call5_cst (F := F))

def val_main_v95 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S125000x300, .f32⟩ : BufTy).Contents (Elt F) :=
  maximumf (val_main_v94 (F := F) x0 x1 x2 x3 x4 x5 x6 x7 x8 x9 x10 x11 x12 x13 x14 x15 x16 x17 x18 x19 x20 x21) (val_main_call5_v0 (F := F))

def val_main_cst_6 : (⟨S_, .f32⟩ : BufTy).Contents (Elt F) :=
  constant S_ .f32 0x00000000#32

def val_main_v96 : (⟨S50000x300, .f32⟩ : BufTy).Contents (Elt F) :=
  broadcastInDim S50000x300 ![] bcast_S_S50000x300 (val_main_cst_6 (F := F))

def val_main_v97 (x3 : (⟨S2x125000, .i32⟩ : BufTy).Contents (Elt F)) : (⟨S125000x1, .i32⟩ : BufTy).Contents (Elt F) :=
  broadcastInDim S125000x1 ![0] bcast_S125000_S125000x1_0 (val_main_v32 (F := F) x3)

def val_main_v98 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  Host.scatterAdd scatter_S50000x300_S125000x1_S125000x300_1_0_0_1 (val_main_v96 (F := F)) (val_main_v97 (F := F) x3) (val_main_v95 (F := F) x0 x1 x2 x3 x4 x5 x6 x7 x8 x9 x10 x11 x12 x13 x14 x15 x16 x17 x18 x19 x20 x21)

def val_main_v99 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v86 (F := F) x0 x1 x2 x3 x4 x5 x6 x7 x8 x9 x10 x11 x12 x13 x14 x15 x16 x17 x18 x19 x20 x21) (val_main_v98 (F := F) x0 x1 x2 x3 x4 x5 x6 x7 x8 x9 x10 x11 x12 x13 x14 x15 x16 x17 x18 x19 x20 x21)

def val_main_v100 (x14 : (⟨S5x300x300, .f32⟩ : BufTy).Contents (Elt F)) : (⟨S1x300x300, .f32⟩ : BufTy).Contents (Elt F) :=
  extractStridedSlice S1x300x300 ![1, 0, 0] (x14) slices_S5x300x300_S1x300x300_1_0_0

def val_main_v101 (x14 : (⟨S5x300x300, .f32⟩ : BufTy).Contents (Elt F)) : (⟨S300x300, .f32⟩ : BufTy).Contents (Elt F) :=
  shapeCast _ (val_main_v100 (F := F) x14) shapeCasts_S1x300x300_S300x300

def val_main_v102 (x15 : (⟨S5x300, .f32⟩ : BufTy).Contents (Elt F)) : (⟨S1x300, .f32⟩ : BufTy).Contents (Elt F) :=
  extractStridedSlice S1x300 ![1, 0] (x15) slices_S5x300_S1x300_1_0

def val_main_v103 (x15 : (⟨S5x300, .f32⟩ : BufTy).Contents (Elt F)) : (⟨S300, .f32⟩ : BufTy).Contents (Elt F) :=
  shapeCast _ (val_main_v102 (F := F) x15) shapeCasts_S1x300_S300

def val_main_v104 (x16 : (⟨S5x300x300, .f32⟩ : BufTy).Contents (Elt F)) : (⟨S1x300x300, .f32⟩ : BufTy).Contents (Elt F) :=
  extractStridedSlice S1x300x300 ![1, 0, 0] (x16) slices_S5x300x300_S1x300x300_1_0_0

def val_main_v105 (x16 : (⟨S5x300x300, .f32⟩ : BufTy).Contents (Elt F)) : (⟨S300x300, .f32⟩ : BufTy).Contents (Elt F) :=
  shapeCast _ (val_main_v104 (F := F) x16) shapeCasts_S1x300x300_S300x300

def val_main_v106 (x17 : (⟨S5x300, .f32⟩ : BufTy).Contents (Elt F)) : (⟨S1x300, .f32⟩ : BufTy).Contents (Elt F) :=
  extractStridedSlice S1x300 ![1, 0] (x17) slices_S5x300_S1x300_1_0

def val_main_v107 (x17 : (⟨S5x300, .f32⟩ : BufTy).Contents (Elt F)) : (⟨S300, .f32⟩ : BufTy).Contents (Elt F) :=
  shapeCast _ (val_main_v106 (F := F) x17) shapeCasts_S1x300_S300

def val_main_v108 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  Host.dotGeneral dot_S50000x300_S300x300_S50000x300_1_0_0_1_n_n none (val_main_v99 (F := F) x0 x1 x2 x3 x4 x5 x6 x7 x8 x9 x10 x11 x12 x13 x14 x15 x16 x17 x18 x19 x20 x21) (val_main_v101 (F := F) x14)

def val_main_v109 (x15 : (⟨S5x300, .f32⟩ : BufTy).Contents (Elt F)) : (⟨S1x300, .f32⟩ : BufTy).Contents (Elt F) :=
  broadcastInDim S1x300 ![1] bcast_S300_S1x300_1 (val_main_v103 (F := F) x15)

def val_main_v110 (x15 : (⟨S5x300, .f32⟩ : BufTy).Contents (Elt F)) : (⟨S50000x300, .f32⟩ : BufTy).Contents (Elt F) :=
  broadcastInDim S50000x300 ![0, 1] bcast_S1x300_S50000x300_0_1 (val_main_v109 (F := F) x15)

def val_main_v111 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v108 (F := F) x0 x1 x2 x3 x4 x5 x6 x7 x8 x9 x10 x11 x12 x13 x14 x15 x16 x17 x18 x19 x20 x21) (val_main_v110 (F := F) x15)

def val_main_call6_cst : (⟨S_, .f32⟩ : BufTy).Contents (Elt F) :=
  constant S_ .f32 0x00000000#32

def val_main_call6_v0 : (⟨S50000x300, .f32⟩ : BufTy).Contents (Elt F) :=
  broadcastInDim S50000x300 ![] bcast_S_S50000x300 (val_main_call6_cst (F := F))

def val_main_v112 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  maximumf (val_main_v111 (F := F) x0 x1 x2 x3 x4 x5 x6 x7 x8 x9 x10 x11 x12 x13 x14 x15 x16 x17 x18 x19 x20 x21) (val_main_call6_v0 (F := F))

def val_main_v113 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  Host.dotGeneral dot_S50000x300_S300x300_S50000x300_1_0_0_1_n_n none (val_main_v112 (F := F) x0 x1 x2 x3 x4 x5 x6 x7 x8 x9 x10 x11 x12 x13 x14 x15 x16 x17 x18 x19 x20 x21) (val_main_v105 (F := F) x16)

def val_main_v114 (x17 : (⟨S5x300, .f32⟩ : BufTy).Contents (Elt F)) : (⟨S1x300, .f32⟩ : BufTy).Contents (Elt F) :=
  broadcastInDim S1x300 ![1] bcast_S300_S1x300_1 (val_main_v107 (F := F) x17)

def val_main_v115 (x17 : (⟨S5x300, .f32⟩ : BufTy).Contents (Elt F)) : (⟨S50000x300, .f32⟩ : BufTy).Contents (Elt F) :=
  broadcastInDim S50000x300 ![0, 1] bcast_S1x300_S50000x300_0_1 (val_main_v114 (F := F) x17)

def val_main_v116 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v113 (F := F) x0 x1 x2 x3 x4 x5 x6 x7 x8 x9 x10 x11 x12 x13 x14 x15 x16 x17 x18 x19 x20 x21) (val_main_v115 (F := F) x17)

def val_main_v117 (x18 : (⟨S5x300, .f32⟩ : BufTy).Contents (Elt F)) : (⟨S1x300, .f32⟩ : BufTy).Contents (Elt F) :=
  extractStridedSlice S1x300 ![1, 0] (x18) slices_S5x300_S1x300_1_0

def val_main_v118 (x18 : (⟨S5x300, .f32⟩ : BufTy).Contents (Elt F)) : (⟨S300, .f32⟩ : BufTy).Contents (Elt F) :=
  shapeCast _ (val_main_v117 (F := F) x18) shapeCasts_S1x300_S300

def val_main_v119 (x20 : (⟨S5x300, .f32⟩ : BufTy).Contents (Elt F)) : (⟨S1x300, .f32⟩ : BufTy).Contents (Elt F) :=
  extractStridedSlice S1x300 ![1, 0] (x20) slices_S5x300_S1x300_1_0

def val_main_v120 (x20 : (⟨S5x300, .f32⟩ : BufTy).Contents (Elt F)) : (⟨S300, .f32⟩ : BufTy).Contents (Elt F) :=
  shapeCast _ (val_main_v119 (F := F) x20) shapeCasts_S1x300_S300

def val_main_v121 (x20 : (⟨S5x300, .f32⟩ : BufTy).Contents (Elt F)) : (⟨S1x300, .f32⟩ : BufTy).Contents (Elt F) :=
  broadcastInDim S1x300 ![1] bcast_S300_S1x300_1 (val_main_v120 (F := F) x20)

def val_main_v122 (x20 : (⟨S5x300, .f32⟩ : BufTy).Contents (Elt F)) : (⟨S50000x300, .f32⟩ : BufTy).Contents (Elt F) :=
  broadcastInDim S50000x300 ![0, 1] bcast_S1x300_S50000x300_0_1 (val_main_v121 (F := F) x20)

def val_main_v123 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  subf (val_main_v116 (F := F) x0 x1 x2 x3 x4 x5 x6 x7 x8 x9 x10 x11 x12 x13 x14 x15 x16 x17 x18 x19 x20 x21) (val_main_v122 (F := F) x20)

def val_main_v124 (x18 : (⟨S5x300, .f32⟩ : BufTy).Contents (Elt F)) : (⟨S1x300, .f32⟩ : BufTy).Contents (Elt F) :=
  broadcastInDim S1x300 ![1] bcast_S300_S1x300_1 (val_main_v118 (F := F) x18)

def val_main_v125 (x18 : (⟨S5x300, .f32⟩ : BufTy).Contents (Elt F)) : (⟨S50000x300, .f32⟩ : BufTy).Contents (Elt F) :=
  broadcastInDim S50000x300 ![0, 1] bcast_S1x300_S50000x300_0_1 (val_main_v124 (F := F) x18)

def val_main_v126 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  mulf (val_main_v125 (F := F) x18) (val_main_v123 (F := F) x0 x1 x2 x3 x4 x5 x6 x7 x8 x9 x10 x11 x12 x13 x14 x15 x16 x17 x18 x19 x20 x21)

def val_main_v127 (x21 : (⟨S5x300, .f32⟩ : BufTy).Contents (Elt F)) : (⟨S1x300, .f32⟩ : BufTy).Contents (Elt F) :=
  extractStridedSlice S1x300 ![1, 0] (x21) slices_S5x300_S1x300_1_0

def val_main_v128 (x21 : (⟨S5x300, .f32⟩ : BufTy).Contents (Elt F)) : (⟨S300, .f32⟩ : BufTy).Contents (Elt F) :=
  shapeCast _ (val_main_v127 (F := F) x21) shapeCasts_S1x300_S300

def val_main_cst_7 : (⟨S_, .f32⟩ : BufTy).Contents (Elt F) :=
  constant S_ .f32 0x3727C5AC#32

def val_main_v129 : (⟨S300, .f32⟩ : BufTy).Contents (Elt F) :=
  broadcastInDim S300 ![] bcast_S_S300 (val_main_cst_7 (F := F))

def val_main_v130 (x21 : (⟨S5x300, .f32⟩ : BufTy).Contents (Elt F)) : (⟨S300, .f32⟩ : BufTy).Contents (Elt F) :=
  addf (val_main_v128 (F := F) x21) (val_main_v129 (F := F))

def val_main_v131 (x21 : (⟨S5x300, .f32⟩ : BufTy).Contents (Elt F)) : (⟨S300, .f32⟩ : BufTy).Contents (Elt F) :=
  Host.rsqrt (val_main_v130 (F := F) x21)

def val_main_v132 (x21 : (⟨S5x300, .f32⟩ : BufTy).Contents (Elt F)) : (⟨S1x300, .f32⟩ : BufTy).Contents (Elt F) :=
  broadcastInDim S1x300 ![1] bcast_S300_S1x300_1 (val_main_v131 (F := F) x21)

def val_main_v133 (x21 : (⟨S5x300, .f32⟩ : BufTy).Contents (Elt F)) : (⟨S50000x300, .f32⟩ : BufTy).Contents (Elt F) :=
  broadcastInDim S50000x300 ![0, 1] bcast_S1x300_S50000x300_0_1 (val_main_v132 (F := F) x21)

def val_main_v134 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  mulf (val_main_v126 (F := F) x0 x1 x2 x3 x4 x5 x6 x7 x8 x9 x10 x11 x12 x13 x14 x15 x16 x17 x18 x19 x20 x21) (val_main_v133 (F := F) x21)

def val_main_v135 (x19 : (⟨S5x300, .f32⟩ : BufTy).Contents (Elt F)) : (⟨S1x300, .f32⟩ : BufTy).Contents (Elt F) :=
  extractStridedSlice S1x300 ![1, 0] (x19) slices_S5x300_S1x300_1_0

def val_main_v136 (x19 : (⟨S5x300, .f32⟩ : BufTy).Contents (Elt F)) : (⟨S300, .f32⟩ : BufTy).Contents (Elt F) :=
  shapeCast _ (val_main_v135 (F := F) x19) shapeCasts_S1x300_S300

def val_main_v137 (x19 : (⟨S5x300, .f32⟩ : BufTy).Contents (Elt F)) : (⟨S1x300, .f32⟩ : BufTy).Contents (Elt F) :=
  broadcastInDim S1x300 ![1] bcast_S300_S1x300_1 (val_main_v136 (F := F) x19)

def val_main_v138 (x19 : (⟨S5x300, .f32⟩ : BufTy).Contents (Elt F)) : (⟨S50000x300, .f32⟩ : BufTy).Contents (Elt F) :=
  broadcastInDim S50000x300 ![0, 1] bcast_S1x300_S50000x300_0_1 (val_main_v137 (F := F) x19)

def val_main_v139 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v134 (F := F) x0 x1 x2 x3 x4 x5 x6 x7 x8 x9 x10 x11 x12 x13 x14 x15 x16 x17 x18 x19 x20 x21) (val_main_v138 (F := F) x19)

def val_main_call7_cst : (⟨S_, .f32⟩ : BufTy).Contents (Elt F) :=
  constant S_ .f32 0x00000000#32

def val_main_call7_v0 : (⟨S50000x300, .f32⟩ : BufTy).Contents (Elt F) :=
  broadcastInDim S50000x300 ![] bcast_S_S50000x300 (val_main_call7_cst (F := F))

def val_main_v140 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  maximumf (val_main_v139 (F := F) x0 x1 x2 x3 x4 x5 x6 x7 x8 x9 x10 x11 x12 x13 x14 x15 x16 x17 x18 x19 x20 x21) (val_main_call7_v0 (F := F))

def val_main_c_8 : (⟨S_, .i32⟩ : BufTy).Contents (Elt F) :=
  constantI S_ 32 0#32

def val_main_v141 : (⟨S125000, .i32⟩ : BufTy).Contents (Elt F) :=
  broadcastInDim S125000 ![] bcast_S_S125000 (val_main_c_8 (F := F))

def val_main_v142 (x3 : (⟨S2x125000, .i32⟩ : BufTy).Contents (Elt F)) : (⟨S125000, .i1⟩ : BufTy).Contents (Elt F) :=
  cmpi .slt (val_main_v30 (F := F) x3) (val_main_v141 (F := F))

def val_main_c_9 : (⟨S_, .i32⟩ : BufTy).Contents (Elt F) :=
  constantI S_ 32 50000#32

def val_main_v143 : (⟨S125000, .i32⟩ : BufTy).Contents (Elt F) :=
  broadcastInDim S125000 ![] bcast_S_S125000 (val_main_c_9 (F := F))

def val_main_v144 (x3 : (⟨S2x125000, .i32⟩ : BufTy).Contents (Elt F)) : (⟨S125000, .i32⟩ : BufTy).Contents (Elt F) :=
  addi (val_main_v30 (F := F) x3) (val_main_v143 (F := F))

def val_main_v145 (x3 : (⟨S2x125000, .i32⟩ : BufTy).Contents (Elt F)) : (⟨S125000, .i32⟩ : BufTy).Contents (Elt F) :=
  select (val_main_v142 (F := F) x3) (val_main_v144 (F := F) x3) (val_main_v30 (F := F) x3)

def val_main_v146 (x3 : (⟨S2x125000, .i32⟩ : BufTy).Contents (Elt F)) : (⟨S125000x1, .i32⟩ : BufTy).Contents (Elt F) :=
  broadcastInDim S125000x1 ![0] bcast_S125000_S125000x1_0 (val_main_v145 (F := F) x3)

def val_main_v147 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S125000x300, .f32⟩ : BufTy).Contents (Elt F) :=
  Host.gather gather_S50000x300_S125000x1_S125000x300_1_0_n_n_0_1_1300 (val_main_v140 (F := F) x0 x1 x2 x3 x4 x5 x6 x7 x8 x9 x10 x11 x12 x13 x14 x15 x16 x17 x18 x19 x20 x21) (val_main_v146 (F := F) x3)

def val_main_v148 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S125000x300, .f32⟩ : BufTy).Contents (Elt F) :=
  addf (val_main_v147 (F := F) x0 x1 x2 x3 x4 x5 x6 x7 x8 x9 x10 x11 x12 x13 x14 x15 x16 x17 x18 x19 x20 x21) (val_main_v28 (F := F) x4 x10 x11 x12 x13)

def val_main_call8_cst : (⟨S_, .f32⟩ : BufTy).Contents (Elt F) :=
  constant S_ .f32 0x00000000#32

def val_main_call8_v0 : (⟨S125000x300, .f32⟩ : BufTy).Contents (Elt F) :=
  broadcastInDim S125000x300 ![] bcast_S_S125000x300 (val_main_call8_cst (F := F))

def val_main_v149 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S125000x300, .f32⟩ : BufTy).Contents (Elt F) :=
  maximumf (val_main_v148 (F := F) x0 x1 x2 x3 x4 x5 x6 x7 x8 x9 x10 x11 x12 x13 x14 x15 x16 x17 x18 x19 x20 x21) (val_main_call8_v0 (F := F))

def val_main_cst_10 : (⟨S_, .f32⟩ : BufTy).Contents (Elt F) :=
  constant S_ .f32 0x00000000#32

def val_main_v150 : (⟨S50000x300, .f32⟩ : BufTy).Contents (Elt F) :=
  broadcastInDim S50000x300 ![] bcast_S_S50000x300 (val_main_cst_10 (F := F))

def val_main_v151 (x3 : (⟨S2x125000, .i32⟩ : BufTy).Contents (Elt F)) : (⟨S125000x1, .i32⟩ : BufTy).Contents (Elt F) :=
  broadcastInDim S125000x1 ![0] bcast_S125000_S125000x1_0 (val_main_v32 (F := F) x3)

def val_main_v152 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  Host.scatterAdd scatter_S50000x300_S125000x1_S125000x300_1_0_0_1 (val_main_v150 (F := F)) (val_main_v151 (F := F) x3) (val_main_v149 (F := F) x0 x1 x2 x3 x4 x5 x6 x7 x8 x9 x10 x11 x12 x13 x14 x15 x16 x17 x18 x19 x20 x21)

def val_main_v153 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v140 (F := F) x0 x1 x2 x3 x4 x5 x6 x7 x8 x9 x10 x11 x12 x13 x14 x15 x16 x17 x18 x19 x20 x21) (val_main_v152 (F := F) x0 x1 x2 x3 x4 x5 x6 x7 x8 x9 x10 x11 x12 x13 x14 x15 x16 x17 x18 x19 x20 x21)

def val_main_v154 (x14 : (⟨S5x300x300, .f32⟩ : BufTy).Contents (Elt F)) : (⟨S1x300x300, .f32⟩ : BufTy).Contents (Elt F) :=
  extractStridedSlice S1x300x300 ![2, 0, 0] (x14) slices_S5x300x300_S1x300x300_2_0_0

def val_main_v155 (x14 : (⟨S5x300x300, .f32⟩ : BufTy).Contents (Elt F)) : (⟨S300x300, .f32⟩ : BufTy).Contents (Elt F) :=
  shapeCast _ (val_main_v154 (F := F) x14) shapeCasts_S1x300x300_S300x300

def val_main_v156 (x15 : (⟨S5x300, .f32⟩ : BufTy).Contents (Elt F)) : (⟨S1x300, .f32⟩ : BufTy).Contents (Elt F) :=
  extractStridedSlice S1x300 ![2, 0] (x15) slices_S5x300_S1x300_2_0

def val_main_v157 (x15 : (⟨S5x300, .f32⟩ : BufTy).Contents (Elt F)) : (⟨S300, .f32⟩ : BufTy).Contents (Elt F) :=
  shapeCast _ (val_main_v156 (F := F) x15) shapeCasts_S1x300_S300

def val_main_v158 (x16 : (⟨S5x300x300, .f32⟩ : BufTy).Contents (Elt F)) : (⟨S1x300x300, .f32⟩ : BufTy).Contents (Elt F) :=
  extractStridedSlice S1x300x300 ![2, 0, 0] (x16) slices_S5x300x300_S1x300x300_2_0_0

def val_main_v159 (x16 : (⟨S5x300x300, .f32⟩ : BufTy).Contents (Elt F)) : (⟨S300x300, .f32⟩ : BufTy).Contents (Elt F) :=
  shapeCast _ (val_main_v158 (F := F) x16) shapeCasts_S1x300x300_S300x300

def val_main_v160 (x17 : (⟨S5x300, .f32⟩ : BufTy).Contents (Elt F)) : (⟨S1x300, .f32⟩ : BufTy).Contents (Elt F) :=
  extractStridedSlice S1x300 ![2, 0] (x17) slices_S5x300_S1x300_2_0

def val_main_v161 (x17 : (⟨S5x300, .f32⟩ : BufTy).Contents (Elt F)) : (⟨S300, .f32⟩ : BufTy).Contents (Elt F) :=
  shapeCast _ (val_main_v160 (F := F) x17) shapeCasts_S1x300_S300

def val_main_v162 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  Host.dotGeneral dot_S50000x300_S300x300_S50000x300_1_0_0_1_n_n none (val_main_v153 (F := F) x0 x1 x2 x3 x4 x5 x6 x7 x8 x9 x10 x11 x12 x13 x14 x15 x16 x17 x18 x19 x20 x21) (val_main_v155 (F := F) x14)

def val_main_v163 (x15 : (⟨S5x300, .f32⟩ : BufTy).Contents (Elt F)) : (⟨S1x300, .f32⟩ : BufTy).Contents (Elt F) :=
  broadcastInDim S1x300 ![1] bcast_S300_S1x300_1 (val_main_v157 (F := F) x15)

def val_main_v164 (x15 : (⟨S5x300, .f32⟩ : BufTy).Contents (Elt F)) : (⟨S50000x300, .f32⟩ : BufTy).Contents (Elt F) :=
  broadcastInDim S50000x300 ![0, 1] bcast_S1x300_S50000x300_0_1 (val_main_v163 (F := F) x15)

def val_main_v165 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v162 (F := F) x0 x1 x2 x3 x4 x5 x6 x7 x8 x9 x10 x11 x12 x13 x14 x15 x16 x17 x18 x19 x20 x21) (val_main_v164 (F := F) x15)

def val_main_call9_cst : (⟨S_, .f32⟩ : BufTy).Contents (Elt F) :=
  constant S_ .f32 0x00000000#32

def val_main_call9_v0 : (⟨S50000x300, .f32⟩ : BufTy).Contents (Elt F) :=
  broadcastInDim S50000x300 ![] bcast_S_S50000x300 (val_main_call9_cst (F := F))

def val_main_v166 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  maximumf (val_main_v165 (F := F) x0 x1 x2 x3 x4 x5 x6 x7 x8 x9 x10 x11 x12 x13 x14 x15 x16 x17 x18 x19 x20 x21) (val_main_call9_v0 (F := F))

def val_main_v167 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  Host.dotGeneral dot_S50000x300_S300x300_S50000x300_1_0_0_1_n_n none (val_main_v166 (F := F) x0 x1 x2 x3 x4 x5 x6 x7 x8 x9 x10 x11 x12 x13 x14 x15 x16 x17 x18 x19 x20 x21) (val_main_v159 (F := F) x16)

def val_main_v168 (x17 : (⟨S5x300, .f32⟩ : BufTy).Contents (Elt F)) : (⟨S1x300, .f32⟩ : BufTy).Contents (Elt F) :=
  broadcastInDim S1x300 ![1] bcast_S300_S1x300_1 (val_main_v161 (F := F) x17)

def val_main_v169 (x17 : (⟨S5x300, .f32⟩ : BufTy).Contents (Elt F)) : (⟨S50000x300, .f32⟩ : BufTy).Contents (Elt F) :=
  broadcastInDim S50000x300 ![0, 1] bcast_S1x300_S50000x300_0_1 (val_main_v168 (F := F) x17)

def val_main_v170 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v167 (F := F) x0 x1 x2 x3 x4 x5 x6 x7 x8 x9 x10 x11 x12 x13 x14 x15 x16 x17 x18 x19 x20 x21) (val_main_v169 (F := F) x17)

def val_main_v171 (x18 : (⟨S5x300, .f32⟩ : BufTy).Contents (Elt F)) : (⟨S1x300, .f32⟩ : BufTy).Contents (Elt F) :=
  extractStridedSlice S1x300 ![2, 0] (x18) slices_S5x300_S1x300_2_0

def val_main_v172 (x18 : (⟨S5x300, .f32⟩ : BufTy).Contents (Elt F)) : (⟨S300, .f32⟩ : BufTy).Contents (Elt F) :=
  shapeCast _ (val_main_v171 (F := F) x18) shapeCasts_S1x300_S300

def val_main_v173 (x20 : (⟨S5x300, .f32⟩ : BufTy).Contents (Elt F)) : (⟨S1x300, .f32⟩ : BufTy).Contents (Elt F) :=
  extractStridedSlice S1x300 ![2, 0] (x20) slices_S5x300_S1x300_2_0

def val_main_v174 (x20 : (⟨S5x300, .f32⟩ : BufTy).Contents (Elt F)) : (⟨S300, .f32⟩ : BufTy).Contents (Elt F) :=
  shapeCast _ (val_main_v173 (F := F) x20) shapeCasts_S1x300_S300

def val_main_v175 (x20 : (⟨S5x300, .f32⟩ : BufTy).Contents (Elt F)) : (⟨S1x300, .f32⟩ : BufTy).Contents (Elt F) :=
  broadcastInDim S1x300 ![1] bcast_S300_S1x300_1 (val_main_v174 (F := F) x20)

def val_main_v176 (x20 : (⟨S5x300, .f32⟩ : BufTy).Contents (Elt F)) : (⟨S50000x300, .f32⟩ : BufTy).Contents (Elt F) :=
  broadcastInDim S50000x300 ![0, 1] bcast_S1x300_S50000x300_0_1 (val_main_v175 (F := F) x20)

def val_main_v177 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  subf (val_main_v170 (F := F) x0 x1 x2 x3 x4 x5 x6 x7 x8 x9 x10 x11 x12 x13 x14 x15 x16 x17 x18 x19 x20 x21) (val_main_v176 (F := F) x20)

def val_main_v178 (x18 : (⟨S5x300, .f32⟩ : BufTy).Contents (Elt F)) : (⟨S1x300, .f32⟩ : BufTy).Contents (Elt F) :=
  broadcastInDim S1x300 ![1] bcast_S300_S1x300_1 (val_main_v172 (F := F) x18)

def val_main_v179 (x18 : (⟨S5x300, .f32⟩ : BufTy).Contents (Elt F)) : (⟨S50000x300, .f32⟩ : BufTy).Contents (Elt F) :=
  broadcastInDim S50000x300 ![0, 1] bcast_S1x300_S50000x300_0_1 (val_main_v178 (F := F) x18)

def val_main_v180 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  mulf (val_main_v179 (F := F) x18) (val_main_v177 (F := F) x0 x1 x2 x3 x4 x5 x6 x7 x8 x9 x10 x11 x12 x13 x14 x15 x16 x17 x18 x19 x20 x21)

def val_main_v181 (x21 : (⟨S5x300, .f32⟩ : BufTy).Contents (Elt F)) : (⟨S1x300, .f32⟩ : BufTy).Contents (Elt F) :=
  extractStridedSlice S1x300 ![2, 0] (x21) slices_S5x300_S1x300_2_0

def val_main_v182 (x21 : (⟨S5x300, .f32⟩ : BufTy).Contents (Elt F)) : (⟨S300, .f32⟩ : BufTy).Contents (Elt F) :=
  shapeCast _ (val_main_v181 (F := F) x21) shapeCasts_S1x300_S300

def val_main_cst_11 : (⟨S_, .f32⟩ : BufTy).Contents (Elt F) :=
  constant S_ .f32 0x3727C5AC#32

def val_main_v183 : (⟨S300, .f32⟩ : BufTy).Contents (Elt F) :=
  broadcastInDim S300 ![] bcast_S_S300 (val_main_cst_11 (F := F))

def val_main_v184 (x21 : (⟨S5x300, .f32⟩ : BufTy).Contents (Elt F)) : (⟨S300, .f32⟩ : BufTy).Contents (Elt F) :=
  addf (val_main_v182 (F := F) x21) (val_main_v183 (F := F))

def val_main_v185 (x21 : (⟨S5x300, .f32⟩ : BufTy).Contents (Elt F)) : (⟨S300, .f32⟩ : BufTy).Contents (Elt F) :=
  Host.rsqrt (val_main_v184 (F := F) x21)

def val_main_v186 (x21 : (⟨S5x300, .f32⟩ : BufTy).Contents (Elt F)) : (⟨S1x300, .f32⟩ : BufTy).Contents (Elt F) :=
  broadcastInDim S1x300 ![1] bcast_S300_S1x300_1 (val_main_v185 (F := F) x21)

def val_main_v187 (x21 : (⟨S5x300, .f32⟩ : BufTy).Contents (Elt F)) : (⟨S50000x300, .f32⟩ : BufTy).Contents (Elt F) :=
  broadcastInDim S50000x300 ![0, 1] bcast_S1x300_S50000x300_0_1 (val_main_v186 (F := F) x21)

def val_main_v188 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  mulf (val_main_v180 (F := F) x0 x1 x2 x3 x4 x5 x6 x7 x8 x9 x10 x11 x12 x13 x14 x15 x16 x17 x18 x19 x20 x21) (val_main_v187 (F := F) x21)

def val_main_v189 (x19 : (⟨S5x300, .f32⟩ : BufTy).Contents (Elt F)) : (⟨S1x300, .f32⟩ : BufTy).Contents (Elt F) :=
  extractStridedSlice S1x300 ![2, 0] (x19) slices_S5x300_S1x300_2_0

def val_main_v190 (x19 : (⟨S5x300, .f32⟩ : BufTy).Contents (Elt F)) : (⟨S300, .f32⟩ : BufTy).Contents (Elt F) :=
  shapeCast _ (val_main_v189 (F := F) x19) shapeCasts_S1x300_S300

def val_main_v191 (x19 : (⟨S5x300, .f32⟩ : BufTy).Contents (Elt F)) : (⟨S1x300, .f32⟩ : BufTy).Contents (Elt F) :=
  broadcastInDim S1x300 ![1] bcast_S300_S1x300_1 (val_main_v190 (F := F) x19)

def val_main_v192 (x19 : (⟨S5x300, .f32⟩ : BufTy).Contents (Elt F)) : (⟨S50000x300, .f32⟩ : BufTy).Contents (Elt F) :=
  broadcastInDim S50000x300 ![0, 1] bcast_S1x300_S50000x300_0_1 (val_main_v191 (F := F) x19)

def val_main_v193 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v188 (F := F) x0 x1 x2 x3 x4 x5 x6 x7 x8 x9 x10 x11 x12 x13 x14 x15 x16 x17 x18 x19 x20 x21) (val_main_v192 (F := F) x19)

def val_main_call10_cst : (⟨S_, .f32⟩ : BufTy).Contents (Elt F) :=
  constant S_ .f32 0x00000000#32

def val_main_call10_v0 : (⟨S50000x300, .f32⟩ : BufTy).Contents (Elt F) :=
  broadcastInDim S50000x300 ![] bcast_S_S50000x300 (val_main_call10_cst (F := F))

def val_main_v194 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  maximumf (val_main_v193 (F := F) x0 x1 x2 x3 x4 x5 x6 x7 x8 x9 x10 x11 x12 x13 x14 x15 x16 x17 x18 x19 x20 x21) (val_main_call10_v0 (F := F))

def val_main_c_12 : (⟨S_, .i32⟩ : BufTy).Contents (Elt F) :=
  constantI S_ 32 0#32

def val_main_v195 : (⟨S125000, .i32⟩ : BufTy).Contents (Elt F) :=
  broadcastInDim S125000 ![] bcast_S_S125000 (val_main_c_12 (F := F))

def val_main_v196 (x3 : (⟨S2x125000, .i32⟩ : BufTy).Contents (Elt F)) : (⟨S125000, .i1⟩ : BufTy).Contents (Elt F) :=
  cmpi .slt (val_main_v30 (F := F) x3) (val_main_v195 (F := F))

def val_main_c_13 : (⟨S_, .i32⟩ : BufTy).Contents (Elt F) :=
  constantI S_ 32 50000#32

def val_main_v197 : (⟨S125000, .i32⟩ : BufTy).Contents (Elt F) :=
  broadcastInDim S125000 ![] bcast_S_S125000 (val_main_c_13 (F := F))

def val_main_v198 (x3 : (⟨S2x125000, .i32⟩ : BufTy).Contents (Elt F)) : (⟨S125000, .i32⟩ : BufTy).Contents (Elt F) :=
  addi (val_main_v30 (F := F) x3) (val_main_v197 (F := F))

def val_main_v199 (x3 : (⟨S2x125000, .i32⟩ : BufTy).Contents (Elt F)) : (⟨S125000, .i32⟩ : BufTy).Contents (Elt F) :=
  select (val_main_v196 (F := F) x3) (val_main_v198 (F := F) x3) (val_main_v30 (F := F) x3)

def val_main_v200 (x3 : (⟨S2x125000, .i32⟩ : BufTy).Contents (Elt F)) : (⟨S125000x1, .i32⟩ : BufTy).Contents (Elt F) :=
  broadcastInDim S125000x1 ![0] bcast_S125000_S125000x1_0 (val_main_v199 (F := F) x3)

def val_main_v201 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S125000x300, .f32⟩ : BufTy).Contents (Elt F) :=
  Host.gather gather_S50000x300_S125000x1_S125000x300_1_0_n_n_0_1_1300 (val_main_v194 (F := F) x0 x1 x2 x3 x4 x5 x6 x7 x8 x9 x10 x11 x12 x13 x14 x15 x16 x17 x18 x19 x20 x21) (val_main_v200 (F := F) x3)

def val_main_v202 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S125000x300, .f32⟩ : BufTy).Contents (Elt F) :=
  addf (val_main_v201 (F := F) x0 x1 x2 x3 x4 x5 x6 x7 x8 x9 x10 x11 x12 x13 x14 x15 x16 x17 x18 x19 x20 x21) (val_main_v28 (F := F) x4 x10 x11 x12 x13)

def val_main_call11_cst : (⟨S_, .f32⟩ : BufTy).Contents (Elt F) :=
  constant S_ .f32 0x00000000#32

def val_main_call11_v0 : (⟨S125000x300, .f32⟩ : BufTy).Contents (Elt F) :=
  broadcastInDim S125000x300 ![] bcast_S_S125000x300 (val_main_call11_cst (F := F))

def val_main_v203 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S125000x300, .f32⟩ : BufTy).Contents (Elt F) :=
  maximumf (val_main_v202 (F := F) x0 x1 x2 x3 x4 x5 x6 x7 x8 x9 x10 x11 x12 x13 x14 x15 x16 x17 x18 x19 x20 x21) (val_main_call11_v0 (F := F))

def val_main_cst_14 : (⟨S_, .f32⟩ : BufTy).Contents (Elt F) :=
  constant S_ .f32 0x00000000#32

def val_main_v204 : (⟨S50000x300, .f32⟩ : BufTy).Contents (Elt F) :=
  broadcastInDim S50000x300 ![] bcast_S_S50000x300 (val_main_cst_14 (F := F))

def val_main_v205 (x3 : (⟨S2x125000, .i32⟩ : BufTy).Contents (Elt F)) : (⟨S125000x1, .i32⟩ : BufTy).Contents (Elt F) :=
  broadcastInDim S125000x1 ![0] bcast_S125000_S125000x1_0 (val_main_v32 (F := F) x3)

def val_main_v206 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  Host.scatterAdd scatter_S50000x300_S125000x1_S125000x300_1_0_0_1 (val_main_v204 (F := F)) (val_main_v205 (F := F) x3) (val_main_v203 (F := F) x0 x1 x2 x3 x4 x5 x6 x7 x8 x9 x10 x11 x12 x13 x14 x15 x16 x17 x18 x19 x20 x21)

def val_main_v207 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v194 (F := F) x0 x1 x2 x3 x4 x5 x6 x7 x8 x9 x10 x11 x12 x13 x14 x15 x16 x17 x18 x19 x20 x21) (val_main_v206 (F := F) x0 x1 x2 x3 x4 x5 x6 x7 x8 x9 x10 x11 x12 x13 x14 x15 x16 x17 x18 x19 x20 x21)

def val_main_v208 (x14 : (⟨S5x300x300, .f32⟩ : BufTy).Contents (Elt F)) : (⟨S1x300x300, .f32⟩ : BufTy).Contents (Elt F) :=
  extractStridedSlice S1x300x300 ![3, 0, 0] (x14) slices_S5x300x300_S1x300x300_3_0_0

def val_main_v209 (x14 : (⟨S5x300x300, .f32⟩ : BufTy).Contents (Elt F)) : (⟨S300x300, .f32⟩ : BufTy).Contents (Elt F) :=
  shapeCast _ (val_main_v208 (F := F) x14) shapeCasts_S1x300x300_S300x300

def val_main_v210 (x15 : (⟨S5x300, .f32⟩ : BufTy).Contents (Elt F)) : (⟨S1x300, .f32⟩ : BufTy).Contents (Elt F) :=
  extractStridedSlice S1x300 ![3, 0] (x15) slices_S5x300_S1x300_3_0

def val_main_v211 (x15 : (⟨S5x300, .f32⟩ : BufTy).Contents (Elt F)) : (⟨S300, .f32⟩ : BufTy).Contents (Elt F) :=
  shapeCast _ (val_main_v210 (F := F) x15) shapeCasts_S1x300_S300

def val_main_v212 (x16 : (⟨S5x300x300, .f32⟩ : BufTy).Contents (Elt F)) : (⟨S1x300x300, .f32⟩ : BufTy).Contents (Elt F) :=
  extractStridedSlice S1x300x300 ![3, 0, 0] (x16) slices_S5x300x300_S1x300x300_3_0_0

def val_main_v213 (x16 : (⟨S5x300x300, .f32⟩ : BufTy).Contents (Elt F)) : (⟨S300x300, .f32⟩ : BufTy).Contents (Elt F) :=
  shapeCast _ (val_main_v212 (F := F) x16) shapeCasts_S1x300x300_S300x300

def val_main_v214 (x17 : (⟨S5x300, .f32⟩ : BufTy).Contents (Elt F)) : (⟨S1x300, .f32⟩ : BufTy).Contents (Elt F) :=
  extractStridedSlice S1x300 ![3, 0] (x17) slices_S5x300_S1x300_3_0

def val_main_v215 (x17 : (⟨S5x300, .f32⟩ : BufTy).Contents (Elt F)) : (⟨S300, .f32⟩ : BufTy).Contents (Elt F) :=
  shapeCast _ (val_main_v214 (F := F) x17) shapeCasts_S1x300_S300

def val_main_v216 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  Host.dotGeneral dot_S50000x300_S300x300_S50000x300_1_0_0_1_n_n none (val_main_v207 (F := F) x0 x1 x2 x3 x4 x5 x6 x7 x8 x9 x10 x11 x12 x13 x14 x15 x16 x17 x18 x19 x20 x21) (val_main_v209 (F := F) x14)

def val_main_v217 (x15 : (⟨S5x300, .f32⟩ : BufTy).Contents (Elt F)) : (⟨S1x300, .f32⟩ : BufTy).Contents (Elt F) :=
  broadcastInDim S1x300 ![1] bcast_S300_S1x300_1 (val_main_v211 (F := F) x15)

def val_main_v218 (x15 : (⟨S5x300, .f32⟩ : BufTy).Contents (Elt F)) : (⟨S50000x300, .f32⟩ : BufTy).Contents (Elt F) :=
  broadcastInDim S50000x300 ![0, 1] bcast_S1x300_S50000x300_0_1 (val_main_v217 (F := F) x15)

def val_main_v219 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v216 (F := F) x0 x1 x2 x3 x4 x5 x6 x7 x8 x9 x10 x11 x12 x13 x14 x15 x16 x17 x18 x19 x20 x21) (val_main_v218 (F := F) x15)

def val_main_call12_cst : (⟨S_, .f32⟩ : BufTy).Contents (Elt F) :=
  constant S_ .f32 0x00000000#32

def val_main_call12_v0 : (⟨S50000x300, .f32⟩ : BufTy).Contents (Elt F) :=
  broadcastInDim S50000x300 ![] bcast_S_S50000x300 (val_main_call12_cst (F := F))

def val_main_v220 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  maximumf (val_main_v219 (F := F) x0 x1 x2 x3 x4 x5 x6 x7 x8 x9 x10 x11 x12 x13 x14 x15 x16 x17 x18 x19 x20 x21) (val_main_call12_v0 (F := F))

def val_main_v221 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  Host.dotGeneral dot_S50000x300_S300x300_S50000x300_1_0_0_1_n_n none (val_main_v220 (F := F) x0 x1 x2 x3 x4 x5 x6 x7 x8 x9 x10 x11 x12 x13 x14 x15 x16 x17 x18 x19 x20 x21) (val_main_v213 (F := F) x16)

def val_main_v222 (x17 : (⟨S5x300, .f32⟩ : BufTy).Contents (Elt F)) : (⟨S1x300, .f32⟩ : BufTy).Contents (Elt F) :=
  broadcastInDim S1x300 ![1] bcast_S300_S1x300_1 (val_main_v215 (F := F) x17)

def val_main_v223 (x17 : (⟨S5x300, .f32⟩ : BufTy).Contents (Elt F)) : (⟨S50000x300, .f32⟩ : BufTy).Contents (Elt F) :=
  broadcastInDim S50000x300 ![0, 1] bcast_S1x300_S50000x300_0_1 (val_main_v222 (F := F) x17)

def val_main_v224 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v221 (F := F) x0 x1 x2 x3 x4 x5 x6 x7 x8 x9 x10 x11 x12 x13 x14 x15 x16 x17 x18 x19 x20 x21) (val_main_v223 (F := F) x17)

def val_main_v225 (x18 : (⟨S5x300, .f32⟩ : BufTy).Contents (Elt F)) : (⟨S1x300, .f32⟩ : BufTy).Contents (Elt F) :=
  extractStridedSlice S1x300 ![3, 0] (x18) slices_S5x300_S1x300_3_0

def val_main_v226 (x18 : (⟨S5x300, .f32⟩ : BufTy).Contents (Elt F)) : (⟨S300, .f32⟩ : BufTy).Contents (Elt F) :=
  shapeCast _ (val_main_v225 (F := F) x18) shapeCasts_S1x300_S300

def val_main_v227 (x20 : (⟨S5x300, .f32⟩ : BufTy).Contents (Elt F)) : (⟨S1x300, .f32⟩ : BufTy).Contents (Elt F) :=
  extractStridedSlice S1x300 ![3, 0] (x20) slices_S5x300_S1x300_3_0

def val_main_v228 (x20 : (⟨S5x300, .f32⟩ : BufTy).Contents (Elt F)) : (⟨S300, .f32⟩ : BufTy).Contents (Elt F) :=
  shapeCast _ (val_main_v227 (F := F) x20) shapeCasts_S1x300_S300

def val_main_v229 (x20 : (⟨S5x300, .f32⟩ : BufTy).Contents (Elt F)) : (⟨S1x300, .f32⟩ : BufTy).Contents (Elt F) :=
  broadcastInDim S1x300 ![1] bcast_S300_S1x300_1 (val_main_v228 (F := F) x20)

def val_main_v230 (x20 : (⟨S5x300, .f32⟩ : BufTy).Contents (Elt F)) : (⟨S50000x300, .f32⟩ : BufTy).Contents (Elt F) :=
  broadcastInDim S50000x300 ![0, 1] bcast_S1x300_S50000x300_0_1 (val_main_v229 (F := F) x20)

def val_main_v231 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  subf (val_main_v224 (F := F) x0 x1 x2 x3 x4 x5 x6 x7 x8 x9 x10 x11 x12 x13 x14 x15 x16 x17 x18 x19 x20 x21) (val_main_v230 (F := F) x20)

def val_main_v232 (x18 : (⟨S5x300, .f32⟩ : BufTy).Contents (Elt F)) : (⟨S1x300, .f32⟩ : BufTy).Contents (Elt F) :=
  broadcastInDim S1x300 ![1] bcast_S300_S1x300_1 (val_main_v226 (F := F) x18)

def val_main_v233 (x18 : (⟨S5x300, .f32⟩ : BufTy).Contents (Elt F)) : (⟨S50000x300, .f32⟩ : BufTy).Contents (Elt F) :=
  broadcastInDim S50000x300 ![0, 1] bcast_S1x300_S50000x300_0_1 (val_main_v232 (F := F) x18)

def val_main_v234 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  mulf (val_main_v233 (F := F) x18) (val_main_v231 (F := F) x0 x1 x2 x3 x4 x5 x6 x7 x8 x9 x10 x11 x12 x13 x14 x15 x16 x17 x18 x19 x20 x21)

def val_main_v235 (x21 : (⟨S5x300, .f32⟩ : BufTy).Contents (Elt F)) : (⟨S1x300, .f32⟩ : BufTy).Contents (Elt F) :=
  extractStridedSlice S1x300 ![3, 0] (x21) slices_S5x300_S1x300_3_0

def val_main_v236 (x21 : (⟨S5x300, .f32⟩ : BufTy).Contents (Elt F)) : (⟨S300, .f32⟩ : BufTy).Contents (Elt F) :=
  shapeCast _ (val_main_v235 (F := F) x21) shapeCasts_S1x300_S300

def val_main_cst_15 : (⟨S_, .f32⟩ : BufTy).Contents (Elt F) :=
  constant S_ .f32 0x3727C5AC#32

def val_main_v237 : (⟨S300, .f32⟩ : BufTy).Contents (Elt F) :=
  broadcastInDim S300 ![] bcast_S_S300 (val_main_cst_15 (F := F))

def val_main_v238 (x21 : (⟨S5x300, .f32⟩ : BufTy).Contents (Elt F)) : (⟨S300, .f32⟩ : BufTy).Contents (Elt F) :=
  addf (val_main_v236 (F := F) x21) (val_main_v237 (F := F))

def val_main_v239 (x21 : (⟨S5x300, .f32⟩ : BufTy).Contents (Elt F)) : (⟨S300, .f32⟩ : BufTy).Contents (Elt F) :=
  Host.rsqrt (val_main_v238 (F := F) x21)

def val_main_v240 (x21 : (⟨S5x300, .f32⟩ : BufTy).Contents (Elt F)) : (⟨S1x300, .f32⟩ : BufTy).Contents (Elt F) :=
  broadcastInDim S1x300 ![1] bcast_S300_S1x300_1 (val_main_v239 (F := F) x21)

def val_main_v241 (x21 : (⟨S5x300, .f32⟩ : BufTy).Contents (Elt F)) : (⟨S50000x300, .f32⟩ : BufTy).Contents (Elt F) :=
  broadcastInDim S50000x300 ![0, 1] bcast_S1x300_S50000x300_0_1 (val_main_v240 (F := F) x21)

def val_main_v242 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  mulf (val_main_v234 (F := F) x0 x1 x2 x3 x4 x5 x6 x7 x8 x9 x10 x11 x12 x13 x14 x15 x16 x17 x18 x19 x20 x21) (val_main_v241 (F := F) x21)

def val_main_v243 (x19 : (⟨S5x300, .f32⟩ : BufTy).Contents (Elt F)) : (⟨S1x300, .f32⟩ : BufTy).Contents (Elt F) :=
  extractStridedSlice S1x300 ![3, 0] (x19) slices_S5x300_S1x300_3_0

def val_main_v244 (x19 : (⟨S5x300, .f32⟩ : BufTy).Contents (Elt F)) : (⟨S300, .f32⟩ : BufTy).Contents (Elt F) :=
  shapeCast _ (val_main_v243 (F := F) x19) shapeCasts_S1x300_S300

def val_main_v245 (x19 : (⟨S5x300, .f32⟩ : BufTy).Contents (Elt F)) : (⟨S1x300, .f32⟩ : BufTy).Contents (Elt F) :=
  broadcastInDim S1x300 ![1] bcast_S300_S1x300_1 (val_main_v244 (F := F) x19)

def val_main_v246 (x19 : (⟨S5x300, .f32⟩ : BufTy).Contents (Elt F)) : (⟨S50000x300, .f32⟩ : BufTy).Contents (Elt F) :=
  broadcastInDim S50000x300 ![0, 1] bcast_S1x300_S50000x300_0_1 (val_main_v245 (F := F) x19)

def val_main_v247 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v242 (F := F) x0 x1 x2 x3 x4 x5 x6 x7 x8 x9 x10 x11 x12 x13 x14 x15 x16 x17 x18 x19 x20 x21) (val_main_v246 (F := F) x19)

def val_main_call13_cst : (⟨S_, .f32⟩ : BufTy).Contents (Elt F) :=
  constant S_ .f32 0x00000000#32

def val_main_call13_v0 : (⟨S50000x300, .f32⟩ : BufTy).Contents (Elt F) :=
  broadcastInDim S50000x300 ![] bcast_S_S50000x300 (val_main_call13_cst (F := F))

def val_main_v248 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  maximumf (val_main_v247 (F := F) x0 x1 x2 x3 x4 x5 x6 x7 x8 x9 x10 x11 x12 x13 x14 x15 x16 x17 x18 x19 x20 x21) (val_main_call13_v0 (F := F))

def val_main_c_16 : (⟨S_, .i32⟩ : BufTy).Contents (Elt F) :=
  constantI S_ 32 0#32

def val_main_v249 : (⟨S125000, .i32⟩ : BufTy).Contents (Elt F) :=
  broadcastInDim S125000 ![] bcast_S_S125000 (val_main_c_16 (F := F))

def val_main_v250 (x3 : (⟨S2x125000, .i32⟩ : BufTy).Contents (Elt F)) : (⟨S125000, .i1⟩ : BufTy).Contents (Elt F) :=
  cmpi .slt (val_main_v30 (F := F) x3) (val_main_v249 (F := F))

def val_main_c_17 : (⟨S_, .i32⟩ : BufTy).Contents (Elt F) :=
  constantI S_ 32 50000#32

def val_main_v251 : (⟨S125000, .i32⟩ : BufTy).Contents (Elt F) :=
  broadcastInDim S125000 ![] bcast_S_S125000 (val_main_c_17 (F := F))

def val_main_v252 (x3 : (⟨S2x125000, .i32⟩ : BufTy).Contents (Elt F)) : (⟨S125000, .i32⟩ : BufTy).Contents (Elt F) :=
  addi (val_main_v30 (F := F) x3) (val_main_v251 (F := F))

def val_main_v253 (x3 : (⟨S2x125000, .i32⟩ : BufTy).Contents (Elt F)) : (⟨S125000, .i32⟩ : BufTy).Contents (Elt F) :=
  select (val_main_v250 (F := F) x3) (val_main_v252 (F := F) x3) (val_main_v30 (F := F) x3)

def val_main_v254 (x3 : (⟨S2x125000, .i32⟩ : BufTy).Contents (Elt F)) : (⟨S125000x1, .i32⟩ : BufTy).Contents (Elt F) :=
  broadcastInDim S125000x1 ![0] bcast_S125000_S125000x1_0 (val_main_v253 (F := F) x3)

def val_main_v255 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S125000x300, .f32⟩ : BufTy).Contents (Elt F) :=
  Host.gather gather_S50000x300_S125000x1_S125000x300_1_0_n_n_0_1_1300 (val_main_v248 (F := F) x0 x1 x2 x3 x4 x5 x6 x7 x8 x9 x10 x11 x12 x13 x14 x15 x16 x17 x18 x19 x20 x21) (val_main_v254 (F := F) x3)

def val_main_v256 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S125000x300, .f32⟩ : BufTy).Contents (Elt F) :=
  addf (val_main_v255 (F := F) x0 x1 x2 x3 x4 x5 x6 x7 x8 x9 x10 x11 x12 x13 x14 x15 x16 x17 x18 x19 x20 x21) (val_main_v28 (F := F) x4 x10 x11 x12 x13)

def val_main_call14_cst : (⟨S_, .f32⟩ : BufTy).Contents (Elt F) :=
  constant S_ .f32 0x00000000#32

def val_main_call14_v0 : (⟨S125000x300, .f32⟩ : BufTy).Contents (Elt F) :=
  broadcastInDim S125000x300 ![] bcast_S_S125000x300 (val_main_call14_cst (F := F))

def val_main_v257 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S125000x300, .f32⟩ : BufTy).Contents (Elt F) :=
  maximumf (val_main_v256 (F := F) x0 x1 x2 x3 x4 x5 x6 x7 x8 x9 x10 x11 x12 x13 x14 x15 x16 x17 x18 x19 x20 x21) (val_main_call14_v0 (F := F))

def val_main_cst_18 : (⟨S_, .f32⟩ : BufTy).Contents (Elt F) :=
  constant S_ .f32 0x00000000#32

def val_main_v258 : (⟨S50000x300, .f32⟩ : BufTy).Contents (Elt F) :=
  broadcastInDim S50000x300 ![] bcast_S_S50000x300 (val_main_cst_18 (F := F))

def val_main_v259 (x3 : (⟨S2x125000, .i32⟩ : BufTy).Contents (Elt F)) : (⟨S125000x1, .i32⟩ : BufTy).Contents (Elt F) :=
  broadcastInDim S125000x1 ![0] bcast_S125000_S125000x1_0 (val_main_v32 (F := F) x3)

def val_main_v260 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  Host.scatterAdd scatter_S50000x300_S125000x1_S125000x300_1_0_0_1 (val_main_v258 (F := F)) (val_main_v259 (F := F) x3) (val_main_v257 (F := F) x0 x1 x2 x3 x4 x5 x6 x7 x8 x9 x10 x11 x12 x13 x14 x15 x16 x17 x18 x19 x20 x21)

def val_main_v261 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v248 (F := F) x0 x1 x2 x3 x4 x5 x6 x7 x8 x9 x10 x11 x12 x13 x14 x15 x16 x17 x18 x19 x20 x21) (val_main_v260 (F := F) x0 x1 x2 x3 x4 x5 x6 x7 x8 x9 x10 x11 x12 x13 x14 x15 x16 x17 x18 x19 x20 x21)

def val_main_v262 (x14 : (⟨S5x300x300, .f32⟩ : BufTy).Contents (Elt F)) : (⟨S1x300x300, .f32⟩ : BufTy).Contents (Elt F) :=
  extractStridedSlice S1x300x300 ![4, 0, 0] (x14) slices_S5x300x300_S1x300x300_4_0_0

def val_main_v263 (x14 : (⟨S5x300x300, .f32⟩ : BufTy).Contents (Elt F)) : (⟨S300x300, .f32⟩ : BufTy).Contents (Elt F) :=
  shapeCast _ (val_main_v262 (F := F) x14) shapeCasts_S1x300x300_S300x300

def val_main_v264 (x15 : (⟨S5x300, .f32⟩ : BufTy).Contents (Elt F)) : (⟨S1x300, .f32⟩ : BufTy).Contents (Elt F) :=
  extractStridedSlice S1x300 ![4, 0] (x15) slices_S5x300_S1x300_4_0

def val_main_v265 (x15 : (⟨S5x300, .f32⟩ : BufTy).Contents (Elt F)) : (⟨S300, .f32⟩ : BufTy).Contents (Elt F) :=
  shapeCast _ (val_main_v264 (F := F) x15) shapeCasts_S1x300_S300

def val_main_v266 (x16 : (⟨S5x300x300, .f32⟩ : BufTy).Contents (Elt F)) : (⟨S1x300x300, .f32⟩ : BufTy).Contents (Elt F) :=
  extractStridedSlice S1x300x300 ![4, 0, 0] (x16) slices_S5x300x300_S1x300x300_4_0_0

def val_main_v267 (x16 : (⟨S5x300x300, .f32⟩ : BufTy).Contents (Elt F)) : (⟨S300x300, .f32⟩ : BufTy).Contents (Elt F) :=
  shapeCast _ (val_main_v266 (F := F) x16) shapeCasts_S1x300x300_S300x300

def val_main_v268 (x17 : (⟨S5x300, .f32⟩ : BufTy).Contents (Elt F)) : (⟨S1x300, .f32⟩ : BufTy).Contents (Elt F) :=
  extractStridedSlice S1x300 ![4, 0] (x17) slices_S5x300_S1x300_4_0

def val_main_v269 (x17 : (⟨S5x300, .f32⟩ : BufTy).Contents (Elt F)) : (⟨S300, .f32⟩ : BufTy).Contents (Elt F) :=
  shapeCast _ (val_main_v268 (F := F) x17) shapeCasts_S1x300_S300

def val_main_v270 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  Host.dotGeneral dot_S50000x300_S300x300_S50000x300_1_0_0_1_n_n none (val_main_v261 (F := F) x0 x1 x2 x3 x4 x5 x6 x7 x8 x9 x10 x11 x12 x13 x14 x15 x16 x17 x18 x19 x20 x21) (val_main_v263 (F := F) x14)

def val_main_v271 (x15 : (⟨S5x300, .f32⟩ : BufTy).Contents (Elt F)) : (⟨S1x300, .f32⟩ : BufTy).Contents (Elt F) :=
  broadcastInDim S1x300 ![1] bcast_S300_S1x300_1 (val_main_v265 (F := F) x15)

def val_main_v272 (x15 : (⟨S5x300, .f32⟩ : BufTy).Contents (Elt F)) : (⟨S50000x300, .f32⟩ : BufTy).Contents (Elt F) :=
  broadcastInDim S50000x300 ![0, 1] bcast_S1x300_S50000x300_0_1 (val_main_v271 (F := F) x15)

def val_main_v273 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v270 (F := F) x0 x1 x2 x3 x4 x5 x6 x7 x8 x9 x10 x11 x12 x13 x14 x15 x16 x17 x18 x19 x20 x21) (val_main_v272 (F := F) x15)

def val_main_call15_cst : (⟨S_, .f32⟩ : BufTy).Contents (Elt F) :=
  constant S_ .f32 0x00000000#32

def val_main_call15_v0 : (⟨S50000x300, .f32⟩ : BufTy).Contents (Elt F) :=
  broadcastInDim S50000x300 ![] bcast_S_S50000x300 (val_main_call15_cst (F := F))

def val_main_v274 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  maximumf (val_main_v273 (F := F) x0 x1 x2 x3 x4 x5 x6 x7 x8 x9 x10 x11 x12 x13 x14 x15 x16 x17 x18 x19 x20 x21) (val_main_call15_v0 (F := F))

def val_main_v275 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  Host.dotGeneral dot_S50000x300_S300x300_S50000x300_1_0_0_1_n_n none (val_main_v274 (F := F) x0 x1 x2 x3 x4 x5 x6 x7 x8 x9 x10 x11 x12 x13 x14 x15 x16 x17 x18 x19 x20 x21) (val_main_v267 (F := F) x16)

def val_main_v276 (x17 : (⟨S5x300, .f32⟩ : BufTy).Contents (Elt F)) : (⟨S1x300, .f32⟩ : BufTy).Contents (Elt F) :=
  broadcastInDim S1x300 ![1] bcast_S300_S1x300_1 (val_main_v269 (F := F) x17)

def val_main_v277 (x17 : (⟨S5x300, .f32⟩ : BufTy).Contents (Elt F)) : (⟨S50000x300, .f32⟩ : BufTy).Contents (Elt F) :=
  broadcastInDim S50000x300 ![0, 1] bcast_S1x300_S50000x300_0_1 (val_main_v276 (F := F) x17)

def val_main_v278 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v275 (F := F) x0 x1 x2 x3 x4 x5 x6 x7 x8 x9 x10 x11 x12 x13 x14 x15 x16 x17 x18 x19 x20 x21) (val_main_v277 (F := F) x17)

def val_main_v279 (x18 : (⟨S5x300, .f32⟩ : BufTy).Contents (Elt F)) : (⟨S1x300, .f32⟩ : BufTy).Contents (Elt F) :=
  extractStridedSlice S1x300 ![4, 0] (x18) slices_S5x300_S1x300_4_0

def val_main_v280 (x18 : (⟨S5x300, .f32⟩ : BufTy).Contents (Elt F)) : (⟨S300, .f32⟩ : BufTy).Contents (Elt F) :=
  shapeCast _ (val_main_v279 (F := F) x18) shapeCasts_S1x300_S300

def val_main_v281 (x20 : (⟨S5x300, .f32⟩ : BufTy).Contents (Elt F)) : (⟨S1x300, .f32⟩ : BufTy).Contents (Elt F) :=
  extractStridedSlice S1x300 ![4, 0] (x20) slices_S5x300_S1x300_4_0

def val_main_v282 (x20 : (⟨S5x300, .f32⟩ : BufTy).Contents (Elt F)) : (⟨S300, .f32⟩ : BufTy).Contents (Elt F) :=
  shapeCast _ (val_main_v281 (F := F) x20) shapeCasts_S1x300_S300

def val_main_v283 (x20 : (⟨S5x300, .f32⟩ : BufTy).Contents (Elt F)) : (⟨S1x300, .f32⟩ : BufTy).Contents (Elt F) :=
  broadcastInDim S1x300 ![1] bcast_S300_S1x300_1 (val_main_v282 (F := F) x20)

def val_main_v284 (x20 : (⟨S5x300, .f32⟩ : BufTy).Contents (Elt F)) : (⟨S50000x300, .f32⟩ : BufTy).Contents (Elt F) :=
  broadcastInDim S50000x300 ![0, 1] bcast_S1x300_S50000x300_0_1 (val_main_v283 (F := F) x20)

def val_main_v285 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  subf (val_main_v278 (F := F) x0 x1 x2 x3 x4 x5 x6 x7 x8 x9 x10 x11 x12 x13 x14 x15 x16 x17 x18 x19 x20 x21) (val_main_v284 (F := F) x20)

def val_main_v286 (x18 : (⟨S5x300, .f32⟩ : BufTy).Contents (Elt F)) : (⟨S1x300, .f32⟩ : BufTy).Contents (Elt F) :=
  broadcastInDim S1x300 ![1] bcast_S300_S1x300_1 (val_main_v280 (F := F) x18)

def val_main_v287 (x18 : (⟨S5x300, .f32⟩ : BufTy).Contents (Elt F)) : (⟨S50000x300, .f32⟩ : BufTy).Contents (Elt F) :=
  broadcastInDim S50000x300 ![0, 1] bcast_S1x300_S50000x300_0_1 (val_main_v286 (F := F) x18)

def val_main_v288 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  mulf (val_main_v287 (F := F) x18) (val_main_v285 (F := F) x0 x1 x2 x3 x4 x5 x6 x7 x8 x9 x10 x11 x12 x13 x14 x15 x16 x17 x18 x19 x20 x21)

def val_main_v289 (x21 : (⟨S5x300, .f32⟩ : BufTy).Contents (Elt F)) : (⟨S1x300, .f32⟩ : BufTy).Contents (Elt F) :=
  extractStridedSlice S1x300 ![4, 0] (x21) slices_S5x300_S1x300_4_0

def val_main_v290 (x21 : (⟨S5x300, .f32⟩ : BufTy).Contents (Elt F)) : (⟨S300, .f32⟩ : BufTy).Contents (Elt F) :=
  shapeCast _ (val_main_v289 (F := F) x21) shapeCasts_S1x300_S300

def val_main_cst_19 : (⟨S_, .f32⟩ : BufTy).Contents (Elt F) :=
  constant S_ .f32 0x3727C5AC#32

def val_main_v291 : (⟨S300, .f32⟩ : BufTy).Contents (Elt F) :=
  broadcastInDim S300 ![] bcast_S_S300 (val_main_cst_19 (F := F))

def val_main_v292 (x21 : (⟨S5x300, .f32⟩ : BufTy).Contents (Elt F)) : (⟨S300, .f32⟩ : BufTy).Contents (Elt F) :=
  addf (val_main_v290 (F := F) x21) (val_main_v291 (F := F))

def val_main_v293 (x21 : (⟨S5x300, .f32⟩ : BufTy).Contents (Elt F)) : (⟨S300, .f32⟩ : BufTy).Contents (Elt F) :=
  Host.rsqrt (val_main_v292 (F := F) x21)

def val_main_v294 (x21 : (⟨S5x300, .f32⟩ : BufTy).Contents (Elt F)) : (⟨S1x300, .f32⟩ : BufTy).Contents (Elt F) :=
  broadcastInDim S1x300 ![1] bcast_S300_S1x300_1 (val_main_v293 (F := F) x21)

def val_main_v295 (x21 : (⟨S5x300, .f32⟩ : BufTy).Contents (Elt F)) : (⟨S50000x300, .f32⟩ : BufTy).Contents (Elt F) :=
  broadcastInDim S50000x300 ![0, 1] bcast_S1x300_S50000x300_0_1 (val_main_v294 (F := F) x21)

def val_main_v296 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  mulf (val_main_v288 (F := F) x0 x1 x2 x3 x4 x5 x6 x7 x8 x9 x10 x11 x12 x13 x14 x15 x16 x17 x18 x19 x20 x21) (val_main_v295 (F := F) x21)

def val_main_v297 (x19 : (⟨S5x300, .f32⟩ : BufTy).Contents (Elt F)) : (⟨S1x300, .f32⟩ : BufTy).Contents (Elt F) :=
  extractStridedSlice S1x300 ![4, 0] (x19) slices_S5x300_S1x300_4_0

def val_main_v298 (x19 : (⟨S5x300, .f32⟩ : BufTy).Contents (Elt F)) : (⟨S300, .f32⟩ : BufTy).Contents (Elt F) :=
  shapeCast _ (val_main_v297 (F := F) x19) shapeCasts_S1x300_S300

def val_main_v299 (x19 : (⟨S5x300, .f32⟩ : BufTy).Contents (Elt F)) : (⟨S1x300, .f32⟩ : BufTy).Contents (Elt F) :=
  broadcastInDim S1x300 ![1] bcast_S300_S1x300_1 (val_main_v298 (F := F) x19)

def val_main_v300 (x19 : (⟨S5x300, .f32⟩ : BufTy).Contents (Elt F)) : (⟨S50000x300, .f32⟩ : BufTy).Contents (Elt F) :=
  broadcastInDim S50000x300 ![0, 1] bcast_S1x300_S50000x300_0_1 (val_main_v299 (F := F) x19)

def val_main_v301 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  addf (val_main_v296 (F := F) x0 x1 x2 x3 x4 x5 x6 x7 x8 x9 x10 x11 x12 x13 x14 x15 x16 x17 x18 x19 x20 x21) (val_main_v300 (F := F) x19)

def val_main_call16_cst : (⟨S_, .f32⟩ : BufTy).Contents (Elt F) :=
  constant S_ .f32 0x00000000#32

def val_main_call16_v0 : (⟨S50000x300, .f32⟩ : BufTy).Contents (Elt F) :=
  broadcastInDim S50000x300 ![] bcast_S_S50000x300 (val_main_call16_cst (F := F))

def val_main_v302 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) : (⟨S50000x300, .f32⟩ : BufTy).Contents (Elt F) :=
  maximumf (val_main_v301 (F := F) x0 x1 x2 x3 x4 x5 x6 x7 x8 x9 x10 x11 x12 x13 x14 x15 x16 x17 x18 x19 x20 x21) (val_main_call16_v0 (F := F))

def val_main_v303 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) (x22 : (⟨S300x87, .f32⟩ : BufTy).Contents (Elt F)) : (⟨S50000x87, .f32⟩ : BufTy).Contents (Elt F) :=
  Host.dotGeneral dot_S50000x300_S300x87_S50000x87_1_0_0_1_n_n none (val_main_v302 (F := F) x0 x1 x2 x3 x4 x5 x6 x7 x8 x9 x10 x11 x12 x13 x14 x15 x16 x17 x18 x19 x20 x21) (x22)

def val_main_v304 (x23 : (⟨S87, .f32⟩ : BufTy).Contents (Elt F)) : (⟨S1x87, .f32⟩ : BufTy).Contents (Elt F) :=
  broadcastInDim S1x87 ![1] bcast_S87_S1x87_1 (x23)

def val_main_v305 (x23 : (⟨S87, .f32⟩ : BufTy).Contents (Elt F)) : (⟨S50000x87, .f32⟩ : BufTy).Contents (Elt F) :=
  broadcastInDim S50000x87 ![0, 1] bcast_S1x87_S50000x87_0_1 (val_main_v304 (F := F) x23)

def val_main_v306 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) (x22 : (⟨S300x87, .f32⟩ : BufTy).Contents (Elt F)) (x23 : (⟨S87, .f32⟩ : BufTy).Contents (Elt F)) : (⟨S50000x87, .f32⟩ : BufTy).Contents (Elt F) :=
  addf (val_main_v303 (F := F) x0 x1 x2 x3 x4 x5 x6 x7 x8 x9 x10 x11 x12 x13 x14 x15 x16 x17 x18 x19 x20 x21 x22) (val_main_v305 (F := F) x23)

def val_main_v307 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) (x24 : (⟨S300x6, .f32⟩ : BufTy).Contents (Elt F)) : (⟨S50000x6, .f32⟩ : BufTy).Contents (Elt F) :=
  Host.dotGeneral dot_S50000x300_S300x6_S50000x6_1_0_0_1_n_n none (val_main_v302 (F := F) x0 x1 x2 x3 x4 x5 x6 x7 x8 x9 x10 x11 x12 x13 x14 x15 x16 x17 x18 x19 x20 x21) (x24)

def val_main_v308 (x25 : (⟨S6, .f32⟩ : BufTy).Contents (Elt F)) : (⟨S1x6, .f32⟩ : BufTy).Contents (Elt F) :=
  broadcastInDim S1x6 ![1] bcast_S6_S1x6_1 (x25)

def val_main_v309 (x25 : (⟨S6, .f32⟩ : BufTy).Contents (Elt F)) : (⟨S50000x6, .f32⟩ : BufTy).Contents (Elt F) :=
  broadcastInDim S50000x6 ![0, 1] bcast_S1x6_S50000x6_0_1 (val_main_v308 (F := F) x25)

def val_main_v310 (x0 : (⟨S50000, .i32⟩ : BufTy).Contents (Elt F)) (x1 x2 : (⟨S50000, .f32⟩ : BufTy).Contents (Elt F)) (x3 : (⟨S2x125000, .i32⟩ : BufTy).Contents (Elt F)) (x4 : (⟨S125000x3, .f32⟩ : BufTy).Contents (Elt F)) (x5 : (⟨S87x300, .f32⟩ : BufTy).Contents (Elt F)) (x6 : (⟨S2x300, .f32⟩ : BufTy).Contents (Elt F)) (x7 : (⟨S300, .f32⟩ : BufTy).Contents (Elt F)) (x8 : (⟨S300x300, .f32⟩ : BufTy).Contents (Elt F)) (x9 : (⟨S300, .f32⟩ : BufTy).Contents (Elt F)) (x10 : (⟨S3x300, .f32⟩ : BufTy).Contents (Elt F)) (x11 : (⟨S300, .f32⟩ : BufTy).Contents (Elt F)) (x12 : (⟨S300x300, .f32⟩ : BufTy).Contents (Elt F)) (x13 : (⟨S300, .f32⟩ : BufTy).Contents (Elt F)) (x14 : (⟨S5x300x300, .f32⟩ : BufTy).Contents (Elt F)) (x15 : (⟨S5x300, .f32⟩ : BufTy).Contents (Elt F)) (x16 : (⟨S5x300x300, .f32⟩ : BufTy).Contents (Elt F)) (x17 x18 x19 x20 x21 : (⟨S5x300, .f32⟩ : BufTy).Contents (Elt F)) (x24 : (⟨S300x6, .f32⟩ : BufTy).Contents (Elt F)) (x25 : (⟨S6, .f32⟩ : BufTy).Contents (Elt F)) : (⟨S50000x6, .f32⟩ : BufTy).Contents (Elt F) :=
  addf (val_main_v307 (F := F) x0 x1 x2 x3 x4 x5 x6 x7 x8 x9 x10 x11 x12 x13 x14 x15 x16 x17 x18 x19 x20 x21 x24) (val_main_v309 (F := F) x25)

end Cert.ReferenceIdeal.Read

end
-- ==== Proof.RefRunPre.lean ====
import proofs.«422490_j54958401520128_2_alg».proof.Proof.RefRead
import proofs.«422490_j54958401520128_2_alg».proof.Proof.Line

noncomputable section

namespace Cert.ReferenceIdeal.RefRunPre

open Cert.ReferenceIdeal Cert.ReferenceIdeal.Gen Idealize.ShloMosaic Idealize.ShloMosaic.TcCoe Idealize.SL.Sem Idealize.ShloMosaic.StableHlo
open Cert.ReferenceIdeal.RefOps

variable {F : FTy → Type} [FloatOps F] (V : Valuation τ sig (Elt F))

set_option maxHeartbeats 4000000 in
/-- The first piece leaves the node features entering layer 0 at their stage of the arguments. -/
theorem pre_v19 :
    (after (opsPre (F := F)) V main_v19 : (⟨S50000x300, .f32⟩ : BufTy).Contents (Elt F))
      = Read.val_main_v19 (V main_arg0) (V main_arg1) (V main_arg2) (V main_arg5) (V main_arg6) (V main_arg7) (V main_arg8) (V main_arg9) := by
  after_results_simp
  simp only [TRef.ofBuf_toBuf]
  simp only [TRef.ofBuf, TRef.toBuf, cast_eq]
  rfl

set_option maxHeartbeats 4000000 in
/-- And the edge features at theirs. -/
theorem pre_v28 :
    (after (opsPre (F := F)) V main_v28 : (⟨S125000x300, .f32⟩ : BufTy).Contents (Elt F))
      = Read.val_main_v28 (V main_arg4) (V main_arg10) (V main_arg11) (V main_arg12) (V main_arg13) := by
  after_results_simp
  simp only [TRef.ofBuf_toBuf]
  simp only [TRef.ofBuf, TRef.toBuf, cast_eq]
  rfl

/-- The last piece leaves a head of the final node features: their product with a weight matrix, plus a bias row. -/
theorem post_v306 :
    (after (opsPost (F := F)) V main_v306 : (⟨S50000x87, .f32⟩ : BufTy).Contents (Elt F))
      = addf (Host.dotGeneral dot_S50000x300_S300x87_S50000x87_1_0_0_1_n_n none (V main_v302) (V main_arg22)) (Read.val_main_v305 (V main_arg23)) := by
  after_results
  rfl

theorem post_v310 :
    (after (opsPost (F := F)) V main_v310 : (⟨S50000x6, .f32⟩ : BufTy).Contents (Elt F))
      = addf (Host.dotGeneral dot_S50000x300_S300x6_S50000x6_1_0_0_1_n_n none (V main_v302) (V main_arg24)) (Read.val_main_v309 (V main_arg25)) := by
  after_results
  rfl

end Cert.ReferenceIdeal.RefRunPre

end
-- ==== Proof.RefRunL0.lean ====
import proofs.«422490_j54958401520128_2_alg».proof.Proof.Line

noncomputable section

namespace Cert.ReferenceIdeal.RefRunL0

open Cert.ReferenceIdeal Cert.ReferenceIdeal.Gen Idealize.ShloMosaic Idealize.ShloMosaic.TcCoe Idealize.SL.Sem Idealize.ShloMosaic.StableHlo
open Cert.ReferenceIdeal.RefValue Cert.ReferenceIdeal.RefOps Cert.ReferenceIdeal.Line

variable (V : Valuation τ sig (Elt Ideal))

/-- The first piece leaves in its last buffer one graph layer over the buffers it reads. -/
theorem layer_run :
    (after (opsL0 (F := Ideal)) V main_v86 : NodeF)
      = layerAt 0 slices_S5x300x300_S1x300x300_0_0_0 slices_S5x300_S1x300_0_0 V (V main_v19) (srcCol (V main_arg3)) (dstCol (V main_arg3)) := by
  after_results_simp
  simp only [TRef.ofBuf_toBuf]
  unfold layerAt layerFn bnF outF hidF aggF msgF overNodes zeroN zeroE epsL srcCol dstCol asCol wrapWords rowWords matSlice laneSlice
  rfl

theorem src_words :
    (after (opsL0 (F := Ideal)) V main_v30 : Words) = rowWords 0 (V main_arg3) slices_S2x125000_S1x125000_0_0 := by
  after_results_simp
  rfl

theorem dst_words :
    (after (opsL0 (F := Ideal)) V main_v32 : Words) = rowWords 1 (V main_arg3) slices_S2x125000_S1x125000_1_0 := by
  after_results_simp
  rfl

end Cert.ReferenceIdeal.RefRunL0

end
-- ==== Proof.RefRunL1.lean ====
import proofs.«422490_j54958401520128_2_alg».proof.Proof.Line

noncomputable section

namespace Cert.ReferenceIdeal.RefRunL1

open Cert.ReferenceIdeal Cert.ReferenceIdeal.Gen Idealize.ShloMosaic Idealize.ShloMosaic.TcCoe Idealize.SL.Sem Idealize.ShloMosaic.StableHlo
open Cert.ReferenceIdeal.RefValue Cert.ReferenceIdeal.RefOps Cert.ReferenceIdeal.Line

variable (V : Valuation τ sig (Elt Ideal))

/-- The layer's piece leaves in its last buffer one graph layer over the buffers it reads. -/
theorem layer_run :
    (after (opsL1 (F := Ideal)) V main_v140 : NodeF)
      = layerAt 1 slices_S5x300x300_S1x300x300_1_0_0 slices_S5x300_S1x300_1_0 V (V main_v86)
          (asCol (wrapWords (V main_v30))) (asCol (V main_v32)) := by
  after_results_simp
  simp only [TRef.ofBuf_toBuf]
  unfold layerAt layerFn bnF outF hidF aggF msgF overNodes zeroN zeroE epsL asCol wrapWords matSlice laneSlice
  rfl

end Cert.ReferenceIdeal.RefRunL1

end
-- ==== Proof.RefRunL2.lean ====
import proofs.«422490_j54958401520128_2_alg».proof.Proof.Line

noncomputable section

namespace Cert.ReferenceIdeal.RefRunL2

open Cert.ReferenceIdeal Cert.ReferenceIdeal.Gen Idealize.ShloMosaic Idealize.ShloMosaic.TcCoe Idealize.SL.Sem Idealize.ShloMosaic.StableHlo
open Cert.ReferenceIdeal.RefValue Cert.ReferenceIdeal.RefOps Cert.ReferenceIdeal.Line

variable (V : Valuation τ sig (Elt Ideal))

/-- The layer's piece leaves in its last buffer one graph layer over the buffers it reads. -/
theorem layer_run :
    (after (opsL2 (F := Ideal)) V main_v194 : NodeF)
      = layerAt 2 slices_S5x300x300_S1x300x300_2_0_0 slices_S5x300_S1x300_2_0 V (V main_v140)
          (asCol (wrapWords (V main_v30))) (asCol (V main_v32)) := by
  after_results_simp
  simp only [TRef.ofBuf_toBuf]
  unfold layerAt layerFn bnF outF hidF aggF msgF overNodes zeroN zeroE epsL asCol wrapWords matSlice laneSlice
  rfl

end Cert.ReferenceIdeal.RefRunL2

end
-- ==== Proof.RefRunL3.lean ====
import proofs.«422490_j54958401520128_2_alg».proof.Proof.Line

noncomputable section

namespace Cert.ReferenceIdeal.RefRunL3

open Cert.ReferenceIdeal Cert.ReferenceIdeal.Gen Idealize.ShloMosaic Idealize.ShloMosaic.TcCoe Idealize.SL.Sem Idealize.ShloMosaic.StableHlo
open Cert.ReferenceIdeal.RefValue Cert.ReferenceIdeal.RefOps Cert.ReferenceIdeal.Line

variable (V : Valuation τ sig (Elt Ideal))

/-- The layer's piece leaves in its last buffer one graph layer over the buffers it reads. -/
theorem layer_run :
    (after (opsL3 (F := Ideal)) V main_v248 : NodeF)
      = layerAt 3 slices_S5x300x300_S1x300x300_3_0_0 slices_S5x300_S1x300_3_0 V (V main_v194)
          (asCol (wrapWords (V main_v30))) (asCol (V main_v32)) := by
  after_results_simp
  simp only [TRef.ofBuf_toBuf]
  unfold layerAt layerFn bnF outF hidF aggF msgF overNodes zeroN zeroE epsL asCol wrapWords matSlice laneSlice
  rfl

end Cert.ReferenceIdeal.RefRunL3

end
-- ==== Proof.RefRunL4.lean ====
import proofs.«422490_j54958401520128_2_alg».proof.Proof.Line

noncomputable section

namespace Cert.ReferenceIdeal.RefRunL4

open Cert.ReferenceIdeal Cert.ReferenceIdeal.Gen Idealize.ShloMosaic Idealize.ShloMosaic.TcCoe Idealize.SL.Sem Idealize.ShloMosaic.StableHlo
open Cert.ReferenceIdeal.RefValue Cert.ReferenceIdeal.RefOps Cert.ReferenceIdeal.Line

variable (V : Valuation τ sig (Elt Ideal))

/-- The layer's piece leaves in its last buffer one graph layer over the buffers it reads. -/
theorem layer_run :
    (after (opsL4 (F := Ideal)) V main_v302 : NodeF)
      = layerAt 4 slices_S5x300x300_S1x300x300_4_0_0 slices_S5x300_S1x300_4_0 V (V main_v248)
          (asCol (wrapWords (V main_v30))) (asCol (V main_v32)) := by
  after_results_simp
  simp only [TRef.ofBuf_toBuf]
  unfold layerAt layerFn bnF outF hidF aggF msgF overNodes zeroN zeroE epsL asCol wrapWords matSlice laneSlice
  rfl

end Cert.ReferenceIdeal.RefRunL4

end
-- ==== Proof.RefLayer0.lean ====
import proofs.«422490_j54958401520128_2_alg».proof.Proof.RefRead
import proofs.«422490_j54958401520128_2_alg».proof.Proof.RefLayerFn

noncomputable section

namespace Cert.ReferenceIdeal.RefValue

open Cert.ReferenceIdeal Cert.ReferenceIdeal.Gen Cert.ReferenceIdeal.Read Idealize.ShloMosaic

-- The operations of layer 0, put one inside another, spell one graph layer.
theorem layer0_text (x0 x1 x2 x3 x4 x5 x6 x7 x8 x9 x10 x11 x12 x13 x14 x15 x16 x17 x18 x19 x20 x21) :
    val_main_v86 (F := Ideal) x0 x1 x2 x3 x4 x5 x6 x7 x8 x9 x10 x11 x12 x13 x14 x15 x16 x17 x18 x19 x20 x21
      = layerFn (val_main_v19 (F := Ideal) x0 x1 x2 x5 x6 x7 x8 x9) (val_main_v28 (F := Ideal) x4 x10 x11 x12 x13)
          (srcCol x3) (dstCol x3) (matSlice 0 x14 slices_S5x300x300_S1x300x300_0_0_0) (matSlice 0 x16 slices_S5x300x300_S1x300x300_0_0_0)
          (laneSlice 0 x15 slices_S5x300_S1x300_0_0) (laneSlice 0 x17 slices_S5x300_S1x300_0_0) (laneSlice 0 x18 slices_S5x300_S1x300_0_0)
          (laneSlice 0 x19 slices_S5x300_S1x300_0_0) (laneSlice 0 x20 slices_S5x300_S1x300_0_0) (laneSlice 0 x21 slices_S5x300_S1x300_0_0) :=
  rfl

end Cert.ReferenceIdeal.RefValue

end
-- ==== Proof.RefLayer1.lean ====
import proofs.«422490_j54958401520128_2_alg».proof.Proof.RefRead
import proofs.«422490_j54958401520128_2_alg».proof.Proof.RefLayerFn

noncomputable section

namespace Cert.ReferenceIdeal.RefValue

open Cert.ReferenceIdeal Cert.ReferenceIdeal.Gen Cert.ReferenceIdeal.Read Idealize.ShloMosaic

-- The operations of layer 1, put one inside another, spell one graph layer.
theorem layer1_text (x0 x1 x2 x3 x4 x5 x6 x7 x8 x9 x10 x11 x12 x13 x14 x15 x16 x17 x18 x19 x20 x21) :
    val_main_v140 (F := Ideal) x0 x1 x2 x3 x4 x5 x6 x7 x8 x9 x10 x11 x12 x13 x14 x15 x16 x17 x18 x19 x20 x21
      = layerFn (val_main_v86 (F := Ideal) x0 x1 x2 x3 x4 x5 x6 x7 x8 x9 x10 x11 x12 x13 x14 x15 x16 x17 x18 x19 x20 x21) (val_main_v28 (F := Ideal) x4 x10 x11 x12 x13)
          (srcCol x3) (dstCol x3) (matSlice 1 x14 slices_S5x300x300_S1x300x300_1_0_0) (matSlice 1 x16 slices_S5x300x300_S1x300x300_1_0_0)
          (laneSlice 1 x15 slices_S5x300_S1x300_1_0) (laneSlice 1 x17 slices_S5x300_S1x300_1_0) (laneSlice 1 x18 slices_S5x300_S1x300_1_0)
          (laneSlice 1 x19 slices_S5x300_S1x300_1_0) (laneSlice 1 x20 slices_S5x300_S1x300_1_0) (laneSlice 1 x21 slices_S5x300_S1x300_1_0) :=
  rfl

end Cert.ReferenceIdeal.RefValue

end
-- ==== Proof.RefLayer2.lean ====
import proofs.«422490_j54958401520128_2_alg».proof.Proof.RefRead
import proofs.«422490_j54958401520128_2_alg».proof.Proof.RefLayerFn

noncomputable section

namespace Cert.ReferenceIdeal.RefValue

open Cert.ReferenceIdeal Cert.ReferenceIdeal.Gen Cert.ReferenceIdeal.Read Idealize.ShloMosaic

-- The operations of layer 2, put one inside another, spell one graph layer.
theorem layer2_text (x0 x1 x2 x3 x4 x5 x6 x7 x8 x9 x10 x11 x12 x13 x14 x15 x16 x17 x18 x19 x20 x21) :
    val_main_v194 (F := Ideal) x0 x1 x2 x3 x4 x5 x6 x7 x8 x9 x10 x11 x12 x13 x14 x15 x16 x17 x18 x19 x20 x21
      = layerFn (val_main_v140 (F := Ideal) x0 x1 x2 x3 x4 x5 x6 x7 x8 x9 x10 x11 x12 x13 x14 x15 x16 x17 x18 x19 x20 x21) (val_main_v28 (F := Ideal) x4 x10 x11 x12 x13)
          (srcCol x3) (dstCol x3) (matSlice 2 x14 slices_S5x300x300_S1x300x300_2_0_0) (matSlice 2 x16 slices_S5x300x300_S1x300x300_2_0_0)
          (laneSlice 2 x15 slices_S5x300_S1x300_2_0) (laneSlice 2 x17 slices_S5x300_S1x300_2_0) (laneSlice 2 x18 slices_S5x300_S1x300_2_0)
          (laneSlice 2 x19 slices_S5x300_S1x300_2_0) (laneSlice 2 x20 slices_S5x300_S1x300_2_0) (laneSlice 2 x21 slices_S5x300_S1x300_2_0) :=
  rfl

end Cert.ReferenceIdeal.RefValue

end
-- ==== Proof.RefLayer3.lean ====
import proofs.«422490_j54958401520128_2_alg».proof.Proof.RefRead
import proofs.«422490_j54958401520128_2_alg».proof.Proof.RefLayerFn

noncomputable section

namespace Cert.ReferenceIdeal.RefValue

open Cert.ReferenceIdeal Cert.ReferenceIdeal.Gen Cert.ReferenceIdeal.Read Idealize.ShloMosaic

-- The operations of layer 3, put one inside another, spell one graph layer.
theorem layer3_text (x0 x1 x2 x3 x4 x5 x6 x7 x8 x9 x10 x11 x12 x13 x14 x15 x16 x17 x18 x19 x20 x21) :
    val_main_v248 (F := Ideal) x0 x1 x2 x3 x4 x5 x6 x7 x8 x9 x10 x11 x12 x13 x14 x15 x16 x17 x18 x19 x20 x21
      = layerFn (val_main_v194 (F := Ideal) x0 x1 x2 x3 x4 x5 x6 x7 x8 x9 x10 x11 x12 x13 x14 x15 x16 x17 x18 x19 x20 x21) (val_main_v28 (F := Ideal) x4 x10 x11 x12 x13)
          (srcCol x3) (dstCol x3) (matSlice 3 x14 slices_S5x300x300_S1x300x300_3_0_0) (matSlice 3 x16 slices_S5x300x300_S1x300x300_3_0_0)
          (laneSlice 3 x15 slices_S5x300_S1x300_3_0) (laneSlice 3 x17 slices_S5x300_S1x300_3_0) (laneSlice 3 x18 slices_S5x300_S1x300_3_0)
          (laneSlice 3 x19 slices_S5x300_S1x300_3_0) (laneSlice 3 x20 slices_S5x300_S1x300_3_0) (laneSlice 3 x21 slices_S5x300_S1x300_3_0) :=
  rfl

end Cert.ReferenceIdeal.RefValue

end
-- ==== Proof.RefLayer4.lean ====
import proofs.«422490_j54958401520128_2_alg».proof.Proof.RefRead
import proofs.«422490_j54958401520128_2_alg».proof.Proof.RefLayerFn

noncomputable section

namespace Cert.ReferenceIdeal.RefValue

open Cert.ReferenceIdeal Cert.ReferenceIdeal.Gen Cert.ReferenceIdeal.Read Idealize.ShloMosaic

-- The operations of layer 4, put one inside another, spell one graph layer.
theorem layer4_text (x0 x1 x2 x3 x4 x5 x6 x7 x8 x9 x10 x11 x12 x13 x14 x15 x16 x17 x18 x19 x20 x21) :
    val_main_v302 (F := Ideal) x0 x1 x2 x3 x4 x5 x6 x7 x8 x9 x10 x11 x12 x13 x14 x15 x16 x17 x18 x19 x20 x21
      = layerFn (val_main_v248 (F := Ideal) x0 x1 x2 x3 x4 x5 x6 x7 x8 x9 x10 x11 x12 x13 x14 x15 x16 x17 x18 x19 x20 x21) (val_main_v28 (F := Ideal) x4 x10 x11 x12 x13)
          (srcCol x3) (dstCol x3) (matSlice 4 x14 slices_S5x300x300_S1x300x300_4_0_0) (matSlice 4 x16 slices_S5x300x300_S1x300x300_4_0_0)
          (laneSlice 4 x15 slices_S5x300_S1x300_4_0) (laneSlice 4 x17 slices_S5x300_S1x300_4_0) (laneSlice 4 x18 slices_S5x300_S1x300_4_0)
          (laneSlice 4 x19 slices_S5x300_S1x300_4_0) (laneSlice 4 x20 slices_S5x300_S1x300_4_0) (laneSlice 4 x21 slices_S5x300_S1x300_4_0) :=
  rfl

end Cert.ReferenceIdeal.RefValue

end
-- ==== Proof.RefRun.lean ====
import proofs.«422490_j54958401520128_2_alg».proof.Proof.RefLaunch
import proofs.«422490_j54958401520128_2_alg».proof.Proof.RefRunPre
import proofs.«422490_j54958401520128_2_alg».proof.Proof.RefRunL0
import proofs.«422490_j54958401520128_2_alg».proof.Proof.RefRunL1
import proofs.«422490_j54958401520128_2_alg».proof.Proof.RefRunL2
import proofs.«422490_j54958401520128_2_alg».proof.Proof.RefRunL3
import proofs.«422490_j54958401520128_2_alg».proof.Proof.RefRunL4
import proofs.«422490_j54958401520128_2_alg».proof.Proof.RefLayer0
import proofs.«422490_j54958401520128_2_alg».proof.Proof.RefLayer1
import proofs.«422490_j54958401520128_2_alg».proof.Proof.RefLayer2
import proofs.«422490_j54958401520128_2_alg».proof.Proof.RefLayer3
import proofs.«422490_j54958401520128_2_alg».proof.Proof.RefLayer4

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue Cert.ReferenceIdeal.Read Cert.ReferenceIdeal.RefOps Cert.ReferenceIdeal.Line

/-- Read back from the results: a piece's last buffer is its stage of what it reads, lower buffers pass through, and the stages compose. -/
theorem after_all (V : Valuation τ sig (Elt Ideal)) :
    (after (opsAll (F := Ideal)) V main_v306 : (⟨S50000x87, .f32⟩ : BufTy).Contents (Elt Ideal))
      = val_main_v306 (F := Ideal) (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) (V main_arg18) (V main_arg19) (V main_arg20) (V main_arg21) (V main_arg22) (V main_arg23)
    ∧ (after (opsAll (F := Ideal)) V main_v310 : (⟨S50000x6, .f32⟩ : BufTy).Contents (Elt Ideal))
      = val_main_v310 (F := Ideal) (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) (V main_arg18) (V main_arg19) (V main_arg20) (V main_arg21) (V main_arg24) (V main_arg25) := by
  have f := fits (F := Ideal)
  constructor <;> (
    simp only [opsAll, StableHlo.after_append, val_main_v306, val_main_v303, val_main_v310, val_main_v307,
      layer4_text, layer3_text, layer2_text, layer1_text, layer0_text, srcCol, dstCol]
    first | rw [RefRunPre.post_v306] | rw [RefRunPre.post_v310]
    rw [RefRunL4.layer_run, RefRunL3.layer_run, RefRunL2.layer_run, RefRunL1.layer_run, RefRunL0.layer_run, RefRunPre.pre_v19]
    simp (disch := decide) only [layerAt, srcCol, dstCol, kept f.1, kept f.2.1, kept f.2.2.1, kept f.2.2.2.1, kept f.2.2.2.2.1,
      kept f.2.2.2.2.2.1, kept f.2.2.2.2.2.2]
    rw [RefRunL0.src_words, RefRunL0.dst_words, RefRunPre.pre_v28]
    simp (disch := decide) only [kept f.1])

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v306) = val_main_v306 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_v310) = val_main_v310 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => by
      obtain ⟨h306, h310⟩ := after_all (launchContents m c)
      refine ⟨(h c main_v306).trans h306, (h c main_v310).trans h310, ?_⟩
      repeat' apply And.intro
      all_goals exact (h c _).trans (kept (fitsAll (F := Ideal)) _ (by decide)))
    (RefLaunch.launch (F := Ideal) m ρ)

end Cert.ReferenceIdeal.RefRun

end
-- ==== Proof.PadAlgebra.lean ====
import proofs.«422490_j54958401520128_2_alg».proof.Proof.Spec
import Mathlib.Algebra.BigOperators.Group.Finset.Basic

noncomputable section

open scoped BigOperators

namespace Cert.PadAlgebra

open Idealize.ShloMosaic Cert.Spec

variable {A K N E : Type}

theorem lane_injective : Function.Injective lane := by
  intro a b hab
  have := congrArg Fin.val hab
  exact Fin.ext this

theorem not_lt_of_not_mem_range_lane (k : Fin 384) (hk : k ∉ Set.range lane) : ¬ k.val < 300 := by
  intro hlt
  exact hk ⟨⟨k.val, hlt⟩, rfl⟩

@[simp] theorem padVec_lane (b : Fin 300 → EReal) (fill : EReal) (j : Fin 300) :
    padVec b fill (lane j) = b j := by
  have hj : (lane j).val < 300 := j.isLt
  simp only [padVec, dif_pos hj]
  rfl

@[simp] theorem padCols_lane (W : K → Fin 300 → EReal) (fill : EReal) (k : K) (j : Fin 300) :
    padCols W fill k (lane j) = W k j := by
  have hj : (lane j).val < 300 := j.isLt
  simp only [padCols, dif_pos hj]
  rfl

@[simp] theorem padBoth_lane_lane (W : Fin 300 → Fin 300 → EReal) (k j : Fin 300) :
    padBoth W (lane k) (lane j) = W k j := by
  have h : (lane k).val < 300 ∧ (lane j).val < 300 := ⟨k.isLt, j.isLt⟩
  simp only [padBoth, dif_pos h]
  rfl

theorem padBoth_of_not_lt (W : Fin 300 → Fin 300 → EReal) (k j : Fin 384) (hk : ¬ k.val < 300) :
    padBoth W k j = 0 := by
  have h : ¬ (k.val < 300 ∧ j.val < 300) := fun h => hk h.1
  simp only [padBoth, dif_neg h]

theorem headW_of_not_lt (Wz : Fin 300 → Fin 87 → EReal) (Wd : Fin 300 → Fin 6 → EReal)
    (k : Fin 384) (j : Fin 128) (hk : ¬ k.val < 300) : headW Wz Wd k j = 0 := by
  simp only [headW, dif_neg hk]

theorem headW_lane_logit (Wz : Fin 300 → Fin 87 → EReal) (Wd : Fin 300 → Fin 6 → EReal)
    (k : Fin 300) (j : Fin 87) :
    headW Wz Wd (lane k) ⟨j.val, by omega⟩ = Wz k j := by
  have hk : (lane k).val < 300 := k.isLt
  have hj : (⟨j.val, by omega⟩ : Fin 128).val < 87 := j.isLt
  simp only [headW, dif_pos hk, dif_pos hj]
  rfl

theorem headW_lane_dist (Wz : Fin 300 → Fin 87 → EReal) (Wd : Fin 300 → Fin 6 → EReal)
    (k : Fin 300) (j : Fin 6) :
    headW Wz Wd (lane k) ⟨87 + j.val, by omega⟩ = Wd k j := by
  have hk : (lane k).val < 300 := k.isLt
  have hj : ¬ (⟨87 + j.val, by omega⟩ : Fin 128).val < 87 := by simp
  have hj2 : (⟨87 + j.val, by omega⟩ : Fin 128).val < 93 := by simp; omega
  simp only [headW, dif_pos hk, dif_neg hj, dif_pos hj2]
  congr 1
  apply Fin.ext
  simp

theorem headB_logit (bz : Fin 87 → EReal) (bd : Fin 6 → EReal) (j : Fin 87) :
    headB bz bd ⟨j.val, by omega⟩ = bz j := by
  have hj : (⟨j.val, by omega⟩ : Fin 128).val < 87 := j.isLt
  simp only [headB, dif_pos hj]

theorem headB_dist (bz : Fin 87 → EReal) (bd : Fin 6 → EReal) (j : Fin 6) :
    headB bz bd ⟨87 + j.val, by omega⟩ = bd j := by
  have hj : ¬ (⟨87 + j.val, by omega⟩ : Fin 128).val < 87 := by simp
  have hj2 : (⟨87 + j.val, by omega⟩ : Fin 128).val < 93 := by simp; omega
  simp only [headB, dif_neg hj, dif_pos hj2]
  congr 1
  apply Fin.ext
  simp

theorem sum_lane (g : Fin 384 → EReal) (hg : ∀ k : Fin 384, ¬ k.val < 300 → g k = 0) :
    ∑ k, g k = ∑ k : Fin 300, g (lane k) :=
  (Fintype.sum_of_injective lane lane_injective (fun k => g (lane k)) g
    (fun k hk => hg k (not_lt_of_not_mem_range_lane k hk)) (fun _ => rfl)).symm

theorem sum_mul_lane (x : Fin 384 → EReal) (xs : Fin 300 → EReal) (hx : ∀ k, x (lane k) = xs k)
    (w : Fin 384 → EReal) (ws : Fin 300 → EReal) (hw : ∀ k, w (lane k) = ws k)
    (hw0 : ∀ k : Fin 384, ¬ k.val < 300 → w k = 0) :
    ∑ k, x k * w k = ∑ k : Fin 300, xs k * ws k := by
  rw [sum_lane (fun k => x k * w k) (fun k hk => by rw [hw0 k hk, mul_zero])]
  exact Finset.sum_congr rfl (fun k _ => by rw [hx k, hw k])

theorem dense_lane_padBoth (x : A → Fin 384 → EReal) (xs : A → Fin 300 → EReal)
    (hx : ∀ i k, x i (lane k) = xs i k) (W : Fin 300 → Fin 300 → EReal) (b : Fin 300 → EReal)
    (i : A) (j : Fin 300) :
    dense x (padBoth W) (padVec b 0) i (lane j) = dense xs W b i j := by
  unfold dense
  rw [padVec_lane,
    sum_mul_lane (x i) (xs i) (hx i) (fun k => padBoth W k (lane j)) (fun k => W k j)
      (fun k => padBoth_lane_lane W k j) (fun k hk => padBoth_of_not_lt W k (lane j) hk)]

theorem dense_lane_padCols [Fintype K] (x : A → K → EReal) (W : K → Fin 300 → EReal)
    (b : Fin 300 → EReal) (i : A) (j : Fin 300) :
    dense x (padCols W 0) (padVec b 0) i (lane j) = dense x W b i j := by
  unfold dense
  rw [padVec_lane]
  simp only [padCols_lane]

theorem relu_lane (x : A → Fin 384 → EReal) (xs : A → Fin 300 → EReal)
    (hx : ∀ i k, x i (lane k) = xs i k) (i : A) (k : Fin 300) :
    relu x i (lane k) = relu xs i k := by
  unfold relu
  rw [hx i k]

theorem mlp2_lane_first [Fintype K] (x : A → K → EReal) (W1 : K → Fin 300 → EReal)
    (b1 : Fin 300 → EReal) (W2 : Fin 300 → Fin 300 → EReal) (b2 : Fin 300 → EReal)
    (i : A) (j : Fin 300) :
    mlp2 x (padCols W1 0) (padVec b1 0) (padBoth W2) (padVec b2 0) i (lane j)
      = mlp2 x W1 b1 W2 b2 i j := by
  unfold mlp2
  exact dense_lane_padBoth _ _
    (relu_lane _ _ (fun i k => dense_lane_padCols x W1 b1 i k)) W2 b2 i j

theorem mlp2_lane_both (x : A → Fin 384 → EReal) (xs : A → Fin 300 → EReal)
    (hx : ∀ i k, x i (lane k) = xs i k) (W1 : Fin 300 → Fin 300 → EReal)
    (b1 : Fin 300 → EReal) (W2 : Fin 300 → Fin 300 → EReal) (b2 : Fin 300 → EReal)
    (i : A) (j : Fin 300) :
    mlp2 x (padBoth W1) (padVec b1 0) (padBoth W2) (padVec b2 0) i (lane j)
      = mlp2 xs W1 b1 W2 b2 i j := by
  unfold mlp2
  exact dense_lane_padBoth _ _
    (relu_lane _ _ (fun i k => dense_lane_padBoth x xs hx W1 b1 i k)) W2 b2 i j

theorem bnorm_lane (x : A → Fin 384 → EReal) (xs : A → Fin 300 → EReal)
    (hx : ∀ i k, x i (lane k) = xs i k) (γ β μ v : Fin 300 → EReal) (fγ fβ fμ fv ε : EReal)
    (i : A) (j : Fin 300) :
    bnorm x (padVec γ fγ) (padVec β fβ) (padVec μ fμ) (padVec v fv) ε i (lane j)
      = bnorm xs γ β μ v ε i j := by
  unfold bnorm
  rw [padVec_lane, padVec_lane, padVec_lane, padVec_lane, hx i j]

theorem gin_lane (h agg : A → Fin 384 → EReal) (hs aggs : A → Fin 300 → EReal)
    (hh : ∀ i k, h i (lane k) = hs i k) (ha : ∀ i k, agg i (lane k) = aggs i k)
    (W1 : Fin 300 → Fin 300 → EReal) (b1 : Fin 300 → EReal)
    (W2 : Fin 300 → Fin 300 → EReal) (b2 : Fin 300 → EReal)
    (γ β μ v : Fin 300 → EReal) (ε : EReal) (i : A) (j : Fin 300) :
    gin h agg (padBoth W1) (padVec b1 0) (padBoth W2) (padVec b2 0)
        (padVec γ 0) (padVec β 0) (padVec μ 0) (padVec v 1) ε i (lane j)
      = gin hs aggs W1 b1 W2 b2 γ β μ v ε i j := by
  unfold gin
  exact relu_lane _ _
    (fun i k => bnorm_lane _ _
      (fun i k => mlp2_lane_both (fun i k => h i k + agg i k) (fun i k => hs i k + aggs i k)
        (fun i k => by rw [hh i k, ha i k]) W1 b1 W2 b2 i k) γ β μ v 0 0 0 1 ε i k) i j

theorem msgs_lane (h : N → Fin 384 → EReal) (hs : N → Fin 300 → EReal)
    (hh : ∀ i k, h i (lane k) = hs i k) (src : E → N)
    (ee : E → Fin 384 → EReal) (ees : E → Fin 300 → EReal) (hee : ∀ e k, ee e (lane k) = ees e k)
    (e : E) (j : Fin 300) :
    msgs h src ee e (lane j) = msgs hs src ees e j := by
  unfold msgs
  rw [hh (src e) j, hee e j]

theorem segsum_lane [Fintype E] {n : Nat} (dst : E → BitVec 32)
    (u : E → Fin 384 → EReal) (us : E → Fin 300 → EReal) (hu : ∀ e k, u e (lane k) = us e k)
    (r : Fin n) (j : Fin 300) :
    segsum dst u r (lane j) = segsum dst us r j := by
  unfold segsum
  exact Finset.sum_congr rfl (fun e _ => by rw [hu e j])

theorem layer_lane [Fintype E] {n : Nat} (src : E → Fin n) (dst : E → BitVec 32)
    (ee : E → Fin 384 → EReal) (ees : E → Fin 300 → EReal) (hee : ∀ e k, ee e (lane k) = ees e k)
    (h : Fin n → Fin 384 → EReal) (hs : Fin n → Fin 300 → EReal) (hh : ∀ i k, h i (lane k) = hs i k)
    (W1 : Fin 300 → Fin 300 → EReal) (b1 : Fin 300 → EReal)
    (W2 : Fin 300 → Fin 300 → EReal) (b2 : Fin 300 → EReal)
    (γ β μ v : Fin 300 → EReal) (ε : EReal) (i : Fin n) (j : Fin 300) :
    layer src dst ee h (padBoth W1) (padVec b1 0) (padBoth W2) (padVec b2 0)
        (padVec γ 0) (padVec β 0) (padVec μ 0) (padVec v 1) ε i (lane j)
      = layer src dst ees hs W1 b1 W2 b2 γ β μ v ε i j := by
  unfold layer
  exact gin_lane h _ hs _ hh
    (fun r k => segsum_lane dst _ _ (fun e k => msgs_lane h hs hh src ee ees hee e k) r k)
    W1 b1 W2 b2 γ β μ v ε i j

theorem embed_lane (atom : K → Fin 300 → EReal) (zrow : N → K)
    (nm : N → Fin 384 → EReal) (nms : N → Fin 300 → EReal) (hn : ∀ i k, nm i (lane k) = nms i k)
    (i : N) (j : Fin 300) :
    embed (padCols atom 0) zrow nm i (lane j) = embed atom zrow nms i j := by
  unfold embed
  rw [padCols_lane, hn i j]

theorem head_logits (h : A → Fin 384 → EReal) (hs : A → Fin 300 → EReal)
    (hh : ∀ i k, h i (lane k) = hs i k)
    (Wz : Fin 300 → Fin 87 → EReal) (Wd : Fin 300 → Fin 6 → EReal)
    (bz : Fin 87 → EReal) (bd : Fin 6 → EReal) (i : A) (j : Fin 87) :
    dense h (headW Wz Wd) (headB bz bd) i ⟨j.val, by omega⟩ = dense hs Wz bz i j := by
  unfold dense
  rw [headB_logit,
    sum_mul_lane (h i) (hs i) (hh i) (fun k => headW Wz Wd k ⟨j.val, by omega⟩) (fun k => Wz k j)
      (fun k => headW_lane_logit Wz Wd k j) (fun k hk => headW_of_not_lt Wz Wd k _ hk)]

theorem head_dists (h : A → Fin 384 → EReal) (hs : A → Fin 300 → EReal)
    (hh : ∀ i k, h i (lane k) = hs i k)
    (Wz : Fin 300 → Fin 87 → EReal) (Wd : Fin 300 → Fin 6 → EReal)
    (bz : Fin 87 → EReal) (bd : Fin 6 → EReal) (i : A) (j : Fin 6) :
    dense h (headW Wz Wd) (headB bz bd) i ⟨87 + j.val, by omega⟩ = dense hs Wd bd i j := by
  unfold dense
  rw [headB_dist,
    sum_mul_lane (h i) (hs i) (hh i) (fun k => headW Wz Wd k ⟨87 + j.val, by omega⟩)
      (fun k => Wd k j)
      (fun k => headW_lane_dist Wz Wd k j) (fun k hk => headW_of_not_lt Wz Wd k _ hk)]

end Cert.PadAlgebra

end
-- ==== Proof.KNet.lean ====
import proofs.«422490_j54958401520128_2_alg».proof.Proof.Spec
import proofs.«422490_j54958401520128_2_alg».proof.Proof.Net
import proofs.«422490_j54958401520128_2_alg».proof.Proof.PadAlgebra

noncomputable section

namespace Cert.KNet

open Idealize.ShloMosaic Cert.Spec Cert.PadAlgebra

variable (a : Net.Args)

def nodeMlp : Fin 50000 → Fin 384 → EReal :=
  mlp2 (stack2 a.chir a.fc) (padCols a.napW1 0) (padVec a.napb1 0) (padBoth a.napW2) (padVec a.napb2 0)

def h0 : Fin 50000 → Fin 384 → EReal := embed (padCols a.atom 0) (Net.zrow a) (nodeMlp a)

def ee : Fin 125000 → Fin 384 → EReal :=
  mlp2 a.ea (padCols a.eeW1 0) (padVec a.eeb1 0) (padBoth a.eeW2) (padVec a.eeb2 0)

def step (l : Fin 5) (h : Fin 50000 → Fin 384 → EReal) : Fin 50000 → Fin 384 → EReal :=
  layer (Net.srcRow a) (Net.dstW a) (ee a) h (padBoth (a.gW1 l)) (padVec (a.gb1 l) 0)
    (padBoth (a.gW2 l)) (padVec (a.gb2 l) 0) (padVec (a.gγ l) 0) (padVec (a.gβ l) 0)
    (padVec (a.gμ l) 0) (padVec (a.gv l) 1) Net.eps

def h5 : Fin 50000 → Fin 384 → EReal := step a 4 (step a 3 (step a 2 (step a 1 (step a 0 (h0 a)))))

def out : Fin 50000 → Fin 128 → EReal := dense (h5 a) (headW a.Wz a.Wd) (headB a.bz a.bd)

theorem nodeMlp_lane (i : Fin 50000) (j : Fin 300) :
    nodeMlp a i (lane j) = mlp2 (stack2 a.chir a.fc) a.napW1 a.napb1 a.napW2 a.napb2 i j :=
  mlp2_lane_first (stack2 a.chir a.fc) a.napW1 a.napb1 a.napW2 a.napb2 i j

theorem h0_lane (i : Fin 50000) (j : Fin 300) : h0 a i (lane j) = Net.h0 a i j :=
  embed_lane a.atom (Net.zrow a) (nodeMlp a)
    (mlp2 (stack2 a.chir a.fc) a.napW1 a.napb1 a.napW2 a.napb2) (nodeMlp_lane a) i j

theorem ee_lane (e : Fin 125000) (j : Fin 300) : ee a e (lane j) = Net.ee a e j :=
  mlp2_lane_first a.ea a.eeW1 a.eeb1 a.eeW2 a.eeb2 e j

theorem step_lane (l : Fin 5) (h : Fin 50000 → Fin 384 → EReal) (hs : Fin 50000 → Fin 300 → EReal)
    (hh : ∀ i k, h i (lane k) = hs i k) (i : Fin 50000) (j : Fin 300) :
    step a l h i (lane j) = Net.step a l hs i j :=
  layer_lane (Net.srcRow a) (Net.dstW a) (ee a) (Net.ee a) (ee_lane a) h hs hh
    (a.gW1 l) (a.gb1 l) (a.gW2 l) (a.gb2 l) (a.gγ l) (a.gβ l) (a.gμ l) (a.gv l) Net.eps i j

theorem h5_lane (i : Fin 50000) (j : Fin 300) : h5 a i (lane j) = Net.h5 a i j :=
  step_lane a 4 _ _ (step_lane a 3 _ _ (step_lane a 2 _ _ (step_lane a 1 _ _
    (step_lane a 0 _ _ (h0_lane a))))) i j

theorem out_logits (i : Fin 50000) (j : Fin 87) :
    out a i ⟨j.val, by omega⟩ = Net.logits a i j :=
  head_logits (h5 a) (Net.h5 a) (h5_lane a) a.Wz a.Wd a.bz a.bd i j

theorem out_dists (i : Fin 50000) (j : Fin 6) :
    out a i ⟨87 + j.val, by omega⟩ = Net.dists a i j :=
  head_dists (h5 a) (Net.h5 a) (h5_lane a) a.Wz a.Wd a.bz a.bd i j

end Cert.KNet

end
-- ==== Proof.KState.lean ====
import proofs.«422490_j54958401520128_2_alg».proof.Proof.Gen.KernelIdeal.Launch
import proofs.«422490_j54958401520128_2_alg».proof.Proof.KNet

noncomputable section

namespace Cert.KState

open Idealize.ShloMosaic Idealize.ShloMosaic.ValueIdx Cert.KernelIdeal Cert.KernelIdeal.Gen
open Idealize.ShloMosaic.TcCoe
open Cert.Spec Cert.Arr Cert.Net

structure Params (a : Net.Args) (W : Valuation τ sig (Elt Ideal)) : Prop where
  gW1 : ∀ l : Fin 5, a3 (W (Proc.devRef .tc main_v14)) l = padBoth (a.gW1 l)
  gb1 : a2 (W (Proc.devRef .tc main_v15)) = padCols a.gb1 0
  gW2 : ∀ l : Fin 5, a3 (W (Proc.devRef .tc main_v17)) l = padBoth (a.gW2 l)
  gb2 : a2 (W (Proc.devRef .tc main_v18)) = padCols a.gb2 0
  gγ : a2 (W (Proc.devRef .tc main_v19)) = padCols a.gγ 0
  gβ : a2 (W (Proc.devRef .tc main_v20)) = padCols a.gβ 0
  gμ : a2 (W (Proc.devRef .tc main_v21)) = padCols a.gμ 0
  gv : a2 (W (Proc.devRef .tc main_v22)) = padCols a.gv 1
  hW : a2 (W (Proc.devRef .tc main_v26)) = headW a.Wz a.Wd
  hb : a1 (W (Proc.devRef .tc main_v27)) = headB a.bz a.bd

theorem Params.carry {a : Net.Args} {W W' : Valuation τ sig (Elt Ideal)} (p : Params a W)
    (c14 : W' (Proc.devRef .tc main_v14) = W (Proc.devRef .tc main_v14))
    (c15 : W' (Proc.devRef .tc main_v15) = W (Proc.devRef .tc main_v15))
    (c17 : W' (Proc.devRef .tc main_v17) = W (Proc.devRef .tc main_v17))
    (c18 : W' (Proc.devRef .tc main_v18) = W (Proc.devRef .tc main_v18))
    (c19 : W' (Proc.devRef .tc main_v19) = W (Proc.devRef .tc main_v19))
    (c20 : W' (Proc.devRef .tc main_v20) = W (Proc.devRef .tc main_v20))
    (c21 : W' (Proc.devRef .tc main_v21) = W (Proc.devRef .tc main_v21))
    (c22 : W' (Proc.devRef .tc main_v22) = W (Proc.devRef .tc main_v22))
    (c26 : W' (Proc.devRef .tc main_v26) = W (Proc.devRef .tc main_v26))
    (c27 : W' (Proc.devRef .tc main_v27) = W (Proc.devRef .tc main_v27)) : Params a W' where
  gW1 := by rw [c14]; exact p.gW1
  gb1 := by rw [c15]; exact p.gb1
  gW2 := by rw [c17]; exact p.gW2
  gb2 := by rw [c18]; exact p.gb2
  gγ := by rw [c19]; exact p.gγ
  gβ := by rw [c20]; exact p.gβ
  gμ := by rw [c21]; exact p.gμ
  gv := by rw [c22]; exact p.gv
  hW := by rw [c26]; exact p.hW
  hb := by rw [c27]; exact p.hb

structure Edges (a : Net.Args) (W : Valuation τ sig (Elt Ideal)) : Prop where
  ee : a2 (W (Proc.devRef .tc main_v34)) = KNet.ee a
  src : a1 (W (Proc.devRef .tc main_v36)) = a.ei 0
  dst : a1 (W (Proc.devRef .tc main_v38)) = a.ei 1

theorem Edges.carry {a : Net.Args} {W W' : Valuation τ sig (Elt Ideal)} (p : Edges a W)
    (c34 : W' (Proc.devRef .tc main_v34) = W (Proc.devRef .tc main_v34))
    (c36 : W' (Proc.devRef .tc main_v36) = W (Proc.devRef .tc main_v36))
    (c38 : W' (Proc.devRef .tc main_v38) = W (Proc.devRef .tc main_v38)) : Edges a W' where
  ee := by rw [c34]; exact p.ee
  src := by rw [c36]; exact p.src
  dst := by rw [c38]; exact p.dst

def argsOf (m : (ℓ : Loc nD τ sig) → Buf (Elt Ideal) ℓ) (c : Dev nD) : Net.Args :=
  Net.ofArrays (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17))
    (m ((c.tc : Thread nD τ).loc main_arg18)) (m ((c.tc : Thread nD τ).loc main_arg19)) (m ((c.tc : Thread nD τ).loc main_arg20))
    (m ((c.tc : Thread nD τ).loc main_arg21)) (m ((c.tc : Thread nD τ).loc main_arg22)) (m ((c.tc : Thread nD τ).loc main_arg23))
    (m ((c.tc : Thread nD τ).loc main_arg24)) (m ((c.tc : Thread nD τ).loc main_arg25))

def SrcOk (a : Net.Args) : Prop := ∀ e : Fin 125000, 0 ≤ (a.ei 0 e).toInt ∧ (a.ei 0 e).toInt < 50000

def ZOk (a : Net.Args) : Prop := ∀ i : Fin 50000, 0 ≤ (a.z i).toInt ∧ (a.z i).toInt < 87

end Cert.KState

end
-- ==== Proof.KHostEmbed.lean ====
import proofs.«422490_j54958401520128_2_alg».proof.Proof.Gen.KernelIdeal.Launch
import proofs.«422490_j54958401520128_2_alg».proof.Proof.Spec
import proofs.«422490_j54958401520128_2_alg».proof.Proof.Arr
import proofs.«422490_j54958401520128_2_alg».proof.Proof.Net
import proofs.«422490_j54958401520128_2_alg».proof.Proof.LibRows
import proofs.«422490_j54958401520128_2_alg».proof.Proof.LibTypedRef
import Idealize.ShloMosaic.Lib.StableHlo.Run
import Idealize.ShloMosaic.Lib.StableHlo.Predicate
import Idealize.ShloMosaic.Lib.ValueIdx

set_option maxRecDepth 4096

noncomputable section

namespace Cert.KHostEmbed

open Idealize.ShloMosaic Idealize.ShloMosaic.ValueIdx Cert.KernelIdeal Cert.KernelIdeal.Gen
open Cert.Spec Cert.Arr Cert.Net

section Pure

variable {α : Type}

theorem bcastRows_apply {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  match a with
  | ⟨0, _⟩ =>
    apply Fin.ext
    have hp := p.isLt
    split
    · next h1 => change n = 1 at h1; show (0 : Nat) = p.val; omega
    · rfl

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_ones f hf l

theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  exact foldl_andi_ones (fun n => x (s.rowMajor.symm n)) (fun n => hx _) _

theorem toNat_lt_of_toInt {w : BitVec 32} (h0 : 0 ≤ w.toInt) (h1 : w.toInt < 87) : w.toNat < 87 := by
  rw [BitVec.toInt_eq_toNat_cond] at h0 h1
  split at h0 <;> omega

theorem wrapw_of_nonneg (n : BitVec 32) {w : BitVec 32} (h0 : 0 ≤ w.toInt) : wrapw n w = w := by
  unfold wrapw
  rw [if_neg]
  simp only [BitVec.slt, decide_eq_true_eq, show (0#32 : BitVec 32).toInt = 0 by decide]
  omega

theorem select_wrap (w : BitVec 32) :
    Scalar.select (IntOp.cmpi .slt w 0#32) (IntOp.addi w 87#32) w = wrapw 87#32 w := by
  unfold Scalar.select IntOp.cmpi IntOp.addi wrapw
  cases w.slt 0#32 <;> simp

theorem inRange_one {w : BitVec 32} (h0 : 0 ≤ w.toInt) (h1 : w.toInt < 87) :
    IntOp.andi (IntOp.cmpi .sge w 0#32) (IntOp.cmpi .sle w 86#32) = 1#1 := by
  have hn := toNat_lt_of_toInt h0 h1
  rw [(StableHlo.Predicate.sge_iff_toNat (a := w) (b := 0#32) (by omega) (by decide)).mpr (Nat.zero_le _),
    (StableHlo.Predicate.sle_iff_toNat (a := w) (b := 86#32) (by omega) (by decide)).mpr (by show w.toNat ≤ 86; omega)]
  decide

end Pure

def idxCol (z : IVec S50000 32) : IVec S50000x1 32 :=
  broadcastInDim S50000x1 ![0] bcast_S50000_S50000x1_0
    (select (cmpi .slt z (broadcastInDim S50000 ![] bcast_S_S50000 (constantI S_ 32 0#32)))
      (addi z (broadcastInDim S50000 ![] bcast_S_S50000 (constantI S_ 32 87#32))) z)

def inMask (c : IVec S50000x1 32) : IVec S50000 1 :=
  Host.reduce IntOp.andi
    (andi (cmpi .sge c (broadcastInDim S50000x1 ![] bcast_S_S50000x1 (constantI S_ 32 0#32)))
      (cmpi .sle c (broadcastInDim S50000x1 ![0, 1] bcast_S1x1_S50000x1_0_1
        (broadcastInDim S1x1 ![1] bcast_S1_S1x1_1 (constantI S1 32 86#32)))))
    (constantI S_ 1 1#1) reducesTo_S50000x1_S50000_d1 h_S_

def takeRows (atom : FVec Ideal S87x384 .f32) (z : IVec S50000 32) : FVec Ideal S50000x384 .f32 :=
  select (broadcastInDim S50000x384 ![0] bcast_S50000_S50000x384_0 (inMask (idxCol z)))
    (Host.gather gather_S87x384_S50000x1_S50000x384_1_0_n_n_0_1_1384 atom (idxCol z))
    (broadcastInDim S50000x384 ![] bcast_S_S50000x384 (constant (F := Ideal) S_ .f32 0x7FC00000#32))

theorem idxCol_apply (z : IVec S50000 32) (p : Fin 50000) (q : Fin 1) :
    idxCol z (ix2 p q) = wrapw 87#32 (z (ix1 p)) := by
  unfold idxCol
  rw [bcastRows_apply]
  exact select_wrap _

theorem inMask_one (c : IVec S50000x1 32) (hc : ∀ y, 0 ≤ (c y).toInt ∧ (c y).toInt < 87) (r : S50000.Idx) :
    inMask c r = 1#1 := by
  unfold inMask
  exact reduce_andi_ones _ _ _ _ (fun y => inRange_one (hc y).1 (hc y).2) rfl r

theorem takeRows_apply (atom : FVec Ideal S87x384 .f32) (z : IVec S50000 32)
    (hz : ∀ i : Fin 50000, 0 ≤ (z (ix1 i)).toInt ∧ (z (ix1 i)).toInt < 87) (i : Fin 50000) (j : Fin 384) :
    takeRows atom z (ix2 i j) = atom (ix2 (rowOf 87 (by norm_num) (wrapw 87#32 (z (ix1 i)))) j) := by
  have hc : ∀ y : S50000x1.Idx, 0 ≤ (idxCol z y).toInt ∧ (idxCol z y).toInt < 87 := by
    intro y
    obtain ⟨p, q, rfl⟩ : ∃ p q, y = ix2 p q := ⟨y 0, y 1, eq_ix2 y⟩
    rw [idxCol_apply, wrapw_of_nonneg _ (hz p).1]
    exact hz p
  unfold takeRows
  rw [select_apply, bcastRows_apply, inMask_one _ hc, select_one]
  show Host.gather (LibRows.rowGatherDims 87 50000 384 gather_S87x384_S50000x1_S50000x384_1_0_n_n_0_1_1384_wf)
    atom (idxCol z) (ix2 i j) = _
  rw [LibRows.rowGather_apply (by norm_num)]
  refine congrArg (fun r => atom (ix2 r j)) (Fin.ext ?_)
  show min (idxCol z (ix2 i (0 : Fin 1))).toInt.toNat (87 - 1) = min (wrapw 87#32 (z (ix1 i))).toInt.toNat (87 - 1)
  rw [idxCol_apply]

variable (W : Valuation τ sig (Elt Ideal))

abbrev afterEmbed : Valuation τ sig (Elt Ideal) :=
  StableHlo.after (hostOps1_1 (F := Ideal)) (StableHlo.after (hostOps1 (F := Ideal)) W)

set_option maxHeartbeats 1000000 in
theorem v33_outer :
    StableHlo.after (hostOps1_1 (F := Ideal)) W (Proc.devRef .tc main_v33)
      = addf (F := Ideal) (s := S50000x384) (φ := .f32) (W (Proc.devRef .tc main_v32)) (W (Proc.devRef .tc main_v31)) := by
  after_results

set_option maxHeartbeats 1000000 in
theorem v32_eq :
    StableHlo.after (hostOps1 (F := Ideal)) W (Proc.devRef .tc main_v32)
      = takeRows (W (Proc.devRef .tc main_v12)) (W (Proc.devRef .tc main_arg0)) := by
  after_results_simp
  simp only [StableHlo.TRef.ofBuf_toBuf]
  simp only [StableHlo.TRef.ofBuf, cast_eq]
  rfl

local macro "not_written" : tactic => `(tactic| (
  refine List.forall_iff_forall_mem.mp ?_
  simp only [hostOps1, hostOps1_1, List.Forall, StableHlo.nullary_writes, StableHlo.unary_writes,
    StableHlo.binary_writes, StableHlo.ternary_writes, Finset.mem_singleton]
  repeat' apply And.intro
  all_goals exact StableHlo.devRef_ne_of_ne (by decide)))

theorem embed_value
    (hz : ∀ i : Fin 50000, 0 ≤ (a1 (W (Proc.devRef .tc main_arg0)) i).toInt
      ∧ (a1 (W (Proc.devRef .tc main_arg0)) i).toInt < 87) :
    a2 (afterEmbed W (Proc.devRef .tc main_v33))
      = embed (a2 (W (Proc.devRef .tc main_v12)))
          (fun i => rowOf 87 (by norm_num) (wrapw 87#32 (a1 (W (Proc.devRef .tc main_arg0)) i)))
          (a2 (W (Proc.devRef .tc main_v31))) := by
  funext i j
  have h31 : StableHlo.after (hostOps1 (F := Ideal)) W (Proc.devRef .tc main_v31) = W (Proc.devRef .tc main_v31) :=
    StableHlo.after_of_forall_not_mem (b := Proc.devRef .tc main_v31) _ _ (by not_written)
  show StableHlo.after (hostOps1_1 (F := Ideal)) (StableHlo.after (hostOps1 (F := Ideal)) W)
    (Proc.devRef .tc main_v33) (ix2 i j) = _
  rw [v33_outer, addf_apply, v32_eq, h31, takeRows_apply _ _ hz]
  rfl

theorem carry {r : Ref sig .tc}
    (h1 : ∀ op ∈ (hostOps1 (F := Ideal) : List (HloOp τ sig (Elt Ideal))), Proc.devRef .tc r ∉ op.writes)
    (h2 : ∀ op ∈ (hostOps1_1 (F := Ideal) : List (HloOp τ sig (Elt Ideal))), Proc.devRef .tc r ∉ op.writes) :
    afterEmbed W (Proc.devRef .tc r) = W (Proc.devRef .tc r) :=
  (StableHlo.after_of_forall_not_mem (b := Proc.devRef .tc r) _ _ h2).trans
    (StableHlo.after_of_forall_not_mem (b := Proc.devRef .tc r) _ _ h1)

theorem carry_main_arg3 : afterEmbed W (Proc.devRef .tc main_arg3) = W (Proc.devRef .tc main_arg3) :=
  carry W (by not_written) (by not_written)

theorem carry_main_arg4 : afterEmbed W (Proc.devRef .tc main_arg4) = W (Proc.devRef .tc main_arg4) :=
  carry W (by not_written) (by not_written)

theorem carry_main_v7 : afterEmbed W (Proc.devRef .tc main_v7) = W (Proc.devRef .tc main_v7) :=
  carry W (by not_written) (by not_written)

theorem carry_main_v8 : afterEmbed W (Proc.devRef .tc main_v8) = W (Proc.devRef .tc main_v8) :=
  carry W (by not_written) (by not_written)

theorem carry_main_v10 : afterEmbed W (Proc.devRef .tc main_v10) = W (Proc.devRef .tc main_v10) :=
  carry W (by not_written) (by not_written)

theorem carry_main_v11 : afterEmbed W (Proc.devRef .tc main_v11) = W (Proc.devRef .tc main_v11) :=
  carry W (by not_written) (by not_written)

theorem carry_main_v14 : afterEmbed W (Proc.devRef .tc main_v14) = W (Proc.devRef .tc main_v14) :=
  carry W (by not_written) (by not_written)

theorem carry_main_v15 : afterEmbed W (Proc.devRef .tc main_v15) = W (Proc.devRef .tc main_v15) :=
  carry W (by not_written) (by not_written)

theorem carry_main_v17 : afterEmbed W (Proc.devRef .tc main_v17) = W (Proc.devRef .tc main_v17) :=
  carry W (by not_written) (by not_written)

theorem carry_main_v18 : afterEmbed W (Proc.devRef .tc main_v18) = W (Proc.devRef .tc main_v18) :=
  carry W (by not_written) (by not_written)

theorem carry_main_v19 : afterEmbed W (Proc.devRef .tc main_v19) = W (Proc.devRef .tc main_v19) :=
  carry W (by not_written) (by not_written)

theorem carry_main_v20 : afterEmbed W (Proc.devRef .tc main_v20) = W (Proc.devRef .tc main_v20) :=
  carry W (by not_written) (by not_written)

theorem carry_main_v21 : afterEmbed W (Proc.devRef .tc main_v21) = W (Proc.devRef .tc main_v21) :=
  carry W (by not_written) (by not_written)

theorem carry_main_v22 : afterEmbed W (Proc.devRef .tc main_v22) = W (Proc.devRef .tc main_v22) :=
  carry W (by not_written) (by not_written)

theorem carry_main_v26 : afterEmbed W (Proc.devRef .tc main_v26) = W (Proc.devRef .tc main_v26) :=
  carry W (by not_written) (by not_written)

theorem carry_main_v27 : afterEmbed W (Proc.devRef .tc main_v27) = W (Proc.devRef .tc main_v27) :=
  carry W (by not_written) (by not_written)

end Cert.KHostEmbed

end
-- ==== Proof.KHostPre1.lean ====
import proofs.«422490_j54958401520128_2_alg».proof.Proof.Gen.KernelIdeal.Frame
import proofs.«422490_j54958401520128_2_alg».proof.Proof.Spec
import proofs.«422490_j54958401520128_2_alg».proof.Proof.Arr
import Idealize.ShloMosaic.Lib.KernelVsHost
import Mathlib.Data.List.Forall2

noncomputable section

namespace Cert.KernelIdeal.HostPre1

open Idealize.ShloMosaic Idealize.ShloMosaic.ValueIdx Idealize.ShloMosaic.TcCoe
open Cert.KernelIdeal Cert.KernelIdeal.Gen Cert.Spec Cert.Arr

section Reads
variable {α : Type} {u : Shape} (v : u.Idx → α) (hu : 0 < u.numel)

theorem pad1_apply {n N hi : Nat} (x : (⟨1, ![n]⟩ : Shape).Idx → α)
    (h : (⟨1, ![n]⟩ : Shape).Pads ![0] ![hi] ![0] ⟨1, ![N]⟩) (j : Fin N) :
    pad ⟨1, ![N]⟩ ![0] ![hi] ![0] x v h hu (ix1 j)
      = if hj : j.val < n then x (ix1 ⟨j.val, hj⟩) else v (Shape.Idx.first hu) := by
  by_cases hj : j.val < n
  · rw [dif_pos hj]
    exact pad_apply_of_inside _ _ _ x v h hu (ix1 j) (ix1 ⟨j.val, hj⟩) (by
      intro a; fin_cases a; simp [ix1])
  · rw [dif_neg hj]
    exact pad_apply_of_not_inside _ _ _ x v h hu (ix1 j) 0 (by
      intro hc
      have h3 : (j.val - 0) / (0 + 1) < n := hc.2.2
      omega)

theorem pad2_apply {r c R C hr hc : Nat} (x : (⟨2, ![r, c]⟩ : Shape).Idx → α)
    (h : (⟨2, ![r, c]⟩ : Shape).Pads ![0, 0] ![hr, hc] ![0, 0] ⟨2, ![R, C]⟩) (i : Fin R) (j : Fin C) :
    pad ⟨2, ![R, C]⟩ ![0, 0] ![hr, hc] ![0, 0] x v h hu (ix2 i j)
      = if hh : i.val < r ∧ j.val < c then x (ix2 ⟨i.val, hh.1⟩ ⟨j.val, hh.2⟩) else v (Shape.Idx.first hu) := by
  by_cases hh : i.val < r ∧ j.val < c
  · rw [dif_pos hh]
    exact pad_apply_of_inside _ _ _ x v h hu (ix2 i j) (ix2 ⟨i.val, hh.1⟩ ⟨j.val, hh.2⟩) (by
      intro a; fin_cases a <;> simp [ix2])
  · rw [dif_neg hh]
    rcases not_and_or.mp hh with h1 | h2
    · exact pad_apply_of_not_inside _ _ _ x v h hu (ix2 i j) 0 (by
        intro hc
        have h3 : (i.val - 0) / (0 + 1) < r := hc.2.2
        omega)
    · exact pad_apply_of_not_inside _ _ _ x v h hu (ix2 i j) 1 (by
        intro hc
        have h3 : (j.val - 0) / (0 + 1) < c := hc.2.2
        omega)

theorem column_apply {n : Nat} (hb : (⟨1, ![n]⟩ : Shape).BroadcastsInDim ⟨2, ![n, 1]⟩ ![0])
    (x : (⟨1, ![n]⟩ : Shape).Idx → α) (i : Fin n) (z : Fin 1) :
    broadcastInDim ⟨2, ![n, 1]⟩ ![0] hb x (ix2 i z) = x (ix1 i) :=
  broadcastInDim_apply _ hb x (ix2 i z) (ix1 i) (by
    intro a; fin_cases a
    show i.val = if n = 1 then 0 else i.val
    split
    · omega
    · rfl)

end Reads

abbrev Ops := List (HloOp τ sig (Elt Ideal))
abbrev Mem := Valuation τ sig (Elt Ideal)

def pre : List Ops :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18,
   hostOps0_19, hostOps0_20, hostOps0_21, hostOps0_22, hostOps0_23, hostOps0_24, hostOps0_25, hostOps0_26, hostOps0_27,
   hostOps0_28, hostOps0_29, hostOps0_30, hostOps0_31, hostOps0_32, hostOps0_33, hostOps0_34, hostOps0_35, hostOps0_36,
   hostOps0_37, hostOps0_38]

def wr : List (List (Ref sig .tc)) :=
  [[main_c], [main_call0_v0, main_v0], [main_v1, main_c_0], [main_call1_v0, main_v2], [main_c_1],
   [main_call2_v0, main_v3], [main_v4, main_c_2], [main_call3_v0, main_v5], [main_c_3], [main_call4_v0, main_v6],
   [main_v7, main_c_4], [main_call5_v0, main_v8], [main_c_5], [main_call6_v0, main_v9], [main_v10, main_c_6],
   [main_call7_v0, main_v11], [main_c_7], [main_call8_v0, main_v12], [main_c_8], [main_call9_v0, main_v13],
   [main_v14, main_c_9], [main_call10_v0, main_v15], [main_c_10], [main_call11_v0, main_v16], [main_v17, main_c_11],
   [main_call12_v0, main_v18], [main_cst], [main_call13_v0, main_v19], [main_cst_12], [main_call14_v0, main_v20],
   [main_cst_13], [main_call15_v0, main_v21], [main_cst_14], [main_call16_v0, main_v22],
   [main_v23, main_v24, main_c_15], [main_call17_v0, main_v25], [main_v26, main_c_16], [main_call18_v0, main_v27],
   [main_v28, main_v29, main_v30]]

def runs (ss : List Ops) (V : Mem) : Mem := ss.foldl (fun W s => StableHlo.after s W) V

def WritesIn (s : Ops) (W : List (Ref sig .tc)) : Prop :=
  s.Forall fun op => op.writes ⊆ (W.map (Proc.devRef (τ := τ) .tc)).toFinset

theorem pre_wr : List.Forall₂ WritesIn pre wr := by
  unfold pre wr
  repeat' apply List.Forall₂.cons
  any_goals exact List.Forall₂.nil
  all_goals
    simp only [WritesIn, List.Forall, StableHlo.nullary_writes, StableHlo.unary_writes, StableHlo.binary_writes]
    repeat' apply And.intro
    all_goals exact Finset.singleton_subset_iff.mpr (List.mem_toFinset.mpr (List.mem_map_of_mem (by decide)))

/-- A reference outside every written set keeps its contents through the fold of the operation lists. -/
theorem runs_keep {ss : List Ops} {Ws : List (List (Ref sig .tc))} (h : List.Forall₂ WritesIn ss Ws) {r : Ref sig .tc}
    (hr : r ∉ Ws.flatten) (V : Mem) : runs ss V (Proc.devRef .tc r) = V (Proc.devRef .tc r) := by
  induction h generalizing V with
  | nil => rfl
  | cons hs _ ih =>
    rw [List.flatten_cons, List.mem_append, not_or] at hr
    exact (ih hr.2 _).trans (StableHlo.after_of_writes_sub _ _ hs hr.1)

theorem zeroI_apply (i : S_.Idx) : sitofp (F := Ideal) .f32 (constantI S_ 32 0#32) i = (0 : EReal) := by
  show ((((0#32 : BitVec 32).toInt : ℤ) : ℝ) : EReal) = 0
  simp

section Extensions
variable {u : Shape} {v : u.Idx → EReal} {k : EReal}

theorem padCols_of (hv : ∀ i, v i = k) {r : Nat} {x y : (⟨2, ![r, 300]⟩ : Shape).Idx → EReal} (hx : x = y)
    (h : (⟨2, ![r, 300]⟩ : Shape).Pads ![0, 0] ![0, 84] ![0, 0] ⟨2, ![r, 384]⟩) (hu : 0 < u.numel) :
    a2 (pad ⟨2, ![r, 384]⟩ ![0, 0] ![0, 84] ![0, 0] x v h hu) = padCols (a2 y) k := by
  subst hx
  funext i j
  show pad _ _ _ _ x v h hu (ix2 i j) = _
  rw [pad2_apply, hv]
  unfold padCols a2
  by_cases hj : j.val < 300
  · rw [dif_pos ⟨i.isLt, hj⟩, dif_pos hj]
  · rw [dif_neg (fun hh => hj hh.2), dif_neg hj]

theorem padVec_of (hv : ∀ i, v i = k) {x y : S300.Idx → EReal} (hx : x = y) (h : S300.Pads ![0] ![84] ![0] S384)
    (hu : 0 < u.numel) :
    a1 (pad S384 ![0] ![84] ![0] x v h hu) = padVec (a1 y) k := by
  subst hx
  funext j
  show pad _ _ _ _ x v h hu (ix1 j) = _
  rw [pad1_apply, hv]
  rfl

theorem padBoth_of (hv : ∀ i, v i = 0) {x y : S300x300.Idx → EReal} (hx : x = y)
    (h : S300x300.Pads ![0, 0] ![84, 84] ![0, 0] S384x384) (hu : 0 < u.numel) :
    a2 (pad S384x384 ![0, 0] ![84, 84] ![0, 0] x v h hu) = padBoth (a2 y) := by
  subst hx
  funext i j
  show pad _ _ _ _ x v h hu (ix2 i j) = _
  rw [pad2_apply, hv]
  rfl

end Extensions

theorem stack2_of {n : Nat} (hb : (⟨1, ![n]⟩ : Shape).BroadcastsInDim ⟨2, ![n, 1]⟩ ![0])
    (hc : Shape.Concatenates [(⟨2, ![n, 1]⟩ : Shape), ⟨2, ![n, 1]⟩] ⟨2, ![n, 2]⟩ 1)
    {x y x' y' : (⟨1, ![n]⟩ : Shape).Idx → EReal} (hx : x = x') (hy : y = y') :
    a2 (concatenate ⟨2, ![n, 2]⟩ 1
        [⟨⟨2, ![n, 1]⟩, broadcastInDim ⟨2, ![n, 1]⟩ ![0] hb x⟩, ⟨⟨2, ![n, 1]⟩, broadcastInDim ⟨2, ![n, 1]⟩ ![0] hb y⟩] hc)
      = stack2 (a1 x') (a1 y') := by
  subst hx hy
  funext i a
  unfold stack2 a1 a2
  by_cases ha : a.val = 0
  · rw [if_pos ha]
    rw [concatenate_pair_apply_left 1 _ _ hc (ix2 i a) rfl (ix2 i (0 : Fin 1)) (by
      intro b; fin_cases b
      · rfl
      · show (0 : Nat) = a.val
        omega)]
    exact column_apply hb x i 0
  · rw [if_neg ha]
    rw [concatenate_pair_apply_right 1 _ _ hc (ix2 i a) rfl rfl (ix2 i (0 : Fin 1)) (by
      intro b hb'; fin_cases b
      · rfl
      · exact absurd rfl hb') (by
      show (0 : Nat) + 1 = a.val
      omega)]
    exact column_apply hb y i 0

section AtEntry

variable (m : (ℓ : Loc nD τ sig) → Buf (Elt Ideal) ℓ) (ρ : Dev nD → PrngReg) (c : Dev nD)

/-- A reference no list from the (i+n)-th on writes holds, after all of them, what lists i … i+n−1 leave in it. -/
theorem entry_window (i n : Nat) (r : Ref sig .tc) (hr : r ∉ (wr.drop (i + n)).flatten) :
    W39 m ρ c (Proc.devRef .tc r)
      = runs ((pre.drop i).take n) (runs (pre.take i) (W0 m ρ c)) (Proc.devRef .tc r) := by
  have e : pre = pre.take i ++ ((pre.drop i).take n ++ pre.drop (i + n)) := by
    rw [← List.drop_drop, List.take_append_drop, List.take_append_drop]
  show runs pre (W0 m ρ c) (Proc.devRef .tc r) = _
  conv_lhs => rw [e]
  unfold runs
  rw [List.foldl_append, List.foldl_append]
  exact runs_keep (List.forall₂_drop (i + n) pre_wr) hr _

theorem arg_before (i : Nat) (a : Ref sig .tc) (ha : a ∉ (wr.take i).flatten) :
    runs (pre.take i) (W0 m ρ c) (Proc.devRef .tc a) = m ((c : Thread nD τ).loc a) :=
  runs_keep (List.forall₂_take i pre_wr) ha _

theorem entry_v1 :
    a2 (W39 m ρ c (Proc.devRef .tc main_v1) : S2x384.Idx → EReal)
      = padCols (a2 (m ((c : Thread nD τ).loc main_arg6) : S2x300.Idx → EReal)) 0 := by
  rw [entry_window m ρ c 0 3 main_v1 (by decide)]
  show a2 (StableHlo.after (hostOps0_2 (F := Ideal)) (StableHlo.after hostOps0_1 (StableHlo.after hostOps0 _)) (Proc.devRef .tc main_v1)) = _
  after_results
  exact padCols_of zeroI_apply (arg_before m ρ c 0 main_arg6 (by decide)) pads_S2x300_S2x384_000_0840 h_S_

theorem entry_v2 :
    a1 (W39 m ρ c (Proc.devRef .tc main_v2) : S384.Idx → EReal)
      = padVec (a1 (m ((c : Thread nD τ).loc main_arg7) : S300.Idx → EReal)) 0 := by
  rw [entry_window m ρ c 2 2 main_v2 (by decide)]
  show a1 (StableHlo.after (hostOps0_3 (F := Ideal)) (StableHlo.after hostOps0_2 _) (Proc.devRef .tc main_v2)) = _
  after_results
  exact padVec_of zeroI_apply (arg_before m ρ c 2 main_arg7 (by decide)) pads_S300_S384_0840 h_S_

theorem entry_v4 :
    a2 (W39 m ρ c (Proc.devRef .tc main_v4) : S384x384.Idx → EReal)
      = padBoth (a2 (m ((c : Thread nD τ).loc main_arg8) : S300x300.Idx → EReal)) := by
  rw [entry_window m ρ c 4 3 main_v4 (by decide)]
  show a2 (StableHlo.after (hostOps0_6 (F := Ideal)) (StableHlo.after hostOps0_5 (StableHlo.after hostOps0_4 _)) (Proc.devRef .tc main_v4)) = _
  after_results
  exact padBoth_of zeroI_apply (arg_before m ρ c 4 main_arg8 (by decide)) pads_S300x300_S384x384_0840_0840 h_S_

theorem entry_v5 :
    a1 (W39 m ρ c (Proc.devRef .tc main_v5) : S384.Idx → EReal)
      = padVec (a1 (m ((c : Thread nD τ).loc main_arg9) : S300.Idx → EReal)) 0 := by
  rw [entry_window m ρ c 6 2 main_v5 (by decide)]
  show a1 (StableHlo.after (hostOps0_7 (F := Ideal)) (StableHlo.after hostOps0_6 _) (Proc.devRef .tc main_v5)) = _
  after_results
  exact padVec_of zeroI_apply (arg_before m ρ c 6 main_arg9 (by decide)) pads_S300_S384_0840 h_S_

theorem entry_v7 :
    a2 (W39 m ρ c (Proc.devRef .tc main_v7) : S3x384.Idx → EReal)
      = padCols (a2 (m ((c : Thread nD τ).loc main_arg10) : S3x300.Idx → EReal)) 0 := by
  rw [entry_window m ρ c 8 3 main_v7 (by decide)]
  show a2 (StableHlo.after (hostOps0_10 (F := Ideal)) (StableHlo.after hostOps0_9 (StableHlo.after hostOps0_8 _)) (Proc.devRef .tc main_v7)) = _
  after_results
  exact padCols_of zeroI_apply (arg_before m ρ c 8 main_arg10 (by decide)) pads_S3x300_S3x384_000_0840 h_S_

theorem entry_v8 :
    a1 (W39 m ρ c (Proc.devRef .tc main_v8) : S384.Idx → EReal)
      = padVec (a1 (m ((c : Thread nD τ).loc main_arg11) : S300.Idx → EReal)) 0 := by
  rw [entry_window m ρ c 10 2 main_v8 (by decide)]
  show a1 (StableHlo.after (hostOps0_11 (F := Ideal)) (StableHlo.after hostOps0_10 _) (Proc.devRef .tc main_v8)) = _
  after_results
  exact padVec_of zeroI_apply (arg_before m ρ c 10 main_arg11 (by decide)) pads_S300_S384_0840 h_S_

theorem entry_v10 :
    a2 (W39 m ρ c (Proc.devRef .tc main_v10) : S384x384.Idx → EReal)
      = padBoth (a2 (m ((c : Thread nD τ).loc main_arg12) : S300x300.Idx → EReal)) := by
  rw [entry_window m ρ c 12 3 main_v10 (by decide)]
  show a2 (StableHlo.after (hostOps0_14 (F := Ideal)) (StableHlo.after hostOps0_13 (StableHlo.after hostOps0_12 _)) (Proc.devRef .tc main_v10)) = _
  after_results
  exact padBoth_of zeroI_apply (arg_before m ρ c 12 main_arg12 (by decide)) pads_S300x300_S384x384_0840_0840 h_S_

theorem entry_v11 :
    a1 (W39 m ρ c (Proc.devRef .tc main_v11) : S384.Idx → EReal)
      = padVec (a1 (m ((c : Thread nD τ).loc main_arg13) : S300.Idx → EReal)) 0 := by
  rw [entry_window m ρ c 14 2 main_v11 (by decide)]
  show a1 (StableHlo.after (hostOps0_15 (F := Ideal)) (StableHlo.after hostOps0_14 _) (Proc.devRef .tc main_v11)) = _
  after_results
  exact padVec_of zeroI_apply (arg_before m ρ c 14 main_arg13 (by decide)) pads_S300_S384_0840 h_S_

theorem entry_v12 :
    a2 (W39 m ρ c (Proc.devRef .tc main_v12) : S87x384.Idx → EReal)
      = padCols (a2 (m ((c : Thread nD τ).loc main_arg5) : S87x300.Idx → EReal)) 0 := by
  rw [entry_window m ρ c 16 2 main_v12 (by decide)]
  show a2 (StableHlo.after (hostOps0_17 (F := Ideal)) (StableHlo.after hostOps0_16 _) (Proc.devRef .tc main_v12)) = _
  after_results
  exact padCols_of zeroI_apply (arg_before m ρ c 16 main_arg5 (by decide)) pads_S87x300_S87x384_000_0840 h_S_

theorem entry_v30 :
    a2 (W39 m ρ c (Proc.devRef .tc main_v30) : S50000x2.Idx → EReal)
      = stack2 (a1 (m ((c : Thread nD τ).loc main_arg1) : S50000.Idx → EReal)) (a1 (m ((c : Thread nD τ).loc main_arg2) : S50000.Idx → EReal)) := by
  rw [entry_window m ρ c 38 1 main_v30 (by decide)]
  show a2 (StableHlo.after (hostOps0_38 (F := Ideal)) _ (Proc.devRef .tc main_v30)) = _
  after_results
  exact stack2_of bcast_S50000_S50000x1_0 concatenates_S50000x1_S50000x1_S50000x2_d1
    (arg_before m ρ c 38 main_arg1 (by decide)) (arg_before m ρ c 38 main_arg2 (by decide))

theorem entry_arg0 : W39 m ρ c (Proc.devRef .tc main_arg0) = m ((c : Thread nD τ).loc main_arg0) :=
  arg_before m ρ c 39 main_arg0 (by decide)

theorem entry_arg3 : W39 m ρ c (Proc.devRef .tc main_arg3) = m ((c : Thread nD τ).loc main_arg3) :=
  arg_before m ρ c 39 main_arg3 (by decide)

theorem entry_arg4 : W39 m ρ c (Proc.devRef .tc main_arg4) = m ((c : Thread nD τ).loc main_arg4) :=
  arg_before m ρ c 39 main_arg4 (by decide)

end AtEntry

end Cert.KernelIdeal.HostPre1

end
-- ==== Proof.KHostPre2.lean ====
import proofs.«422490_j54958401520128_2_alg».proof.Proof.KHostPre1
import Idealize.ShloMosaic.Lib.IdealHost

noncomputable section

namespace Cert.KernelIdeal.HostPre2

open Idealize.ShloMosaic Idealize.ShloMosaic.ValueIdx Idealize.ShloMosaic.TcCoe
open Cert.KernelIdeal Cert.KernelIdeal.Gen Cert.Spec Cert.Arr Cert.KernelIdeal.HostPre1

section Reads
variable {α : Type}

theorem pad3_apply {n : Nat} (x : (⟨3, ![n, 300, 300]⟩ : Shape).Idx → α) {u : Shape} (v : u.Idx → α)
    (h : (⟨3, ![n, 300, 300]⟩ : Shape).Pads (![0, 0, 0] : Fin 3 → Nat) ![0, 84, 84] ![0, 0, 0] ⟨3, ![n, 384, 384]⟩)
    (hu : 0 < u.numel) (l : Fin n) (p q : Fin 384) :
    pad ⟨3, ![n, 384, 384]⟩ ![0, 0, 0] ![0, 84, 84] ![0, 0, 0] x v h hu (ix3 l p q)
      = if hpq : p.val < 300 ∧ q.val < 300 then x (ix3 l ⟨p.val, hpq.1⟩ ⟨q.val, hpq.2⟩) else v (Shape.Idx.first hu) := by
  by_cases hpq : p.val < 300 ∧ q.val < 300
  · rw [dif_pos hpq]
    refine pad_apply_of_inside _ _ _ x v h hu (ix3 l p q) (ix3 l ⟨p.val, hpq.1⟩ ⟨q.val, hpq.2⟩) fun a => ?_
    match a with
    | ⟨0, _⟩ => simp
    | ⟨1, _⟩ => simp
    | ⟨2, _⟩ => simp
  · rw [dif_neg hpq]
    by_cases hp : p.val < 300
    · have hq : ¬ q.val < 300 := fun hq => hpq ⟨hp, hq⟩
      refine pad_apply_of_not_inside _ _ _ x v h hu (ix3 l p q) (2 : Fin 3) fun hin => hq ?_
      have := hin.2.2
      simpa using this
    · refine pad_apply_of_not_inside _ _ _ x v h hu (ix3 l p q) (1 : Fin 3) fun hin => hp ?_
      have := hin.2.2
      simpa using this

theorem concatCols_apply (x₁ : (⟨2, ![300, 87]⟩ : Shape).Idx → α) (x₂ : (⟨2, ![300, 6]⟩ : Shape).Idx → α)
    (h : Shape.Concatenates [(⟨2, ![300, 87]⟩ : Shape), ⟨2, ![300, 6]⟩] ⟨2, ![300, 93]⟩ 1) (p : Fin 300) (q : Fin 93) :
    concatenate ⟨2, ![300, 93]⟩ 1 [⟨⟨2, ![300, 87]⟩, x₁⟩, ⟨⟨2, ![300, 6]⟩, x₂⟩] h (ix2 p q)
      = if hq : q.val < 87 then x₁ (ix2 p ⟨q.val, hq⟩) else x₂ (ix2 p ⟨q.val - 87, by omega⟩) := by
  by_cases hq : q.val < 87
  · rw [dif_pos hq]
    refine concatenate_pair_apply_left _ x₁ x₂ h (ix2 p q) rfl (ix2 p ⟨q.val, hq⟩) fun b => ?_
    match b with
    | ⟨0, _⟩ => rfl
    | ⟨1, _⟩ => rfl
  · rw [dif_neg hq]
    refine concatenate_pair_apply_right _ x₁ x₂ h (ix2 p q) rfl rfl (ix2 p ⟨q.val - 87, by omega⟩) (fun b hb => ?_) ?_
    · match b with
      | ⟨0, _⟩ => rfl
      | ⟨1, _⟩ => exact absurd rfl hb
    · show q.val - 87 + 87 = q.val
      omega

theorem concatVec_apply (x₁ : (⟨1, ![87]⟩ : Shape).Idx → α) (x₂ : (⟨1, ![6]⟩ : Shape).Idx → α)
    (h : Shape.Concatenates [(⟨1, ![87]⟩ : Shape), ⟨1, ![6]⟩] ⟨1, ![93]⟩ 0) (q : Fin 93) :
    concatenate ⟨1, ![93]⟩ 0 [⟨⟨1, ![87]⟩, x₁⟩, ⟨⟨1, ![6]⟩, x₂⟩] h (ix1 q)
      = if hq : q.val < 87 then x₁ (ix1 ⟨q.val, hq⟩) else x₂ (ix1 ⟨q.val - 87, by omega⟩) := by
  by_cases hq : q.val < 87
  · rw [dif_pos hq]
    refine concatenate_pair_apply_left _ x₁ x₂ h (ix1 q) rfl (ix1 ⟨q.val, hq⟩) fun b => ?_
    match b with
    | ⟨0, _⟩ => rfl
  · rw [dif_neg hq]
    refine concatenate_pair_apply_right _ x₁ x₂ h (ix1 q) rfl rfl (ix1 ⟨q.val - 87, by omega⟩) (fun b hb => ?_) ?_
    · match b with
      | ⟨0, _⟩ => exact absurd rfl hb
    · show q.val - 87 + 87 = q.val
      omega

end Reads

theorem cst0_apply (i : S_.Idx) : constant (F := Ideal) S_ .f32 0x00000000#32 i = (0 : EReal) := Ideal.ofBits_zero_f32

theorem cst1_apply (i : S_.Idx) : constant (F := Ideal) S_ .f32 0x3F800000#32 i = (1 : EReal) := Ideal.ofBits_one_f32

section Extensions
variable {u : Shape} {v : u.Idx → EReal}

theorem padBoth3_of (hv : ∀ i, v i = 0) {n : Nat} {x y : (⟨3, ![n, 300, 300]⟩ : Shape).Idx → EReal} (hx : x = y)
    (h : (⟨3, ![n, 300, 300]⟩ : Shape).Pads ![0, 0, 0] ![0, 84, 84] ![0, 0, 0] ⟨3, ![n, 384, 384]⟩) (hu : 0 < u.numel) (l : Fin n) :
    a3 (pad ⟨3, ![n, 384, 384]⟩ ![0, 0, 0] ![0, 84, 84] ![0, 0, 0] x v h hu) l = padBoth (a3 y l) := by
  subst hx
  funext p q
  show pad _ _ _ _ x v h hu (ix3 l p q) = _
  rw [pad3_apply, hv]
  rfl

theorem headW_of (hv : ∀ i, v i = 0) {x₁ y₁ : S300x87.Idx → EReal} {x₂ y₂ : S300x6.Idx → EReal} (h₁ : x₁ = y₁) (h₂ : x₂ = y₂)
    (hc : Shape.Concatenates [S300x87, S300x6] S300x93 1) (h : S300x93.Pads ![0, 0] ![84, 35] ![0, 0] S384x128)
    (hu : 0 < u.numel) :
    a2 (pad S384x128 ![0, 0] ![84, 35] ![0, 0] (concatenate S300x93 1 [⟨S300x87, x₁⟩, ⟨S300x6, x₂⟩] hc) v h hu)
      = headW (a2 y₁) (a2 y₂) := by
  subst h₁ h₂
  funext p q
  show pad _ _ _ _ _ v h hu (ix2 p q) = _
  rw [pad2_apply]
  unfold headW
  by_cases hk : p.val < 300
  · by_cases hj2 : q.val < 93
    · rw [dif_pos ⟨hk, hj2⟩, concatCols_apply]
      by_cases hj : q.val < 87
      · simp only [dif_pos hk, dif_pos hj]; rfl
      · simp only [dif_pos hk, dif_neg hj, dif_pos hj2]; rfl
    · have hj : ¬ q.val < 87 := fun h => hj2 (by omega)
      rw [dif_neg (fun h => hj2 h.2), hv]
      simp only [dif_pos hk, dif_neg hj, dif_neg hj2]
  · rw [dif_neg (fun h => hk h.1), hv]
    simp only [dif_neg hk]

theorem headB_of (hv : ∀ i, v i = 0) {x₁ y₁ : S87.Idx → EReal} {x₂ y₂ : S6.Idx → EReal} (h₁ : x₁ = y₁) (h₂ : x₂ = y₂)
    (hc : Shape.Concatenates [S87, S6] S93 0) (h : S93.Pads ![0] ![35] ![0] S128) (hu : 0 < u.numel) :
    a1 (pad S128 ![0] ![35] ![0] (concatenate S93 0 [⟨S87, x₁⟩, ⟨S6, x₂⟩] hc) v h hu) = headB (a1 y₁) (a1 y₂) := by
  subst h₁ h₂
  funext q
  show pad _ _ _ _ _ v h hu (ix1 q) = _
  rw [pad1_apply]
  unfold headB
  by_cases hj2 : q.val < 93
  · rw [dif_pos hj2, concatVec_apply]
    by_cases hj : q.val < 87
    · simp only [dif_pos hj]; rfl
    · simp only [dif_neg hj, dif_pos hj2]; rfl
  · have hj : ¬ q.val < 87 := fun h => hj2 (by omega)
    rw [dif_neg hj2, hv]
    simp only [dif_neg hj, dif_neg hj2]

end Extensions

section Entry

variable (m : (ℓ : Loc nD τ sig) → Buf (Elt Ideal) ℓ) (ρ : Dev nD → PrngReg) (c : Dev nD)

theorem ginW1_entry (l : Fin 5) :
    a3 (Gen.W39 m ρ c (Proc.devRef .tc main_v14) : S5x384x384.Idx → EReal) l
      = padBoth (a3 (m ((c : Thread nD τ).loc main_arg14) : S5x300x300.Idx → EReal) l) := by
  rw [entry_window m ρ c 18 3 main_v14 (by decide)]
  show a3 (StableHlo.after (hostOps0_20 (F := Ideal)) (StableHlo.after hostOps0_19 (StableHlo.after hostOps0_18 _)) (Proc.devRef .tc main_v14)) l = _
  after_results
  exact padBoth3_of zeroI_apply (arg_before m ρ c 18 main_arg14 (by decide)) pads_S5x300x300_S5x384x384_000_0840_0840 h_S_ l

theorem ginB1_entry :
    a2 (Gen.W39 m ρ c (Proc.devRef .tc main_v15) : S5x384.Idx → EReal)
      = padCols (a2 (m ((c : Thread nD τ).loc main_arg15) : S5x300.Idx → EReal)) 0 := by
  rw [entry_window m ρ c 20 2 main_v15 (by decide)]
  show a2 (StableHlo.after (hostOps0_21 (F := Ideal)) (StableHlo.after hostOps0_20 _) (Proc.devRef .tc main_v15)) = _
  after_results
  exact padCols_of zeroI_apply (arg_before m ρ c 20 main_arg15 (by decide)) pads_S5x300_S5x384_000_0840 h_S_

theorem ginW2_entry (l : Fin 5) :
    a3 (Gen.W39 m ρ c (Proc.devRef .tc main_v17) : S5x384x384.Idx → EReal) l
      = padBoth (a3 (m ((c : Thread nD τ).loc main_arg16) : S5x300x300.Idx → EReal) l) := by
  rw [entry_window m ρ c 22 3 main_v17 (by decide)]
  show a3 (StableHlo.after (hostOps0_24 (F := Ideal)) (StableHlo.after hostOps0_23 (StableHlo.after hostOps0_22 _)) (Proc.devRef .tc main_v17)) l = _
  after_results
  exact padBoth3_of zeroI_apply (arg_before m ρ c 22 main_arg16 (by decide)) pads_S5x300x300_S5x384x384_000_0840_0840 h_S_ l

theorem ginB2_entry :
    a2 (Gen.W39 m ρ c (Proc.devRef .tc main_v18) : S5x384.Idx → EReal)
      = padCols (a2 (m ((c : Thread nD τ).loc main_arg17) : S5x300.Idx → EReal)) 0 := by
  rw [entry_window m ρ c 24 2 main_v18 (by decide)]
  show a2 (StableHlo.after (hostOps0_25 (F := Ideal)) (StableHlo.after hostOps0_24 _) (Proc.devRef .tc main_v18)) = _
  after_results
  exact padCols_of zeroI_apply (arg_before m ρ c 24 main_arg17 (by decide)) pads_S5x300_S5x384_000_0840 h_S_

theorem bnGamma_entry :
    a2 (Gen.W39 m ρ c (Proc.devRef .tc main_v19) : S5x384.Idx → EReal)
      = padCols (a2 (m ((c : Thread nD τ).loc main_arg18) : S5x300.Idx → EReal)) 0 := by
  rw [entry_window m ρ c 26 2 main_v19 (by decide)]
  show a2 (StableHlo.after (hostOps0_27 (F := Ideal)) (StableHlo.after hostOps0_26 _) (Proc.devRef .tc main_v19)) = _
  after_results
  exact padCols_of cst0_apply (arg_before m ρ c 26 main_arg18 (by decide)) pads_S5x300_S5x384_000_0840 h_S_

theorem bnBeta_entry :
    a2 (Gen.W39 m ρ c (Proc.devRef .tc main_v20) : S5x384.Idx → EReal)
      = padCols (a2 (m ((c : Thread nD τ).loc main_arg19) : S5x300.Idx → EReal)) 0 := by
  rw [entry_window m ρ c 28 2 main_v20 (by decide)]
  show a2 (StableHlo.after (hostOps0_29 (F := Ideal)) (StableHlo.after hostOps0_28 _) (Proc.devRef .tc main_v20)) = _
  after_results
  exact padCols_of cst0_apply (arg_before m ρ c 28 main_arg19 (by decide)) pads_S5x300_S5x384_000_0840 h_S_

theorem bnMean_entry :
    a2 (Gen.W39 m ρ c (Proc.devRef .tc main_v21) : S5x384.Idx → EReal)
      = padCols (a2 (m ((c : Thread nD τ).loc main_arg20) : S5x300.Idx → EReal)) 0 := by
  rw [entry_window m ρ c 30 2 main_v21 (by decide)]
  show a2 (StableHlo.after (hostOps0_31 (F := Ideal)) (StableHlo.after hostOps0_30 _) (Proc.devRef .tc main_v21)) = _
  after_results
  exact padCols_of cst0_apply (arg_before m ρ c 30 main_arg20 (by decide)) pads_S5x300_S5x384_000_0840 h_S_

theorem bnVar_entry :
    a2 (Gen.W39 m ρ c (Proc.devRef .tc main_v22) : S5x384.Idx → EReal)
      = padCols (a2 (m ((c : Thread nD τ).loc main_arg21) : S5x300.Idx → EReal)) 1 := by
  rw [entry_window m ρ c 32 2 main_v22 (by decide)]
  have e : (StableHlo.after (hostOps0_33 (F := Ideal)) (StableHlo.after hostOps0_32 (runs (pre.take 32) (W0 m ρ c)))
        (Proc.devRef .tc main_v22) : S5x384.Idx → EReal)
      = pad S5x384 ![0, 0] ![0, 84] ![0, 0] (runs (pre.take 32) (W0 m ρ c) (Proc.devRef .tc main_arg21) : S5x300.Idx → EReal)
          (constant (F := Ideal) S_ .f32 0x3F800000#32) pads_S5x300_S5x384_000_0840 h_S_ := by
    after_results
    rfl
  exact (congrArg a2 e).trans
    (padCols_of cst1_apply (arg_before m ρ c 32 main_arg21 (by decide)) pads_S5x300_S5x384_000_0840 h_S_)

theorem headW_entry :
    a2 (Gen.W39 m ρ c (Proc.devRef .tc main_v26) : S384x128.Idx → EReal)
      = headW (a2 (m ((c : Thread nD τ).loc main_arg22) : S300x87.Idx → EReal))
          (a2 (m ((c : Thread nD τ).loc main_arg24) : S300x6.Idx → EReal)) := by
  rw [entry_window m ρ c 34 3 main_v26 (by decide)]
  show a2 (StableHlo.after (hostOps0_36 (F := Ideal)) (StableHlo.after hostOps0_35 (StableHlo.after hostOps0_34 _)) (Proc.devRef .tc main_v26)) = _
  after_results
  exact headW_of zeroI_apply (arg_before m ρ c 34 main_arg22 (by decide)) (arg_before m ρ c 34 main_arg24 (by decide))
    concatenates_S300x87_S300x6_S300x93_d1 pads_S300x93_S384x128_0840_0350 h_S_

theorem headB_entry :
    a1 (Gen.W39 m ρ c (Proc.devRef .tc main_v27) : S128.Idx → EReal)
      = headB (a1 (m ((c : Thread nD τ).loc main_arg23) : S87.Idx → EReal))
          (a1 (m ((c : Thread nD τ).loc main_arg25) : S6.Idx → EReal)) := by
  rw [entry_window m ρ c 34 4 main_v27 (by decide)]
  show a1 (StableHlo.after (hostOps0_37 (F := Ideal)) (StableHlo.after hostOps0_36 (StableHlo.after hostOps0_35 (StableHlo.after hostOps0_34 _))) (Proc.devRef .tc main_v27)) = _
  after_results
  exact headB_of zeroI_apply (arg_before m ρ c 34 main_arg23 (by decide)) (arg_before m ρ c 34 main_arg25 (by decide))
    concatenates_S87_S6_S93_d0 pads_S93_S128_0350 h_S_

end Entry

end Cert.KernelIdeal.HostPre2

end
-- ==== Proof.DenseBlock.lean ====
import proofs.«422490_j54958401520128_2_alg».proof.Proof.Spec
import proofs.«422490_j54958401520128_2_alg».proof.Proof.Arr
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

open scoped BigOperators

namespace Cert.DenseBlock

open Idealize.ShloMosaic Idealize.ShloMosaic.ValueIdx Cert.Spec Cert.Arr

variable {M K H N : Nat}

/-- A plain product into a zero accumulator plus a bias row repeated down the rows is the dense layer. -/
theorem dense_apply {d : DotDims ⟨2, ![M, K]⟩ ⟨2, ![K, N]⟩ ⟨2, ![M, N]⟩} (hd : d = .plain M K N)
    (x : FVec Ideal ⟨2, ![M, K]⟩ .bf16) (w : FVec Ideal ⟨2, ![K, N]⟩ .bf16) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (j : (⟨2, ![M, N]⟩ : Shape).Idx) :
    addf (matmul d none x w (constant _ .f32 0x00000000#32)) (broadcastTo _ (shapeCast _ b h1) h2) j
      = dense (a2 x) (a2 w) (a1 b) (j 0) (j 1) := by
  subst hd
  obtain ⟨p, q, rfl⟩ : ∃ p q, j = ix2 p q := ⟨j 0, j 1, eq_ix2 j⟩
  rw [addf_apply, matmul_zero_eq_dotGeneral, StackMember.dotGeneral_plain_apply, broadcastTo_1b_ab_apply,
    shapeCast_a_1a_apply]
  rfl

/-- A dense layer's row i reads row i of its input alone. -/
theorem dense_row {A A' Kt J : Type} [Fintype Kt] {x : A → Kt → EReal} {x' : A' → Kt → EReal} {i : A} {i' : A'}
    (h : ∀ k, x i k = x' i' k) (W : Kt → J → EReal) (b : J → EReal) {j j' : J} (hj : j = j') :
    dense x W b i j = dense x' W b i' j' := by
  subst hj
  unfold dense
  simp only [h]

/-- Two such layers with the maximum with zero between them are the two-layer perceptron. -/
theorem mlp2_apply {d1 : DotDims ⟨2, ![M, K]⟩ ⟨2, ![K, H]⟩ ⟨2, ![M, H]⟩} (hd1 : d1 = .plain M K H)
    {d2 : DotDims ⟨2, ![M, H]⟩ ⟨2, ![H, N]⟩ ⟨2, ![M, N]⟩} (hd2 : d2 = .plain M H N)
    (x : FVec Ideal ⟨2, ![M, K]⟩ .bf16) (w1 : FVec Ideal ⟨2, ![K, H]⟩ .bf16) (b1 : FVec Ideal ⟨1, ![H]⟩ .f32)
    (w2 : FVec Ideal ⟨2, ![H, N]⟩ .bf16) (b2 : FVec Ideal ⟨1, ![N]⟩ .f32) (hb : FTy.bf16.bits < FTy.f32.bits)
    (g1 : (⟨1, ![H]⟩ : Shape).ShapeCasts ⟨2, ![1, H]⟩) (g2 : (⟨2, ![1, H]⟩ : Shape).Broadcasts ⟨2, ![M, H]⟩)
    (h1 : (⟨1, ![N]⟩ : Shape).ShapeCasts ⟨2, ![1, N]⟩) (h2 : (⟨2, ![1, N]⟩ : Shape).Broadcasts ⟨2, ![M, N]⟩)
    (j : (⟨2, ![M, N]⟩ : Shape).Idx) :
    addf (matmul d2 none (truncf .bf16 (maximumf (addf (matmul d1 none x w1 (constant _ .f32 0x00000000#32))
        (broadcastTo _ (shapeCast _ b1 g1) g2)) (broadcast _ (Scalar.ofBits .f32 0x00000000#32))) hb) w2
        (constant _ .f32 0x00000000#32)) (broadcastTo _ (shapeCast _ b2 h1) h2) j
      = mlp2 (a2 x) (a2 w1) (a1 b1) (a2 w2) (a1 b2) (j 0) (j 1) := by
  rw [dense_apply hd2]
  exact dense_row (x' := relu (dense (a2 x) (a2 w1) (a1 b1)))
    (fun k => congrArg₂ max (dense_apply hd1 x w1 b1 g1 g2 (ix2 (j 0) k)) Ideal.ofBits_zero_f32) _ _ rfl

/-- The perceptron's entry (i, j) reads row i of its input alone. -/
theorem mlp2_row {A A' Kt Ht J : Type} [Fintype Kt] [Fintype Ht] {x : A → Kt → EReal} {x' : A' → Kt → EReal} {i : A}
    {i' : A'} (h : ∀ k, x i k = x' i' k) (W1 : Kt → Ht → EReal) (b1 : Ht → EReal) (W2 : Ht → J → EReal) (b2 : J → EReal)
    {j j' : J} (hj : j = j') : mlp2 x W1 b1 W2 b2 i j = mlp2 x' W1 b1 W2 b2 i' j' :=
  dense_row (x' := relu (dense x' W1 b1)) (fun k => congrArg (max · 0) (dense_row h W1 b1 (rfl : k = k))) W2 b2 hj

theorem hz2 : (![0, 0] : Fin 2 → Nat) = fun _ => 0 := funext fun a => by fin_cases a <;> rfl
theorem hz1 : (![0] : Fin 1 → Nat) = fun _ => 0 := funext fun a => by fin_cases a; rfl

open Idealize.ShloMosaic.Pipeline (Window Grid)

/-- A block whose index is zero on every axis starts at the array's origin, so its elements are the array's. -/
theorem read_of_index_zero {sig : RefSig} {G : Grid} (w : Window sig G) (t : Fin G.N) (h : ∀ a, w.index t a = 0)
    {α : Type} (X : w.shape.Idx → α) (y : (w.xblock (G.coords t)).Idx) (y' : w.shape.Idx)
    (hy : ∀ a, (y' a).val = (y a).val) : X ((w.rect t).emb y) = X y' :=
  congrArg X (funext fun a => Fin.ext ((w.rect_emb_val_of_index_zero t a (h a) y).trans (hy a).symm))

/-- Row r lies in the block of B rows numbered r / B, all columns in the one block of columns. -/
theorem row_mem {R C B : Nat} (hB : 0 < B) (idx : Fin 2 → Nat) (i : (⟨2, ![R, C]⟩ : Shape).Idx)
    (h0 : idx 0 = (i 0).val / B) (h1 : idx 1 = 0) (a : Fin 2) :
    idx a * (![B, C] : Fin 2 → Nat) a ≤ (i a).val
      ∧ (i a).val < idx a * (![B, C] : Fin 2 → Nat) a + (![B, C] : Fin 2 → Nat) a := by
  match a with
  | ⟨0, _⟩ =>
    show idx 0 * B ≤ (i 0).val ∧ (i 0).val < idx 0 * B + B
    rw [h0]; exact ⟨Nat.div_mul_le_self _ _, Nat.lt_div_mul_add hB⟩
  | ⟨1, _⟩ =>
    show idx 1 * C ≤ (i 1).val ∧ (i 1).val < idx 1 * C + C
    rw [h1]; have : (i 1).val < C := (i 1).isLt; omega

end Cert.DenseBlock

end
-- ==== Proof.KRegMlp0.lean ====
import proofs.«422490_j54958401520128_2_alg».proof.Proof.Gen.KernelIdeal.Frame
import proofs.«422490_j54958401520128_2_alg».proof.Proof.DenseBlock

noncomputable section

open scoped BigOperators

namespace Cert.KRegMlp0

open Idealize.ShloMosaic Idealize.ShloMosaic.ValueIdx Idealize.ShloMosaic.TcCoe Idealize.SL.Sem Cert.KernelIdeal Cert.KernelIdeal.Gen
open Idealize.ShloMosaic.Pipeline (Dat)
open Cert.DenseBlock

/-- The stored block is the perceptron of the blocks read. -/
theorem pay0 (x0 : Vec Ideal S2000x2 .f32) (x1 : Vec Ideal S2x384 .bf16) (x2 : Vec Ideal S384 .f32) (x3 : Vec Ideal S384x384 .bf16)
    (x4 : Vec Ideal S384 .f32) (j : S2000x384.Idx) :
    k0_pay1 (F := Ideal) x0 x1 x2 x3 x4 j
      = Spec.mlp2 (Arr.a2 (x0 : S2000x2.Idx → EReal)) (Arr.a2 (x1 : S2x384.Idx → EReal)) (Arr.a1 (x2 : S384.Idx → EReal))
          (Arr.a2 (x3 : S384x384.Idx → EReal)) (Arr.a1 (x4 : S384.Idx → EReal)) (j 0) (j 1) := by
  unfold k0_pay1
  simp only [shapeCast_self]
  exact mlp2_apply rfl rfl _ _ _ _ _ _ _ _ _ _ j

theorem idx0 : ∀ t : Fin cfg0.N,
    win0_0.index t (0 : Fin 2) = t.val ∧ win0_0.index t (1 : Fin 2) = 0
    ∧ (∀ a, win0_1.index t a = 0) ∧ (∀ a, win0_2.index t a = 0) ∧ (∀ a, win0_3.index t a = 0) ∧ (∀ a, win0_4.index t a = 0)
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The perceptron of the whole input, laid out as the result array. -/
def G0 (c : Dev nD) : S50000x384.Idx → EReal := fun i =>
  Spec.mlp2 (Arr.a2 (V c main_v30 : S50000x2.Idx → EReal)) (Arr.a2 (V c main_v1 : S2x384.Idx → EReal)) (Arr.a1 (V c main_v2 : S384.Idx → EReal))
    (Arr.a2 (V c main_v4 : S384x384.Idx → EReal)) (Arr.a1 (V c main_v5 : S384.Idx → EReal)) (i 0) (i 1)

/-- Point t's block is block t of it: the parameters' blocks are their whole arrays, and row p of the input block is row 2000 t + p. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S2000x2) hz2, View.ld_unit_zero (S := S2x384) hz2, View.ld_unit_zero (S := S384) hz1, View.ld_unit_zero (S := S384x384) hz2]
  obtain ⟨e00, e01, h1, h2, h3, h4, e50, e51⟩ := idx0 t
  funext y
  show k0_pay1 (F := Ideal) _ _ _ _ _ _ = G0 V c (((cfg0.win 5).blk t).view.emb y)
  rw [pay0,
    show (iblk0 V c 1 t : S2x384.Idx → EReal) = V c main_v1 from funext fun z => read_of_index_zero win0_1 t h1 (V c main_v1) z z fun _ => rfl,
    show (iblk0 V c 2 t : S384.Idx → EReal) = V c main_v2 from funext fun z => read_of_index_zero win0_2 t h2 (V c main_v2) z z fun _ => rfl,
    show (iblk0 V c 3 t : S384x384.Idx → EReal) = V c main_v4 from funext fun z => read_of_index_zero win0_3 t h3 (V c main_v4) z z fun _ => rfl,
    show (iblk0 V c 4 t : S384.Idx → EReal) = V c main_v5 from funext fun z => read_of_index_zero win0_4 t h4 (V c main_v5) z z fun _ => rfl]
  refine mlp2_row (fun k => congrArg (V c main_v30 : S50000x2.Idx → EReal) (Shape.idx_ext₂ ?_ ?_)) _ _ _ _ (Fin.ext ?_)
  · show win0_0.index t 0 * 2000 + 1 * (y 0).val = win0_5.index t 0 * 2000 + 1 * (y 0).val
    rw [e00, e50]
  · show win0_0.index t 1 * 2 + 1 * k.val = k.val
    rw [e01]; omega
  · show (y 1).val = win0_5.index t 1 * 384 + 1 * (y 1).val
    rw [e51]; omega

/-- Row r of the result lies in the block of point r / 2000. -/
theorem cover0 (i : S50000x384.Idx) : ∃ t : Fin cfg0.N, (cfg0.win 5).flush t = true ∧ i ∈ ((cfg0.win 5).blk t).view.set := by
  have ht : (i 0).val / 2000 < cfg0.N := by
    have : (i 0).val < 50000 := (i 0).isLt
    rw [show cfg0.N = 25 from N_0]; omega
  obtain ⟨-, -, -, -, -, -, e0, e1⟩ := idx0 ⟨_, ht⟩
  refine ⟨⟨_, ht⟩, flush0_5 _, ?_⟩
  show i ∈ ((View.whole main_v31).slice (win0_5.rect ⟨(i 0).val / 2000, ht⟩)).set
  rw [View.set_slice_whole, Rect.mem_set_unit]
  exact row_mem (B := 2000) (C := 384) (by decide) (win0_5.index ⟨_, ht⟩) i e0 e1

theorem region0_value (c : Dev nD) :
    Arr.a2 ((dat0 V c).arrAt 5 cfg0.N : S50000x384.Idx → EReal)
      = Spec.mlp2 (Arr.a2 (V c main_v30 : S50000x2.Idx → EReal)) (Arr.a2 (V c main_v1 : S2x384.Idx → EReal))
          (Arr.a1 (V c main_v2 : S384.Idx → EReal)) (Arr.a2 (V c main_v4 : S384x384.Idx → EReal))
          (Arr.a1 (V c main_v5 : S384.Idx → EReal)) :=
  congrArg Arr.a2 ((dat0 V c).arrAt_eq_of_cover 5 (G0 V c) (fun t _ => flushed0_eq V c t) cover0)

end Cert.KRegMlp0

end
-- ==== Proof.KRegMlp1.lean ====
import proofs.«422490_j54958401520128_2_alg».proof.Proof.Gen.KernelIdeal.Frame
import proofs.«422490_j54958401520128_2_alg».proof.Proof.DenseBlock

set_option maxRecDepth 16384

noncomputable section

open scoped BigOperators

namespace Cert.KRegMlp1

open Idealize.ShloMosaic Idealize.ShloMosaic.ValueIdx Idealize.ShloMosaic.TcCoe Idealize.SL.Sem Cert.KernelIdeal Cert.KernelIdeal.Gen
open Idealize.ShloMosaic.Pipeline (Dat)
open Cert.DenseBlock

/-- The stored block is the perceptron of the blocks read. -/
theorem pay1 (x0 : Vec Ideal S5000x3 .f32) (x1 : Vec Ideal S3x384 .bf16) (x2 : Vec Ideal S384 .f32) (x3 : Vec Ideal S384x384 .bf16)
    (x4 : Vec Ideal S384 .f32) (j : S5000x384.Idx) :
    k1_pay1 (F := Ideal) x0 x1 x2 x3 x4 j
      = Spec.mlp2 (Arr.a2 (x0 : S5000x3.Idx → EReal)) (Arr.a2 (x1 : S3x384.Idx → EReal)) (Arr.a1 (x2 : S384.Idx → EReal))
          (Arr.a2 (x3 : S384x384.Idx → EReal)) (Arr.a1 (x4 : S384.Idx → EReal)) (j 0) (j 1) := by
  unfold k1_pay1
  simp only [shapeCast_self]
  exact mlp2_apply rfl rfl _ _ _ _ _ _ _ _ _ _ j

theorem idx1 : ∀ t : Fin cfg1.N,
    win1_0.index t (0 : Fin 2) = t.val ∧ win1_0.index t (1 : Fin 2) = 0
    ∧ (∀ a, win1_1.index t a = 0) ∧ (∀ a, win1_2.index t a = 0) ∧ (∀ a, win1_3.index t a = 0) ∧ (∀ a, win1_4.index t a = 0)
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The perceptron of the whole input, laid out as the result array. -/
def G1 (c : Dev nD) : S125000x384.Idx → EReal := fun i =>
  Spec.mlp2 (Arr.a2 (V c main_arg4 : S125000x3.Idx → EReal)) (Arr.a2 (V c main_v7 : S3x384.Idx → EReal)) (Arr.a1 (V c main_v8 : S384.Idx → EReal))
    (Arr.a2 (V c main_v10 : S384x384.Idx → EReal)) (Arr.a1 (V c main_v11 : S384.Idx → EReal)) (i 0) (i 1)

/-- Point t's block is block t of it: the parameters' blocks are their whole arrays, and row p of the input block is row 5000 t + p. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2]
  simp only [View.ld_unit_zero (S := S5000x3) hz2, View.ld_unit_zero (S := S3x384) hz2, View.ld_unit_zero (S := S384) hz1, View.ld_unit_zero (S := S384x384) hz2]
  obtain ⟨e00, e01, h1, h2, h3, h4, e50, e51⟩ := idx1 t
  funext y
  show k1_pay1 (F := Ideal) _ _ _ _ _ _ = G1 V c (((cfg1.win 5).blk t).view.emb y)
  rw [pay1,
    show (iblk1 V c 1 t : S3x384.Idx → EReal) = V c main_v7 from funext fun z => read_of_index_zero win1_1 t h1 (V c main_v7) z z fun _ => rfl,
    show (iblk1 V c 2 t : S384.Idx → EReal) = V c main_v8 from funext fun z => read_of_index_zero win1_2 t h2 (V c main_v8) z z fun _ => rfl,
    show (iblk1 V c 3 t : S384x384.Idx → EReal) = V c main_v10 from funext fun z => read_of_index_zero win1_3 t h3 (V c main_v10) z z fun _ => rfl,
    show (iblk1 V c 4 t : S384.Idx → EReal) = V c main_v11 from funext fun z => read_of_index_zero win1_4 t h4 (V c main_v11) z z fun _ => rfl]
  refine mlp2_row (fun k => congrArg (V c main_arg4 : S125000x3.Idx → EReal) (Shape.idx_ext₂ ?_ ?_)) _ _ _ _ (Fin.ext ?_)
  · show win1_0.index t 0 * 5000 + 1 * (y 0).val = win1_5.index t 0 * 5000 + 1 * (y 0).val
    rw [e00, e50]
  · show win1_0.index t 1 * 3 + 1 * k.val = k.val
    rw [e01]; omega
  · show (y 1).val = win1_5.index t 1 * 384 + 1 * (y 1).val
    rw [e51]; omega

/-- Row r of the result lies in the block of point r / 5000. -/
theorem cover1 (i : S125000x384.Idx) : ∃ t : Fin cfg1.N, (cfg1.win 5).flush t = true ∧ i ∈ ((cfg1.win 5).blk t).view.set := by
  have ht : (i 0).val / 5000 < cfg1.N := by
    have : (i 0).val < 125000 := (i 0).isLt
    rw [show cfg1.N = 25 from N_1]; omega
  obtain ⟨-, -, -, -, -, -, e0, e1⟩ := idx1 ⟨_, ht⟩
  refine ⟨⟨_, ht⟩, flush1_5 _, ?_⟩
  show i ∈ ((View.whole main_v34).slice (win1_5.rect ⟨(i 0).val / 5000, ht⟩)).set
  rw [View.set_slice_whole, Rect.mem_set_unit]
  exact row_mem (B := 5000) (C := 384) (by decide) (win1_5.index ⟨_, ht⟩) i e0 e1

theorem region1_value (c : Dev nD) :
    Arr.a2 ((dat1 V c).arrAt 5 cfg1.N : S125000x384.Idx → EReal)
      = Spec.mlp2 (Arr.a2 (V c main_arg4 : S125000x3.Idx → EReal)) (Arr.a2 (V c main_v7 : S3x384.Idx → EReal))
          (Arr.a1 (V c main_v8 : S384.Idx → EReal)) (Arr.a2 (V c main_v10 : S384x384.Idx → EReal))
          (Arr.a1 (V c main_v11 : S384.Idx → EReal)) :=
  congrArg Arr.a2 ((dat1 V c).arrAt_eq_of_cover 5 (G1 V c) (fun t _ => flushed1_eq V c t) cover1)

end Cert.KRegMlp1

end
-- ==== Proof.KChain0.lean ====
import proofs.«422490_j54958401520128_2_alg».proof.Proof.Gen.KernelIdeal.Frame
import proofs.«422490_j54958401520128_2_alg».proof.Proof.KState
import proofs.«422490_j54958401520128_2_alg».proof.Proof.KNet
import proofs.«422490_j54958401520128_2_alg».proof.Proof.KHostEmbed
import proofs.«422490_j54958401520128_2_alg».proof.Proof.KHostPre1
import proofs.«422490_j54958401520128_2_alg».proof.Proof.KHostPre2
import proofs.«422490_j54958401520128_2_alg».proof.Proof.KRegMlp0
import proofs.«422490_j54958401520128_2_alg».proof.Proof.KRegMlp1

set_option maxRecDepth 4096

noncomputable section

namespace Cert.KChain0

open Idealize.ShloMosaic Idealize.ShloMosaic.ValueIdx Idealize.ShloMosaic.TcCoe Idealize.SL.Sem
open Cert.KernelIdeal Cert.KernelIdeal.Gen
open Cert.Spec Cert.Arr Cert.Net

variable (m : (ℓ : Loc nD τ sig) → Buf (Elt Ideal) ℓ) (ρ : Dev nD → PrngReg) (c : Dev nD)

theorem W43_eq_W39 (b : Ref sig .tc) (h0 : ∀ w, Pipeline.arrRef spec0 w ≠ b) (h1 : ∀ w, Pipeline.arrRef spec1 w ≠ b)
    (hc : KHostEmbed.afterEmbed (W40 m ρ c) (Proc.devRef .tc b) = W40 m ρ c (Proc.devRef .tc b)) :
    W43 m ρ c (Proc.devRef .tc b) = W39 m ρ c (Proc.devRef .tc b) :=
  (W43_of_ne m ρ c b h1).trans (hc.trans (W40_of_ne m ρ c b h0))

theorem W42_eq_W39 (b : Ref sig .tc) (h0 : ∀ w, Pipeline.arrRef spec0 w ≠ b)
    (hc : KHostEmbed.afterEmbed (W40 m ρ c) (Proc.devRef .tc b) = W40 m ρ c (Proc.devRef .tc b)) :
    W42 m ρ c (Proc.devRef .tc b) = W39 m ρ c (Proc.devRef .tc b) :=
  hc.trans (W40_of_ne m ρ c b h0)

theorem params39 : KState.Params (KState.argsOf m c) (W39 m ρ c) where
  gW1 := HostPre2.ginW1_entry m ρ c
  gb1 := HostPre2.ginB1_entry m ρ c
  gW2 := HostPre2.ginW2_entry m ρ c
  gb2 := HostPre2.ginB2_entry m ρ c
  gγ := HostPre2.bnGamma_entry m ρ c
  gβ := HostPre2.bnBeta_entry m ρ c
  gμ := HostPre2.bnMean_entry m ρ c
  gv := HostPre2.bnVar_entry m ρ c
  hW := HostPre2.headW_entry m ρ c
  hb := HostPre2.headB_entry m ρ c

theorem at43 (hz : KState.ZOk (KState.argsOf m c)) :
    a2 (W43 m ρ c (Proc.devRef .tc main_v33)) = KNet.h0 (KState.argsOf m c)
      ∧ a2 (W43 m ρ c (Proc.devRef .tc main_v34)) = KNet.ee (KState.argsOf m c)
      ∧ W43 m ρ c (Proc.devRef .tc main_arg3) = m ((c : Thread nD τ).loc main_arg3)
      ∧ KState.Params (KState.argsOf m c) (W43 m ρ c) := by
  have e_arg0 := HostPre1.entry_arg0 m ρ c
  have e_arg3 := HostPre1.entry_arg3 m ρ c
  have e_arg4 := HostPre1.entry_arg4 m ρ c
  have e_v30 := HostPre1.entry_v30 m ρ c
  have e_v1 := HostPre1.entry_v1 m ρ c
  have e_v2 := HostPre1.entry_v2 m ρ c
  have e_v4 := HostPre1.entry_v4 m ρ c
  have e_v5 := HostPre1.entry_v5 m ρ c
  have e_v7 := HostPre1.entry_v7 m ρ c
  have e_v8 := HostPre1.entry_v8 m ρ c
  have e_v10 := HostPre1.entry_v10 m ρ c
  have e_v11 := HostPre1.entry_v11 m ρ c
  have e_v12 := HostPre1.entry_v12 m ρ c
  have par := params39 m ρ c
  have r0 := KRegMlp0.region0_value (V39 m ρ) c
  have r1 := KRegMlp1.region1_value (V42 m ρ) c
  refine ⟨?_, ?_, ?_, ?_⟩
  ·
    have harg0 : W40 m ρ c (Proc.devRef .tc main_arg0) = m ((c : Thread nD τ).loc main_arg0) :=
      (W40_of_ne m ρ c main_arg0 (by decide)).trans e_arg0
    have hz40 : ∀ i : Fin 50000, 0 ≤ (a1 (W40 m ρ c (Proc.devRef .tc main_arg0)) i).toInt
        ∧ (a1 (W40 m ρ c (Proc.devRef .tc main_arg0)) i).toInt < 87 := by
      rw [harg0]; exact hz
    have h12 : a2 (W40 m ρ c (Proc.devRef .tc main_v12)) = padCols (KState.argsOf m c).atom 0 := by
      rw [W40_of_ne m ρ c main_v12 (by decide)]; exact e_v12
    have h31 : a2 (W40 m ρ c (Proc.devRef .tc main_v31)) = KNet.nodeMlp (KState.argsOf m c) := by
      rw [show W40 m ρ c (Proc.devRef .tc main_v31) = (dat0 (V39 m ρ) c).arrAt 5 cfg0.N from W40_arr m ρ c 5, r0,
        show a2 (V39 m ρ c main_v30 : S50000x2.Idx → EReal) = _ from e_v30,
        show a2 (V39 m ρ c main_v1 : S2x384.Idx → EReal) = _ from e_v1,
        show a1 (V39 m ρ c main_v2 : S384.Idx → EReal) = _ from e_v2,
        show a2 (V39 m ρ c main_v4 : S384x384.Idx → EReal) = _ from e_v4,
        show a1 (V39 m ρ c main_v5 : S384.Idx → EReal) = _ from e_v5]
      rfl
    rw [W43_of_ne m ρ c main_v33 (by decide)]
    show a2 (KHostEmbed.afterEmbed (W40 m ρ c) (Proc.devRef .tc main_v33)) = _
    rw [KHostEmbed.embed_value (W40 m ρ c) hz40, h12, h31, harg0]
    rfl
  ·
    have q4 : W42 m ρ c (Proc.devRef .tc main_arg4) = m ((c : Thread nD τ).loc main_arg4) :=
      (W42_eq_W39 m ρ c main_arg4 (by decide) (KHostEmbed.carry_main_arg4 _)).trans e_arg4
    have q7 := W42_eq_W39 m ρ c main_v7 (by decide) (KHostEmbed.carry_main_v7 _)
    have q8 := W42_eq_W39 m ρ c main_v8 (by decide) (KHostEmbed.carry_main_v8 _)
    have q10 := W42_eq_W39 m ρ c main_v10 (by decide) (KHostEmbed.carry_main_v10 _)
    have q11 := W42_eq_W39 m ρ c main_v11 (by decide) (KHostEmbed.carry_main_v11 _)
    rw [show W43 m ρ c (Proc.devRef .tc main_v34) = (dat1 (V42 m ρ) c).arrAt 5 cfg1.N from W43_arr m ρ c 5, r1,
      show (V42 m ρ c main_arg4 : S125000x3.Idx → EReal) = _ from q4,
      show (V42 m ρ c main_v7 : S3x384.Idx → EReal) = _ from q7,
      show (V42 m ρ c main_v8 : S384.Idx → EReal) = _ from q8,
      show (V42 m ρ c main_v10 : S384x384.Idx → EReal) = _ from q10,
      show (V42 m ρ c main_v11 : S384.Idx → EReal) = _ from q11,
      e_v7, e_v8, e_v10, e_v11]
    rfl
  ·
    exact (W43_eq_W39 m ρ c main_arg3 (by decide) (by decide) (KHostEmbed.carry_main_arg3 _)).trans e_arg3
  ·
    exact par.carry
      (W43_eq_W39 m ρ c main_v14 (by decide) (by decide) (KHostEmbed.carry_main_v14 _))
      (W43_eq_W39 m ρ c main_v15 (by decide) (by decide) (KHostEmbed.carry_main_v15 _))
      (W43_eq_W39 m ρ c main_v17 (by decide) (by decide) (KHostEmbed.carry_main_v17 _))
      (W43_eq_W39 m ρ c main_v18 (by decide) (by decide) (KHostEmbed.carry_main_v18 _))
      (W43_eq_W39 m ρ c main_v19 (by decide) (by decide) (KHostEmbed.carry_main_v19 _))
      (W43_eq_W39 m ρ c main_v20 (by decide) (by decide) (KHostEmbed.carry_main_v20 _))
      (W43_eq_W39 m ρ c main_v21 (by decide) (by decide) (KHostEmbed.carry_main_v21 _))
      (W43_eq_W39 m ρ c main_v22 (by decide) (by decide) (KHostEmbed.carry_main_v22 _))
      (W43_eq_W39 m ρ c main_v26 (by decide) (by decide) (KHostEmbed.carry_main_v26 _))
      (W43_eq_W39 m ρ c main_v27 (by decide) (by decide) (KHostEmbed.carry_main_v27 _))

end Cert.KChain0

end
-- ==== Proof.MessageSum.lean ====
import proofs.«422490_j54958401520128_2_alg».proof.Proof.Gen.KernelIdeal.Launch
import proofs.«422490_j54958401520128_2_alg».proof.Proof.Net
import proofs.«422490_j54958401520128_2_alg».proof.Proof.LibRows
import proofs.«422490_j54958401520128_2_alg».proof.Proof.LibTypedRef
import Idealize.ShloMosaic.Lib.ValueLayout
import Idealize.ShloMosaic.PureOps.Reduce
import Idealize.ShloMosaic.PureOps.Ideal.Laws

noncomputable section

open scoped BigOperators

namespace Cert.KernelIdeal.Gen.MessageSum

open Idealize.ShloMosaic Idealize.ShloMosaic.ValueIdx
open Cert.Spec Cert.Arr Cert.Net

def takeIdx (src : IVec S125000 32) : IVec S125000x1 32 :=
  broadcastInDim S125000x1 ![0] bcast_S125000_S125000x1_0
    (select (cmpi .slt src (broadcastInDim S125000 ![] bcast_S_S125000 (constantI S_ 32 0#32)))
      (addi src (broadcastInDim S125000 ![] bcast_S_S125000 (constantI S_ 32 50000#32))) src)

def takeMask (idx : IVec S125000x1 32) : IVec S125000 1 :=
  Host.reduce IntOp.andi
    (andi (cmpi .sge idx (broadcastInDim S125000x1 ![] bcast_S_S125000x1 (constantI S_ 32 0#32)))
      (cmpi .sle idx (broadcastInDim S125000x1 ![0, 1] bcast_S1x1_S125000x1_0_1
        (broadcastInDim S1x1 ![1] bcast_S1_S1x1_1 (constantI S1 32 49999#32)))))
    (constantI S_ 1 1#1) reducesTo_S125000x1_S125000_d1 h_S_

def takeRows (h : FVec Ideal S50000x384 .f32) (src : IVec S125000 32) : FVec Ideal S125000x384 .f32 :=
  select (broadcastInDim S125000x384 ![0] bcast_S125000_S125000x384_0 (takeMask (takeIdx src)))
    (Host.gather gather_S50000x384_S125000x1_S125000x384_1_0_n_n_0_1_1384 h (takeIdx src))
    (broadcastInDim S125000x384 ![] bcast_S_S125000x384 (constant (F := Ideal) S_ .f32 0x7FC00000#32))

theorem takeIdx_apply (src : IVec S125000 32) (p : Fin 125000) :
    takeIdx src (ix2 p (0 : Fin 1)) = wrapw 50000#32 (src (ix1 p)) := by
  unfold takeIdx
  rw [broadcastInDim_apply ![0] bcast_S125000_S125000x1_0 _ (ix2 p (0 : Fin 1)) (ix1 p)
    (fun a => by match a with | ⟨0, _⟩ => rfl)]
  show Scalar.select (IntOp.cmpi .slt (src (ix1 p)) 0#32) (IntOp.addi (src (ix1 p)) 50000#32) (src (ix1 p)) = _
  unfold wrapw Scalar.select IntOp.cmpi IntOp.addi
  cases hlt : (src (ix1 p)).slt 0#32 <;> simp

theorem wrapw_of_nonneg (w : BitVec 32) (h0 : 0 ≤ w.toInt) : wrapw 50000#32 w = w := by
  unfold wrapw
  have : w.slt 0#32 = false := by
    rw [Bool.eq_false_iff]; intro h
    rw [BitVec.slt_iff_toInt_lt] at h
    simp at h; omega
  rw [this]; rfl

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

theorem takeMask_one (idx : IVec S125000x1 32) (hin : ∀ i, 0 ≤ (idx i).toInt ∧ (idx i).toInt ≤ 49999)
    (j : S125000.Idx) : takeMask idx j = 1#1 := by
  unfold takeMask
  rw [Host.reduce_eq_foldl]
  refine foldl_andi_one _ (fun i => ?_) _
  show IntOp.andi (IntOp.cmpi .sge (idx i) 0#32) (IntOp.cmpi .sle (idx i) 49999#32) = 1#1
  rw [IntOp.andi_eq_one, IntOp.cmpi_sge, IntOp.cmpi_sle]
  have := hin i
  refine ⟨by simpa using this.1, by simpa using this.2⟩

theorem takeRows_apply (h : FVec Ideal S50000x384 .f32) (src : IVec S125000 32)
    (hs : ∀ e : Fin 125000, 0 ≤ (src (ix1 e)).toInt ∧ (src (ix1 e)).toInt < 50000) (p : Fin 125000) (q : Fin 384) :
    takeRows h src (ix2 p q) = h (ix2 (rowOf 50000 (by norm_num) (wrapw 50000#32 (src (ix1 p)))) q) := by
  have hin : ∀ i : S125000x1.Idx, 0 ≤ (takeIdx src i).toInt ∧ (takeIdx src i).toInt ≤ 49999 := by
    intro i
    have hi : i = ix2 (n0 := 125000) (n1 := 1) (i 0) (0 : Fin 1) := by
      funext a
      match a with
      | ⟨0, _⟩ => rfl
      | ⟨1, _⟩ => exact Fin.ext (Nat.lt_one_iff.mp (i 1).isLt)
    rw [hi, takeIdx_apply src (i 0), wrapw_of_nonneg _ (hs (i 0)).1]
    have := hs (i 0); omega
  unfold takeRows
  rw [select_apply, broadcastInDim_apply ![0] bcast_S125000_S125000x384_0 _ (ix2 p q) (ix1 p)
    (fun a => by match a with | ⟨0, _⟩ => rfl), takeMask_one _ hin, select_one]
  refine (LibRows.rowGather_apply (n := 50000) (e := 125000) (c := 384) (by norm_num)
    gather_S50000x384_S125000x1_S125000x384_1_0_n_n_0_1_1384_wf h (takeIdx src) p q).trans ?_
  refine congrArg (fun r => h (ix2 r q)) (Fin.ext ?_)
  show min (takeIdx src (ix2 p (0 : Fin 1))).toInt.toNat (50000 - 1) = min (wrapw 50000#32 (src (ix1 p))).toInt.toNat (50000 - 1)
  rw [takeIdx_apply]

def msgRows (g ee : FVec Ideal S125000x384 .f32) : FVec Ideal S125000x384 .f32 :=
  maximumf (addf g ee)
    (broadcastInDim S125000x384 ![] bcast_S_S125000x384 (constant (F := Ideal) S_ .f32 0x00000000#32))

theorem msgRows_apply (g ee : FVec Ideal S125000x384 .f32) (i : S125000x384.Idx) :
    msgRows g ee i = max (g i + ee i) 0 := by
  show max (g i + ee i) (Ideal.ofBits .f32 0x00000000#32) = _
  rw [Ideal.ofBits_zero_f32]

def aggRows (dst : IVec S125000 32) (msg : FVec Ideal S125000x384 .f32) : FVec Ideal S50000x384 .f32 :=
  Host.scatterAdd (F := Ideal) scatter_S50000x384_S125000x1_S125000x384_1_0_0_1
    (broadcastInDim S50000x384 ![] bcast_S_S50000x384 (constant (F := Ideal) S_ .f32 0x00000000#32))
    (broadcastInDim S125000x1 ![0] bcast_S125000_S125000x1_0 dst) msg

theorem aggRows_apply (dst : IVec S125000 32) (msg : FVec Ideal S125000x384 .f32) (r : Fin 50000) (q : Fin 384) :
    aggRows dst msg (ix2 r q)
      = ∑ p : Fin 125000, if (dst (ix1 p)).toInt = (r.val : Int) then msg (ix2 p q) else 0 := by
  unfold aggRows
  refine (LibRows.rowScatterAdd_apply (n := 50000) (e := 125000) (c := 384)
    scatter_S50000x384_S125000x1_S125000x384_1_0_0_1_wf _ _ msg r q).trans ?_
  rw [show (broadcastInDim S50000x384 ![] bcast_S_S50000x384 (constant (F := Ideal) S_ .f32 0x00000000#32)) (ix2 r q)
      = (0 : EReal) from Ideal.ofBits_zero_f32, zero_add]
  refine Finset.sum_congr rfl fun p _ => ?_
  rw [broadcastInDim_apply ![0] bcast_S125000_S125000x1_0 dst (ix2 p (0 : Fin 1)) (ix1 p)
    (fun a => by match a with | ⟨0, _⟩ => rfl)]

theorem agg_value (h : FVec Ideal S50000x384 .f32) (src dst : IVec S125000 32) (ee : FVec Ideal S125000x384 .f32)
    (hs : ∀ e : Fin 125000, 0 ≤ (a1 src e).toInt ∧ (a1 src e).toInt < 50000) :
    a2 (aggRows dst (msgRows (takeRows h src) ee))
      = segsum (a1 dst) (msgs (a2 h) (fun e => rowOf 50000 (by norm_num) (wrapw 50000#32 (a1 src e))) (a2 ee)) := by
  funext r q
  show aggRows dst (msgRows (takeRows h src) ee) (ix2 r q)
    = ∑ e : Fin 125000, if (dst (ix1 e)).toInt = (r.val : Int)
        then max (h (ix2 (rowOf 50000 (by norm_num) (wrapw 50000#32 (src (ix1 e)))) q) + ee (ix2 e q)) 0 else 0
  rw [aggRows_apply]
  refine Finset.sum_congr rfl fun p _ => ?_
  rw [msgRows_apply, takeRows_apply h src hs]

section Slices
variable {α : Type}

theorem sliceRow_apply {l n : Nat} (o : Nat) (k : Fin l) (hk : k.val = o) (x : (⟨2, ![l, n]⟩ : Shape).Idx → α)
    (h : (⟨2, ![l, n]⟩ : Shape).Slices ![o, 0] ⟨2, ![1, n]⟩) (u : Fin 1) (j : Fin n) :
    extractStridedSlice ⟨2, ![1, n]⟩ ![o, 0] x h (ix2 u j) = x (ix2 k j) :=
  slice2_axis0_apply o x h u j k (by have := u.isLt; omega)

theorem rowVec_apply {l n : Nat} (o : Nat) (k : Fin l) (hk : k.val = o) (x : (⟨2, ![l, n]⟩ : Shape).Idx → α)
    (h : (⟨2, ![l, n]⟩ : Shape).Slices ![o, 0] ⟨2, ![1, n]⟩)
    (hc : (⟨2, ![1, n]⟩ : Shape).ShapeCasts ⟨1, ![n]⟩) (j : Fin n) :
    shapeCast ⟨1, ![n]⟩ (extractStridedSlice ⟨2, ![1, n]⟩ ![o, 0] x h) hc (ix1 j) = x (ix2 k j) := by
  rw [shapeCast_1a_a_apply, sliceRow_apply o k hk]

theorem sliceSlab_apply {l a b : Nat} (o : Nat) (k : Fin l) (hk : k.val = o) (x : (⟨3, ![l, a, b]⟩ : Shape).Idx → α)
    (h : (⟨3, ![l, a, b]⟩ : Shape).Slices ![o, 0, 0] ⟨3, ![1, a, b]⟩) (u : Fin 1) (i : Fin a) (j : Fin b) :
    extractStridedSlice ⟨3, ![1, a, b]⟩ ![o, 0, 0] x h (ix3 u i j) = x (ix3 k i j) :=
  extractStridedSlice_apply _ x h _ _ (fun ax => by
    match ax with
    | ⟨0, _⟩ => show k.val = o + u.val; have := u.isLt; omega
    | ⟨1, _⟩ => exact (Nat.zero_add _).symm
    | ⟨2, _⟩ => exact (Nat.zero_add _).symm)

theorem slabMat_apply {l a b : Nat} (o : Nat) (k : Fin l) (hk : k.val = o) (x : (⟨3, ![l, a, b]⟩ : Shape).Idx → α)
    (h : (⟨3, ![l, a, b]⟩ : Shape).Slices ![o, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![o, 0, 0] x h) hc (ix2 i j) = x (ix3 k i j) := by
  rw [shapeCast_1ab_ab_apply, sliceSlab_apply o k hk]

def sliceMat (o : Nat) (h : S5x384x384.Slices ![o, 0, 0] S1x384x384) (x : S5x384x384.Idx → α) : S384x384.Idx → α :=
  shapeCast S384x384 (extractStridedSlice S1x384x384 ![o, 0, 0] x h) shapeCasts_S1x384x384_S384x384

def sliceVec (o : Nat) (h : S5x384.Slices ![o, 0] S1x384) (x : S5x384.Idx → α) : S384.Idx → α :=
  shapeCast S384 (extractStridedSlice S1x384 ![o, 0] x h) shapeCasts_S1x384_S384

/-- A buffer holding slab k of a stack, the stack itself unchanged, reads as the stack's slab k. -/
theorem mat_of (o : Nat) (k : Fin 5) (hk : k.val = o) {h : S5x384x384.Slices ![o, 0, 0] S1x384x384}
    {y : S384x384.Idx → α} {x' x : S5x384x384.Idx → α} (hy : y = sliceMat o h x') (hx : x' = x) : a2 y = a3 x k := by
  subst hy hx
  exact funext fun i => funext fun j => slabMat_apply o k hk _ h _ i j

theorem vec_of (o : Nat) (k : Fin 5) (hk : k.val = o) {h : S5x384.Slices ![o, 0] S1x384}
    {y : S384.Idx → α} {x' x : S5x384.Idx → α} (hy : y = sliceVec o h x') (hx : x' = x) : a1 y = a2 x k := by
  subst hy hx
  exact funext fun j => rowVec_apply o k hk _ h _ j

end Slices

section Keep

/-- Every operation of the list writes only references of `wr`. -/
abbrev WritesIn (wr : List (Ref sig .tc)) (ops : List (HloOp τ sig (Elt Ideal))) : Prop :=
  ops.Forall fun op => op.writes ⊆ (wr.map (Proc.devRef (τ := τ) .tc)).toFinset

theorem mem_wr {wr : List (Ref sig .tc)} {r : Ref sig .tc} (h : r ∈ wr) :
    Proc.devRef (τ := τ) .tc r ∈ (wr.map (Proc.devRef (τ := τ) .tc)).toFinset :=
  List.mem_toFinset.mpr (List.mem_map_of_mem h)

variable {wr : List (Ref sig .tc)} {oA oB oC oD : List (HloOp τ sig (Elt Ideal))} {P : Prop}

theorem keep1 (h : WritesIn wr oA ∧ P) (W : Valuation τ sig (Elt Ideal)) {r : Ref sig .tc} (hr : r ∉ wr) :
    StableHlo.after oA W (Proc.devRef .tc r) = W (Proc.devRef .tc r) :=
  StableHlo.after_of_writes_sub _ W h.1 hr

theorem keep3 (h : WritesIn wr oA ∧ WritesIn wr oB ∧ WritesIn wr oC ∧ P) (W : Valuation τ sig (Elt Ideal))
    {r : Ref sig .tc} (hr : r ∉ wr) :
    StableHlo.after oC (StableHlo.after oB (StableHlo.after oA W)) (Proc.devRef .tc r) = W (Proc.devRef .tc r) := by
  rw [StableHlo.after_of_writes_sub _ _ h.2.2.1 hr, StableHlo.after_of_writes_sub _ _ h.2.1 hr, keep1 h W hr]

theorem keep4 (h : WritesIn wr oA ∧ WritesIn wr oB ∧ WritesIn wr oC ∧ WritesIn wr oD ∧ P) (W : Valuation τ sig (Elt Ideal))
    {r : Ref sig .tc} (hr : r ∉ wr) :
    StableHlo.after oD (StableHlo.after oC (StableHlo.after oB (StableHlo.after oA W))) (Proc.devRef .tc r)
      = W (Proc.devRef .tc r) := by
  rw [StableHlo.after_of_writes_sub _ _ h.2.2.2.1 hr, keep3 h W hr]

end Keep

end Cert.KernelIdeal.Gen.MessageSum
-- ==== Proof.KHostL0.lean ====
import proofs.«422490_j54958401520128_2_alg».proof.Proof.MessageSum

noncomputable section

open scoped BigOperators

namespace Cert.KHostL0

open Idealize.ShloMosaic Idealize.ShloMosaic.ValueIdx Idealize.ShloMosaic.TcCoe
open Cert.Spec Cert.Arr Cert.Net
open Cert.KernelIdeal Cert.KernelIdeal.Gen Cert.KernelIdeal.Gen.MessageSum

abbrev wrA : List (Ref sig .tc) := [main_v35, main_v36, main_v37, main_v38]

abbrev wrB : List (Ref sig .tc) :=
  [main_call20_c, main_call20_v0, main_call20_v1, main_call20_c_0, main_call20_v2, main_call20_v3, main_call20_v4,
   main_call20_v5, main_call20_c_1, main_call20_c_2, main_call20_v6, main_call20_v7, main_call20_v8, main_call20_v9,
   main_call20_v10, main_call20_v11, main_call20_c_3, main_call20_v12, main_call20_v13, main_call20_v14,
   main_call20_cst, main_call20_v15, main_v39]

abbrev wrC : List (Ref sig .tc) := [main_v40]

abbrev wrD : List (Ref sig .tc) := [main_call21_cst, main_call21_v0, main_v41]

abbrev wrE : List (Ref sig .tc) :=
  [main_cst_17, main_v42, main_v43, main_v44, main_v45, main_v46, main_v47, main_v48, main_v49, main_v50, main_v51,
   main_v52, main_v53, main_v54, main_v55, main_v56, main_v57, main_v58, main_v59, main_v60]

abbrev wr : List (Ref sig .tc) := wrA ++ wrB ++ wrC ++ wrD ++ wrE

theorem ws : WritesIn wr (hostOps2 (F := Ideal)) ∧ WritesIn wr (hostOps2_1 (F := Ideal)) ∧ WritesIn wr (hostOps2_2 (F := Ideal))
    ∧ WritesIn wr (hostOps2_3 (F := Ideal)) ∧ WritesIn wr (hostOps2_4 (F := Ideal)) := by
  refine ⟨?_, ?_, ?_, ?_, ?_⟩
  all_goals simp only [WritesIn, hostOps2, hostOps2_1, hostOps2_2, hostOps2_3, hostOps2_4, List.Forall, StableHlo.nullary_writes,
    StableHlo.unary_writes, StableHlo.binary_writes, StableHlo.ternary_writes, StableHlo.reshape_writes, Finset.singleton_subset_iff]
  all_goals repeat' apply And.intro
  all_goals exact mem_wr (by decide)

abbrev wrBE : List (Ref sig .tc) := wrB ++ wrC ++ wrD ++ wrE

theorem wsBE : WritesIn wrBE (hostOps2_1 (F := Ideal)) ∧ WritesIn wrBE (hostOps2_2 (F := Ideal))
    ∧ WritesIn wrBE (hostOps2_3 (F := Ideal)) ∧ WritesIn wrBE (hostOps2_4 (F := Ideal)) := by
  refine ⟨?_, ?_, ?_, ?_⟩
  all_goals simp only [WritesIn, hostOps2_1, hostOps2_2, hostOps2_3, hostOps2_4, List.Forall, StableHlo.nullary_writes,
    StableHlo.unary_writes, StableHlo.binary_writes, StableHlo.ternary_writes, StableHlo.reshape_writes, Finset.singleton_subset_iff]
  all_goals repeat' apply And.intro
  all_goals exact mem_wr (by decide)

variable (W : Valuation τ sig (Elt Ideal))

theorem A_v36 : (StableHlo.after (hostOps2 (F := Ideal)) W (Proc.devRef .tc main_v36) : S125000.Idx → BitVec 32)
    = shapeCast S125000 (extractStridedSlice S1x125000 ![0, 0]
        (W (Proc.devRef .tc main_arg3) : S2x125000.Idx → BitVec 32) slices_S2x125000_S1x125000_0_0) shapeCasts_S1x125000_S125000 := by
  show StableHlo.after hostOps2 W (Proc.devRef .tc main_v36) = _
  after_results
  rfl

theorem A_v38 : (StableHlo.after (hostOps2 (F := Ideal)) W (Proc.devRef .tc main_v38) : S125000.Idx → BitVec 32)
    = shapeCast S125000 (extractStridedSlice S1x125000 ![1, 0]
        (W (Proc.devRef .tc main_arg3) : S2x125000.Idx → BitVec 32) slices_S2x125000_S1x125000_1_0) shapeCasts_S1x125000_S125000 := by
  show StableHlo.after hostOps2 W (Proc.devRef .tc main_v38) = _
  after_results
  rfl

theorem B_v39 :
    StableHlo.after (hostOps2_1 (F := Ideal)) W (Proc.devRef .tc main_v39)
      = takeRows (W (Proc.devRef .tc main_v33)) (W (Proc.devRef .tc main_v36)) := by
  after_results_simp
  simp only [StableHlo.TRef.ofBuf_toBuf]
  simp only [StableHlo.TRef.ofBuf, StableHlo.TRef.toBuf, cast_eq]
  rfl

theorem D_v41 :
    StableHlo.after (hostOps2_3 (F := Ideal)) (StableHlo.after (hostOps2_2 (F := Ideal)) W) (Proc.devRef .tc main_v41)
      = msgRows (W (Proc.devRef .tc main_v39)) (W (Proc.devRef .tc main_v34)) := by
  after_results_simp
  simp only [StableHlo.TRef.ofBuf_toBuf]
  simp only [StableHlo.TRef.ofBuf, StableHlo.TRef.toBuf, cast_eq]
  rfl

theorem E_v44 :
    StableHlo.after (hostOps2_4 (F := Ideal)) W (Proc.devRef .tc main_v44)
      = aggRows (W (Proc.devRef .tc main_v38)) (W (Proc.devRef .tc main_v41)) := by
  after_results_simp
  rfl
theorem E_v46 :
    StableHlo.after (hostOps2_4 (F := Ideal)) W (Proc.devRef .tc main_v46) = sliceMat 0 slices_S5x384x384_S1x384x384_0_0_0 (W (Proc.devRef .tc main_v14)) := by
  after_results_simp
  rfl
theorem E_v48 :
    StableHlo.after (hostOps2_4 (F := Ideal)) W (Proc.devRef .tc main_v48) = sliceVec 0 slices_S5x384_S1x384_0_0 (W (Proc.devRef .tc main_v15)) := by
  after_results_simp
  rfl
theorem E_v50 :
    StableHlo.after (hostOps2_4 (F := Ideal)) W (Proc.devRef .tc main_v50) = sliceMat 0 slices_S5x384x384_S1x384x384_0_0_0 (W (Proc.devRef .tc main_v17)) := by
  after_results_simp
  rfl
theorem E_v52 :
    StableHlo.after (hostOps2_4 (F := Ideal)) W (Proc.devRef .tc main_v52) = sliceVec 0 slices_S5x384_S1x384_0_0 (W (Proc.devRef .tc main_v18)) := by
  after_results_simp
  rfl
theorem E_v54 :
    StableHlo.after (hostOps2_4 (F := Ideal)) W (Proc.devRef .tc main_v54) = sliceVec 0 slices_S5x384_S1x384_0_0 (W (Proc.devRef .tc main_v19)) := by
  after_results_simp
  rfl
theorem E_v56 :
    StableHlo.after (hostOps2_4 (F := Ideal)) W (Proc.devRef .tc main_v56) = sliceVec 0 slices_S5x384_S1x384_0_0 (W (Proc.devRef .tc main_v20)) := by
  after_results_simp
  rfl
theorem E_v58 :
    StableHlo.after (hostOps2_4 (F := Ideal)) W (Proc.devRef .tc main_v58) = sliceVec 0 slices_S5x384_S1x384_0_0 (W (Proc.devRef .tc main_v21)) := by
  after_results_simp
  rfl
theorem E_v60 :
    StableHlo.after (hostOps2_4 (F := Ideal)) W (Proc.devRef .tc main_v60) = sliceVec 0 slices_S5x384_S1x384_0_0 (W (Proc.devRef .tc main_v22)) := by
  after_results_simp
  rfl

abbrev after0 : Valuation τ sig (Elt Ideal) :=
  StableHlo.after (hostOps2_4 (F := Ideal)) (StableHlo.after (hostOps2_3 (F := Ideal)) (StableHlo.after (hostOps2_2 (F := Ideal))
    (StableHlo.after (hostOps2_1 (F := Ideal)) (StableHlo.after (hostOps2 (F := Ideal)) W))))

theorem carry (r : Ref sig .tc) (hA : r ∉ wrA) (hB : r ∉ wrB) (hC : r ∉ wrC) (hD : r ∉ wrD) (hE : r ∉ wrE) :
    after0 W (Proc.devRef .tc r) = W (Proc.devRef .tc r) := by
  have hr : r ∉ wr := by simp only [wr, List.mem_append, not_or]; exact ⟨⟨⟨⟨hA, hB⟩, hC⟩, hD⟩, hE⟩
  exact (StableHlo.after_of_writes_sub _ _ ws.2.2.2.2 hr).trans (keep4 ws W hr)

theorem srcA : a1 (StableHlo.after (hostOps2 (F := Ideal)) W (Proc.devRef .tc main_v36)) = fun e => a2 (W (Proc.devRef .tc main_arg3)) 0 e := by
  rw [A_v36]
  exact funext fun e => rowVec_apply 0 0 rfl _ _ _ e

theorem dstA : a1 (StableHlo.after (hostOps2 (F := Ideal)) W (Proc.devRef .tc main_v38)) = fun e => a2 (W (Proc.devRef .tc main_arg3)) 1 e := by
  rw [A_v38]
  exact funext fun e => rowVec_apply 1 1 rfl _ _ _ e

theorem agg0_value
    (hs : ∀ e : Fin 125000, 0 ≤ (a2 (W (Proc.devRef .tc main_arg3)) 0 e).toInt ∧ (a2 (W (Proc.devRef .tc main_arg3)) 0 e).toInt < 50000) :
    a2 (after0 W (Proc.devRef .tc main_v44))
      = segsum (fun e => a2 (W (Proc.devRef .tc main_arg3)) 1 e)
          (msgs (a2 (W (Proc.devRef .tc main_v33)))
            (fun e => rowOf 50000 (by norm_num) (wrapw 50000#32 (a2 (W (Proc.devRef .tc main_arg3)) 0 e)))
            (a2 (W (Proc.devRef .tc main_v34)))) := by
  show a2 (StableHlo.after (hostOps2_4 (F := Ideal)) _ (Proc.devRef .tc main_v44)) = _
  rw [E_v44, D_v41, B_v39, keep3 wsBE _ (r := main_v38) (by decide), keep1 ws W (r := main_v33) (by decide),
    StableHlo.after_of_writes_sub _ _ ws.2.1 (r := main_v34) (by decide), keep1 ws W (r := main_v34) (by decide)]
  refine (agg_value _ _ _ _ (by rw [srcA]; exact hs)).trans ?_
  rw [srcA, dstA]

theorem src_value : a1 (after0 W (Proc.devRef .tc main_v36)) = fun e => a2 (W (Proc.devRef .tc main_arg3)) 0 e := by
  show a1 (StableHlo.after (hostOps2_4 (F := Ideal)) _ (Proc.devRef .tc main_v36)) = _
  rw [StableHlo.after_of_writes_sub _ _ wsBE.2.2.2 (r := main_v36) (by decide), keep3 wsBE _ (r := main_v36) (by decide)]
  exact srcA W

theorem dst_value : a1 (after0 W (Proc.devRef .tc main_v38)) = fun e => a2 (W (Proc.devRef .tc main_arg3)) 1 e := by
  show a1 (StableHlo.after (hostOps2_4 (F := Ideal)) _ (Proc.devRef .tc main_v38)) = _
  rw [StableHlo.after_of_writes_sub _ _ wsBE.2.2.2 (r := main_v38) (by decide), keep3 wsBE _ (r := main_v38) (by decide)]
  exact dstA W

theorem v46_value : a2 (after0 W (Proc.devRef .tc main_v46)) = a3 (W (Proc.devRef .tc main_v14)) 0 :=
  mat_of 0 0 rfl (E_v46 _) (keep4 ws W (by decide))
theorem v48_value : a1 (after0 W (Proc.devRef .tc main_v48)) = a2 (W (Proc.devRef .tc main_v15)) 0 :=
  vec_of 0 0 rfl (E_v48 _) (keep4 ws W (by decide))
theorem v50_value : a2 (after0 W (Proc.devRef .tc main_v50)) = a3 (W (Proc.devRef .tc main_v17)) 0 :=
  mat_of 0 0 rfl (E_v50 _) (keep4 ws W (by decide))
theorem v52_value : a1 (after0 W (Proc.devRef .tc main_v52)) = a2 (W (Proc.devRef .tc main_v18)) 0 :=
  vec_of 0 0 rfl (E_v52 _) (keep4 ws W (by decide))
theorem v54_value : a1 (after0 W (Proc.devRef .tc main_v54)) = a2 (W (Proc.devRef .tc main_v19)) 0 :=
  vec_of 0 0 rfl (E_v54 _) (keep4 ws W (by decide))
theorem v56_value : a1 (after0 W (Proc.devRef .tc main_v56)) = a2 (W (Proc.devRef .tc main_v20)) 0 :=
  vec_of 0 0 rfl (E_v56 _) (keep4 ws W (by decide))
theorem v58_value : a1 (after0 W (Proc.devRef .tc main_v58)) = a2 (W (Proc.devRef .tc main_v21)) 0 :=
  vec_of 0 0 rfl (E_v58 _) (keep4 ws W (by decide))
theorem v60_value : a1 (after0 W (Proc.devRef .tc main_v60)) = a2 (W (Proc.devRef .tc main_v22)) 0 :=
  vec_of 0 0 rfl (E_v60 _) (keep4 ws W (by decide))

theorem carry_v33 : after0 W (Proc.devRef .tc main_v33) = W (Proc.devRef .tc main_v33) :=
  carry W main_v33 (by decide) (by decide) (by decide) (by decide) (by decide)

end Cert.KHostL0

end
-- ==== Proof.KGinShared.lean ====
import proofs.«422490_j54958401520128_2_alg».proof.Proof.Gen.KernelIdeal.Frame
import proofs.«422490_j54958401520128_2_alg».proof.Proof.Spec
import proofs.«422490_j54958401520128_2_alg».proof.Proof.Arr
import proofs.«422490_j54958401520128_2_alg».proof.Proof.Net
import Idealize.ShloMosaic.Lib.ValueIdx
import Idealize.ShloMosaic.Lib.ValueLayout
import Idealize.ShloMosaic.PureOps.Ideal.Laws
import Idealize.ShloMosaic.Lib.Pipeline.Value

noncomputable section

open scoped BigOperators

namespace Cert.KernelIdeal.GinBlock

open Idealize.ShloMosaic Idealize.ShloMosaic.ValueIdx Cert.KernelIdeal Cert.KernelIdeal.Gen

theorem row_bcast' (v : FVec Ideal S384 .f32) (h2 : S384.ShapeCasts S1x384)
    (h3 : S1x384.Broadcasts S2000x384) (p : Fin 2000) (q : Fin 384) :
    broadcastTo S2000x384 (shapeCast S1x384 v h2) h3 (ix2 p q) = v (ix1 q) := by
  rw [broadcastTo_1b_ab_apply, shapeCast_a_1a_apply]

theorem lhs_0 (i : S2000x384.Idx) (q : dot_S2000x384_S384x384_S2000x384_1_0_0_1_n_n.contr.Idx) :
    (dot_S2000x384_S384x384_S2000x384_1_0_0_1_n_n.lhsIdx i q 0).val = (i 0).val := by
  unfold DotDims.lhsIdx
  rw [dif_neg (show ¬(0 : Fin S2000x384.rank) ∈ dot_S2000x384_S384x384_S2000x384_1_0_0_1_n_n.lhsBatch by decide),
    dif_pos (show (0 : Fin S2000x384.rank) ∈ dot_S2000x384_S384x384_S2000x384_1_0_0_1_n_n.lhsNonContracting by decide)]
  rfl

theorem rhs_1 (i : S2000x384.Idx) (q : dot_S2000x384_S384x384_S2000x384_1_0_0_1_n_n.contr.Idx) :
    (dot_S2000x384_S384x384_S2000x384_1_0_0_1_n_n.rhsIdx i q 1).val = (i 1).val := by
  unfold DotDims.rhsIdx
  rw [dif_neg (show ¬(1 : Fin S384x384.rank) ∈ dot_S2000x384_S384x384_S2000x384_1_0_0_1_n_n.rhsBatch by decide),
    dif_pos (show (1 : Fin S384x384.rank) ∈ dot_S2000x384_S384x384_S2000x384_1_0_0_1_n_n.rhsNonContracting by decide)]
  rfl

/-- A product into the zero accumulator is the sum over the shared axis of the factors' products. -/
theorem mm_apply (l : FVec Ideal S2000x384 .bf16) (r : FVec Ideal S384x384 .bf16) (p : Fin 2000) (q : Fin 384) :
    matmul dot_S2000x384_S384x384_S2000x384_1_0_0_1_n_n none l r (constant (F := Ideal) S2000x384 .f32 0x00000000#32) (ix2 p q)
      = ∑ k : Fin 384, l (ix2 p k) * r (ix2 k q) := by
  simp only [matmul]
  rw [Ideal.matmul_constant_zero_apply, ← Equiv.sum_comp (contrEquiv1 dot_S2000x384_S384x384_S2000x384_1_0_0_1_n_n 384 rfl rfl).symm]
  refine Finset.sum_congr rfl fun k _ => ?_
  have hk := contrEquiv1_symm_val dot_S2000x384_S384x384_S2000x384_1_0_0_1_n_n 384 rfl rfl k
  congr 2
  · exact Shape.idx_ext₂ (lhs_0 _ _) ((DotDims.lhsIdx_val_of_single _ rfl _ _).trans hk)
  · exact Shape.idx_ext₂ ((DotDims.rhsIdx_val_of_single _ rfl _ _).trans hk) (rhs_1 _ _)

/-- The layer update at a row reads its two node arrays in that row only. -/
theorem gin_row {A A' J H : Type} [Fintype J] [Fintype H] (h agg : A → J → EReal) (h' agg' : A' → J → EReal)
    (W1 : J → H → EReal) (b1 : H → EReal) (W2 : H → J → EReal) (b2 : J → EReal) (γ β μ v : J → EReal) (ε : EReal)
    (i : A) (i' : A') (hh : ∀ k, h i k = h' i' k) (ha : ∀ k, agg i k = agg' i' k) (j : J) :
    Spec.gin h agg W1 b1 W2 b2 γ β μ v ε i j = Spec.gin h' agg' W1 b1 W2 b2 γ β μ v ε i' j := by
  unfold Spec.gin Spec.relu Spec.bnorm Spec.mlp2 Spec.dense Spec.relu
  simp only [hh, ha]

/-- The layer update of ten whole arrays, as an array of rows and lanes. -/
def ginArr (Y0 Y1 : S50000x384.Idx → EReal) (Y2 : S384x384.Idx → EReal) (Y3 : S384.Idx → EReal) (Y4 : S384x384.Idx → EReal)
    (Y5 Y6 Y7 Y8 Y9 : S384.Idx → EReal) : S50000x384.Idx → EReal := fun i =>
  Spec.gin (Arr.a2 Y0) (Arr.a2 Y1) (Arr.a2 Y2) (Arr.a1 Y3) (Arr.a2 Y4) (Arr.a1 Y5) (Arr.a1 Y6) (Arr.a1 Y7)
    (Arr.a1 Y8) (Arr.a1 Y9) Cert.Net.eps (i 0) (i 1)

theorem pay_apply (x0 x1 : Vec Ideal S2000x384 .f32) (x2 : Vec Ideal S384x384 .bf16) (x3 : Vec Ideal S384 .f32)
    (x4 : Vec Ideal S384x384 .bf16) (x5 x6 x7 x8 x9 : Vec Ideal S384 .f32) (p : Fin 2000) (q : Fin 384) :
    k2_pay1 (k2_pay2 x0 x1 x2 x3 x4 x5 x6 x8) (k2_pay3 x9) x7 (ix2 p q)
      = Spec.gin (Arr.a2 x0) (Arr.a2 x1) (Arr.a2 x2) (Arr.a1 x3) (Arr.a2 x4) (Arr.a1 x5) (Arr.a1 x6) (Arr.a1 x7)
          (Arr.a1 x8) (Arr.a1 x9) Cert.Net.eps p q := by
  unfold k2_pay1 k2_pay2 k2_pay3
  simp only [maximumf_apply, addf_apply, mulf_apply, subf_apply, broadcast_apply, row_bcast', mm_apply,
    truncf_apply, shapeCast_self]
  have hr : ∀ (x : FVec Ideal S384 .f32) (i : S384.Idx), rsqrt x i = Ideal.rsqrt (x i) := fun _ _ => rfl
  simp only [hr, addf_apply, broadcast_apply, Ideal.ofBits_def, Ideal.ofBits_zero_f32]
  rfl

/-- The stored block at a row and lane is the layer update of the whole arrays at the array row it holds, when the two
    node blocks hold that row of their arrays and the eight parameter blocks are their arrays. -/
theorem block_apply (x0 x1 : Vec Ideal S2000x384 .f32) (x2 : Vec Ideal S384x384 .bf16) (x3 : Vec Ideal S384 .f32)
    (x4 : Vec Ideal S384x384 .bf16) (x5 x6 x7 x8 x9 : Vec Ideal S384 .f32)
    (Y0 Y1 : S50000x384.Idx → EReal) (Y2 : S384x384.Idx → EReal) (Y3 : S384.Idx → EReal) (Y4 : S384x384.Idx → EReal)
    (Y5 Y6 Y7 Y8 Y9 : S384.Idx → EReal) (p : Fin 2000) (q : Fin 384) (r : Fin 50000)
    (h0 : ∀ k : Fin 384, x0 (ix2 p k) = Y0 (ix2 r k)) (h1 : ∀ k : Fin 384, x1 (ix2 p k) = Y1 (ix2 r k))
    (h2 : x2 = Y2) (h3 : x3 = Y3) (h4 : x4 = Y4) (h5 : x5 = Y5) (h6 : x6 = Y6) (h7 : x7 = Y7) (h8 : x8 = Y8) (h9 : x9 = Y9) :
    k2_pay1 (k2_pay2 x0 x1 x2 x3 x4 x5 x6 x8) (k2_pay3 x9) x7 (ix2 p q) = ginArr Y0 Y1 Y2 Y3 Y4 Y5 Y6 Y7 Y8 Y9 (ix2 r q) := by
  subst h2 h3 h4 h5 h6 h7 h8 h9
  exact (pay_apply x0 x1 x2 x3 x4 x5 x6 x7 x8 x9 p q).trans (gin_row _ _ _ _ _ _ _ _ _ _ _ _ _ p r h0 h1 q)

theorem hz2 : (![0, 0] : Fin 2 → Nat) = fun _ => 0 := funext fun a => by fin_cases a <;> rfl
theorem hz1 : (![0] : Fin 1 → Nat) = fun _ => 0 := funext fun a => by fin_cases a <;> rfl

/-- An embedding of a shape into itself at block index zero on every axis is the identity. -/
theorem emb_id {S : Shape} {e : S.Idx → S.Idx} {I : Fin S.rank → Nat}
    (he : ∀ z a, (e z a : Nat) = I a * S.size a + z a) (hI : ∀ a, I a = 0) (z : S.Idx) : e z = z :=
  funext fun a => Fin.ext (by rw [he, hI, Nat.zero_mul, Nat.zero_add])

/-- What a point stores, at an index of its block, is the layer update of the ten whole arrays at the array index the
    output's embedding sends it to. -/
theorem flushed_apply {x0 x1 : Vec Ideal S2000x384 .f32} {x2 : Vec Ideal S384x384 .bf16} {x3 : Vec Ideal S384 .f32}
    {x4 : Vec Ideal S384x384 .bf16} {x5 x6 x7 x8 x9 : Vec Ideal S384 .f32}
    {Y0 Y1 : S50000x384.Idx → EReal} {Y2 : S384x384.Idx → EReal} {Y3 : S384.Idx → EReal} {Y4 : S384x384.Idx → EReal}
    {Y5 Y6 Y7 Y8 Y9 : S384.Idx → EReal}
    {e0 e1 eo : S2000x384.Idx → S50000x384.Idx} {e2 e4 : S384x384.Idx → S384x384.Idx}
    {e3 e5 e6 e7 e8 e9 : S384.Idx → S384.Idx} {I0 I1 I2 I4 Io : Fin 2 → Nat} {I3 I5 I6 I7 I8 I9 : Fin 1 → Nat}
    (he0 : ∀ z a, (e0 z a : Nat) = I0 a * S2000x384.size a + z a) (he1 : ∀ z a, (e1 z a : Nat) = I1 a * S2000x384.size a + z a)
    (he2 : ∀ z a, (e2 z a : Nat) = I2 a * S384x384.size a + z a) (he3 : ∀ z a, (e3 z a : Nat) = I3 a * S384.size a + z a)
    (he4 : ∀ z a, (e4 z a : Nat) = I4 a * S384x384.size a + z a) (he5 : ∀ z a, (e5 z a : Nat) = I5 a * S384.size a + z a)
    (he6 : ∀ z a, (e6 z a : Nat) = I6 a * S384.size a + z a) (he7 : ∀ z a, (e7 z a : Nat) = I7 a * S384.size a + z a)
    (he8 : ∀ z a, (e8 z a : Nat) = I8 a * S384.size a + z a) (he9 : ∀ z a, (e9 z a : Nat) = I9 a * S384.size a + z a)
    (heo : ∀ z a, (eo z a : Nat) = Io a * S2000x384.size a + z a)
    (h0 : ∀ z, x0 z = Y0 (e0 z)) (h1 : ∀ z, x1 z = Y1 (e1 z)) (h2 : ∀ z, x2 z = Y2 (e2 z)) (h3 : ∀ z, x3 z = Y3 (e3 z))
    (h4 : ∀ z, x4 z = Y4 (e4 z)) (h5 : ∀ z, x5 z = Y5 (e5 z)) (h6 : ∀ z, x6 z = Y6 (e6 z)) (h7 : ∀ z, x7 z = Y7 (e7 z))
    (h8 : ∀ z, x8 z = Y8 (e8 z)) (h9 : ∀ z, x9 z = Y9 (e9 z))
    (hI : (∀ a, I0 a = Io a) ∧ (∀ a, I1 a = Io a) ∧ Io 1 = 0 ∧ (∀ a, I2 a = 0) ∧ (∀ a, I3 a = 0) ∧ (∀ a, I4 a = 0)
      ∧ (∀ a, I5 a = 0) ∧ (∀ a, I6 a = 0) ∧ (∀ a, I7 a = 0) ∧ (∀ a, I8 a = 0) ∧ (∀ a, I9 a = 0))
    (y : S2000x384.Idx) :
    out2_10 x0 x1 x2 x3 x4 x5 x6 x7 x8 x9 y = ginArr Y0 Y1 Y2 Y3 Y4 Y5 Y6 Y7 Y8 Y9 (eo y) := by
  obtain ⟨i0, i1, o1, i2, i3, i4, i5, i6, i7, i8, i9⟩ := hI
  obtain ⟨p, q, rfl⟩ : ∃ (p : Fin 2000) (q : Fin 384), y = ix2 p q := ⟨y 0, y 1, eq_ix2 y⟩
  obtain ⟨r, s, hrs⟩ : ∃ (r : Fin 50000) (s : Fin 384), eo (ix2 p q) = ix2 r s :=
    ⟨eo (ix2 p q) 0, eo (ix2 p q) 1, eq_ix2 _⟩
  have hr : (r : Nat) = Io 0 * 2000 + p :=
    (congrArg (fun j : S50000x384.Idx => (j 0 : Nat)) hrs).symm.trans (heo (ix2 p q) (0 : Fin 2))
  have hs : (s : Nat) = q := (congrArg (fun j : S50000x384.Idx => (j 1 : Nat)) hrs).symm.trans
    ((heo (ix2 p q) (1 : Fin 2)).trans (by rw [o1, Nat.zero_mul, Nat.zero_add]))
  obtain rfl : q = s := (Fin.ext hs).symm
  have row : ∀ {e : S2000x384.Idx → S50000x384.Idx} {I : Fin 2 → Nat}, (∀ z a, (e z a : Nat) = I a * S2000x384.size a + z a) →
      (∀ a, I a = Io a) → ∀ k : Fin 384, e (ix2 p k) = ix2 r k := fun he hI k =>
    Shape.idx_ext₂ ((he _ (0 : Fin 2)).trans (by rw [hI]; exact hr.symm))
      ((he _ (1 : Fin 2)).trans (by rw [hI, o1, Nat.zero_mul, Nat.zero_add]))
  rw [hrs]
  unfold out2_10
  rw [View.canon_unit_zero hz2]
  simp only [View.ld_unit_zero (S := S2000x384) hz2, View.ld_unit_zero (S := S384x384) hz2, View.ld_unit_zero (S := S384) hz1]
  exact block_apply x0 x1 x2 x3 x4 x5 x6 x7 x8 x9 Y0 Y1 Y2 Y3 Y4 Y5 Y6 Y7 Y8 Y9 p q r
    (fun k => (h0 _).trans (congrArg Y0 (row he0 i0 k))) (fun k => (h1 _).trans (congrArg Y1 (row he1 i1 k)))
    (funext fun z => (h2 z).trans (congrArg Y2 (emb_id he2 i2 z))) (funext fun z => (h3 z).trans (congrArg Y3 (emb_id he3 i3 z)))
    (funext fun z => (h4 z).trans (congrArg Y4 (emb_id he4 i4 z))) (funext fun z => (h5 z).trans (congrArg Y5 (emb_id he5 i5 z)))
    (funext fun z => (h6 z).trans (congrArg Y6 (emb_id he6 i6 z))) (funext fun z => (h7 z).trans (congrArg Y7 (emb_id he7 i7 z)))
    (funext fun z => (h8 z).trans (congrArg Y8 (emb_id he8 i8 z))) (funext fun z => (h9 z).trans (congrArg Y9 (emb_id he9 i9 z)))

/-- Blocks of 2000 rows, block t from row 2000 t, cover the 50000 rows: row r lies in block r / 2000. -/
theorem cover_rows {N : Nat} (hN : N = 25) {I : Fin N → Fin 2 → Nat} (h : ∀ t, I t 0 = t.val ∧ I t 1 = 0)
    (i : S50000x384.Idx) :
    ∃ t : Fin N, ∀ a, I t a * S2000x384.size a ≤ (i a).val ∧ (i a).val < I t a * S2000x384.size a + S2000x384.size a := by
  subst hN
  have hi0 : (i 0).val < 50000 := idx2_lt0 i
  have hi1 : (i 1).val < 384 := idx2_lt1 i
  have e0 : I ⟨(i 0).val / 2000, by omega⟩ 0 = (i 0).val / 2000 := (h _).1
  have e1 := (h ⟨(i 0).val / 2000, by omega⟩).2
  refine ⟨⟨(i 0).val / 2000, by omega⟩, fun a => ?_⟩
  match a with
  | ⟨0, _⟩ => show I _ 0 * 2000 ≤ (i 0).val ∧ (i 0).val < I _ 0 * 2000 + 2000; rw [e0]; omega
  | ⟨1, _⟩ => show I _ 1 * 384 ≤ (i 1).val ∧ (i 1).val < I _ 1 * 384 + 384; rw [e1]; omega

theorem a2_ginArr {X Y0 Y1 : S50000x384.Idx → EReal} {Y2 : S384x384.Idx → EReal} {Y3 : S384.Idx → EReal}
    {Y4 : S384x384.Idx → EReal} {Y5 Y6 Y7 Y8 Y9 : S384.Idx → EReal} (h : X = ginArr Y0 Y1 Y2 Y3 Y4 Y5 Y6 Y7 Y8 Y9) :
    Arr.a2 X = Spec.gin (Arr.a2 Y0) (Arr.a2 Y1) (Arr.a2 Y2) (Arr.a1 Y3) (Arr.a2 Y4) (Arr.a1 Y5) (Arr.a1 Y6) (Arr.a1 Y7)
      (Arr.a1 Y8) (Arr.a1 Y9) Cert.Net.eps := by
  rw [h]; rfl

end Cert.KernelIdeal.GinBlock

end
-- ==== Proof.KRegGin2.lean ====
import proofs.«422490_j54958401520128_2_alg».proof.Proof.Gen.KernelIdeal.Frame
import proofs.«422490_j54958401520128_2_alg».proof.Proof.KGinShared

set_option maxRecDepth 16384

noncomputable section

namespace Cert.KernelIdeal.RegGin2

open Idealize.ShloMosaic Idealize.ShloMosaic.TcCoe Idealize.SL.Sem
open Idealize.ShloMosaic.Pipeline (Dat)
open Cert.KernelIdeal Cert.KernelIdeal.Gen Cert.KernelIdeal.GinBlock

variable (V : (c : Dev nD) → (b : Ref sig .tc) → Buf (Elt Ideal) ((c : Thread nD τ).loc b))

theorem idx_facts : ∀ t : Fin cfg2.N,
    ((∀ a : Fin 2, win2_0.index t a = win2_10.index t a) ∧ (∀ a : Fin 2, win2_1.index t a = win2_10.index t a)
      ∧ win2_10.index t (1 : Fin 2) = 0
      ∧ (∀ a : Fin 2, win2_2.index t a = 0) ∧ (∀ a : Fin 1, win2_3.index t a = 0) ∧ (∀ a : Fin 2, win2_4.index t a = 0)
      ∧ (∀ a : Fin 1, win2_5.index t a = 0) ∧ (∀ a : Fin 1, win2_6.index t a = 0) ∧ (∀ a : Fin 1, win2_7.index t a = 0)
      ∧ (∀ a : Fin 1, win2_8.index t a = 0) ∧ (∀ a : Fin 1, win2_9.index t a = 0))
    ∧ win2_10.index t (0 : Fin 2) = t.val :=
  (by decide +kernel : ∀ t : Fin grid2.N, _)

set_option maxHeartbeats 1000000 in
theorem region2_value (c : Dev nD) :
    Arr.a2 ((dat2 V c).arrAt 10 cfg2.N : S50000x384.Idx → EReal)
      = Spec.gin (Arr.a2 (V c (Pipeline.arrRef spec2 0) : S50000x384.Idx → EReal))
          (Arr.a2 (V c (Pipeline.arrRef spec2 1) : S50000x384.Idx → EReal))
          (Arr.a2 (V c (Pipeline.arrRef spec2 2) : S384x384.Idx → EReal))
          (Arr.a1 (V c (Pipeline.arrRef spec2 3) : S384.Idx → EReal))
          (Arr.a2 (V c (Pipeline.arrRef spec2 4) : S384x384.Idx → EReal))
          (Arr.a1 (V c (Pipeline.arrRef spec2 5) : S384.Idx → EReal))
          (Arr.a1 (V c (Pipeline.arrRef spec2 6) : S384.Idx → EReal))
          (Arr.a1 (V c (Pipeline.arrRef spec2 7) : S384.Idx → EReal))
          (Arr.a1 (V c (Pipeline.arrRef spec2 8) : S384.Idx → EReal))
          (Arr.a1 (V c (Pipeline.arrRef spec2 9) : S384.Idx → EReal)) Cert.Net.eps := by
  refine a2_ginArr ((dat2 V c).arrAt_eq_of_cover 10 _ (fun t _ => ?_) fun i => ?_)
  · show (cfg2.win 10).cut (grid2.coords t) ((dat2 V c).after 10 t) = _
    rw [after2_10]
    funext y
    exact flushed_apply (win2_0.rect_emb_val t) (win2_1.rect_emb_val t) (win2_2.rect_emb_val t) (win2_3.rect_emb_val t)
      (win2_4.rect_emb_val t) (win2_5.rect_emb_val t) (win2_6.rect_emb_val t) (win2_7.rect_emb_val t)
      (win2_8.rect_emb_val t) (win2_9.rect_emb_val t) (win2_10.rect_emb_val t) (fun _ => by rfl) (fun _ => by rfl) (fun _ => by rfl)
      (fun _ => by rfl) (fun _ => by rfl) (fun _ => by rfl) (fun _ => by rfl) (fun _ => by rfl) (fun _ => by rfl) (fun _ => by rfl)
      (idx_facts t).1 y
  · obtain ⟨t, ht⟩ := cover_rows N_2 (I := fun t => win2_10.index t) (fun t => ⟨(idx_facts t).2, (idx_facts t).1.2.2.1⟩) i
    refine ⟨t, flush2_10 t, ?_⟩
    show i ∈ ((View.whole main_v61).slice (win2_10.rect t)).set
    rw [View.set_slice_whole, Rect.mem_set_unit]
    exact ht

end Cert.KernelIdeal.RegGin2

end
-- ==== Proof.KChainL0.lean ====
import proofs.«422490_j54958401520128_2_alg».proof.Proof.Gen.KernelIdeal.Frame
import proofs.«422490_j54958401520128_2_alg».proof.Proof.KState
import proofs.«422490_j54958401520128_2_alg».proof.Proof.KHostL0
import proofs.«422490_j54958401520128_2_alg».proof.Proof.KRegGin2

set_option maxRecDepth 16384

noncomputable section

namespace Cert.KChainL0

open Idealize.ShloMosaic Idealize.ShloMosaic.ValueIdx Idealize.ShloMosaic.TcCoe Idealize.SL.Sem
open Cert.KernelIdeal Cert.KernelIdeal.Gen
open Cert.Spec Cert.Arr Cert.Net

variable (m : (ℓ : Loc nD τ sig) → Buf (Elt Ideal) ℓ) (ρ : Dev nD → PrngReg) (c : Dev nD)

theorem unchanged (b : Ref sig .tc) (hb : ∀ w, Pipeline.arrRef spec2 w ≠ b)
    (hr : b ∉ KHostL0.wrA ++ KHostL0.wrB ++ KHostL0.wrC ++ KHostL0.wrD ++ KHostL0.wrE) :
    W49 m ρ c (Proc.devRef .tc b) = W43 m ρ c (Proc.devRef .tc b) := by
  simp only [List.mem_append, not_or] at hr
  exact (W49_of_ne m ρ c b hb).trans (KHostL0.carry (W43 m ρ c) b hr.1.1.1.1 hr.1.1.1.2 hr.1.1.2 hr.1.2 hr.2)

/-- Layer 0: the update's output is the wide network's layer 0 of the entering features; the edge features, index words and parameters are in place for the later layers. -/
theorem at49 (hs : KState.SrcOk (KState.argsOf m c))
    (h43 : a2 (W43 m ρ c (Proc.devRef .tc main_v33)) = KNet.h0 (KState.argsOf m c))
    (e43 : a2 (W43 m ρ c (Proc.devRef .tc main_v34)) = KNet.ee (KState.argsOf m c))
    (a3_43 : W43 m ρ c (Proc.devRef .tc main_arg3) = m ((c : Thread nD τ).loc main_arg3))
    (p43 : KState.Params (KState.argsOf m c) (W43 m ρ c)) :
    a2 (W49 m ρ c (Proc.devRef .tc main_v61)) = KNet.step (KState.argsOf m c) 0 (KNet.h0 (KState.argsOf m c))
      ∧ KState.Edges (KState.argsOf m c) (W49 m ρ c) ∧ KState.Params (KState.argsOf m c) (W49 m ρ c) := by
  have hsrc : ∀ e : Fin 125000, 0 ≤ (a2 (W43 m ρ c (Proc.devRef .tc main_arg3)) 0 e).toInt
      ∧ (a2 (W43 m ρ c (Proc.devRef .tc main_arg3)) 0 e).toInt < 50000 := by
    rw [a3_43]; exact hs
  refine ⟨?_, ⟨?_, ?_, ?_⟩, ?_⟩
  · have hout : a2 (W49 m ρ c (Proc.devRef .tc main_v61))
        = a2 ((dat2 (V48 m ρ) c).arrAt 10 cfg2.N : S50000x384.Idx → EReal) := congrArg a2 (W49_arr m ρ c 10)
    rw [hout, RegGin2.region2_value (V48 m ρ) c]
    show gin (a2 (KHostL0.after0 (W43 m ρ c) (Proc.devRef .tc main_v33)))
        (a2 (KHostL0.after0 (W43 m ρ c) (Proc.devRef .tc main_v44)))
        (a2 (KHostL0.after0 (W43 m ρ c) (Proc.devRef .tc main_v46)))
        (a1 (KHostL0.after0 (W43 m ρ c) (Proc.devRef .tc main_v48)))
        (a2 (KHostL0.after0 (W43 m ρ c) (Proc.devRef .tc main_v50)))
        (a1 (KHostL0.after0 (W43 m ρ c) (Proc.devRef .tc main_v52)))
        (a1 (KHostL0.after0 (W43 m ρ c) (Proc.devRef .tc main_v54)))
        (a1 (KHostL0.after0 (W43 m ρ c) (Proc.devRef .tc main_v56)))
        (a1 (KHostL0.after0 (W43 m ρ c) (Proc.devRef .tc main_v58)))
        (a1 (KHostL0.after0 (W43 m ρ c) (Proc.devRef .tc main_v60))) eps = _
    rw [KHostL0.carry_v33, KHostL0.agg0_value _ hsrc, KHostL0.v46_value, KHostL0.v48_value, KHostL0.v50_value,
      KHostL0.v52_value, KHostL0.v54_value, KHostL0.v56_value, KHostL0.v58_value, KHostL0.v60_value,
      h43, e43, a3_43, p43.gW1 0, p43.gb1, p43.gW2 0, p43.gb2, p43.gγ, p43.gβ, p43.gμ, p43.gv]
    rfl
  · rw [unchanged m ρ c main_v34 (by decide) (by decide)]; exact e43
  · rw [W49_of_ne m ρ c main_v36 (by decide)]
    show a1 (KHostL0.after0 (W43 m ρ c) (Proc.devRef .tc main_v36)) = _
    rw [KHostL0.src_value, a3_43]
    rfl
  · rw [W49_of_ne m ρ c main_v38 (by decide)]
    show a1 (KHostL0.after0 (W43 m ρ c) (Proc.devRef .tc main_v38)) = _
    rw [KHostL0.dst_value, a3_43]
    rfl
  · exact p43.carry (unchanged m ρ c main_v14 (by decide) (by decide)) (unchanged m ρ c main_v15 (by decide) (by decide))
      (unchanged m ρ c main_v17 (by decide) (by decide)) (unchanged m ρ c main_v18 (by decide) (by decide))
      (unchanged m ρ c main_v19 (by decide) (by decide)) (unchanged m ρ c main_v20 (by decide) (by decide))
      (unchanged m ρ c main_v21 (by decide) (by decide)) (unchanged m ρ c main_v22 (by decide) (by decide))
      (unchanged m ρ c main_v26 (by decide) (by decide)) (unchanged m ρ c main_v27 (by decide) (by decide))

end Cert.KChainL0

end
-- ==== Proof.KHostL1.lean ====
import proofs.«422490_j54958401520128_2_alg».proof.Proof.MessageSum

noncomputable section

namespace Cert.KernelIdeal.Gen.L1

open Idealize.ShloMosaic Idealize.ShloMosaic.ValueIdx
open Cert.Spec Cert.Arr Cert.Net MessageSum

noncomputable def written : List (Ref sig .tc) :=
  [main_call22_c, main_call22_v0, main_call22_v1, main_call22_c_0, main_call22_v2, main_call22_v3, main_call22_v4,
   main_call22_v5, main_call22_c_1, main_call22_c_2, main_call22_v6, main_call22_v7, main_call22_v8, main_call22_v9,
   main_call22_v10, main_call22_v11, main_call22_c_3, main_call22_v12, main_call22_v13, main_call22_v14,
   main_call22_cst, main_call22_v15, main_v62,
   main_v63,
   main_call23_cst, main_call23_v0, main_v64,
   main_cst_18, main_v65, main_v66, main_v67, main_v68, main_v69, main_v70, main_v71, main_v72, main_v73, main_v74,
   main_v75, main_v76, main_v77, main_v78, main_v79, main_v80, main_v81, main_v82, main_v83]

theorem subs : WritesIn written (hostOps3 (F := Ideal)) ∧ WritesIn written (hostOps3_1 (F := Ideal))
    ∧ WritesIn written (hostOps3_2 (F := Ideal)) ∧ WritesIn written (hostOps3_3 (F := Ideal)) := by
  refine ⟨?_, ?_, ?_, ?_⟩
  all_goals simp only [WritesIn, hostOps3, hostOps3_1, hostOps3_2, hostOps3_3, List.Forall, StableHlo.nullary_writes, StableHlo.unary_writes,
    StableHlo.binary_writes, StableHlo.ternary_writes, StableHlo.reshape_writes, Finset.singleton_subset_iff]
  all_goals repeat' apply And.intro
  all_goals exact mem_wr (by decide)

abbrev afterAll (W : Valuation τ sig (Elt Ideal)) : Valuation τ sig (Elt Ideal) :=
  StableHlo.after (hostOps3_3 (F := Ideal)) (StableHlo.after (hostOps3_2 (F := Ideal))
    (StableHlo.after (hostOps3_1 (F := Ideal)) (StableHlo.after (hostOps3 (F := Ideal)) W)))

variable (W : Valuation τ sig (Elt Ideal))

theorem after3_v62 :
    StableHlo.after (hostOps3 (F := Ideal)) W (Proc.devRef .tc main_v62)
      = takeRows (W (Proc.devRef .tc main_v61)) (W (Proc.devRef .tc main_v36)) := by
  after_results_simp
  simp only [StableHlo.TRef.ofBuf_toBuf]
  simp only [StableHlo.TRef.ofBuf, StableHlo.TRef.toBuf, cast_eq]
  rfl

theorem after3_2_v64 :
    StableHlo.after (hostOps3_2 (F := Ideal)) (StableHlo.after (hostOps3_1 (F := Ideal)) W) (Proc.devRef .tc main_v64)
      = msgRows (W (Proc.devRef .tc main_v62)) (W (Proc.devRef .tc main_v34)) := by
  after_results_simp
  simp only [StableHlo.TRef.ofBuf_toBuf]
  simp only [StableHlo.TRef.ofBuf, StableHlo.TRef.toBuf, cast_eq]
  rfl

theorem after3_3_v67 :
    StableHlo.after (hostOps3_3 (F := Ideal)) W (Proc.devRef .tc main_v67)
      = aggRows (W (Proc.devRef .tc main_v38)) (W (Proc.devRef .tc main_v64)) := by
  after_results_simp
  rfl
theorem after3_3_v69 :
    StableHlo.after (hostOps3_3 (F := Ideal)) W (Proc.devRef .tc main_v69) = sliceMat 1 slices_S5x384x384_S1x384x384_1_0_0 (W (Proc.devRef .tc main_v14)) := by
  after_results_simp
  rfl
theorem after3_3_v71 :
    StableHlo.after (hostOps3_3 (F := Ideal)) W (Proc.devRef .tc main_v71) = sliceVec 1 slices_S5x384_S1x384_1_0 (W (Proc.devRef .tc main_v15)) := by
  after_results_simp
  rfl
theorem after3_3_v73 :
    StableHlo.after (hostOps3_3 (F := Ideal)) W (Proc.devRef .tc main_v73) = sliceMat 1 slices_S5x384x384_S1x384x384_1_0_0 (W (Proc.devRef .tc main_v17)) := by
  after_results_simp
  rfl
theorem after3_3_v75 :
    StableHlo.after (hostOps3_3 (F := Ideal)) W (Proc.devRef .tc main_v75) = sliceVec 1 slices_S5x384_S1x384_1_0 (W (Proc.devRef .tc main_v18)) := by
  after_results_simp
  rfl
theorem after3_3_v77 :
    StableHlo.after (hostOps3_3 (F := Ideal)) W (Proc.devRef .tc main_v77) = sliceVec 1 slices_S5x384_S1x384_1_0 (W (Proc.devRef .tc main_v19)) := by
  after_results_simp
  rfl
theorem after3_3_v79 :
    StableHlo.after (hostOps3_3 (F := Ideal)) W (Proc.devRef .tc main_v79) = sliceVec 1 slices_S5x384_S1x384_1_0 (W (Proc.devRef .tc main_v20)) := by
  after_results_simp
  rfl
theorem after3_3_v81 :
    StableHlo.after (hostOps3_3 (F := Ideal)) W (Proc.devRef .tc main_v81) = sliceVec 1 slices_S5x384_S1x384_1_0 (W (Proc.devRef .tc main_v21)) := by
  after_results_simp
  rfl
theorem after3_3_v83 :
    StableHlo.after (hostOps3_3 (F := Ideal)) W (Proc.devRef .tc main_v83) = sliceVec 1 slices_S5x384_S1x384_1_0 (W (Proc.devRef .tc main_v22)) := by
  after_results_simp
  rfl

theorem keep {r : Ref sig .tc} (hr : r ∉ written) : afterAll W (Proc.devRef .tc r) = W (Proc.devRef .tc r) :=
  (StableHlo.after_of_writes_sub _ _ subs.2.2.2 hr).trans (keep3 subs W hr)

theorem agg1_value
    (hs : ∀ e : Fin 125000, 0 ≤ (a1 (W (Proc.devRef .tc main_v36)) e).toInt ∧ (a1 (W (Proc.devRef .tc main_v36)) e).toInt < 50000) :
    a2 (afterAll W (Proc.devRef .tc main_v67))
      = segsum (a1 (W (Proc.devRef .tc main_v38)))
          (msgs (a2 (W (Proc.devRef .tc main_v61)))
            (fun e => rowOf 50000 (by norm_num) (wrapw 50000#32 (a1 (W (Proc.devRef .tc main_v36)) e)))
            (a2 (W (Proc.devRef .tc main_v34)))) := by
  show a2 (StableHlo.after (hostOps3_3 (F := Ideal)) _ (Proc.devRef .tc main_v67)) = _
  rw [after3_3_v67, after3_2_v64, after3_v62, keep3 subs W (r := main_v38) (by decide), keep1 subs W (r := main_v34) (by decide)]
  exact agg_value _ _ _ _ hs

theorem W1_value : a2 (afterAll W (Proc.devRef .tc main_v69)) = a3 (W (Proc.devRef .tc main_v14)) 1 :=
  mat_of 1 1 rfl (after3_3_v69 _) (keep3 subs W (by decide))
theorem b1_value : a1 (afterAll W (Proc.devRef .tc main_v71)) = a2 (W (Proc.devRef .tc main_v15)) 1 :=
  vec_of 1 1 rfl (after3_3_v71 _) (keep3 subs W (by decide))
theorem W2_value : a2 (afterAll W (Proc.devRef .tc main_v73)) = a3 (W (Proc.devRef .tc main_v17)) 1 :=
  mat_of 1 1 rfl (after3_3_v73 _) (keep3 subs W (by decide))
theorem b2_value : a1 (afterAll W (Proc.devRef .tc main_v75)) = a2 (W (Proc.devRef .tc main_v18)) 1 :=
  vec_of 1 1 rfl (after3_3_v75 _) (keep3 subs W (by decide))
theorem gamma_value : a1 (afterAll W (Proc.devRef .tc main_v77)) = a2 (W (Proc.devRef .tc main_v19)) 1 :=
  vec_of 1 1 rfl (after3_3_v77 _) (keep3 subs W (by decide))
theorem beta_value : a1 (afterAll W (Proc.devRef .tc main_v79)) = a2 (W (Proc.devRef .tc main_v20)) 1 :=
  vec_of 1 1 rfl (after3_3_v79 _) (keep3 subs W (by decide))
theorem mean_value : a1 (afterAll W (Proc.devRef .tc main_v81)) = a2 (W (Proc.devRef .tc main_v21)) 1 :=
  vec_of 1 1 rfl (after3_3_v81 _) (keep3 subs W (by decide))
theorem var_value : a1 (afterAll W (Proc.devRef .tc main_v83)) = a2 (W (Proc.devRef .tc main_v22)) 1 :=
  vec_of 1 1 rfl (after3_3_v83 _) (keep3 subs W (by decide))

theorem keep_v61 : afterAll W (Proc.devRef .tc main_v61) = W (Proc.devRef .tc main_v61) := keep W (by decide)

end Cert.KernelIdeal.Gen.L1
-- ==== Proof.KRegGin3.lean ====
import proofs.«422490_j54958401520128_2_alg».proof.Proof.Gen.KernelIdeal.Frame
import proofs.«422490_j54958401520128_2_alg».proof.Proof.KGinShared

set_option maxRecDepth 16384

noncomputable section

namespace Cert.KernelIdeal.RegGin3

open Idealize.ShloMosaic Idealize.ShloMosaic.TcCoe Idealize.SL.Sem
open Idealize.ShloMosaic.Pipeline (Dat)
open Cert.KernelIdeal Cert.KernelIdeal.Gen Cert.KernelIdeal.GinBlock

variable (V : (c : Dev nD) → (b : Ref sig .tc) → Buf (Elt Ideal) ((c : Thread nD τ).loc b))

theorem idx_facts : ∀ t : Fin cfg3.N,
    ((∀ a : Fin 2, win3_0.index t a = win3_10.index t a) ∧ (∀ a : Fin 2, win3_1.index t a = win3_10.index t a)
      ∧ win3_10.index t (1 : Fin 2) = 0
      ∧ (∀ a : Fin 2, win3_2.index t a = 0) ∧ (∀ a : Fin 1, win3_3.index t a = 0) ∧ (∀ a : Fin 2, win3_4.index t a = 0)
      ∧ (∀ a : Fin 1, win3_5.index t a = 0) ∧ (∀ a : Fin 1, win3_6.index t a = 0) ∧ (∀ a : Fin 1, win3_7.index t a = 0)
      ∧ (∀ a : Fin 1, win3_8.index t a = 0) ∧ (∀ a : Fin 1, win3_9.index t a = 0))
    ∧ win3_10.index t (0 : Fin 2) = t.val :=
  (by decide +kernel : ∀ t : Fin grid3.N, _)

set_option maxHeartbeats 1000000 in
theorem region3_value (c : Dev nD) :
    Arr.a2 ((dat3 V c).arrAt 10 cfg3.N : S50000x384.Idx → EReal)
      = Spec.gin (Arr.a2 (V c (Pipeline.arrRef spec3 0) : S50000x384.Idx → EReal))
          (Arr.a2 (V c (Pipeline.arrRef spec3 1) : S50000x384.Idx → EReal))
          (Arr.a2 (V c (Pipeline.arrRef spec3 2) : S384x384.Idx → EReal))
          (Arr.a1 (V c (Pipeline.arrRef spec3 3) : S384.Idx → EReal))
          (Arr.a2 (V c (Pipeline.arrRef spec3 4) : S384x384.Idx → EReal))
          (Arr.a1 (V c (Pipeline.arrRef spec3 5) : S384.Idx → EReal))
          (Arr.a1 (V c (Pipeline.arrRef spec3 6) : S384.Idx → EReal))
          (Arr.a1 (V c (Pipeline.arrRef spec3 7) : S384.Idx → EReal))
          (Arr.a1 (V c (Pipeline.arrRef spec3 8) : S384.Idx → EReal))
          (Arr.a1 (V c (Pipeline.arrRef spec3 9) : S384.Idx → EReal)) Cert.Net.eps := by
  refine a2_ginArr ((dat3 V c).arrAt_eq_of_cover 10 _ (fun t _ => ?_) fun i => ?_)
  · show (cfg3.win 10).cut (grid3.coords t) ((dat3 V c).after 10 t) = _
    rw [after3_10]
    funext y
    exact flushed_apply (win3_0.rect_emb_val t) (win3_1.rect_emb_val t) (win3_2.rect_emb_val t) (win3_3.rect_emb_val t)
      (win3_4.rect_emb_val t) (win3_5.rect_emb_val t) (win3_6.rect_emb_val t) (win3_7.rect_emb_val t)
      (win3_8.rect_emb_val t) (win3_9.rect_emb_val t) (win3_10.rect_emb_val t) (fun _ => by rfl) (fun _ => by rfl) (fun _ => by rfl)
      (fun _ => by rfl) (fun _ => by rfl) (fun _ => by rfl) (fun _ => by rfl) (fun _ => by rfl) (fun _ => by rfl) (fun _ => by rfl)
      (idx_facts t).1 y
  · obtain ⟨t, ht⟩ := cover_rows N_3 (I := fun t => win3_10.index t) (fun t => ⟨(idx_facts t).2, (idx_facts t).1.2.2.1⟩) i
    refine ⟨t, flush3_10 t, ?_⟩
    show i ∈ ((View.whole main_v84).slice (win3_10.rect t)).set
    rw [View.set_slice_whole, Rect.mem_set_unit]
    exact ht

end Cert.KernelIdeal.RegGin3

end
-- ==== Proof.KChainL1.lean ====
import proofs.«422490_j54958401520128_2_alg».proof.Proof.Gen.KernelIdeal.Frame
import proofs.«422490_j54958401520128_2_alg».proof.Proof.KState
import proofs.«422490_j54958401520128_2_alg».proof.Proof.KHostL1
import proofs.«422490_j54958401520128_2_alg».proof.Proof.KRegGin3

noncomputable section

namespace Cert.KChainL1

open Idealize.ShloMosaic Idealize.ShloMosaic.ValueIdx Idealize.ShloMosaic.TcCoe Idealize.SL.Sem
open Cert.KernelIdeal Cert.KernelIdeal.Gen
open Cert.Spec Cert.Arr Cert.Net

variable (m : (ℓ : Loc nD τ sig) → Buf (Elt Ideal) ℓ) (ρ : Dev nD → PrngReg) (c : Dev nD)

theorem unchanged (b : Ref sig .tc) (hb : ∀ w, Pipeline.arrRef spec3 w ≠ b) (hr : b ∉ L1.written) :
    W54 m ρ c (Proc.devRef .tc b) = W49 m ρ c (Proc.devRef .tc b) :=
  (W54_of_ne m ρ c b hb).trans (L1.keep (W49 m ρ c) hr)

/-- Layer 1: the update's output is the wide network's layer 1 of the incoming features H; the edge arrays and the parameters stay. -/
theorem at54 {a : Net.Args} (hs : KState.SrcOk a) (H : Fin 50000 → Fin 384 → EReal)
    (h49 : a2 (W49 m ρ c (Proc.devRef .tc main_v61)) = H) (e49 : KState.Edges a (W49 m ρ c))
    (p49 : KState.Params a (W49 m ρ c)) :
    a2 (W54 m ρ c (Proc.devRef .tc main_v84)) = KNet.step a 1 H
      ∧ KState.Edges a (W54 m ρ c) ∧ KState.Params a (W54 m ρ c) := by
  have hsrc : ∀ e : Fin 125000, 0 ≤ (a1 (W49 m ρ c (Proc.devRef .tc main_v36)) e).toInt
      ∧ (a1 (W49 m ρ c (Proc.devRef .tc main_v36)) e).toInt < 50000 := by
    rw [e49.src]; exact hs
  refine ⟨?_, ?_, ?_⟩
  · have hout : a2 (W54 m ρ c (Proc.devRef .tc main_v84))
        = a2 ((dat3 (V53 m ρ) c).arrAt 10 cfg3.N : S50000x384.Idx → EReal) := congrArg a2 (W54_arr m ρ c 10)
    rw [hout, RegGin3.region3_value (V53 m ρ) c]
    show gin (a2 (L1.afterAll (W49 m ρ c) (Proc.devRef .tc main_v61)))
        (a2 (L1.afterAll (W49 m ρ c) (Proc.devRef .tc main_v67)))
        (a2 (L1.afterAll (W49 m ρ c) (Proc.devRef .tc main_v69)))
        (a1 (L1.afterAll (W49 m ρ c) (Proc.devRef .tc main_v71)))
        (a2 (L1.afterAll (W49 m ρ c) (Proc.devRef .tc main_v73)))
        (a1 (L1.afterAll (W49 m ρ c) (Proc.devRef .tc main_v75)))
        (a1 (L1.afterAll (W49 m ρ c) (Proc.devRef .tc main_v77)))
        (a1 (L1.afterAll (W49 m ρ c) (Proc.devRef .tc main_v79)))
        (a1 (L1.afterAll (W49 m ρ c) (Proc.devRef .tc main_v81)))
        (a1 (L1.afterAll (W49 m ρ c) (Proc.devRef .tc main_v83))) eps = _
    rw [L1.keep_v61, L1.agg1_value _ hsrc, L1.W1_value, L1.b1_value, L1.W2_value, L1.b2_value, L1.gamma_value,
      L1.beta_value, L1.mean_value, L1.var_value, h49, e49.ee, e49.src, e49.dst, p49.gW1 1, p49.gb1, p49.gW2 1,
      p49.gb2, p49.gγ, p49.gβ, p49.gμ, p49.gv]
    rfl
  · exact e49.carry (unchanged m ρ c main_v34 (by decide) (by decide)) (unchanged m ρ c main_v36 (by decide) (by decide))
      (unchanged m ρ c main_v38 (by decide) (by decide))
  · exact p49.carry (unchanged m ρ c main_v14 (by decide) (by decide)) (unchanged m ρ c main_v15 (by decide) (by decide))
      (unchanged m ρ c main_v17 (by decide) (by decide)) (unchanged m ρ c main_v18 (by decide) (by decide))
      (unchanged m ρ c main_v19 (by decide) (by decide)) (unchanged m ρ c main_v20 (by decide) (by decide))
      (unchanged m ρ c main_v21 (by decide) (by decide)) (unchanged m ρ c main_v22 (by decide) (by decide))
      (unchanged m ρ c main_v26 (by decide) (by decide)) (unchanged m ρ c main_v27 (by decide) (by decide))

end Cert.KChainL1

end
-- ==== Proof.KHostL2.lean ====
import proofs.«422490_j54958401520128_2_alg».proof.Proof.MessageSum

noncomputable section

namespace Cert.KernelIdeal.Gen.L2

open Idealize.ShloMosaic Idealize.ShloMosaic.ValueIdx
open Cert.Spec Cert.Arr Cert.Net MessageSum

noncomputable def written : List (Ref sig .tc) :=
  [main_call24_c, main_call24_v0, main_call24_v1, main_call24_c_0, main_call24_v2, main_call24_v3, main_call24_v4,
   main_call24_v5, main_call24_c_1, main_call24_c_2, main_call24_v6, main_call24_v7, main_call24_v8, main_call24_v9,
   main_call24_v10, main_call24_v11, main_call24_c_3, main_call24_v12, main_call24_v13, main_call24_v14,
   main_call24_cst, main_call24_v15, main_v85,
   main_v86,
   main_call25_cst, main_call25_v0, main_v87,
   main_cst_19, main_v88, main_v89, main_v90, main_v91, main_v92, main_v93, main_v94, main_v95, main_v96, main_v97,
   main_v98, main_v99, main_v100, main_v101, main_v102, main_v103, main_v104, main_v105, main_v106]

theorem subs : WritesIn written (hostOps4 (F := Ideal)) ∧ WritesIn written (hostOps4_1 (F := Ideal))
    ∧ WritesIn written (hostOps4_2 (F := Ideal)) ∧ WritesIn written (hostOps4_3 (F := Ideal)) := by
  refine ⟨?_, ?_, ?_, ?_⟩
  all_goals simp only [WritesIn, hostOps4, hostOps4_1, hostOps4_2, hostOps4_3, List.Forall, StableHlo.nullary_writes, StableHlo.unary_writes,
    StableHlo.binary_writes, StableHlo.ternary_writes, StableHlo.reshape_writes, Finset.singleton_subset_iff]
  all_goals repeat' apply And.intro
  all_goals exact mem_wr (by decide)

abbrev afterAll (W : Valuation τ sig (Elt Ideal)) : Valuation τ sig (Elt Ideal) :=
  StableHlo.after (hostOps4_3 (F := Ideal)) (StableHlo.after (hostOps4_2 (F := Ideal))
    (StableHlo.after (hostOps4_1 (F := Ideal)) (StableHlo.after (hostOps4 (F := Ideal)) W)))

variable (W : Valuation τ sig (Elt Ideal))

theorem after4_v85 :
    StableHlo.after (hostOps4 (F := Ideal)) W (Proc.devRef .tc main_v85)
      = takeRows (W (Proc.devRef .tc main_v84)) (W (Proc.devRef .tc main_v36)) := by
  after_results_simp
  simp only [StableHlo.TRef.ofBuf_toBuf]
  simp only [StableHlo.TRef.ofBuf, StableHlo.TRef.toBuf, cast_eq]
  rfl

theorem after4_2_v87 :
    StableHlo.after (hostOps4_2 (F := Ideal)) (StableHlo.after (hostOps4_1 (F := Ideal)) W) (Proc.devRef .tc main_v87)
      = msgRows (W (Proc.devRef .tc main_v85)) (W (Proc.devRef .tc main_v34)) := by
  after_results_simp
  simp only [StableHlo.TRef.ofBuf_toBuf]
  simp only [StableHlo.TRef.ofBuf, StableHlo.TRef.toBuf, cast_eq]
  rfl

theorem after4_3_v90 :
    StableHlo.after (hostOps4_3 (F := Ideal)) W (Proc.devRef .tc main_v90)
      = aggRows (W (Proc.devRef .tc main_v38)) (W (Proc.devRef .tc main_v87)) := by
  after_results_simp
  rfl
theorem after4_3_v92 :
    StableHlo.after (hostOps4_3 (F := Ideal)) W (Proc.devRef .tc main_v92) = sliceMat 2 slices_S5x384x384_S1x384x384_2_0_0 (W (Proc.devRef .tc main_v14)) := by
  after_results_simp
  rfl
theorem after4_3_v94 :
    StableHlo.after (hostOps4_3 (F := Ideal)) W (Proc.devRef .tc main_v94) = sliceVec 2 slices_S5x384_S1x384_2_0 (W (Proc.devRef .tc main_v15)) := by
  after_results_simp
  rfl
theorem after4_3_v96 :
    StableHlo.after (hostOps4_3 (F := Ideal)) W (Proc.devRef .tc main_v96) = sliceMat 2 slices_S5x384x384_S1x384x384_2_0_0 (W (Proc.devRef .tc main_v17)) := by
  after_results_simp
  rfl
theorem after4_3_v98 :
    StableHlo.after (hostOps4_3 (F := Ideal)) W (Proc.devRef .tc main_v98) = sliceVec 2 slices_S5x384_S1x384_2_0 (W (Proc.devRef .tc main_v18)) := by
  after_results_simp
  rfl
theorem after4_3_v100 :
    StableHlo.after (hostOps4_3 (F := Ideal)) W (Proc.devRef .tc main_v100) = sliceVec 2 slices_S5x384_S1x384_2_0 (W (Proc.devRef .tc main_v19)) := by
  after_results_simp
  rfl
theorem after4_3_v102 :
    StableHlo.after (hostOps4_3 (F := Ideal)) W (Proc.devRef .tc main_v102) = sliceVec 2 slices_S5x384_S1x384_2_0 (W (Proc.devRef .tc main_v20)) := by
  after_results_simp
  rfl
theorem after4_3_v104 :
    StableHlo.after (hostOps4_3 (F := Ideal)) W (Proc.devRef .tc main_v104) = sliceVec 2 slices_S5x384_S1x384_2_0 (W (Proc.devRef .tc main_v21)) := by
  after_results_simp
  rfl
theorem after4_3_v106 :
    StableHlo.after (hostOps4_3 (F := Ideal)) W (Proc.devRef .tc main_v106) = sliceVec 2 slices_S5x384_S1x384_2_0 (W (Proc.devRef .tc main_v22)) := by
  after_results_simp
  rfl

theorem keep {r : Ref sig .tc} (hr : r ∉ written) : afterAll W (Proc.devRef .tc r) = W (Proc.devRef .tc r) :=
  (StableHlo.after_of_writes_sub _ _ subs.2.2.2 hr).trans (keep3 subs W hr)

theorem agg2_value
    (hs : ∀ e : Fin 125000, 0 ≤ (a1 (W (Proc.devRef .tc main_v36)) e).toInt ∧ (a1 (W (Proc.devRef .tc main_v36)) e).toInt < 50000) :
    a2 (afterAll W (Proc.devRef .tc main_v90))
      = segsum (a1 (W (Proc.devRef .tc main_v38)))
          (msgs (a2 (W (Proc.devRef .tc main_v84)))
            (fun e => rowOf 50000 (by norm_num) (wrapw 50000#32 (a1 (W (Proc.devRef .tc main_v36)) e)))
            (a2 (W (Proc.devRef .tc main_v34)))) := by
  show a2 (StableHlo.after (hostOps4_3 (F := Ideal)) _ (Proc.devRef .tc main_v90)) = _
  rw [after4_3_v90, after4_2_v87, after4_v85, keep3 subs W (r := main_v38) (by decide), keep1 subs W (r := main_v34) (by decide)]
  exact agg_value _ _ _ _ hs

theorem W1_value : a2 (afterAll W (Proc.devRef .tc main_v92)) = a3 (W (Proc.devRef .tc main_v14)) 2 :=
  mat_of 2 2 rfl (after4_3_v92 _) (keep3 subs W (by decide))
theorem b1_value : a1 (afterAll W (Proc.devRef .tc main_v94)) = a2 (W (Proc.devRef .tc main_v15)) 2 :=
  vec_of 2 2 rfl (after4_3_v94 _) (keep3 subs W (by decide))
theorem W2_value : a2 (afterAll W (Proc.devRef .tc main_v96)) = a3 (W (Proc.devRef .tc main_v17)) 2 :=
  mat_of 2 2 rfl (after4_3_v96 _) (keep3 subs W (by decide))
theorem b2_value : a1 (afterAll W (Proc.devRef .tc main_v98)) = a2 (W (Proc.devRef .tc main_v18)) 2 :=
  vec_of 2 2 rfl (after4_3_v98 _) (keep3 subs W (by decide))
theorem gamma_value : a1 (afterAll W (Proc.devRef .tc main_v100)) = a2 (W (Proc.devRef .tc main_v19)) 2 :=
  vec_of 2 2 rfl (after4_3_v100 _) (keep3 subs W (by decide))
theorem beta_value : a1 (afterAll W (Proc.devRef .tc main_v102)) = a2 (W (Proc.devRef .tc main_v20)) 2 :=
  vec_of 2 2 rfl (after4_3_v102 _) (keep3 subs W (by decide))
theorem mean_value : a1 (afterAll W (Proc.devRef .tc main_v104)) = a2 (W (Proc.devRef .tc main_v21)) 2 :=
  vec_of 2 2 rfl (after4_3_v104 _) (keep3 subs W (by decide))
theorem var_value : a1 (afterAll W (Proc.devRef .tc main_v106)) = a2 (W (Proc.devRef .tc main_v22)) 2 :=
  vec_of 2 2 rfl (after4_3_v106 _) (keep3 subs W (by decide))

theorem keep_v84 : afterAll W (Proc.devRef .tc main_v84) = W (Proc.devRef .tc main_v84) := keep W (by decide)

end Cert.KernelIdeal.Gen.L2
-- ==== Proof.KRegGin4.lean ====
import proofs.«422490_j54958401520128_2_alg».proof.Proof.Gen.KernelIdeal.Frame
import proofs.«422490_j54958401520128_2_alg».proof.Proof.KGinShared

set_option maxRecDepth 16384

noncomputable section

namespace Cert.KernelIdeal.RegGin4

open Idealize.ShloMosaic Idealize.ShloMosaic.TcCoe Idealize.SL.Sem
open Idealize.ShloMosaic.Pipeline (Dat)
open Cert.KernelIdeal Cert.KernelIdeal.Gen Cert.KernelIdeal.GinBlock

variable (V : (c : Dev nD) → (b : Ref sig .tc) → Buf (Elt Ideal) ((c : Thread nD τ).loc b))

theorem idx_facts : ∀ t : Fin cfg4.N,
    ((∀ a : Fin 2, win4_0.index t a = win4_10.index t a) ∧ (∀ a : Fin 2, win4_1.index t a = win4_10.index t a)
      ∧ win4_10.index t (1 : Fin 2) = 0
      ∧ (∀ a : Fin 2, win4_2.index t a = 0) ∧ (∀ a : Fin 1, win4_3.index t a = 0) ∧ (∀ a : Fin 2, win4_4.index t a = 0)
      ∧ (∀ a : Fin 1, win4_5.index t a = 0) ∧ (∀ a : Fin 1, win4_6.index t a = 0) ∧ (∀ a : Fin 1, win4_7.index t a = 0)
      ∧ (∀ a : Fin 1, win4_8.index t a = 0) ∧ (∀ a : Fin 1, win4_9.index t a = 0))
    ∧ win4_10.index t (0 : Fin 2) = t.val :=
  (by decide +kernel : ∀ t : Fin grid4.N, _)

set_option maxHeartbeats 1000000 in
theorem region4_value (c : Dev nD) :
    Arr.a2 ((dat4 V c).arrAt 10 cfg4.N : S50000x384.Idx → EReal)
      = Spec.gin (Arr.a2 (V c (Pipeline.arrRef spec4 0) : S50000x384.Idx → EReal))
          (Arr.a2 (V c (Pipeline.arrRef spec4 1) : S50000x384.Idx → EReal))
          (Arr.a2 (V c (Pipeline.arrRef spec4 2) : S384x384.Idx → EReal))
          (Arr.a1 (V c (Pipeline.arrRef spec4 3) : S384.Idx → EReal))
          (Arr.a2 (V c (Pipeline.arrRef spec4 4) : S384x384.Idx → EReal))
          (Arr.a1 (V c (Pipeline.arrRef spec4 5) : S384.Idx → EReal))
          (Arr.a1 (V c (Pipeline.arrRef spec4 6) : S384.Idx → EReal))
          (Arr.a1 (V c (Pipeline.arrRef spec4 7) : S384.Idx → EReal))
          (Arr.a1 (V c (Pipeline.arrRef spec4 8) : S384.Idx → EReal))
          (Arr.a1 (V c (Pipeline.arrRef spec4 9) : S384.Idx → EReal)) Cert.Net.eps := by
  refine a2_ginArr ((dat4 V c).arrAt_eq_of_cover 10 _ (fun t _ => ?_) fun i => ?_)
  · show (cfg4.win 10).cut (grid4.coords t) ((dat4 V c).after 10 t) = _
    rw [after4_10]
    funext y
    exact flushed_apply (win4_0.rect_emb_val t) (win4_1.rect_emb_val t) (win4_2.rect_emb_val t) (win4_3.rect_emb_val t)
      (win4_4.rect_emb_val t) (win4_5.rect_emb_val t) (win4_6.rect_emb_val t) (win4_7.rect_emb_val t)
      (win4_8.rect_emb_val t) (win4_9.rect_emb_val t) (win4_10.rect_emb_val t) (fun _ => by rfl) (fun _ => by rfl) (fun _ => by rfl)
      (fun _ => by rfl) (fun _ => by rfl) (fun _ => by rfl) (fun _ => by rfl) (fun _ => by rfl) (fun _ => by rfl) (fun _ => by rfl)
      (idx_facts t).1 y
  · obtain ⟨t, ht⟩ := cover_rows N_4 (I := fun t => win4_10.index t) (fun t => ⟨(idx_facts t).2, (idx_facts t).1.2.2.1⟩) i
    refine ⟨t, flush4_10 t, ?_⟩
    show i ∈ ((View.whole main_v107).slice (win4_10.rect t)).set
    rw [View.set_slice_whole, Rect.mem_set_unit]
    exact ht

end Cert.KernelIdeal.RegGin4

end
-- ==== Proof.KChainL2.lean ====
import proofs.«422490_j54958401520128_2_alg».proof.Proof.Gen.KernelIdeal.Frame
import proofs.«422490_j54958401520128_2_alg».proof.Proof.KState
import proofs.«422490_j54958401520128_2_alg».proof.Proof.KHostL2
import proofs.«422490_j54958401520128_2_alg».proof.Proof.KRegGin4

noncomputable section

namespace Cert.KChainL2

open Idealize.ShloMosaic Idealize.ShloMosaic.ValueIdx Idealize.ShloMosaic.TcCoe Idealize.SL.Sem
open Cert.KernelIdeal Cert.KernelIdeal.Gen
open Cert.Spec Cert.Arr Cert.Net

variable (m : (ℓ : Loc nD τ sig) → Buf (Elt Ideal) ℓ) (ρ : Dev nD → PrngReg) (c : Dev nD)

theorem unchanged (b : Ref sig .tc) (hb : ∀ w, Pipeline.arrRef spec4 w ≠ b) (hr : b ∉ L2.written) :
    W59 m ρ c (Proc.devRef .tc b) = W54 m ρ c (Proc.devRef .tc b) :=
  (W59_of_ne m ρ c b hb).trans (L2.keep (W54 m ρ c) hr)

/-- Layer 2: the update's output is the wide network's layer 2 of the incoming features H; the edge arrays and the parameters stay. -/
theorem at59 {a : Net.Args} (hs : KState.SrcOk a) (H : Fin 50000 → Fin 384 → EReal)
    (h54 : a2 (W54 m ρ c (Proc.devRef .tc main_v84)) = H) (e54 : KState.Edges a (W54 m ρ c))
    (p54 : KState.Params a (W54 m ρ c)) :
    a2 (W59 m ρ c (Proc.devRef .tc main_v107)) = KNet.step a 2 H
      ∧ KState.Edges a (W59 m ρ c) ∧ KState.Params a (W59 m ρ c) := by
  have hsrc : ∀ e : Fin 125000, 0 ≤ (a1 (W54 m ρ c (Proc.devRef .tc main_v36)) e).toInt
      ∧ (a1 (W54 m ρ c (Proc.devRef .tc main_v36)) e).toInt < 50000 := by
    rw [e54.src]; exact hs
  refine ⟨?_, ?_, ?_⟩
  · have hout : a2 (W59 m ρ c (Proc.devRef .tc main_v107))
        = a2 ((dat4 (V58 m ρ) c).arrAt 10 cfg4.N : S50000x384.Idx → EReal) := congrArg a2 (W59_arr m ρ c 10)
    rw [hout, RegGin4.region4_value (V58 m ρ) c]
    show gin (a2 (L2.afterAll (W54 m ρ c) (Proc.devRef .tc main_v84)))
        (a2 (L2.afterAll (W54 m ρ c) (Proc.devRef .tc main_v90)))
        (a2 (L2.afterAll (W54 m ρ c) (Proc.devRef .tc main_v92)))
        (a1 (L2.afterAll (W54 m ρ c) (Proc.devRef .tc main_v94)))
        (a2 (L2.afterAll (W54 m ρ c) (Proc.devRef .tc main_v96)))
        (a1 (L2.afterAll (W54 m ρ c) (Proc.devRef .tc main_v98)))
        (a1 (L2.afterAll (W54 m ρ c) (Proc.devRef .tc main_v100)))
        (a1 (L2.afterAll (W54 m ρ c) (Proc.devRef .tc main_v102)))
        (a1 (L2.afterAll (W54 m ρ c) (Proc.devRef .tc main_v104)))
        (a1 (L2.afterAll (W54 m ρ c) (Proc.devRef .tc main_v106))) eps = _
    rw [L2.keep_v84, L2.agg2_value _ hsrc, L2.W1_value, L2.b1_value, L2.W2_value, L2.b2_value, L2.gamma_value,
      L2.beta_value, L2.mean_value, L2.var_value, h54, e54.ee, e54.src, e54.dst, p54.gW1 2, p54.gb1, p54.gW2 2,
      p54.gb2, p54.gγ, p54.gβ, p54.gμ, p54.gv]
    rfl
  · exact e54.carry (unchanged m ρ c main_v34 (by decide) (by decide)) (unchanged m ρ c main_v36 (by decide) (by decide))
      (unchanged m ρ c main_v38 (by decide) (by decide))
  · exact p54.carry (unchanged m ρ c main_v14 (by decide) (by decide)) (unchanged m ρ c main_v15 (by decide) (by decide))
      (unchanged m ρ c main_v17 (by decide) (by decide)) (unchanged m ρ c main_v18 (by decide) (by decide))
      (unchanged m ρ c main_v19 (by decide) (by decide)) (unchanged m ρ c main_v20 (by decide) (by decide))
      (unchanged m ρ c main_v21 (by decide) (by decide)) (unchanged m ρ c main_v22 (by decide) (by decide))
      (unchanged m ρ c main_v26 (by decide) (by decide)) (unchanged m ρ c main_v27 (by decide) (by decide))

end Cert.KChainL2

end
-- ==== Proof.KHostL3.lean ====
import proofs.«422490_j54958401520128_2_alg».proof.Proof.MessageSum

noncomputable section

namespace Cert.KernelIdeal.Gen.L3

open Idealize.ShloMosaic Idealize.ShloMosaic.ValueIdx
open Cert.Spec Cert.Arr Cert.Net MessageSum

noncomputable def written : List (Ref sig .tc) :=
  [main_call26_c, main_call26_v0, main_call26_v1, main_call26_c_0, main_call26_v2, main_call26_v3, main_call26_v4,
   main_call26_v5, main_call26_c_1, main_call26_c_2, main_call26_v6, main_call26_v7, main_call26_v8, main_call26_v9,
   main_call26_v10, main_call26_v11, main_call26_c_3, main_call26_v12, main_call26_v13, main_call26_v14,
   main_call26_cst, main_call26_v15, main_v108,
   main_v109,
   main_call27_cst, main_call27_v0, main_v110,
   main_cst_20, main_v111, main_v112, main_v113, main_v114, main_v115, main_v116, main_v117, main_v118, main_v119, main_v120,
   main_v121, main_v122, main_v123, main_v124, main_v125, main_v126, main_v127, main_v128, main_v129]

theorem subs : WritesIn written (hostOps5 (F := Ideal)) ∧ WritesIn written (hostOps5_1 (F := Ideal))
    ∧ WritesIn written (hostOps5_2 (F := Ideal)) ∧ WritesIn written (hostOps5_3 (F := Ideal)) := by
  refine ⟨?_, ?_, ?_, ?_⟩
  all_goals simp only [WritesIn, hostOps5, hostOps5_1, hostOps5_2, hostOps5_3, List.Forall, StableHlo.nullary_writes, StableHlo.unary_writes,
    StableHlo.binary_writes, StableHlo.ternary_writes, StableHlo.reshape_writes, Finset.singleton_subset_iff]
  all_goals repeat' apply And.intro
  all_goals exact mem_wr (by decide)

abbrev afterAll (W : Valuation τ sig (Elt Ideal)) : Valuation τ sig (Elt Ideal) :=
  StableHlo.after (hostOps5_3 (F := Ideal)) (StableHlo.after (hostOps5_2 (F := Ideal))
    (StableHlo.after (hostOps5_1 (F := Ideal)) (StableHlo.after (hostOps5 (F := Ideal)) W)))

variable (W : Valuation τ sig (Elt Ideal))

theorem after5_v108 :
    StableHlo.after (hostOps5 (F := Ideal)) W (Proc.devRef .tc main_v108)
      = takeRows (W (Proc.devRef .tc main_v107)) (W (Proc.devRef .tc main_v36)) := by
  after_results_simp
  simp only [StableHlo.TRef.ofBuf_toBuf]
  simp only [StableHlo.TRef.ofBuf, StableHlo.TRef.toBuf, cast_eq]
  rfl

theorem after5_2_v110 :
    StableHlo.after (hostOps5_2 (F := Ideal)) (StableHlo.after (hostOps5_1 (F := Ideal)) W) (Proc.devRef .tc main_v110)
      = msgRows (W (Proc.devRef .tc main_v108)) (W (Proc.devRef .tc main_v34)) := by
  after_results_simp
  simp only [StableHlo.TRef.ofBuf_toBuf]
  simp only [StableHlo.TRef.ofBuf, StableHlo.TRef.toBuf, cast_eq]
  rfl

theorem after5_3_v113 :
    StableHlo.after (hostOps5_3 (F := Ideal)) W (Proc.devRef .tc main_v113)
      = aggRows (W (Proc.devRef .tc main_v38)) (W (Proc.devRef .tc main_v110)) := by
  after_results_simp
  rfl
theorem after5_3_v115 :
    StableHlo.after (hostOps5_3 (F := Ideal)) W (Proc.devRef .tc main_v115) = sliceMat 3 slices_S5x384x384_S1x384x384_3_0_0 (W (Proc.devRef .tc main_v14)) := by
  after_results_simp
  rfl
theorem after5_3_v117 :
    StableHlo.after (hostOps5_3 (F := Ideal)) W (Proc.devRef .tc main_v117) = sliceVec 3 slices_S5x384_S1x384_3_0 (W (Proc.devRef .tc main_v15)) := by
  after_results_simp
  rfl
theorem after5_3_v119 :
    StableHlo.after (hostOps5_3 (F := Ideal)) W (Proc.devRef .tc main_v119) = sliceMat 3 slices_S5x384x384_S1x384x384_3_0_0 (W (Proc.devRef .tc main_v17)) := by
  after_results_simp
  rfl
theorem after5_3_v121 :
    StableHlo.after (hostOps5_3 (F := Ideal)) W (Proc.devRef .tc main_v121) = sliceVec 3 slices_S5x384_S1x384_3_0 (W (Proc.devRef .tc main_v18)) := by
  after_results_simp
  rfl
theorem after5_3_v123 :
    StableHlo.after (hostOps5_3 (F := Ideal)) W (Proc.devRef .tc main_v123) = sliceVec 3 slices_S5x384_S1x384_3_0 (W (Proc.devRef .tc main_v19)) := by
  after_results_simp
  rfl
theorem after5_3_v125 :
    StableHlo.after (hostOps5_3 (F := Ideal)) W (Proc.devRef .tc main_v125) = sliceVec 3 slices_S5x384_S1x384_3_0 (W (Proc.devRef .tc main_v20)) := by
  after_results_simp
  rfl
theorem after5_3_v127 :
    StableHlo.after (hostOps5_3 (F := Ideal)) W (Proc.devRef .tc main_v127) = sliceVec 3 slices_S5x384_S1x384_3_0 (W (Proc.devRef .tc main_v21)) := by
  after_results_simp
  rfl
theorem after5_3_v129 :
    StableHlo.after (hostOps5_3 (F := Ideal)) W (Proc.devRef .tc main_v129) = sliceVec 3 slices_S5x384_S1x384_3_0 (W (Proc.devRef .tc main_v22)) := by
  after_results_simp
  rfl

theorem keep {r : Ref sig .tc} (hr : r ∉ written) : afterAll W (Proc.devRef .tc r) = W (Proc.devRef .tc r) :=
  (StableHlo.after_of_writes_sub _ _ subs.2.2.2 hr).trans (keep3 subs W hr)

theorem agg3_value
    (hs : ∀ e : Fin 125000, 0 ≤ (a1 (W (Proc.devRef .tc main_v36)) e).toInt ∧ (a1 (W (Proc.devRef .tc main_v36)) e).toInt < 50000) :
    a2 (afterAll W (Proc.devRef .tc main_v113))
      = segsum (a1 (W (Proc.devRef .tc main_v38)))
          (msgs (a2 (W (Proc.devRef .tc main_v107)))
            (fun e => rowOf 50000 (by norm_num) (wrapw 50000#32 (a1 (W (Proc.devRef .tc main_v36)) e)))
            (a2 (W (Proc.devRef .tc main_v34)))) := by
  show a2 (StableHlo.after (hostOps5_3 (F := Ideal)) _ (Proc.devRef .tc main_v113)) = _
  rw [after5_3_v113, after5_2_v110, after5_v108, keep3 subs W (r := main_v38) (by decide), keep1 subs W (r := main_v34) (by decide)]
  exact agg_value _ _ _ _ hs

theorem W1_value : a2 (afterAll W (Proc.devRef .tc main_v115)) = a3 (W (Proc.devRef .tc main_v14)) 3 :=
  mat_of 3 3 rfl (after5_3_v115 _) (keep3 subs W (by decide))
theorem b1_value : a1 (afterAll W (Proc.devRef .tc main_v117)) = a2 (W (Proc.devRef .tc main_v15)) 3 :=
  vec_of 3 3 rfl (after5_3_v117 _) (keep3 subs W (by decide))
theorem W2_value : a2 (afterAll W (Proc.devRef .tc main_v119)) = a3 (W (Proc.devRef .tc main_v17)) 3 :=
  mat_of 3 3 rfl (after5_3_v119 _) (keep3 subs W (by decide))
theorem b2_value : a1 (afterAll W (Proc.devRef .tc main_v121)) = a2 (W (Proc.devRef .tc main_v18)) 3 :=
  vec_of 3 3 rfl (after5_3_v121 _) (keep3 subs W (by decide))
theorem gamma_value : a1 (afterAll W (Proc.devRef .tc main_v123)) = a2 (W (Proc.devRef .tc main_v19)) 3 :=
  vec_of 3 3 rfl (after5_3_v123 _) (keep3 subs W (by decide))
theorem beta_value : a1 (afterAll W (Proc.devRef .tc main_v125)) = a2 (W (Proc.devRef .tc main_v20)) 3 :=
  vec_of 3 3 rfl (after5_3_v125 _) (keep3 subs W (by decide))
theorem mean_value : a1 (afterAll W (Proc.devRef .tc main_v127)) = a2 (W (Proc.devRef .tc main_v21)) 3 :=
  vec_of 3 3 rfl (after5_3_v127 _) (keep3 subs W (by decide))
theorem var_value : a1 (afterAll W (Proc.devRef .tc main_v129)) = a2 (W (Proc.devRef .tc main_v22)) 3 :=
  vec_of 3 3 rfl (after5_3_v129 _) (keep3 subs W (by decide))

theorem keep_v107 : afterAll W (Proc.devRef .tc main_v107) = W (Proc.devRef .tc main_v107) := keep W (by decide)

end Cert.KernelIdeal.Gen.L3
-- ==== Proof.KRegGin5.lean ====
import proofs.«422490_j54958401520128_2_alg».proof.Proof.Gen.KernelIdeal.Frame
import proofs.«422490_j54958401520128_2_alg».proof.Proof.KGinShared

set_option maxRecDepth 16384

noncomputable section

namespace Cert.KernelIdeal.RegGin5

open Idealize.ShloMosaic Idealize.ShloMosaic.TcCoe Idealize.SL.Sem
open Idealize.ShloMosaic.Pipeline (Dat)
open Cert.KernelIdeal Cert.KernelIdeal.Gen Cert.KernelIdeal.GinBlock

variable (V : (c : Dev nD) → (b : Ref sig .tc) → Buf (Elt Ideal) ((c : Thread nD τ).loc b))

theorem idx_facts : ∀ t : Fin cfg5.N,
    ((∀ a : Fin 2, win5_0.index t a = win5_10.index t a) ∧ (∀ a : Fin 2, win5_1.index t a = win5_10.index t a)
      ∧ win5_10.index t (1 : Fin 2) = 0
      ∧ (∀ a : Fin 2, win5_2.index t a = 0) ∧ (∀ a : Fin 1, win5_3.index t a = 0) ∧ (∀ a : Fin 2, win5_4.index t a = 0)
      ∧ (∀ a : Fin 1, win5_5.index t a = 0) ∧ (∀ a : Fin 1, win5_6.index t a = 0) ∧ (∀ a : Fin 1, win5_7.index t a = 0)
      ∧ (∀ a : Fin 1, win5_8.index t a = 0) ∧ (∀ a : Fin 1, win5_9.index t a = 0))
    ∧ win5_10.index t (0 : Fin 2) = t.val :=
  (by decide +kernel : ∀ t : Fin grid5.N, _)

set_option maxHeartbeats 1000000 in
theorem region5_value (c : Dev nD) :
    Arr.a2 ((dat5 V c).arrAt 10 cfg5.N : S50000x384.Idx → EReal)
      = Spec.gin (Arr.a2 (V c (Pipeline.arrRef spec5 0) : S50000x384.Idx → EReal))
          (Arr.a2 (V c (Pipeline.arrRef spec5 1) : S50000x384.Idx → EReal))
          (Arr.a2 (V c (Pipeline.arrRef spec5 2) : S384x384.Idx → EReal))
          (Arr.a1 (V c (Pipeline.arrRef spec5 3) : S384.Idx → EReal))
          (Arr.a2 (V c (Pipeline.arrRef spec5 4) : S384x384.Idx → EReal))
          (Arr.a1 (V c (Pipeline.arrRef spec5 5) : S384.Idx → EReal))
          (Arr.a1 (V c (Pipeline.arrRef spec5 6) : S384.Idx → EReal))
          (Arr.a1 (V c (Pipeline.arrRef spec5 7) : S384.Idx → EReal))
          (Arr.a1 (V c (Pipeline.arrRef spec5 8) : S384.Idx → EReal))
          (Arr.a1 (V c (Pipeline.arrRef spec5 9) : S384.Idx → EReal)) Cert.Net.eps := by
  refine a2_ginArr ((dat5 V c).arrAt_eq_of_cover 10 _ (fun t _ => ?_) fun i => ?_)
  · show (cfg5.win 10).cut (grid5.coords t) ((dat5 V c).after 10 t) = _
    rw [after5_10]
    funext y
    exact flushed_apply (win5_0.rect_emb_val t) (win5_1.rect_emb_val t) (win5_2.rect_emb_val t) (win5_3.rect_emb_val t)
      (win5_4.rect_emb_val t) (win5_5.rect_emb_val t) (win5_6.rect_emb_val t) (win5_7.rect_emb_val t)
      (win5_8.rect_emb_val t) (win5_9.rect_emb_val t) (win5_10.rect_emb_val t) (fun _ => by rfl) (fun _ => by rfl) (fun _ => by rfl)
      (fun _ => by rfl) (fun _ => by rfl) (fun _ => by rfl) (fun _ => by rfl) (fun _ => by rfl) (fun _ => by rfl) (fun _ => by rfl)
      (idx_facts t).1 y
  · obtain ⟨t, ht⟩ := cover_rows N_5 (I := fun t => win5_10.index t) (fun t => ⟨(idx_facts t).2, (idx_facts t).1.2.2.1⟩) i
    refine ⟨t, flush5_10 t, ?_⟩
    show i ∈ ((View.whole main_v130).slice (win5_10.rect t)).set
    rw [View.set_slice_whole, Rect.mem_set_unit]
    exact ht

end Cert.KernelIdeal.RegGin5

end
-- ==== Proof.KChainL3.lean ====
import proofs.«422490_j54958401520128_2_alg».proof.Proof.Gen.KernelIdeal.Frame
import proofs.«422490_j54958401520128_2_alg».proof.Proof.KState
import proofs.«422490_j54958401520128_2_alg».proof.Proof.KHostL3
import proofs.«422490_j54958401520128_2_alg».proof.Proof.KRegGin5

noncomputable section

namespace Cert.KChainL3

open Idealize.ShloMosaic Idealize.ShloMosaic.ValueIdx Idealize.ShloMosaic.TcCoe Idealize.SL.Sem
open Cert.KernelIdeal Cert.KernelIdeal.Gen
open Cert.Spec Cert.Arr Cert.Net

variable (m : (ℓ : Loc nD τ sig) → Buf (Elt Ideal) ℓ) (ρ : Dev nD → PrngReg) (c : Dev nD)

theorem unchanged (b : Ref sig .tc) (hb : ∀ w, Pipeline.arrRef spec5 w ≠ b) (hr : b ∉ L3.written) :
    W64 m ρ c (Proc.devRef .tc b) = W59 m ρ c (Proc.devRef .tc b) :=
  (W64_of_ne m ρ c b hb).trans (L3.keep (W59 m ρ c) hr)

/-- Layer 3: the update's output is the wide network's layer 3 of the incoming features H; the edge arrays and the parameters stay. -/
theorem at64 {a : Net.Args} (hs : KState.SrcOk a) (H : Fin 50000 → Fin 384 → EReal)
    (h59 : a2 (W59 m ρ c (Proc.devRef .tc main_v107)) = H) (e59 : KState.Edges a (W59 m ρ c))
    (p59 : KState.Params a (W59 m ρ c)) :
    a2 (W64 m ρ c (Proc.devRef .tc main_v130)) = KNet.step a 3 H
      ∧ KState.Edges a (W64 m ρ c) ∧ KState.Params a (W64 m ρ c) := by
  have hsrc : ∀ e : Fin 125000, 0 ≤ (a1 (W59 m ρ c (Proc.devRef .tc main_v36)) e).toInt
      ∧ (a1 (W59 m ρ c (Proc.devRef .tc main_v36)) e).toInt < 50000 := by
    rw [e59.src]; exact hs
  refine ⟨?_, ?_, ?_⟩
  · have hout : a2 (W64 m ρ c (Proc.devRef .tc main_v130))
        = a2 ((dat5 (V63 m ρ) c).arrAt 10 cfg5.N : S50000x384.Idx → EReal) := congrArg a2 (W64_arr m ρ c 10)
    rw [hout, RegGin5.region5_value (V63 m ρ) c]
    show gin (a2 (L3.afterAll (W59 m ρ c) (Proc.devRef .tc main_v107)))
        (a2 (L3.afterAll (W59 m ρ c) (Proc.devRef .tc main_v113)))
        (a2 (L3.afterAll (W59 m ρ c) (Proc.devRef .tc main_v115)))
        (a1 (L3.afterAll (W59 m ρ c) (Proc.devRef .tc main_v117)))
        (a2 (L3.afterAll (W59 m ρ c) (Proc.devRef .tc main_v119)))
        (a1 (L3.afterAll (W59 m ρ c) (Proc.devRef .tc main_v121)))
        (a1 (L3.afterAll (W59 m ρ c) (Proc.devRef .tc main_v123)))
        (a1 (L3.afterAll (W59 m ρ c) (Proc.devRef .tc main_v125)))
        (a1 (L3.afterAll (W59 m ρ c) (Proc.devRef .tc main_v127)))
        (a1 (L3.afterAll (W59 m ρ c) (Proc.devRef .tc main_v129))) eps = _
    rw [L3.keep_v107, L3.agg3_value _ hsrc, L3.W1_value, L3.b1_value, L3.W2_value, L3.b2_value, L3.gamma_value,
      L3.beta_value, L3.mean_value, L3.var_value, h59, e59.ee, e59.src, e59.dst, p59.gW1 3, p59.gb1, p59.gW2 3,
      p59.gb2, p59.gγ, p59.gβ, p59.gμ, p59.gv]
    rfl
  · exact e59.carry (unchanged m ρ c main_v34 (by decide) (by decide)) (unchanged m ρ c main_v36 (by decide) (by decide))
      (unchanged m ρ c main_v38 (by decide) (by decide))
  · exact p59.carry (unchanged m ρ c main_v14 (by decide) (by decide)) (unchanged m ρ c main_v15 (by decide) (by decide))
      (unchanged m ρ c main_v17 (by decide) (by decide)) (unchanged m ρ c main_v18 (by decide) (by decide))
      (unchanged m ρ c main_v19 (by decide) (by decide)) (unchanged m ρ c main_v20 (by decide) (by decide))
      (unchanged m ρ c main_v21 (by decide) (by decide)) (unchanged m ρ c main_v22 (by decide) (by decide))
      (unchanged m ρ c main_v26 (by decide) (by decide)) (unchanged m ρ c main_v27 (by decide) (by decide))

end Cert.KChainL3

end
-- ==== Proof.KHostL4.lean ====
import proofs.«422490_j54958401520128_2_alg».proof.Proof.MessageSum

noncomputable section

namespace Cert.KernelIdeal.Gen.L4

open Idealize.ShloMosaic Idealize.ShloMosaic.ValueIdx
open Cert.Spec Cert.Arr Cert.Net MessageSum

noncomputable def written : List (Ref sig .tc) :=
  [main_call28_c, main_call28_v0, main_call28_v1, main_call28_c_0, main_call28_v2, main_call28_v3, main_call28_v4,
   main_call28_v5, main_call28_c_1, main_call28_c_2, main_call28_v6, main_call28_v7, main_call28_v8, main_call28_v9,
   main_call28_v10, main_call28_v11, main_call28_c_3, main_call28_v12, main_call28_v13, main_call28_v14,
   main_call28_cst, main_call28_v15, main_v131,
   main_v132,
   main_call29_cst, main_call29_v0, main_v133,
   main_cst_21, main_v134, main_v135, main_v136, main_v137, main_v138, main_v139, main_v140, main_v141, main_v142, main_v143,
   main_v144, main_v145, main_v146, main_v147, main_v148, main_v149, main_v150, main_v151, main_v152]

theorem subs : WritesIn written (hostOps6 (F := Ideal)) ∧ WritesIn written (hostOps6_1 (F := Ideal))
    ∧ WritesIn written (hostOps6_2 (F := Ideal)) ∧ WritesIn written (hostOps6_3 (F := Ideal)) := by
  refine ⟨?_, ?_, ?_, ?_⟩
  all_goals simp only [WritesIn, hostOps6, hostOps6_1, hostOps6_2, hostOps6_3, List.Forall, StableHlo.nullary_writes, StableHlo.unary_writes,
    StableHlo.binary_writes, StableHlo.ternary_writes, StableHlo.reshape_writes, Finset.singleton_subset_iff]
  all_goals repeat' apply And.intro
  all_goals exact mem_wr (by decide)

abbrev afterAll (W : Valuation τ sig (Elt Ideal)) : Valuation τ sig (Elt Ideal) :=
  StableHlo.after (hostOps6_3 (F := Ideal)) (StableHlo.after (hostOps6_2 (F := Ideal))
    (StableHlo.after (hostOps6_1 (F := Ideal)) (StableHlo.after (hostOps6 (F := Ideal)) W)))

variable (W : Valuation τ sig (Elt Ideal))

theorem after6_v131 :
    StableHlo.after (hostOps6 (F := Ideal)) W (Proc.devRef .tc main_v131)
      = takeRows (W (Proc.devRef .tc main_v130)) (W (Proc.devRef .tc main_v36)) := by
  after_results_simp
  simp only [StableHlo.TRef.ofBuf_toBuf]
  simp only [StableHlo.TRef.ofBuf, StableHlo.TRef.toBuf, cast_eq]
  rfl

theorem after6_2_v133 :
    StableHlo.after (hostOps6_2 (F := Ideal)) (StableHlo.after (hostOps6_1 (F := Ideal)) W) (Proc.devRef .tc main_v133)
      = msgRows (W (Proc.devRef .tc main_v131)) (W (Proc.devRef .tc main_v34)) := by
  after_results_simp
  simp only [StableHlo.TRef.ofBuf_toBuf]
  simp only [StableHlo.TRef.ofBuf, StableHlo.TRef.toBuf, cast_eq]
  rfl

theorem after6_3_v136 :
    StableHlo.after (hostOps6_3 (F := Ideal)) W (Proc.devRef .tc main_v136)
      = aggRows (W (Proc.devRef .tc main_v38)) (W (Proc.devRef .tc main_v133)) := by
  after_results_simp
  rfl
theorem after6_3_v138 :
    StableHlo.after (hostOps6_3 (F := Ideal)) W (Proc.devRef .tc main_v138) = sliceMat 4 slices_S5x384x384_S1x384x384_4_0_0 (W (Proc.devRef .tc main_v14)) := by
  after_results_simp
  rfl
theorem after6_3_v140 :
    StableHlo.after (hostOps6_3 (F := Ideal)) W (Proc.devRef .tc main_v140) = sliceVec 4 slices_S5x384_S1x384_4_0 (W (Proc.devRef .tc main_v15)) := by
  after_results_simp
  rfl
theorem after6_3_v142 :
    StableHlo.after (hostOps6_3 (F := Ideal)) W (Proc.devRef .tc main_v142) = sliceMat 4 slices_S5x384x384_S1x384x384_4_0_0 (W (Proc.devRef .tc main_v17)) := by
  after_results_simp
  rfl
theorem after6_3_v144 :
    StableHlo.after (hostOps6_3 (F := Ideal)) W (Proc.devRef .tc main_v144) = sliceVec 4 slices_S5x384_S1x384_4_0 (W (Proc.devRef .tc main_v18)) := by
  after_results_simp
  rfl
theorem after6_3_v146 :
    StableHlo.after (hostOps6_3 (F := Ideal)) W (Proc.devRef .tc main_v146) = sliceVec 4 slices_S5x384_S1x384_4_0 (W (Proc.devRef .tc main_v19)) := by
  after_results_simp
  rfl
theorem after6_3_v148 :
    StableHlo.after (hostOps6_3 (F := Ideal)) W (Proc.devRef .tc main_v148) = sliceVec 4 slices_S5x384_S1x384_4_0 (W (Proc.devRef .tc main_v20)) := by
  after_results_simp
  rfl
theorem after6_3_v150 :
    StableHlo.after (hostOps6_3 (F := Ideal)) W (Proc.devRef .tc main_v150) = sliceVec 4 slices_S5x384_S1x384_4_0 (W (Proc.devRef .tc main_v21)) := by
  after_results_simp
  rfl
theorem after6_3_v152 :
    StableHlo.after (hostOps6_3 (F := Ideal)) W (Proc.devRef .tc main_v152) = sliceVec 4 slices_S5x384_S1x384_4_0 (W (Proc.devRef .tc main_v22)) := by
  after_results_simp
  rfl

theorem keep {r : Ref sig .tc} (hr : r ∉ written) : afterAll W (Proc.devRef .tc r) = W (Proc.devRef .tc r) :=
  (StableHlo.after_of_writes_sub _ _ subs.2.2.2 hr).trans (keep3 subs W hr)

theorem agg4_value
    (hs : ∀ e : Fin 125000, 0 ≤ (a1 (W (Proc.devRef .tc main_v36)) e).toInt ∧ (a1 (W (Proc.devRef .tc main_v36)) e).toInt < 50000) :
    a2 (afterAll W (Proc.devRef .tc main_v136))
      = segsum (a1 (W (Proc.devRef .tc main_v38)))
          (msgs (a2 (W (Proc.devRef .tc main_v130)))
            (fun e => rowOf 50000 (by norm_num) (wrapw 50000#32 (a1 (W (Proc.devRef .tc main_v36)) e)))
            (a2 (W (Proc.devRef .tc main_v34)))) := by
  show a2 (StableHlo.after (hostOps6_3 (F := Ideal)) _ (Proc.devRef .tc main_v136)) = _
  rw [after6_3_v136, after6_2_v133, after6_v131, keep3 subs W (r := main_v38) (by decide), keep1 subs W (r := main_v34) (by decide)]
  exact agg_value _ _ _ _ hs

theorem W1_value : a2 (afterAll W (Proc.devRef .tc main_v138)) = a3 (W (Proc.devRef .tc main_v14)) 4 :=
  mat_of 4 4 rfl (after6_3_v138 _) (keep3 subs W (by decide))
theorem b1_value : a1 (afterAll W (Proc.devRef .tc main_v140)) = a2 (W (Proc.devRef .tc main_v15)) 4 :=
  vec_of 4 4 rfl (after6_3_v140 _) (keep3 subs W (by decide))
theorem W2_value : a2 (afterAll W (Proc.devRef .tc main_v142)) = a3 (W (Proc.devRef .tc main_v17)) 4 :=
  mat_of 4 4 rfl (after6_3_v142 _) (keep3 subs W (by decide))
theorem b2_value : a1 (afterAll W (Proc.devRef .tc main_v144)) = a2 (W (Proc.devRef .tc main_v18)) 4 :=
  vec_of 4 4 rfl (after6_3_v144 _) (keep3 subs W (by decide))
theorem gamma_value : a1 (afterAll W (Proc.devRef .tc main_v146)) = a2 (W (Proc.devRef .tc main_v19)) 4 :=
  vec_of 4 4 rfl (after6_3_v146 _) (keep3 subs W (by decide))
theorem beta_value : a1 (afterAll W (Proc.devRef .tc main_v148)) = a2 (W (Proc.devRef .tc main_v20)) 4 :=
  vec_of 4 4 rfl (after6_3_v148 _) (keep3 subs W (by decide))
theorem mean_value : a1 (afterAll W (Proc.devRef .tc main_v150)) = a2 (W (Proc.devRef .tc main_v21)) 4 :=
  vec_of 4 4 rfl (after6_3_v150 _) (keep3 subs W (by decide))
theorem var_value : a1 (afterAll W (Proc.devRef .tc main_v152)) = a2 (W (Proc.devRef .tc main_v22)) 4 :=
  vec_of 4 4 rfl (after6_3_v152 _) (keep3 subs W (by decide))

theorem keep_v130 : afterAll W (Proc.devRef .tc main_v130) = W (Proc.devRef .tc main_v130) := keep W (by decide)

end Cert.KernelIdeal.Gen.L4
-- ==== Proof.KRegGin6.lean ====
import proofs.«422490_j54958401520128_2_alg».proof.Proof.Gen.KernelIdeal.Frame
import proofs.«422490_j54958401520128_2_alg».proof.Proof.KGinShared

set_option maxRecDepth 16384

noncomputable section

namespace Cert.KernelIdeal.RegGin6

open Idealize.ShloMosaic Idealize.ShloMosaic.TcCoe Idealize.SL.Sem
open Idealize.ShloMosaic.Pipeline (Dat)
open Cert.KernelIdeal Cert.KernelIdeal.Gen Cert.KernelIdeal.GinBlock

variable (V : (c : Dev nD) → (b : Ref sig .tc) → Buf (Elt Ideal) ((c : Thread nD τ).loc b))

theorem idx_facts : ∀ t : Fin cfg6.N,
    ((∀ a : Fin 2, win6_0.index t a = win6_10.index t a) ∧ (∀ a : Fin 2, win6_1.index t a = win6_10.index t a)
      ∧ win6_10.index t (1 : Fin 2) = 0
      ∧ (∀ a : Fin 2, win6_2.index t a = 0) ∧ (∀ a : Fin 1, win6_3.index t a = 0) ∧ (∀ a : Fin 2, win6_4.index t a = 0)
      ∧ (∀ a : Fin 1, win6_5.index t a = 0) ∧ (∀ a : Fin 1, win6_6.index t a = 0) ∧ (∀ a : Fin 1, win6_7.index t a = 0)
      ∧ (∀ a : Fin 1, win6_8.index t a = 0) ∧ (∀ a : Fin 1, win6_9.index t a = 0))
    ∧ win6_10.index t (0 : Fin 2) = t.val :=
  (by decide +kernel : ∀ t : Fin grid6.N, _)

set_option maxHeartbeats 1000000 in
theorem region6_value (c : Dev nD) :
    Arr.a2 ((dat6 V c).arrAt 10 cfg6.N : S50000x384.Idx → EReal)
      = Spec.gin (Arr.a2 (V c (Pipeline.arrRef spec6 0) : S50000x384.Idx → EReal))
          (Arr.a2 (V c (Pipeline.arrRef spec6 1) : S50000x384.Idx → EReal))
          (Arr.a2 (V c (Pipeline.arrRef spec6 2) : S384x384.Idx → EReal))
          (Arr.a1 (V c (Pipeline.arrRef spec6 3) : S384.Idx → EReal))
          (Arr.a2 (V c (Pipeline.arrRef spec6 4) : S384x384.Idx → EReal))
          (Arr.a1 (V c (Pipeline.arrRef spec6 5) : S384.Idx → EReal))
          (Arr.a1 (V c (Pipeline.arrRef spec6 6) : S384.Idx → EReal))
          (Arr.a1 (V c (Pipeline.arrRef spec6 7) : S384.Idx → EReal))
          (Arr.a1 (V c (Pipeline.arrRef spec6 8) : S384.Idx → EReal))
          (Arr.a1 (V c (Pipeline.arrRef spec6 9) : S384.Idx → EReal)) Cert.Net.eps := by
  refine a2_ginArr ((dat6 V c).arrAt_eq_of_cover 10 _ (fun t _ => ?_) fun i => ?_)
  · show (cfg6.win 10).cut (grid6.coords t) ((dat6 V c).after 10 t) = _
    rw [after6_10]
    funext y
    exact flushed_apply (win6_0.rect_emb_val t) (win6_1.rect_emb_val t) (win6_2.rect_emb_val t) (win6_3.rect_emb_val t)
      (win6_4.rect_emb_val t) (win6_5.rect_emb_val t) (win6_6.rect_emb_val t) (win6_7.rect_emb_val t)
      (win6_8.rect_emb_val t) (win6_9.rect_emb_val t) (win6_10.rect_emb_val t) (fun _ => by rfl) (fun _ => by rfl) (fun _ => by rfl)
      (fun _ => by rfl) (fun _ => by rfl) (fun _ => by rfl) (fun _ => by rfl) (fun _ => by rfl) (fun _ => by rfl) (fun _ => by rfl)
      (idx_facts t).1 y
  · obtain ⟨t, ht⟩ := cover_rows N_6 (I := fun t => win6_10.index t) (fun t => ⟨(idx_facts t).2, (idx_facts t).1.2.2.1⟩) i
    refine ⟨t, flush6_10 t, ?_⟩
    show i ∈ ((View.whole main_v153).slice (win6_10.rect t)).set
    rw [View.set_slice_whole, Rect.mem_set_unit]
    exact ht

end Cert.KernelIdeal.RegGin6

end
-- ==== Proof.KChainL4.lean ====
import proofs.«422490_j54958401520128_2_alg».proof.Proof.Gen.KernelIdeal.Frame
import proofs.«422490_j54958401520128_2_alg».proof.Proof.KState
import proofs.«422490_j54958401520128_2_alg».proof.Proof.KHostL4
import proofs.«422490_j54958401520128_2_alg».proof.Proof.KRegGin6

noncomputable section

namespace Cert.KChainL4

open Idealize.ShloMosaic Idealize.ShloMosaic.ValueIdx Idealize.ShloMosaic.TcCoe Idealize.SL.Sem
open Cert.KernelIdeal Cert.KernelIdeal.Gen
open Cert.Spec Cert.Arr Cert.Net

variable (m : (ℓ : Loc nD τ sig) → Buf (Elt Ideal) ℓ) (ρ : Dev nD → PrngReg) (c : Dev nD)

theorem unchanged (b : Ref sig .tc) (hb : ∀ w, Pipeline.arrRef spec6 w ≠ b) (hr : b ∉ L4.written) :
    W69 m ρ c (Proc.devRef .tc b) = W64 m ρ c (Proc.devRef .tc b) :=
  (W69_of_ne m ρ c b hb).trans (L4.keep (W64 m ρ c) hr)

/-- Layer 4: the update's output is the wide network's layer 4 of the incoming features H; the edge arrays and the parameters stay. -/
theorem at69 {a : Net.Args} (hs : KState.SrcOk a) (H : Fin 50000 → Fin 384 → EReal)
    (h64 : a2 (W64 m ρ c (Proc.devRef .tc main_v130)) = H) (e64 : KState.Edges a (W64 m ρ c))
    (p64 : KState.Params a (W64 m ρ c)) :
    a2 (W69 m ρ c (Proc.devRef .tc main_v153)) = KNet.step a 4 H
      ∧ KState.Edges a (W69 m ρ c) ∧ KState.Params a (W69 m ρ c) := by
  have hsrc : ∀ e : Fin 125000, 0 ≤ (a1 (W64 m ρ c (Proc.devRef .tc main_v36)) e).toInt
      ∧ (a1 (W64 m ρ c (Proc.devRef .tc main_v36)) e).toInt < 50000 := by
    rw [e64.src]; exact hs
  refine ⟨?_, ?_, ?_⟩
  · have hout : a2 (W69 m ρ c (Proc.devRef .tc main_v153))
        = a2 ((dat6 (V68 m ρ) c).arrAt 10 cfg6.N : S50000x384.Idx → EReal) := congrArg a2 (W69_arr m ρ c 10)
    rw [hout, RegGin6.region6_value (V68 m ρ) c]
    show gin (a2 (L4.afterAll (W64 m ρ c) (Proc.devRef .tc main_v130)))
        (a2 (L4.afterAll (W64 m ρ c) (Proc.devRef .tc main_v136)))
        (a2 (L4.afterAll (W64 m ρ c) (Proc.devRef .tc main_v138)))
        (a1 (L4.afterAll (W64 m ρ c) (Proc.devRef .tc main_v140)))
        (a2 (L4.afterAll (W64 m ρ c) (Proc.devRef .tc main_v142)))
        (a1 (L4.afterAll (W64 m ρ c) (Proc.devRef .tc main_v144)))
        (a1 (L4.afterAll (W64 m ρ c) (Proc.devRef .tc main_v146)))
        (a1 (L4.afterAll (W64 m ρ c) (Proc.devRef .tc main_v148)))
        (a1 (L4.afterAll (W64 m ρ c) (Proc.devRef .tc main_v150)))
        (a1 (L4.afterAll (W64 m ρ c) (Proc.devRef .tc main_v152))) eps = _
    rw [L4.keep_v130, L4.agg4_value _ hsrc, L4.W1_value, L4.b1_value, L4.W2_value, L4.b2_value, L4.gamma_value,
      L4.beta_value, L4.mean_value, L4.var_value, h64, e64.ee, e64.src, e64.dst, p64.gW1 4, p64.gb1, p64.gW2 4,
      p64.gb2, p64.gγ, p64.gβ, p64.gμ, p64.gv]
    rfl
  · exact e64.carry (unchanged m ρ c main_v34 (by decide) (by decide)) (unchanged m ρ c main_v36 (by decide) (by decide))
      (unchanged m ρ c main_v38 (by decide) (by decide))
  · exact p64.carry (unchanged m ρ c main_v14 (by decide) (by decide)) (unchanged m ρ c main_v15 (by decide) (by decide))
      (unchanged m ρ c main_v17 (by decide) (by decide)) (unchanged m ρ c main_v18 (by decide) (by decide))
      (unchanged m ρ c main_v19 (by decide) (by decide)) (unchanged m ρ c main_v20 (by decide) (by decide))
      (unchanged m ρ c main_v21 (by decide) (by decide)) (unchanged m ρ c main_v22 (by decide) (by decide))
      (unchanged m ρ c main_v26 (by decide) (by decide)) (unchanged m ρ c main_v27 (by decide) (by decide))

end Cert.KChainL4

end
-- ==== Proof.KRegHead.lean ====
import proofs.«422490_j54958401520128_2_alg».proof.Proof.Gen.KernelIdeal.Frame
import proofs.«422490_j54958401520128_2_alg».proof.Proof.DenseBlock

noncomputable section

open scoped BigOperators

namespace Cert.KernelIdeal.HeadValue

open Cert.KernelIdeal Cert.KernelIdeal.Gen Idealize.ShloMosaic Idealize.ShloMosaic.TcCoe Idealize.ShloMosaic.ValueIdx
open Idealize.ShloMosaic.Pipeline (Dat)
open Cert.DenseBlock

/-- The stored block is the dense layer of the blocks read. -/
theorem pay7 (x0 : Vec Ideal S2000x384 .f32) (x1 : Vec Ideal S384x128 .bf16) (x2 : Vec Ideal S128 .f32) (j : S2000x128.Idx) :
    k7_pay1 (F := Ideal) x0 x1 x2 j
      = Spec.dense (Arr.a2 (x0 : S2000x384.Idx → EReal)) (Arr.a2 (x1 : S384x128.Idx → EReal)) (Arr.a1 (x2 : S128.Idx → EReal)) (j 0) (j 1) := by
  unfold k7_pay1
  simp only [shapeCast_self]
  exact dense_apply rfl _ _ _ _ _ j

theorem idx7 : ∀ t : Fin cfg7.N,
    win7_0.index t (0 : Fin 2) = t.val ∧ win7_0.index t (1 : Fin 2) = 0
    ∧ (∀ a, win7_1.index t a = 0) ∧ (∀ a, win7_2.index t a = 0)
    ∧ win7_3.index t (0 : Fin 2) = t.val ∧ win7_3.index t (1 : Fin 2) = 0 :=
  (by decide +kernel : ∀ t : Fin grid7.N, _)

variable (V : (c : Dev nD) → (b : Ref sig .tc) → Buf (Elt Ideal) ((c : Thread nD τ).loc b))

/-- The dense layer of the whole input, laid out as the output array. -/
def G7 (c : Dev nD) : S50000x128.Idx → EReal := fun i =>
  Spec.dense (Arr.a2 (V c (Pipeline.arrRef spec7 0) : S50000x384.Idx → EReal)) (Arr.a2 (V c (Pipeline.arrRef spec7 1) : S384x128.Idx → EReal))
    (Arr.a1 (V c (Pipeline.arrRef spec7 2) : S128.Idx → EReal)) (i 0) (i 1)

/-- Point t's block is block t of it: the parameters' blocks are their whole arrays, and row p of the input block is row 2000 t + p. -/
theorem flushed7_eq (c : Dev nD) (t : Fin cfg7.N) :
    (dat7 V c).flushed 3 t = ((cfg7.win 3).blk t).view.read (Elt Ideal) (G7 V c) := by
  show (cfg7.win 3).cut (grid7.coords t) ((dat7 V c).after 3 t) = _
  rw [after7_3]
  unfold out7_3
  rw [View.canon_unit_zero hz2]
  simp only [View.ld_unit_zero (S := S2000x384) hz2, View.ld_unit_zero (S := S384x128) hz2, View.ld_unit_zero (S := S128) hz1]
  obtain ⟨e00, e01, h1, h2, e30, e31⟩ := idx7 t
  funext y
  show k7_pay1 (F := Ideal) _ _ _ _ = G7 V c (((cfg7.win 3).blk t).view.emb y)
  rw [pay7,
    show (iblk7 V c 1 t : S384x128.Idx → EReal) = V c (Pipeline.arrRef spec7 1) from funext fun z => read_of_index_zero win7_1 t h1 (V c (Pipeline.arrRef spec7 1)) z z fun _ => rfl,
    show (iblk7 V c 2 t : S128.Idx → EReal) = V c (Pipeline.arrRef spec7 2) from funext fun z => read_of_index_zero win7_2 t h2 (V c (Pipeline.arrRef spec7 2)) z z fun _ => rfl]
  refine dense_row (fun k => congrArg (V c (Pipeline.arrRef spec7 0) : S50000x384.Idx → EReal) (Shape.idx_ext₂ ?_ ?_)) _ _ (Fin.ext ?_)
  · show win7_0.index t 0 * 2000 + 1 * (y 0).val = win7_3.index t 0 * 2000 + 1 * (y 0).val
    rw [e00, e30]
  · show win7_0.index t 1 * 384 + 1 * k.val = k.val
    rw [e01]; omega
  · show (y 1).val = win7_3.index t 1 * 128 + 1 * (y 1).val
    rw [e31]; omega

/-- Row r of the output lies in the block of point r / 2000. -/
theorem cover7 (i : S50000x128.Idx) : ∃ t : Fin cfg7.N, (cfg7.win 3).flush t = true ∧ i ∈ ((cfg7.win 3).blk t).view.set := by
  have ht : (i 0).val / 2000 < cfg7.N := by
    have : (i 0).val < 50000 := (i 0).isLt
    rw [show cfg7.N = 25 from N_7]; omega
  obtain ⟨-, -, -, -, e0, e1⟩ := idx7 ⟨_, ht⟩
  refine ⟨⟨_, ht⟩, flush7_3 _, ?_⟩
  show i ∈ ((View.whole main_v154).slice (win7_3.rect ⟨(i 0).val / 2000, ht⟩)).set
  rw [View.set_slice_whole, Rect.mem_set_unit]
  exact row_mem (B := 2000) (C := 128) (by decide) (win7_3.index ⟨_, ht⟩) i e0 e1

theorem region7_value (c : Dev nD) :
    Arr.a2 ((dat7 V c).arrAt 3 cfg7.N : S50000x128.Idx → EReal)
      = Spec.dense (Arr.a2 (V c (Pipeline.arrRef spec7 0) : S50000x384.Idx → EReal))
          (Arr.a2 (V c (Pipeline.arrRef spec7 1) : S384x128.Idx → EReal))
          (Arr.a1 (V c (Pipeline.arrRef spec7 2) : S128.Idx → EReal)) :=
  congrArg Arr.a2 ((dat7 V c).arrAt_eq_of_cover 3 (G7 V c) (fun t _ => flushed7_eq V c t) cover7)

end Cert.KernelIdeal.HeadValue

end
-- ==== Proof.KHostOut.lean ====
import proofs.«422490_j54958401520128_2_alg».proof.Proof.Gen.KernelIdeal.Launch
import proofs.«422490_j54958401520128_2_alg».proof.Proof.Arr
import Idealize.ShloMosaic.Lib.ValueLayout

noncomputable section

namespace Cert.KernelIdeal.HostOut

open Cert.KernelIdeal Cert.KernelIdeal.Gen Idealize.ShloMosaic Idealize.ShloMosaic.ValueIdx

theorem logits_value (W : Valuation τ sig (Elt Ideal)) :
    Arr.a2 (StableHlo.after (hostOps8 (F := Ideal)) W (Proc.devRef .tc main_v155) : S50000x87.Idx → EReal)
      = fun i (j : Fin 87) => Arr.a2 (W (Proc.devRef .tc main_v154) : S50000x128.Idx → EReal) i ⟨j.val, by omega⟩ := by
  funext i j
  show (StableHlo.after (hostOps8 (F := Ideal)) W (Proc.devRef .tc main_v155) : S50000x87.Idx → EReal) (ix2 i j) = _
  after_results
  exact slice2_axis1_apply 0 _ slices_S50000x128_S50000x87_0_0 i j ⟨j.val, by omega⟩ (Nat.zero_add _).symm

theorem dists_value (W : Valuation τ sig (Elt Ideal)) :
    Arr.a2 (StableHlo.after (hostOps8 (F := Ideal)) W (Proc.devRef .tc main_v156) : S50000x6.Idx → EReal)
      = fun i (j : Fin 6) => Arr.a2 (W (Proc.devRef .tc main_v154) : S50000x128.Idx → EReal) i ⟨87 + j.val, by omega⟩ := by
  funext i j
  show (StableHlo.after (hostOps8 (F := Ideal)) W (Proc.devRef .tc main_v156) : S50000x6.Idx → EReal) (ix2 i j) = _
  after_results
  exact slice2_axis1_apply 87 _ slices_S50000x128_S50000x6_0_87 i j ⟨87 + j.val, by omega⟩ rfl

end Cert.KernelIdeal.HostOut

end
-- ==== Proof.KChainOut.lean ====
import proofs.«422490_j54958401520128_2_alg».proof.Proof.Gen.KernelIdeal.Frame
import proofs.«422490_j54958401520128_2_alg».proof.Proof.KState
import proofs.«422490_j54958401520128_2_alg».proof.Proof.KRegHead
import proofs.«422490_j54958401520128_2_alg».proof.Proof.KHostOut

set_option maxRecDepth 16384

noncomputable section

namespace Cert.KChainOut

open Cert.KernelIdeal Cert.KernelIdeal.Gen Idealize.ShloMosaic Idealize.ShloMosaic.TcCoe Idealize.ShloMosaic.ValueIdx
open Cert.Spec Cert.Arr

variable (m : (ℓ : Loc nD τ sig) → Buf (Elt Ideal) ℓ) (ρ : Dev nD → PrngReg) (c : Dev nD)

theorem out_value (H : a2 (Gen.W69 m ρ c (Proc.devRef .tc main_v153)) = KNet.h5 (KState.argsOf m c))
    (p : KState.Params (KState.argsOf m c) (Gen.W69 m ρ c)) :
    a2 (Gen.W70 m ρ c (Proc.devRef .tc main_v154)) = KNet.out (KState.argsOf m c) := by
  have e0 : a2 (Gen.V69 m ρ c (Pipeline.arrRef spec7 0) : S50000x384.Idx → EReal) = KNet.h5 (KState.argsOf m c) := H
  have e1 : a2 (Gen.V69 m ρ c (Pipeline.arrRef spec7 1) : S384x128.Idx → EReal)
      = headW (KState.argsOf m c).Wz (KState.argsOf m c).Wd := p.hW
  have e2 : a1 (Gen.V69 m ρ c (Pipeline.arrRef spec7 2) : S128.Idx → EReal)
      = headB (KState.argsOf m c).bz (KState.argsOf m c).bd := p.hb
  have e3 : (Gen.W70 m ρ c (Proc.devRef .tc main_v154) : S50000x128.Idx → EReal)
      = ((dat7 (Gen.V69 m ρ) c).arrAt 3 cfg7.N : S50000x128.Idx → EReal) := Gen.W70_arr m ρ c 3
  refine (congrArg (a2 (n := 50000) (c := 128)) e3).trans ?_
  refine (HeadValue.region7_value (Gen.V69 m ρ) c).trans ?_
  show dense (a2 (Gen.V69 m ρ c (Pipeline.arrRef spec7 0) : S50000x384.Idx → EReal))
      (a2 (Gen.V69 m ρ c (Pipeline.arrRef spec7 1) : S384x128.Idx → EReal))
      (a1 (Gen.V69 m ρ c (Pipeline.arrRef spec7 2) : S128.Idx → EReal))
    = dense (KNet.h5 (KState.argsOf m c)) (headW (KState.argsOf m c).Wz (KState.argsOf m c).Wd)
        (headB (KState.argsOf m c).bz (KState.argsOf m c).bd)
  rw [e0, e1, e2]

theorem results (H : a2 (Gen.W69 m ρ c (Proc.devRef .tc main_v153)) = KNet.h5 (KState.argsOf m c))
    (p : KState.Params (KState.argsOf m c) (Gen.W69 m ρ c)) :
    a2 (Gen.W71 m ρ c (Proc.devRef .tc main_v155)) = Net.logits (KState.argsOf m c)
      ∧ a2 (Gen.W71 m ρ c (Proc.devRef .tc main_v156)) = Net.dists (KState.argsOf m c) := by
  have ho := out_value m ρ c H p
  constructor
  · refine (HostOut.logits_value (Gen.W70 m ρ c)).trans ?_
    funext i j
    exact (congrFun (congrFun ho i) ⟨j.val, by omega⟩).trans (KNet.out_logits (KState.argsOf m c) i j)
  · refine (HostOut.dists_value (Gen.W70 m ρ c)).trans ?_
    funext i j
    exact (congrFun (congrFun ho i) ⟨87 + j.val, by omega⟩).trans (KNet.out_dists (KState.argsOf m c) i j)

end Cert.KChainOut

end
-- ==== Proof.KValue.lean ====
import proofs.«422490_j54958401520128_2_alg».proof.Proof.KChain0
import proofs.«422490_j54958401520128_2_alg».proof.Proof.KChainL0
import proofs.«422490_j54958401520128_2_alg».proof.Proof.KChainL1
import proofs.«422490_j54958401520128_2_alg».proof.Proof.KChainL2
import proofs.«422490_j54958401520128_2_alg».proof.Proof.KChainL3
import proofs.«422490_j54958401520128_2_alg».proof.Proof.KChainL4
import proofs.«422490_j54958401520128_2_alg».proof.Proof.KChainOut

noncomputable section

namespace Cert.KValue

open Cert.KernelIdeal Cert.KernelIdeal.Gen Idealize.ShloMosaic Cert.Arr

variable (m : (ℓ : Loc nD τ sig) → Buf (Elt Ideal) ℓ) (ρ : Dev nD → PrngReg) (c : Dev nD)

/-- With the index words in range, the two result arrays are the network's logits and distances at width 300: the seven steps composed. -/
theorem kernel_results (hz : KState.ZOk (KState.argsOf m c)) (hs : KState.SrcOk (KState.argsOf m c)) :
    a2 (Gen.W71 m ρ c (Proc.devRef .tc main_v155)) = Net.logits (KState.argsOf m c)
      ∧ a2 (Gen.W71 m ρ c (Proc.devRef .tc main_v156)) = Net.dists (KState.argsOf m c) := by
  obtain ⟨h43, e43, i43, p43⟩ := KChain0.at43 (m := m) (ρ := ρ) (c := c) hz
  obtain ⟨h49, e49, p49⟩ := KChainL0.at49 (m := m) (ρ := ρ) (c := c) hs h43 e43 i43 p43
  obtain ⟨h54, e54, p54⟩ := KChainL1.at54 (m := m) (ρ := ρ) (c := c) hs _ h49 e49 p49
  obtain ⟨h59, e59, p59⟩ := KChainL2.at59 (m := m) (ρ := ρ) (c := c) hs _ h54 e54 p54
  obtain ⟨h64, e64, p64⟩ := KChainL3.at64 (m := m) (ρ := ρ) (c := c) hs _ h59 e59 p59
  obtain ⟨h69, _, p69⟩ := KChainL4.at69 (m := m) (ρ := ρ) (c := c) hs _ h64 e64 p64
  exact KChainOut.results (m := m) (ρ := ρ) (c := c) h69 p69

end Cert.KValue

end
-- ==== Proof.RefEmbed.lean ====
import proofs.«422490_j54958401520128_2_alg».proof.Proof.RefRead
import proofs.«422490_j54958401520128_2_alg».proof.Proof.RefLayerFn

noncomputable section

namespace Cert.ReferenceIdeal.RefValue

open Cert.ReferenceIdeal Cert.ReferenceIdeal.Gen Cert.ReferenceIdeal.Read Idealize.ShloMosaic Idealize.ShloMosaic.ValueIdx
open Cert.Arr Cert.Spec

-- The edge features: dense, max (·, 0), dense of the edge attributes.
theorem ref_ee (x0 x1 x2 x3 x4 x5 x6 x7 x8 x9 x10 x11 x12 x13 x14 x15 x16 x17 x18 x19 x20 x21 x22 x23 x24 x25) :
    a2 (val_main_v28 (F := Ideal) x4 x10 x11 x12 x13) = Net.ee (Net.ofArrays x0 x1 x2 x3 x4 x5 x6 x7 x8 x9 x10 x11 x12 x13 x14 x15 x16 x17 x18 x19 x20 x21 x22 x23 x24 x25) :=
  Dense.mlp2_value (m := 125000) (k := 3) (h := 300) (n := 300) _ rfl _ rfl _ _ _ _ x4 x10 x11 x12 x13 _ fun _ => Ideal.ofBits_zero_f32

-- The two node attributes side by side: the joined axis picks the first or the second.
private theorem node_stack (x1 x2) : a2 (val_main_v2 (F := Ideal) x1 x2) = stack2 (a1 x1) (a1 x2) := by
  funext p c
  show val_main_v2 (F := Ideal) x1 x2 (ix2 p c) = if c.val = 0 then x1 (ix1 p) else x2 (ix1 p)
  unfold val_main_v2
  by_cases hc : c.val = 0
  · rw [if_pos hc, concatenate_pair_apply_left (s₁ := S50000x1) (s₂ := S50000x1) (1 : Fin S50000x2.rank) _ _ _ (ix2 p c) rfl (ix2 p (0 : Fin 1))
      (fun b => by match b with | ⟨0, _⟩ => rfl | ⟨1, _⟩ => exact hc.symm), val_main_v0_apply]
    exact congrArg x1 (eq_ix1 _)
  · rw [if_neg hc, concatenate_pair_apply_right (s₁ := S50000x1) (s₂ := S50000x1) (1 : Fin S50000x2.rank) _ _ _ (ix2 p c) rfl rfl (ix2 p (0 : Fin 1))
      (fun b hb => by match b, hb with | ⟨0, _⟩, _ => rfl | ⟨1, _⟩, hb => exact absurd rfl hb)
      (by show 0 + 1 = c.val; have := c.isLt; omega), val_main_v1_apply]
    exact congrArg x2 (eq_ix1 _)

private theorem node_mlp (x1 x2 x6 x7 x8 x9) :
    a2 (val_main_v18 (F := Ideal) x1 x2 x6 x7 x8 x9) = mlp2 (stack2 (a1 x1) (a1 x2)) (a2 x6) (a1 x7) (a2 x8) (a1 x9) :=
  (Dense.mlp2_value (m := 50000) (k := 2) (h := 300) (n := 300) _ rfl _ rfl _ _ _ _ (val_main_v2 (F := Ideal) x1 x2) x6 x7 x8 x9 _
    fun _ => Ideal.ofBits_zero_f32).trans (by rw [node_stack])

-- The table row a node's index word names: the word wrapped when negative, then read signed and clamped.
private theorem node_row (x0 x5) (p : Fin 50000) (q : Fin 300) :
    val_main_v9 (F := Ideal) x0 x5 (ix2 p q) = a2 x5 (rowOf 87 (by norm_num) (Net.wrapw 87#32 (x0 (ix1 p)))) q := by
  have hw : val_main_v8 (F := Ideal) x0 (ix2 p (0 : Fin 1)) = Net.wrapw 87#32 (x0 (ix1 p)) := by
    rw [val_main_v8_apply, show idx_main_v8 (ix2 p (0 : Fin 1)) = ix1 p from eq_ix1 _]
    exact wrap_word 87#32 (x0 (ix1 p))
  exact (LibRows.rowGather_apply (n := 87) (e := 50000) (c := 300) (by norm_num) gather_S87x300_S50000x1_S50000x300_1_0_n_n_0_1_1300_wf x5 _ p q).trans
    (congrArg (fun w : BitVec 32 => a2 x5 (rowOf 87 (by norm_num) w) q) hw)

-- The node features entering the first layer: the table row plus dense, max (·, 0), dense of the two attributes.
theorem ref_h0 (x0 x1 x2 x3 x4 x5 x6 x7 x8 x9 x10 x11 x12 x13 x14 x15 x16 x17 x18 x19 x20 x21 x22 x23 x24 x25) :
    a2 (val_main_v19 (F := Ideal) x0 x1 x2 x5 x6 x7 x8 x9) = Net.h0 (Net.ofArrays x0 x1 x2 x3 x4 x5 x6 x7 x8 x9 x10 x11 x12 x13 x14 x15 x16 x17 x18 x19 x20 x21 x22 x23 x24 x25) := by
  funext p q
  show val_main_v19 (F := Ideal) x0 x1 x2 x5 x6 x7 x8 x9 (ix2 p q)
      = a2 x5 (rowOf 87 (by norm_num) (Net.wrapw 87#32 (x0 (ix1 p)))) q
        + mlp2 (stack2 (a1 x1) (a1 x2)) (a2 x6) (a1 x7) (a2 x8) (a1 x9) p q
  rw [val_main_v19_apply, node_row, ← node_mlp]
  rfl

end Cert.ReferenceIdeal.RefValue

end
-- ==== Proof.RefNet.lean ====
import proofs.«422490_j54958401520128_2_alg».proof.Proof.RefEmbed
import proofs.«422490_j54958401520128_2_alg».proof.Proof.RefLayer0
import proofs.«422490_j54958401520128_2_alg».proof.Proof.RefLayer1
import proofs.«422490_j54958401520128_2_alg».proof.Proof.RefLayer2
import proofs.«422490_j54958401520128_2_alg».proof.Proof.RefLayer3
import proofs.«422490_j54958401520128_2_alg».proof.Proof.RefLayer4

noncomputable section

namespace Cert.ReferenceIdeal.RefValue

open Cert.ReferenceIdeal Cert.ReferenceIdeal.Gen Cert.ReferenceIdeal.Read Idealize.ShloMosaic Idealize.ShloMosaic.ValueIdx
open Cert.Arr Cert.Spec

variable
    (x0 : (⟨1, ![50000]⟩ : Shape).Idx → BitVec 32) (x1 x2 : (⟨1, ![50000]⟩ : Shape).Idx → EReal)
    (x3 : (⟨2, ![2, 125000]⟩ : Shape).Idx → BitVec 32) (x4 : (⟨2, ![125000, 3]⟩ : Shape).Idx → EReal)
    (x5 : (⟨2, ![87, 300]⟩ : Shape).Idx → EReal) (x6 : (⟨2, ![2, 300]⟩ : Shape).Idx → EReal)
    (x7 : (⟨1, ![300]⟩ : Shape).Idx → EReal) (x8 : (⟨2, ![300, 300]⟩ : Shape).Idx → EReal)
    (x9 : (⟨1, ![300]⟩ : Shape).Idx → EReal) (x10 : (⟨2, ![3, 300]⟩ : Shape).Idx → EReal)
    (x11 : (⟨1, ![300]⟩ : Shape).Idx → EReal) (x12 : (⟨2, ![300, 300]⟩ : Shape).Idx → EReal)
    (x13 : (⟨1, ![300]⟩ : Shape).Idx → EReal) (x14 : (⟨3, ![5, 300, 300]⟩ : Shape).Idx → EReal)
    (x15 : (⟨2, ![5, 300]⟩ : Shape).Idx → EReal) (x16 : (⟨3, ![5, 300, 300]⟩ : Shape).Idx → EReal)
    (x17 x18 x19 x20 x21 : (⟨2, ![5, 300]⟩ : Shape).Idx → EReal)
    (x22 : (⟨2, ![300, 87]⟩ : Shape).Idx → EReal) (x23 : (⟨1, ![87]⟩ : Shape).Idx → EReal)
    (x24 : (⟨2, ![300, 6]⟩ : Shape).Idx → EReal) (x25 : (⟨1, ![6]⟩ : Shape).Idx → EReal)

-- Five layers, each the network's step over the embedded edges, from the embedded nodes.
theorem ref_h5 :
    a2 (val_main_v302 (F := Ideal) x0 x1 x2 x3 x4 x5 x6 x7 x8 x9 x10 x11 x12 x13 x14 x15 x16 x17 x18 x19 x20 x21) = Net.h5 (Net.ofArrays x0 x1 x2 x3 x4 x5 x6 x7 x8 x9 x10 x11 x12 x13 x14 x15 x16 x17 x18 x19 x20 x21 x22 x23 x24 x25) := by
  have L := layerFn_step (ref_ee x0 x1 x2 x3 x4 x5 x6 x7 x8 x9 x10 x11 x12 x13 x14 x15 x16 x17 x18 x19 x20 x21 x22 x23 x24 x25)
  rw [layer4_text, L 4 (by decide), layer3_text, L 3 (by decide), layer2_text, L 2 (by decide), layer1_text, L 1 (by decide),
    layer0_text, L 0 (by decide), ref_h0 x0 x1 x2 x3 x4 x5 x6 x7 x8 x9 x10 x11 x12 x13 x14 x15 x16 x17 x18 x19 x20 x21 x22 x23 x24 x25]
  rfl

-- The atom-type logits: a dense layer of the node features after the five layers.
theorem ref_logits :
    a2 (val_main_v306 (F := Ideal) x0 x1 x2 x3 x4 x5 x6 x7 x8 x9 x10 x11 x12 x13 x14 x15 x16 x17 x18 x19 x20 x21 x22 x23) = Net.logits (Net.ofArrays x0 x1 x2 x3 x4 x5 x6 x7 x8 x9 x10 x11 x12 x13 x14 x15 x16 x17 x18 x19 x20 x21 x22 x23 x24 x25) :=
  (Dense.dense_value (m := 50000) (k := 300) (n := 87) _ rfl _ _ _ x22 x23).trans (by rw [ref_h5 x0 x1 x2 x3 x4 x5 x6 x7 x8 x9 x10 x11 x12 x13 x14 x15 x16 x17 x18 x19 x20 x21 x22 x23 x24 x25]; rfl)

-- The predicted distances: another dense layer of the same features.
theorem ref_dists :
    a2 (val_main_v310 (F := Ideal) x0 x1 x2 x3 x4 x5 x6 x7 x8 x9 x10 x11 x12 x13 x14 x15 x16 x17 x18 x19 x20 x21 x24 x25) = Net.dists (Net.ofArrays x0 x1 x2 x3 x4 x5 x6 x7 x8 x9 x10 x11 x12 x13 x14 x15 x16 x17 x18 x19 x20 x21 x22 x23 x24 x25) :=
  (Dense.dense_value (m := 50000) (k := 300) (n := 6) _ rfl _ _ _ x24 x25).trans (by rw [ref_h5 x0 x1 x2 x3 x4 x5 x6 x7 x8 x9 x10 x11 x12 x13 x14 x15 x16 x17 x18 x19 x20 x21 x22 x23 x24 x25]; rfl)

end Cert.ReferenceIdeal.RefValue

end
-- ==== Proof.PreFacts.lean ====
import proofs.«422490_j54958401520128_2_alg».proof.Pre_finite_inputs
import proofs.«422490_j54958401520128_2_alg».proof.Proof.Arr
import Idealize.ShloMosaic.Lib.ReduceAll
import Idealize.ShloMosaic.Lib.ValueLayout
import Idealize.ShloMosaic.Lib.StableHlo.Predicate

namespace Cert.PreFacts

open Idealize.ShloMosaic Idealize.ShloMosaic.ValueIdx Cert.Pre_finite_inputs

instance : Subsingleton S_.Idx := ⟨fun a b => funext fun d => d.elim0⟩

theorem range_of_all {n : Nat} (x : IVec ⟨1, ![n]⟩ 32) (lo hi : BitVec 32)
    (hb : S_.BroadcastsInDim ⟨1, ![n]⟩ (![] : Fin 0 → Fin 1)) (hr : (⟨1, ![n]⟩ : Shape).ReducesTo [0] S_)
    (h0 : 0 < S_.numel) (init : IVec S_ 1)
    (h : Host.reduce IntOp.andi
          (andi (cmpi .sge x (broadcastInDim ⟨1, ![n]⟩ ![] hb (constantI S_ 32 lo)))
                (cmpi .slt x (broadcastInDim ⟨1, ![n]⟩ ![] hb (constantI S_ 32 hi)))) init hr h0 ix0 = 1#1)
    (i : Fin n) : lo.toInt ≤ (x (ix1 i)).toInt ∧ (x (ix1 i)).toInt < hi.toInt := by
  have e := Host.reduce_andi_all _ _ hr h0 ix0 h (ix1 i)
  simp only [andi, cmpi, StableHlo.Predicate.bcast_scalar _ h0, constantI_apply] at e
  exact ⟨IntOp.cmpi_sge.1 (IntOp.andi_eq_one.1 e).1, IntOp.cmpi_slt.1 (IntOp.andi_eq_one.1 e).2⟩

theorem toInt_0 : (0#32 : BitVec 32).toInt = 0 := by decide
theorem toInt_87 : (87#32 : BitVec 32).toInt = 87 := by decide
theorem toInt_50000 : (50000#32 : BitVec 32).toInt = 50000 := by decide

theorem row0_apply {α : Type} {m : Nat} (x : (⟨2, ![2, m]⟩ : Shape).Idx → α)
    (hs : (⟨2, ![2, m]⟩ : Shape).Slices ![0, 0] ⟨2, ![1, m]⟩) (hc : (⟨2, ![1, m]⟩ : Shape).ShapeCasts ⟨1, ![m]⟩) (e : Fin m) :
    shapeCast ⟨1, ![m]⟩ (extractStridedSlice ⟨2, ![1, m]⟩ ![0, 0] x hs) hc (ix1 e) = x (ix2 0 e) := by
  rw [shapeCast_1a_a_apply, slice2_axis0_apply 0 x hs (0 : Fin 1) e (0 : Fin 2) rfl]

variable [Cert.Pre_finite_inputs.Facts]
open Cert.Pre_finite_inputs.Facts

theorem part7_ranges {F : FTy → Type} [FloatOps F] (x0 : IVec S50000 32) (x3 : IVec S2x125000 32) (v : IVec S_ 1)
    (h : fn_part7 (F := F) x0 x3 v (constantI S_ 32 0#32) ix0 = 1#1) :
    (∀ i : Fin 50000, 0 ≤ (x0 (ix1 i)).toInt ∧ (x0 (ix1 i)).toInt < 87) ∧
    (∀ e : Fin 125000, 0 ≤ (x3 (ix2 0 e)).toInt ∧ (x3 (ix2 0 e)).toInt < 50000) := by
  obtain ⟨h125, h135⟩ := IntOp.andi_eq_one.1 (show IntOp.andi _ _ = 1#1 from h)
  obtain ⟨-, h124⟩ := IntOp.andi_eq_one.1 (show IntOp.andi _ _ = 1#1 from h125)
  constructor
  · intro i
    have r := range_of_all x0 0#32 87#32 bcast_S_S50000 reducesTo_S50000_S_d0 h_S_ _ h124 i
    rwa [toInt_0, toInt_87] at r
  · intro e
    have r := range_of_all _ 0#32 50000#32 bcast_S_S125000 reducesTo_S125000_S_d0 h_S_ _ h135 e
    rwa [toInt_0, toInt_50000, row0_apply] at r

variable {F : FTy → Type} [FloatOps F]
  {x0 : IVec S50000 32} {x1 : FVec F S50000 .f32} {x2 : FVec F S50000 .f32} {x3 : IVec S2x125000 32} {x4 : FVec F S125000x3 .f32}
  {x5 : FVec F S87x300 .f32} {x6 : FVec F S2x300 .f32} {x7 : FVec F S300 .f32} {x8 : FVec F S300x300 .f32}
  {x9 : FVec F S300 .f32} {x10 : FVec F S3x300 .f32} {x11 : FVec F S300 .f32} {x12 : FVec F S300x300 .f32}
  {x13 : FVec F S300 .f32} {x14 : FVec F S5x300x300 .f32} {x15 : FVec F S5x300 .f32} {x16 : FVec F S5x300x300 .f32}
  {x17 : FVec F S5x300 .f32} {x18 : FVec F S5x300 .f32} {x19 : FVec F S5x300 .f32} {x20 : FVec F S5x300 .f32}
  {x21 : FVec F S5x300 .f32} {x22 : FVec F S300x87 .f32} {x23 : FVec F S87 .f32} {x24 : FVec F S300x6 .f32}
  {x25 : FVec F S6 .f32}

theorem ranges (h : fn (F := F) x0 x1 x2 x3 x4 x5 x6 x7 x8 x9 x10 x11 x12 x13 x14 x15 x16 x17 x18 x19 x20 x21 x22 x23 x24 x25 = fun _ => 1#1) :
    (∀ i : Fin 50000, 0 ≤ (x0 (ix1 i)).toInt ∧ (x0 (ix1 i)).toInt < 87) ∧
    (∀ e : Fin 125000, 0 ≤ (x3 (ix2 0 e)).toInt ∧ (x3 (ix2 0 e)).toInt < 50000) :=
  part7_ranges (F := F) x0 x3 _ (congrFun h ix0)

theorem z_range (h : fn (F := F) x0 x1 x2 x3 x4 x5 x6 x7 x8 x9 x10 x11 x12 x13 x14 x15 x16 x17 x18 x19 x20 x21 x22 x23 x24 x25 = fun _ => 1#1) :
    ∀ i : Fin 50000, 0 ≤ (Arr.a1 x0 i).toInt ∧ (Arr.a1 x0 i).toInt < 87 :=
  (ranges h).1

theorem src_range (h : fn (F := F) x0 x1 x2 x3 x4 x5 x6 x7 x8 x9 x10 x11 x12 x13 x14 x15 x16 x17 x18 x19 x20 x21 x22 x23 x24 x25 = fun _ => 1#1) :
    ∀ e : Fin 125000, 0 ≤ (Arr.a2 x3 0 e).toInt ∧ (Arr.a2 x3 0 e).toInt < 50000 :=
  (ranges h).2

end Cert.PreFacts
-- ==== Proof.ArrExt.lean ====
import proofs.«422490_j54958401520128_2_alg».proof.Proof.Arr

namespace Cert.Arr

open Idealize.ShloMosaic Idealize.ShloMosaic.ValueIdx

variable {α : Type}

theorem a2_inj {n c : Nat} {x y : (⟨2, ![n, c]⟩ : Shape).Idx → α} (h : a2 x = a2 y) : x = y := by
  funext i
  have e : i = ix2 (i 0) (i 1) := eq_ix2 i
  rw [e]
  exact congrFun (congrFun h (i 0)) (i 1)

end Cert.Arr
-- ==== Proof.lean ====
import proofs.«422490_j54958401520128_2_alg».proof.Defs
import proofs.«422490_j54958401520128_2_alg».proof.Proof.Gen.Kernel
import proofs.«422490_j54958401520128_2_alg».proof.Proof.Gen.Kernel.Skeleton
import proofs.«422490_j54958401520128_2_alg».proof.Proof.Gen.Kernel.Launch
import proofs.«422490_j54958401520128_2_alg».proof.Proof.Gen.Kernel.Points
import proofs.«422490_j54958401520128_2_alg».proof.Proof.Gen.Kernel.Frame
import proofs.«422490_j54958401520128_2_alg».proof.Proof.Gen.KernelIdeal
import proofs.«422490_j54958401520128_2_alg».proof.Proof.Gen.KernelIdeal.Skeleton
import proofs.«422490_j54958401520128_2_alg».proof.Proof.Gen.KernelIdeal.Launch
import proofs.«422490_j54958401520128_2_alg».proof.Proof.Gen.KernelIdeal.Points
import proofs.«422490_j54958401520128_2_alg».proof.Proof.Gen.KernelIdeal.Frame
import proofs.«422490_j54958401520128_2_alg».proof.Proof.Gen.ReferenceIdeal
import proofs.«422490_j54958401520128_2_alg».proof.Proof.Gen.Pre_finite_inputs
import proofs.«422490_j54958401520128_2_alg».proof.Proof.RefRun
import proofs.«422490_j54958401520128_2_alg».proof.Proof.KRun
import proofs.«422490_j54958401520128_2_alg».proof.Proof.KValue
import proofs.«422490_j54958401520128_2_alg».proof.Proof.RefNet
import proofs.«422490_j54958401520128_2_alg».proof.Proof.PreFacts
import proofs.«422490_j54958401520128_2_alg».proof.Proof.ArrExt
import Idealize.ShloMosaic.Adequacy
import Idealize.ShloMosaic.Init

set_option maxRecDepth 16384

noncomputable section

namespace Cert.Proof

open Idealize.ShloMosaic Idealize.ShloMosaic.TcCoe Idealize.SL.Sem Cert.Arr

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.RefRun.run m ρ)

/-- Both programs end with the network's logits and distances of the same twenty-six arrays. -/
theorem algebraic : Cert.algebraic_KernelIdeal_ReferenceIdeal := by
  intro m ρ m' ρ' hpre hagree
  refine ⟨fun c => Cert.KernelIdeal.Gen.W71 m ρ c (Proc.devRef .tc Cert.KernelIdeal.main_v155),
    fun c => Cert.KernelIdeal.Gen.W71 m ρ c (Proc.devRef .tc Cert.KernelIdeal.main_v156),
    Cert.KernelIdeal.KRun.run m ρ, ?_⟩
  refine (θ_run Cert.ReferenceIdeal.defs _ _).mono (fun r h c => ?_) (Cert.ReferenceIdeal.RefRun.run m' ρ')
  obtain ⟨h1, h2, hrest⟩ := h c
  obtain ⟨e0, e1, e2, e3, e4, e5, e6, e7, e8, e9, e10, e11, e12, e13, e14, e15, e16, e17, e18, e19, e20, e21, e22, e23, e24, e25⟩ := hagree c
  have hk := Cert.KValue.kernel_results m ρ c (Cert.PreFacts.z_range (hpre c)) (Cert.PreFacts.src_range (hpre c))
  unfold Cert.KState.argsOf at hk
  rw [← e0, ← e1, ← e2, ← e3, ← e4, ← e5, ← e6, ← e7, ← e8, ← e9, ← e10, ← e11, ← e12, ← e13, ← e14, ← e15, ← e16, ← e17, ← e18, ← e19, ← e20, ← e21, ← e22, ← e23, ← e24, ← e25] at hk
  exact ⟨h1.trans (a2_inj (n := 50000) (c := 87) ((Cert.ReferenceIdeal.RefValue.ref_logits ..).trans hk.1.symm)),
    h2.trans (a2_inj (n := 50000) (c := 6) ((Cert.ReferenceIdeal.RefValue.ref_dists ..).trans hk.2.symm)), hrest⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
